-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg1 : IVec S800000 32) (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S800000 32 := broadcastInDim S800000 ![] bcast_S_S800000 main_c_14
  let main_v40 : IVec S800000 1 := cmpi .sge main_arg1 main_v39
  let main_c_15 : IVec S_ 32 := constantI S_ 32 50000#32
  let main_v41 : IVec S800000 32 := broadcastInDim S800000 ![] bcast_S_S800000 main_c_15
  let main_v42 : IVec S800000 1 := cmpi .slt main_arg1 main_v41
  let main_v43 : IVec S800000 1 := andi main_v40 main_v42
  let main_c_16 : IVec S_ 1 := constantI S_ 1 1#1
  let main_v44 : IVec S_ 1 := (fun x v => Host.reduce IntOp.andi x v reducesTo_S800000_S_d0 h_S_) main_v43 main_c_16
  let main_v45 : IVec S_ 1 := andi main_v38 main_v44
  main_v45

def fn_part1 {F : FTy → Type} [FloatOps F] (main_arg1 : IVec S800000 32) (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg9 main_v33

def fn {F : FTy → Type} [FloatOps F] (main_arg0 : FVec F S50000x256 .f32) (main_arg1 : IVec S800000 32) (main_arg2 : IVec S800000 32) (main_arg3 : FVec F S800000 .f32) (main_arg4 : FVec F S256x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_v13 main_v16
-- ==== Kernel.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S50176x256 : Shape := ⟨2, ![50176, 256]⟩
abbrev S800768 : Shape := ⟨1, ![800768]⟩
abbrev S800768x1 : Shape := ⟨2, ![800768, 1]⟩
abbrev S391x2048 : Shape := ⟨2, ![391, 2048]⟩
abbrev S391x1 : Shape := ⟨2, ![391, 1]⟩
abbrev S391 : Shape := ⟨1, ![391]⟩
abbrev S1x800768 : Shape := ⟨2, ![1, 800768]⟩
abbrev S1x128 : Shape := ⟨2, ![1, 128]⟩
abbrev S50176x128 : Shape := ⟨2, ![50176, 128]⟩
abbrev S1024x256 : Shape := ⟨2, ![1024, 256]⟩
abbrev S1024x128 : Shape := ⟨2, ![1024, 128]⟩
abbrev S800768x128 : Shape := ⟨2, ![800768, 128]⟩
abbrev S1x2048 : Shape := ⟨2, ![1, 2048]⟩
abbrev S2048x128 : Shape := ⟨2, ![2048, 128]⟩
abbrev S1 : Shape := ⟨1, ![1]⟩
abbrev S1024x1 : Shape := ⟨2, ![1024, 1]⟩
abbrev S1024x2048 : Shape := ⟨2, ![1024, 2048]⟩
abbrev S50000x64 : Shape := ⟨2, ![50000, 64]⟩

abbrev nBuf : Space → Nat
  | .hbm => 191
  | .vmem => 66
  | .smem => 4
  | _ => 0

abbrev hbmTy0_0 (i : Nat) : BufTy := match i % 128 with
  | 0 => ⟨S50000x256, .f32⟩
  | 1 => ⟨S800000, .i32⟩
  | 2 => ⟨S800000, .i32⟩
  | 3 => ⟨S800000, .f32⟩
  | 4 => ⟨S256x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S_, .i32⟩
  | 11 => ⟨S_, .f32⟩
  | 12 => ⟨S50176x256, .f32⟩
  | 13 => ⟨S_, .i32⟩
  | 14 => ⟨S_, .i32⟩
  | 15 => ⟨S800768, .i32⟩
  | 16 => ⟨S_, .i32⟩
  | 17 => ⟨S_, .i32⟩
  | 18 => ⟨S800768, .i32⟩
  | 19 => ⟨S_, .f32⟩
  | 20 => ⟨S_, .f32⟩
  | 21 => ⟨S800768, .f32⟩
  | 22 => ⟨S800768, .i32⟩
  | 23 => ⟨S800768, .i32⟩
  | 24 => ⟨S800768, .i32⟩
  | 25 => ⟨S_, .i32⟩
  | 26 => ⟨S800768, .i32⟩
  | 27 => ⟨S800768, .i1⟩
  | 28 => ⟨S_, .i32⟩
  | 29 => ⟨S800768, .i32⟩
  | 30 => ⟨S800768, .i32⟩
  | 31 => ⟨S800768, .i32⟩
  | 32 => ⟨S800768x1, .i32⟩
  | 33 => ⟨S800768, .i32⟩
  | 34 => ⟨S_, .i32⟩
  | 35 => ⟨S800768, .i32⟩
  | 36 => ⟨S800768, .i1⟩
  | 37 => ⟨S_, .i32⟩
  | 38 => ⟨S800768, .i32⟩
  | 39 => ⟨S800768, .i32⟩
  | 40 => ⟨S800768, .i32⟩
  | 41 => ⟨S800768x1, .i32⟩
  | 42 => ⟨S800768, .i32⟩
  | 43 => ⟨S_, .i32⟩
  | 44 => ⟨S800768, .i32⟩
  | 45 => ⟨S800768, .i1⟩
  | 46 => ⟨S_, .i32⟩
  | 47 => ⟨S800768, .i32⟩
  | 48 => ⟨S800768, .i32⟩
  | 49 => ⟨S800768, .i32⟩
  | 50 => ⟨S800768x1, .i32⟩
  | 51 => ⟨S800768, .f32⟩
  | 52 => ⟨S800768, .i32⟩
  | 53 => ⟨S800768, .i32⟩
  | 54 => ⟨S800768, .i32⟩
  | 55 => ⟨S_, .i32⟩
  | 56 => ⟨S800768, .i32⟩
  | 57 => ⟨S800768, .i1⟩
  | 58 => ⟨S_, .i32⟩
  | 59 => ⟨S800768, .i32⟩
  | 60 => ⟨S800768, .i32⟩
  | 61 => ⟨S800768, .i32⟩
  | 62 => ⟨S800768x1, .i32⟩
  | 63 => ⟨S800768, .i32⟩
  | 64 => ⟨S391x2048, .i32⟩
  | 65 => ⟨S391x1, .i32⟩
  | 66 => ⟨S391, .i32⟩
  | 67 => ⟨S_, .i32⟩
  | 68 => ⟨S_, .i32⟩
  | 69 => ⟨S391, .i32⟩
  | 70 => ⟨S391, .i32⟩
  | 71 => ⟨S391, .i32⟩
  | 72 => ⟨S_, .i32⟩
  | 73 => ⟨S391, .i32⟩
  | 74 => ⟨S391, .i1⟩
  | 75 => ⟨S391, .i32⟩
  | 76 => ⟨S391, .i32⟩
  | 77 => ⟨S_, .i32⟩
  | 78 => ⟨S391, .i32⟩
  | 79 => ⟨S391, .i1⟩
  | 80 => ⟨S391, .i1⟩
  | 81 => ⟨S_, .i32⟩
  | 82 => ⟨S391, .i32⟩
  | 83 => ⟨S391, .i32⟩
  | 84 => ⟨S391x1, .i32⟩
  | 85 => ⟨S391, .i32⟩
  | 86 => ⟨S_, .i32⟩
  | 87 => ⟨S_, .i32⟩
  | 88 => ⟨S391, .i32⟩
  | 89 => ⟨S391, .i32⟩
  | 90 => ⟨S391, .i32⟩
  | 91 => ⟨S_, .i32⟩
  | 92 => ⟨S391, .i32⟩
  | 93 => ⟨S391, .i1⟩
  | 94 => ⟨S391, .i32⟩
  | 95 => ⟨S391, .i32⟩
  | 96 => ⟨S_, .i32⟩
  | 97 => ⟨S391, .i32⟩
  | 98 => ⟨S391, .i1⟩
  | 99 => ⟨S391, .i1⟩
  | 100 => ⟨S_, .i32⟩
  | 101 => ⟨S391, .i32⟩
  | 102 => ⟨S391, .i32⟩
  | 103 => ⟨S391x2048, .i32⟩
  | 104 => ⟨S391x1, .i32⟩
  | 105 => ⟨S391, .i32⟩
  | 106 => ⟨S_, .i32⟩
  | 107 => ⟨S_, .i32⟩
  | 108 => ⟨S391, .i32⟩
  | 109 => ⟨S391, .i32⟩
  | 110 => ⟨S391, .i32⟩
  | 111 => ⟨S_, .i32⟩
  | 112 => ⟨S391, .i32⟩
  | 113 => ⟨S391, .i1⟩
  | 114 => ⟨S391, .i32⟩
  | 115 => ⟨S391, .i32⟩
  | 116 => ⟨S_, .i32⟩
  | 117 => ⟨S391, .i32⟩
  | 118 => ⟨S391, .i1⟩
  | 119 => ⟨S391, .i1⟩
  | 120 => ⟨S_, .i32⟩
  | 121 => ⟨S391, .i32⟩
  | 122 => ⟨S391, .i32⟩
  | 123 => ⟨S391x1, .i32⟩
  | 124 => ⟨S391, .i32⟩
  | 125 => ⟨S_, .i32⟩
  | 126 => ⟨S_, .i32⟩
  | 127 => ⟨S391, .i32⟩
  | _ => ⟨S50000x256, .f32⟩

abbrev hbmTy0_1 (i : Nat) : BufTy := match i % 128 with
  | 0 => ⟨S391, .i32⟩
  | 1 => ⟨S391, .i32⟩
  | 2 => ⟨S_, .i32⟩
  | 3 => ⟨S391, .i32⟩
  | 4 => ⟨S391, .i1⟩
  | 5 => ⟨S391, .i32⟩
  | 6 => ⟨S391, .i32⟩
  | 7 => ⟨S_, .i32⟩
  | 8 => ⟨S391, .i32⟩
  | 9 => ⟨S391, .i1⟩
  | 10 => ⟨S391, .i1⟩
  | 11 => ⟨S_, .i32⟩
  | 12 => ⟨S391, .i32⟩
  | 13 => ⟨S391, .i32⟩
  | 14 => ⟨S1x800768, .i32⟩
  | 15 => ⟨S1x800768, .f32⟩
  | 16 => ⟨S1x800768, .i32⟩
  | 17 => ⟨S1x128, .f32⟩
  | 18 => ⟨S50176x128, .f32⟩
  | 19 => ⟨S800768x128, .bf16⟩
  | 20 => ⟨S_, .i32⟩
  | 21 => ⟨S800768, .i32⟩
  | 22 => ⟨S800768, .i1⟩
  | 23 => ⟨S_, .i32⟩
  | 24 => ⟨S800768, .i32⟩
  | 25 => ⟨S800768, .i32⟩
  | 26 => ⟨S800768, .i32⟩
  | 27 => ⟨S800768x1, .i32⟩
  | 28 => ⟨S800768x128, .bf16⟩
  | 29 => ⟨S50176x128, .f32⟩
  | 30 => ⟨S1x128, .f32⟩
  | 31 => ⟨S50176x128, .f32⟩
  | 32 => ⟨S800768x128, .bf16⟩
  | 33 => ⟨S_, .i32⟩
  | 34 => ⟨S800768, .i32⟩
  | 35 => ⟨S800768, .i1⟩
  | 36 => ⟨S_, .i32⟩
  | 37 => ⟨S800768, .i32⟩
  | 38 => ⟨S800768, .i32⟩
  | 39 => ⟨S800768, .i32⟩
  | 40 => ⟨S800768x1, .i32⟩
  | 41 => ⟨S800768x128, .bf16⟩
  | 42 => ⟨S50176x128, .f32⟩
  | 43 => ⟨S_, .i32⟩
  | 44 => ⟨S_, .f32⟩
  | 45 => ⟨S128x128, .f32⟩
  | 46 => ⟨S_, .i32⟩
  | 47 => ⟨S_, .f32⟩
  | 48 => ⟨S128, .f32⟩
  | 49 => ⟨S1x128, .f32⟩
  | 50 => ⟨S50176x128, .f32⟩
  | 51 => ⟨S800768x128, .bf16⟩
  | 52 => ⟨S_, .i32⟩
  | 53 => ⟨S800768, .i32⟩
  | 54 => ⟨S800768, .i1⟩
  | 55 => ⟨S_, .i32⟩
  | 56 => ⟨S800768, .i32⟩
  | 57 => ⟨S800768, .i32⟩
  | 58 => ⟨S800768, .i32⟩
  | 59 => ⟨S800768x1, .i32⟩
  | 60 => ⟨S800768x128, .bf16⟩
  | 61 => ⟨S50176x128, .f32⟩
  | 62 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1x2048, .i32⟩
  | .local _ .vmem, ⟨7, _⟩ => ⟨S1x2048, .i32⟩
  | .local _ .vmem, ⟨8, _⟩ => ⟨S1x2048, .f32⟩
  | .local _ .vmem, ⟨9, _⟩ => ⟨S1x2048, .f32⟩
  | .local _ .vmem, ⟨10, _⟩ => ⟨S1024x128, .f32⟩
  | .local _ .vmem, ⟨11, _⟩ => ⟨S1024x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .f32⟩
  | .local _ .vmem, ⟨15, _⟩ => ⟨S1x2048, .i32⟩
  | .local _ .vmem, ⟨16, _⟩ => ⟨S1x2048, .i32⟩
  | .local _ .vmem, ⟨17, _⟩ => ⟨S2048x128, .bf16⟩
  | .local _ .vmem, ⟨18, _⟩ => ⟨S2048x128, .bf16⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S128x128, .f32⟩
  | .local _ .vmem, ⟨25, _⟩ => ⟨S1x128, .f32⟩
  | .local _ .vmem, ⟨26, _⟩ => ⟨S1024x128, .f32⟩
  | .local _ .vmem, ⟨27, _⟩ => ⟨S1024x128, .f32⟩
  | .local _ .vmem, ⟨28, _⟩ => ⟨S1x2048, .i32⟩
  | .local _ .vmem, ⟨29, _⟩ => ⟨S1x2048, .i32⟩
  | .local _ .vmem, ⟨30, _⟩ => ⟨S1x2048, .f32⟩
  | .local _ .vmem, ⟨31, _⟩ => ⟨S1x2048, .f32⟩
  | .local _ .vmem, ⟨32, _⟩ => ⟨S1024x128, .f32⟩
  | .local _ .vmem, ⟨33, _⟩ => ⟨S1024x128, .f32⟩
  | .local _ .vmem, ⟨34, _⟩ => ⟨S2048x128, .bf16⟩
  | .local _ .vmem, ⟨35, _⟩ => ⟨S2048x128, .bf16⟩
  | .local _ .vmem, ⟨36, _⟩ => ⟨S2048x128, .f32⟩
  | .local _ .vmem, ⟨37, _⟩ => ⟨S1x2048, .i32⟩
  | .local _ .vmem, ⟨38, _⟩ => ⟨S1x2048, .i32⟩
  | .local _ .vmem, ⟨39, _⟩ => ⟨S2048x128, .bf16⟩
  | .local _ .vmem, ⟨40, _⟩ => ⟨S2048x128, .bf16⟩
  | .local _ .vmem, ⟨41, _⟩ => ⟨S1024x128, .f32⟩
  | .local _ .vmem, ⟨42, _⟩ => ⟨S1024x128, .f32⟩
  | .local _ .vmem, ⟨43, _⟩ => ⟨S1024x128, .f32⟩
  | .local _ .vmem, ⟨44, _⟩ => ⟨S1024x128, .f32⟩
  | .local _ .vmem, ⟨45, _⟩ => ⟨S1024x128, .f32⟩
  | .local _ .vmem, ⟨46, _⟩ => ⟨S128x128, .f32⟩
  | .local _ .vmem, ⟨47, _⟩ => ⟨S1x128, .f32⟩
  | .local _ .vmem, ⟨48, _⟩ => ⟨S1024x128, .f32⟩
  | .local _ .vmem, ⟨49, _⟩ => ⟨S1024x128, .f32⟩
  | .local _ .vmem, ⟨50, _⟩ => ⟨S1x2048, .i32⟩
  | .local _ .vmem, ⟨51, _⟩ => ⟨S1x2048, .i32⟩
  | .local _ .vmem, ⟨52, _⟩ => ⟨S1x2048, .f32⟩
  | .local _ .vmem, ⟨53, _⟩ => ⟨S1x2048, .f32⟩
  | .local _ .vmem, ⟨54, _⟩ => ⟨S1024x128, .f32⟩
  | .local _ .vmem, ⟨55, _⟩ => ⟨S1024x128, .f32⟩
  | .local _ .vmem, ⟨56, _⟩ => ⟨S2048x128, .bf16⟩
  | .local _ .vmem, ⟨57, _⟩ => ⟨S2048x128, .bf16⟩
  | .local _ .vmem, ⟨58, _⟩ => ⟨S2048x128, .f32⟩
  | .local _ .vmem, ⟨59, _⟩ => ⟨S1x2048, .i32⟩
  | .local _ .vmem, ⟨60, _⟩ => ⟨S1x2048, .i32⟩
  | .local _ .vmem, ⟨61, _⟩ => ⟨S2048x128, .bf16⟩
  | .local _ .vmem, ⟨62, _⟩ => ⟨S2048x128, .bf16⟩
  | .local _ .vmem, ⟨63, _⟩ => ⟨S1024x128, .f32⟩
  | .local _ .vmem, ⟨64, _⟩ => ⟨S1024x128, .f32⟩
  | .local _ .vmem, ⟨65, _⟩ => ⟨S1024x128, .f32⟩
  | .local _ .smem, ⟨0, _⟩ => ⟨S391, .i32⟩
  | .local _ .smem, ⟨1, _⟩ => ⟨S391, .i32⟩
  | .local _ .smem, ⟨2, _⟩ => ⟨S391, .i32⟩
  | .local _ .smem, ⟨3, _⟩ => ⟨S391, .i32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_c_1 : Ref sig .tc := ⟨.hbm, 16, rfl⟩
abbrev main_call2_v0 : Ref sig .tc := ⟨.hbm, 17, rfl⟩
abbrev main_v2 : Ref sig .tc := ⟨.hbm, 18, rfl⟩
abbrev main_cst : Ref sig .tc := ⟨.hbm, 19, rfl⟩
abbrev main_call3_v0 : Ref sig .tc := ⟨.hbm, 20, rfl⟩
abbrev main_v3 : Ref sig .tc := ⟨.hbm, 21, rfl⟩
abbrev main_call4_v0 : Ref sig .tc := ⟨.hbm, 22, rfl⟩
abbrev main_call4_v1_0 : Ref sig .tc := ⟨.hbm, 23, rfl⟩
abbrev main_v4 : Ref sig .tc := ⟨.hbm, 24, rfl⟩
abbrev main_c_2 : Ref sig .tc := ⟨.hbm, 25, rfl⟩
abbrev main_v5 : Ref sig .tc := ⟨.hbm, 26, rfl⟩
abbrev main_v6 : Ref sig .tc := ⟨.hbm, 27, rfl⟩
abbrev main_c_3 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_4 : Ref sig .tc := ⟨.hbm, 34, rfl⟩
abbrev main_v12 : Ref sig .tc := ⟨.hbm, 35, rfl⟩
abbrev main_v13 : Ref sig .tc := ⟨.hbm, 36, rfl⟩
abbrev main_c_5 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_6 : Ref sig .tc := ⟨.hbm, 43, rfl⟩
abbrev main_v19 : Ref sig .tc := ⟨.hbm, 44, rfl⟩
abbrev main_v20 : Ref sig .tc := ⟨.hbm, 45, rfl⟩
abbrev main_c_7 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_call5_v0 : Ref sig .tc := ⟨.hbm, 52, rfl⟩
abbrev main_call5_v1_0 : Ref sig .tc := ⟨.hbm, 53, rfl⟩
abbrev main_v26 : Ref sig .tc := ⟨.hbm, 54, rfl⟩
abbrev main_c_8 : Ref sig .tc := ⟨.hbm, 55, rfl⟩
abbrev main_v27 : Ref sig .tc := ⟨.hbm, 56, rfl⟩
abbrev main_v28 : Ref sig .tc := ⟨.hbm, 57, rfl⟩
abbrev main_c_9 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_10 : Ref sig .tc := ⟨.hbm, 67, rfl⟩
abbrev main_call6_v0 : Ref sig .tc := ⟨.hbm, 68, rfl⟩
abbrev main_call6_v1 : Ref sig .tc := ⟨.hbm, 69, rfl⟩
abbrev main_call6_v2 : Ref sig .tc := ⟨.hbm, 70, rfl⟩
abbrev main_call6_v3 : Ref sig .tc := ⟨.hbm, 71, rfl⟩
abbrev main_call6_v4 : Ref sig .tc := ⟨.hbm, 72, rfl⟩
abbrev main_call6_v5 : Ref sig .tc := ⟨.hbm, 73, rfl⟩
abbrev main_call6_v6 : Ref sig .tc := ⟨.hbm, 74, rfl⟩
abbrev main_call6_v7 : Ref sig .tc := ⟨.hbm, 75, rfl⟩
abbrev main_call6_v8 : Ref sig .tc := ⟨.hbm, 76, rfl⟩
abbrev main_call6_c : Ref sig .tc := ⟨.hbm, 77, rfl⟩
abbrev main_call6_v9 : Ref sig .tc := ⟨.hbm, 78, rfl⟩
abbrev main_call6_v10 : Ref sig .tc := ⟨.hbm, 79, rfl⟩
abbrev main_call6_v11 : Ref sig .tc := ⟨.hbm, 80, rfl⟩
abbrev main_call6_c_0 : Ref sig .tc := ⟨.hbm, 81, rfl⟩
abbrev main_call6_v12 : Ref sig .tc := ⟨.hbm, 82, rfl⟩
abbrev main_call6_v13 : Ref sig .tc := ⟨.hbm, 83, rfl⟩
abbrev main_v38 : Ref sig .tc := ⟨.hbm, 84, rfl⟩
abbrev main_v39 : Ref sig .tc := ⟨.hbm, 85, rfl⟩
abbrev main_c_11 : Ref sig .tc := ⟨.hbm, 86, rfl⟩
abbrev main_call7_v0 : Ref sig .tc := ⟨.hbm, 87, rfl⟩
abbrev main_call7_v1 : Ref sig .tc := ⟨.hbm, 88, rfl⟩
abbrev main_call7_v2 : Ref sig .tc := ⟨.hbm, 89, rfl⟩
abbrev main_call7_v3 : Ref sig .tc := ⟨.hbm, 90, rfl⟩
abbrev main_call7_v4 : Ref sig .tc := ⟨.hbm, 91, rfl⟩
abbrev main_call7_v5 : Ref sig .tc := ⟨.hbm, 92, rfl⟩
abbrev main_call7_v6 : Ref sig .tc := ⟨.hbm, 93, rfl⟩
abbrev main_call7_v7 : Ref sig .tc := ⟨.hbm, 94, rfl⟩
abbrev main_call7_v8 : Ref sig .tc := ⟨.hbm, 95, rfl⟩
abbrev main_call7_c : Ref sig .tc := ⟨.hbm, 96, rfl⟩
abbrev main_call7_v9 : Ref sig .tc := ⟨.hbm, 97, rfl⟩
abbrev main_call7_v10 : Ref sig .tc := ⟨.hbm, 98, rfl⟩
abbrev main_call7_v11 : Ref sig .tc := ⟨.hbm, 99, rfl⟩
abbrev main_call7_c_0 : Ref sig .tc := ⟨.hbm, 100, rfl⟩
abbrev main_call7_v12 : Ref sig .tc := ⟨.hbm, 101, rfl⟩
abbrev main_call7_v13 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_c_12 : Ref sig .tc := ⟨.hbm, 106, rfl⟩
abbrev main_call8_v0 : Ref sig .tc := ⟨.hbm, 107, rfl⟩
abbrev main_call8_v1 : Ref sig .tc := ⟨.hbm, 108, rfl⟩
abbrev main_call8_v2 : Ref sig .tc := ⟨.hbm, 109, rfl⟩
abbrev main_call8_v3 : Ref sig .tc := ⟨.hbm, 110, rfl⟩
abbrev main_call8_v4 : Ref sig .tc := ⟨.hbm, 111, rfl⟩
abbrev main_call8_v5 : Ref sig .tc := ⟨.hbm, 112, rfl⟩
abbrev main_call8_v6 : Ref sig .tc := ⟨.hbm, 113, rfl⟩
abbrev main_call8_v7 : Ref sig .tc := ⟨.hbm, 114, rfl⟩
abbrev main_call8_v8 : Ref sig .tc := ⟨.hbm, 115, rfl⟩
abbrev main_call8_c : Ref sig .tc := ⟨.hbm, 116, rfl⟩
abbrev main_call8_v9 : Ref sig .tc := ⟨.hbm, 117, rfl⟩
abbrev main_call8_v10 : Ref sig .tc := ⟨.hbm, 118, rfl⟩
abbrev main_call8_v11 : Ref sig .tc := ⟨.hbm, 119, rfl⟩
abbrev main_call8_c_0 : Ref sig .tc := ⟨.hbm, 120, rfl⟩
abbrev main_call8_v12 : Ref sig .tc := ⟨.hbm, 121, rfl⟩
abbrev main_call8_v13 : Ref sig .tc := ⟨.hbm, 122, rfl⟩
abbrev main_v45 : Ref sig .tc := ⟨.hbm, 123, rfl⟩
abbrev main_v46 : Ref sig .tc := ⟨.hbm, 124, rfl⟩
abbrev main_c_13 : Ref sig .tc := ⟨.hbm, 125, rfl⟩
abbrev main_call9_v0 : Ref sig .tc := ⟨.hbm, 126, rfl⟩
abbrev main_call9_v1 : Ref sig .tc := ⟨.hbm, 127, rfl⟩
abbrev main_call9_v2 : Ref sig .tc := ⟨.hbm, 128, rfl⟩
abbrev main_call9_v3 : Ref sig .tc := ⟨.hbm, 129, rfl⟩
abbrev main_call9_v4 : Ref sig .tc := ⟨.hbm, 130, rfl⟩
abbrev main_call9_v5 : Ref sig .tc := ⟨.hbm, 131, rfl⟩
abbrev main_call9_v6 : Ref sig .tc := ⟨.hbm, 132, rfl⟩
abbrev main_call9_v7 : Ref sig .tc := ⟨.hbm, 133, rfl⟩
abbrev main_call9_v8 : Ref sig .tc := ⟨.hbm, 134, rfl⟩
abbrev main_call9_c : Ref sig .tc := ⟨.hbm, 135, rfl⟩
abbrev main_call9_v9 : Ref sig .tc := ⟨.hbm, 136, rfl⟩
abbrev main_call9_v10 : Ref sig .tc := ⟨.hbm, 137, rfl⟩
abbrev main_call9_v11 : Ref sig .tc := ⟨.hbm, 138, rfl⟩
abbrev main_call9_c_0 : Ref sig .tc := ⟨.hbm, 139, rfl⟩
abbrev main_call9_v12 : Ref sig .tc := ⟨.hbm, 140, rfl⟩
abbrev main_call9_v13 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_c_14 : Ref sig .tc := ⟨.hbm, 148, rfl⟩
abbrev main_v54 : Ref sig .tc := ⟨.hbm, 149, rfl⟩
abbrev main_v55 : Ref sig .tc := ⟨.hbm, 150, rfl⟩
abbrev main_c_15 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_v64 : Ref sig .tc := ⟨.hbm, 160, rfl⟩
abbrev main_c_16 : Ref sig .tc := ⟨.hbm, 161, rfl⟩
abbrev main_v65 : Ref sig .tc := ⟨.hbm, 162, rfl⟩
abbrev main_v66 : Ref sig .tc := ⟨.hbm, 163, rfl⟩
abbrev main_c_17 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_c_18 : Ref sig .tc := ⟨.hbm, 171, rfl⟩
abbrev main_call10_v0 : Ref sig .tc := ⟨.hbm, 172, rfl⟩
abbrev main_v73 : Ref sig .tc := ⟨.hbm, 173, rfl⟩
abbrev main_c_19 : Ref sig .tc := ⟨.hbm, 174, rfl⟩
abbrev main_call11_v0 : Ref sig .tc := ⟨.hbm, 175, rfl⟩
abbrev main_v74 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_c_20 : Ref sig .tc := ⟨.hbm, 180, rfl⟩
abbrev main_v78 : Ref sig .tc := ⟨.hbm, 181, rfl⟩
abbrev main_v79 : Ref sig .tc := ⟨.hbm, 182, rfl⟩
abbrev main_c_21 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_v37 : Ref sig .tc := ⟨.smem, 0, rfl⟩
abbrev main_v40 : Ref sig .tc := ⟨.smem, 1, rfl⟩
abbrev main_v44 : Ref sig .tc := ⟨.smem, 2, rfl⟩
abbrev main_v47 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_scratch0 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg2_1 : Ref sig .tc := ⟨.vmem, 55, rfl⟩
abbrev cc7_stg3_0 : Ref sig .tc := ⟨.vmem, 56, rfl⟩
abbrev cc7_stg3_1 : Ref sig .tc := ⟨.vmem, 57, rfl⟩
abbrev cc7_scratch0 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg1_1 : Ref sig .tc := ⟨.vmem, 62, rfl⟩
abbrev cc8_stg2_0 : Ref sig .tc := ⟨.vmem, 63, rfl⟩
abbrev cc8_stg2_1 : Ref sig .tc := ⟨.vmem, 64, rfl⟩
abbrev cc8_scratch0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem2_1 : DmaSem sig := 59

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![391, 49], ![false, false]⟩

abbrev pre1 : Pipeline.Prefetch sig := ⟨2, ![main_v37.idx, main_v40.idx], fun | 0 => main_v37.names | 1 => main_v40.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v3 : Index := Scalar.indexCast arg0
  ![v3.toNat]
def k1_cond3 (i : grid1.Coords) : BitVec 1 :=
  let arg1 : BitVec 32 := BitVec.ofNat 32 (i 1).val
  let c48_i32 : BitVec 32 := 48#32
  let v12 : BitVec 1 := Scalar.cmpi .eq arg1 c48_i32
  let v13 : BitVec 32 := Scalar.extui v12
  let c0_i32_2 : BitVec 32 := 0#32
  let v14 : BitVec 1 := Scalar.cmpi .ne v13 c0_i32_2
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![49, 391], ![false, false]⟩

abbrev pre2 : Pipeline.Prefetch sig := ⟨2, ![main_v44.idx, main_v47.idx], fun | 0 => main_v44.names | 1 => main_v47.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg1 : BitVec 32 := BitVec.ofNat 32 (i 1).val
  let v3 : Index := Scalar.indexCast arg1
  ![v3.toNat]
def k2_cond3 (i : grid2.Coords) : BitVec 1 :=
  let arg1 : BitVec 32 := BitVec.ofNat 32 (i 1).val
  let c390_i32 : BitVec 32 := 390#32
  let v12 : BitVec 1 := Scalar.cmpi .eq arg1 c390_i32
  let v13 : BitVec 32 := Scalar.extui v12
  let c0_i32_2 : BitVec 32 := 0#32
  let v14 : BitVec 1 := Scalar.cmpi .ne v13 c0_i32_2
  v14

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![391, 49], ![false, false]⟩

abbrev pre4 : Pipeline.Prefetch sig := ⟨2, ![main_v37.idx, main_v40.idx], fun | 0 => main_v37.names | 1 => main_v40.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg0 : BitVec 32 := BitVec.ofNat 32 (i 0).val
  let v3 : Index := Scalar.indexCast arg0
  ![v3.toNat]
def k4_cond3 (i : grid4.Coords) : BitVec 1 :=
  let arg1 : BitVec 32 := BitVec.ofNat 32 (i 1).val
  let c48_i32 : BitVec 32 := 48#32
  let v12 : BitVec 1 := Scalar.cmpi .eq arg1 c48_i32
  let v13 : BitVec 32 := Scalar.extui v12
  let c0_i32_2 : BitVec 32 := 0#32
  let v14 : BitVec 1 := Scalar.cmpi .ne v13 c0_i32_2
  v14

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x2048 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S2048x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![49, 391], ![false, false]⟩

abbrev pre5 : Pipeline.Prefetch sig := ⟨2, ![main_v44.idx, main_v47.idx], fun | 0 => main_v44.names | 1 => main_v47.names | ⟨_ + 2, h⟩ => absurd h (Nat.not_lt.2 (Nat.le_add_left _ _)), fun | 0 => rfl | 1 => rfl | ⟨_ + 2, h⟩ => absurd h (Nat.not_lt.2 (Nat.le_add_left _ _))⟩

def k5_off1 (i : grid5.Coords) : Fin 1 → Nat :=
  let arg1 : BitVec 32 := BitVec.ofNat 32 (i 1).val
  let v3 : Index := Scalar.indexCast arg1
  ![v3.toNat]
def k5_cond3 (i : grid5.Coords) : BitVec 1 :=
  let arg1 : BitVec 32 := BitVec.ofNat 32 (i 1).val
  let c390_i32 : BitVec 32 := 390#32
  let v12 : BitVec 1 := Scalar.cmpi .eq arg1 c390_i32
  let v13 : BitVec 32 := Scalar.extui v12
  let c0_i32_2 : BitVec 32 := 0#32
  let v14 : BitVec 1 := Scalar.cmpi .ne v13 c0_i32_2
  v14

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x2048 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨1, ![49], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1024x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![391, 49], ![false, false]⟩

abbrev pre7 : Pipeline.Prefetch sig := ⟨2, ![main_v37.idx, main_v40.idx], fun | 0 => main_v37.names | 1 => main_v40.names | ⟨_ + 2, h⟩ => absurd h (Nat.not_lt.2 (Nat.le_add_left _ _)), fun | 0 => rfl | 1 => rfl | ⟨_ + 2, h⟩ => absurd h (Nat.not_lt.2 (Nat.le_add_left _ _))⟩

def k7_off1 (i : grid7.Coords) : Fin 1 → Nat :=
  let arg0 : BitVec 32 := BitVec.ofNat 32 (i 0).val
  let v3 : Index := Scalar.indexCast arg0
  ![v3.toNat]
def k7_cond3 (i : grid7.Coords) : BitVec 1 :=
  let arg1 : BitVec 32 := BitVec.ofNat 32 (i 1).val
  let c48_i32 : BitVec 32 := 48#32
  let v12 : BitVec 1 := Scalar.cmpi .eq arg1 c48_i32
  let v13 : BitVec 32 := Scalar.extui v12
  let c0_i32_2 : BitVec 32 := 0#32
  let v14 : BitVec 1 := Scalar.cmpi .ne v13 c0_i32_2
  v14

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1x2048 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1x2048 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1024x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S2048x128 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![49, 391], ![false, false]⟩

abbrev pre8 : Pipeline.Prefetch sig := ⟨2, ![main_v44.idx, main_v47.idx], fun | 0 => main_v44.names | 1 => main_v47.names | ⟨_ + 2, h⟩ => absurd h (Nat.not_lt.2 (Nat.le_add_left _ _)), fun | 0 => rfl | 1 => rfl | ⟨_ + 2, h⟩ => absurd h (Nat.not_lt.2 (Nat.le_add_left _ _))⟩

def k8_off1 (i : grid8.Coords) : Fin 1 → Nat :=
  let arg1 : BitVec 32 := BitVec.ofNat 32 (i 1).val
  let v3 : Index := Scalar.indexCast arg1
  ![v3.toNat]
def k8_cond3 (i : grid8.Coords) : BitVec 1 :=
  let arg1 : BitVec 32 := BitVec.ofNat 32 (i 1).val
  let c390_i32 : BitVec 32 := 390#32
  let v12 : BitVec 1 := Scalar.cmpi .eq arg1 c390_i32
  let v13 : BitVec 32 := Scalar.extui v12
  let c0_i32_2 : BitVec 32 := 0#32
  let v14 : BitVec 1 := Scalar.cmpi .ne v13 c0_i32_2
  v14

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1x2048 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S2048x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

class Facts₀ : Prop where
  pads_S50000x256_S50176x256_01760_000 : S50000x256.Pads (![0, 0] : Fin 2 → Nat) ![176, 0] ![0, 0] S50176x256
  h_S_ : 0 < S_.numel
  pads_S800000_S800768_07680 : S800000.Pads (![0] : Fin 1 → Nat) ![768] ![0] S800768
  bcast_S_S800768 : S_.BroadcastsInDim S800768 (![] : Fin 0 → Fin S800768.rank)
  bcast_S800768_S800768x1_0 : S800768.BroadcastsInDim S800768x1 (![0] : Fin 1 → Fin S800768x1.rank)
  shapeCasts_S800768_S391x2048 : S800768.ShapeCasts S391x2048
  slices_S391x2048_S391x1_0_0 : S391x2048.Slices ![0, 0] S391x1
  shapeCasts_S391x1_S391 : S391x1.ShapeCasts S391
  bcast_S_S391 : S_.BroadcastsInDim S391 (![] : Fin 0 → Fin S391.rank)
  slices_S391x2048_S391x1_0_2047 : S391x2048.Slices ![0, 2047] S391x1
  shapeCasts_S800768_S1x800768 : S800768.ShapeCasts S1x800768
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  numel1_S1 : S1.numel = 1
  iota_S1024x1_d0_w32 : S1024x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  natLt_1_32 : 1 < 32
  shapeCasts_S1024x128_S1024x128 : S1024x128.ShapeCasts S1024x128
  packedbf16_S2048x128_S2048x128_0_0 : (Rect.unit (s := S2048x128) ![0, 0] S2048x128.size inb_S2048x128_S2048x128_0_0).PackedRows (EltTy.packing .bf16)
  inb_S128x128_S128x128_0_0 : ∀ a, (![0, 0] : Fin 2 → Nat) a + S128x128.size a ≤ S128x128.size a
  h_S128x128 : 0 < S128x128.numel
  pads_S128x64_S128x128_000_0640 : S128x64.Pads (![0, 0] : Fin 2 → Nat) ![0, 64] ![0, 0] S128x128
  pads_S64_S128_0640 : S64.Pads (![0] : Fin 1 → Nat) ![64] ![0] S128
  shapeCasts_S128x128_S128x128 : S128x128.ShapeCasts S128x128
  slices_S50176x128_S50000x64_0_0 : S50176x128.Slices ![0, 0] S50000x64
  gather_S800768_S800768x1_S800768_n_0_n_n_0_1_1_wf : GatherDims.WF S800768 S800768x1 S800768 [] [0] [] [0] [] 1 ![1]
  dot_S1024x256_S256x128_S1024x128_1_0_0_1_n_n_wf : DotDims.WF S1024x256 S256x128 S1024x128 [1] [0] [0] [1] [] []
  dot_S1024x2048_S1024x128_S2048x128_0_0_1_1_n_n_wf : DotDims.WF S1024x2048 S1024x128 S2048x128 [0] [0] [1] [1] [] []
  gather_S800768x128_S800768x1_S800768x128_1_0_n_n_0_1_1128_wf : GatherDims.WF S800768x128 S800768x1 S800768x128 [1] [0] [] [0] [] 1 ![1, 128]
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S50176x256.size a
  hwx0_0 : ∀ i : grid0.Coords, EltTy.bits .f32 = 32 ∨ (Rect.block (s := S50176x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S50176x128.size a
  hwx0_3 : ∀ i : grid0.Coords, EltTy.bits .f32 = 32 ∨ (Rect.block (s := S50176x128) S1024x128.size (cc0_transform_3 i) (hinb0_3 i)).WholeWords (EltTy.packing .f32)
  hrank1 : 0 < grid1.rank
  k1_off1_inb : ∀ i : grid1.Coords, ∀ a, (k1_off1 i) a + S1.size a ≤ S391.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x800768.size a
  hwx1_0 : ∀ i : grid1.Coords, EltTy.bits .i32 = 32 ∨ (Rect.block (s := S1x800768) S1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x800768.size a
  hwx1_1 : ∀ i : grid1.Coords, EltTy.bits .f32 = 32 ∨ (Rect.block (s := S1x800768) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S50176x128.size a
  hwx1_2 : ∀ i : grid1.Coords, EltTy.bits .f32 = 32 ∨ (Rect.block (s := S50176x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S800768x128.size a
  hwx1_3 : ∀ i : grid1.Coords, EltTy.bits .bf16 = 32 ∨ (Rect.block (s := S800768x128) S2048x128.size (cc1_transform_3 i) (hinb1_3 i)).WholeWords (EltTy.packing .bf16)
  hrank2 : 0 < grid2.rank
  k2_off1_inb : ∀ i : grid2.Coords, ∀ a, (k2_off1 i) a + S1.size a ≤ S391.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x800768.size a
  hwx2_0 : ∀ i : grid2.Coords, EltTy.bits .i32 = 32 ∨ (Rect.block (s := S1x800768) S1x2048.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S800768x128.size a
  hwx2_1 : ∀ i : grid2.Coords, EltTy.bits .bf16 = 32 ∨ (Rect.block (s := S800768x128) S2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S50176x128.size a
  hwx2_2 : ∀ i : grid2.Coords, EltTy.bits .f32 = 32 ∨ (Rect.block (s := S50176x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S50176x128.size a
  hwx3_0 : ∀ i : grid3.Coords, EltTy.bits .f32 = 32 ∨ (Rect.block (s := S50176x128) S1024x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S50176x128.size a
  hwx3_3 : ∀ i : grid3.Coords, EltTy.bits .f32 = 32 ∨ (Rect.block (s := S50176x128) S1024x128.size (cc3_transform_3 i) (hinb3_3 i)).WholeWords (EltTy.packing .f32)
  hrank4 : 0 < grid4.rank
  k4_off1_inb : ∀ i : grid4.Coords, ∀ a, (k4_off1 i) a + S1.size a ≤ S391.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x2048.size a ≤ S1x800768.size a
  hwx4_0 : ∀ i : grid4.Coords, EltTy.bits .i32 = 32 ∨ (Rect.block (s := S1x800768) S1x2048.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048.size a ≤ S1x800768.size a
  hwx4_1 : ∀ i : grid4.Coords, EltTy.bits .f32 = 32 ∨ (Rect.block (s := S1x800768) S1x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S50176x128.size a
  hwx4_2 : ∀ i : grid4.Coords, EltTy.bits .f32 = 32 ∨ (Rect.block (s := S50176x128) S1024x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x128.size a ≤ S800768x128.size a
  hwx4_3 : ∀ i : grid4.Coords, EltTy.bits .bf16 = 32 ∨ (Rect.block (s := S800768x128) S2048x128.size (cc4_transform_3 i) (hinb4_3 i)).WholeWords (EltTy.packing .bf16)
  hrank5 : 0 < grid5.rank
  k5_off1_inb : ∀ i : grid5.Coords, ∀ a, (k5_off1 i) a + S1.size a ≤ S391.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x2048.size a ≤ S1x800768.size a
  hwx5_0 : ∀ i : grid5.Coords, EltTy.bits .i32 = 32 ∨ (Rect.block (s := S1x800768) S1x2048.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S800768x128.size a
  hwx5_1 : ∀ i : grid5.Coords, EltTy.bits .bf16 = 32 ∨ (Rect.block (s := S800768x128) S2048x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x128.size a ≤ S50176x128.size a
  hwx5_2 : ∀ i : grid5.Coords, EltTy.bits .f32 = 32 ∨ (Rect.block (s := S50176x128) S1024x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x128.size a ≤ S50176x128.size a
  hwx6_0 : ∀ i : grid6.Coords, EltTy.bits .f32 = 32 ∨ (Rect.block (s := S50176x128) S1024x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x128.size a ≤ S50176x128.size a
  hwx6_3 : ∀ i : grid6.Coords, EltTy.bits .f32 = 32 ∨ (Rect.block (s := S50176x128) S1024x128.size (cc6_transform_3 i) (hinb6_3 i)).WholeWords (EltTy.packing .f32)
  hrank7 : 0 < grid7.rank
  k7_off1_inb : ∀ i : grid7.Coords, ∀ a, (k7_off1 i) a + S1.size a ≤ S391.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x2048.size a ≤ S1x800768.size a
  hwx7_0 : ∀ i : grid7.Coords, EltTy.bits .i32 = 32 ∨ (Rect.block (s := S1x800768) S1x2048.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x2048.size a ≤ S1x800768.size a
  hwx7_1 : ∀ i : grid7.Coords, EltTy.bits .f32 = 32 ∨ (Rect.block (s := S1x800768) S1x2048.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x128.size a ≤ S50176x128.size a
  hwx7_2 : ∀ i : grid7.Coords, EltTy.bits .f32 = 32 ∨ (Rect.block (s := S50176x128) S1024x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2048x128.size a ≤ S800768x128.size a
  hwx7_3 : ∀ i : grid7.Coords, EltTy.bits .bf16 = 32 ∨ (Rect.block (s := S800768x128) S2048x128.size (cc7_transform_3 i) (hinb7_3 i)).WholeWords (EltTy.packing .bf16)
  hrank8 : 0 < grid8.rank
  k8_off1_inb : ∀ i : grid8.Coords, ∀ a, (k8_off1 i) a + S1.size a ≤ S391.size a
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x2048.size a ≤ S1x800768.size a
  hwx8_0 : ∀ i : grid8.Coords, EltTy.bits .i32 = 32 ∨ (Rect.block (s := S1x800768) S1x2048.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x128.size a ≤ S800768x128.size a
  hwx8_1 : ∀ i : grid8.Coords, EltTy.bits .bf16 = 32 ∨ (Rect.block (s := S800768x128) S2048x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x128.size a ≤ S50176x128.size a
  hwx8_2 : ∀ i : grid8.Coords, EltTy.bits .f32 = 32 ∨ (Rect.block (s := S50176x128) S1024x128.size (cc8_transform_2 i) (hinb8_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S800768_S800768x1_S800768_n_0_n_n_0_1_1 : GatherDims S800768 S800768x1 S800768 where
  offsetDims := []
  collapsedSliceDims := [0]
  operandBatchingDims := []
  startIndicesBatchingDims := []
  startIndexMap := [0]
  indexVectorDim := 1
  sliceSizes := ![1]
  wf := gather_S800768_S800768x1_S800768_n_0_n_n_0_1_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x2048_S1024x128_S2048x128_0_0_1_1_n_n : DotDims S1024x2048 S1024x128 S2048x128 where
  lhsContracting := [0]
  rhsContracting := [0]
  lhsNonContracting := [1]
  rhsNonContracting := [1]
  lhsBatch := []
  rhsBatch := []
  wf := dot_S1024x2048_S1024x128_S2048x128_0_0_1_1_n_n_wf
def gather_S800768x128_S800768x1_S800768x128_1_0_n_n_0_1_1128 : GatherDims S800768x128 S800768x1 S800768x128 where
  offsetDims := [1]
  collapsedSliceDims := [0]
  operandBatchingDims := []
  startIndicesBatchingDims := []
  startIndexMap := [0]
  indexVectorDim := 1
  sliceSizes := ![1, 128]
  wf := gather_S800768x128_S800768x1_S800768x128_1_0_n_n_0_1_1128_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev spec1_0 : Pipeline.WinSpec sig grid1.rank :=
  Pipeline.WinSpec.ofSpec (Memref.whole main_v48) S1x2048.size reads1_0 false false 2 stage1_0 sem1_0 nbuf1_0 hstage1_0

abbrev spec1_1 : Pipeline.WinSpec sig grid1.rank :=
  Pipeline.WinSpec.ofSpec (Memref.whole main_v49) S1x2048.size reads1_1 false false 2 stage1_1 sem1_1 nbuf1_1 hstage1_1

abbrev spec1_2 : Pipeline.WinSpec sig grid1.rank :=
  Pipeline.WinSpec.ofSpec (Memref.whole main_v52) S1024x128.size reads1_2 false false 2 stage1_2 sem1_2 nbuf1_2 hstage1_2

abbrev spec1_3 : Pipeline.WinSpec sig grid1.rank :=
  Pipeline.WinSpec.ofSpec (Memref.whole main_v53) S2048x128.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 | 1 => cc1_transform_1 | 2 => cc1_transform_2 | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | ⟨_ + 4, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | ⟨_ + 4, h⟩ => absurd h (Nat.not_lt.2 (Nat.le_add_left _ _))
abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev spec2_0 : Pipeline.WinSpec sig grid2.rank :=
  Pipeline.WinSpec.ofSpec (Memref.whole main_v50) S1x2048.size reads2_0 false false 2 stage2_0 sem2_0 nbuf2_0 hstage2_0

abbrev spec2_1 : Pipeline.WinSpec sig grid2.rank :=
  Pipeline.WinSpec.ofSpec (Memref.whole main_v60) S2048x128.size reads2_1 false false 2 stage2_1 sem2_1 nbuf2_1 hstage2_1

abbrev spec2_2 : Pipeline.WinSpec sig grid2.rank :=
  Pipeline.WinSpec.ofSpec (Memref.whole main_v61) S1024x128.size reads2_2 true false 2 stage2_2 sem2_2 nbuf2_2 hstage2_2

abbrev spec2 : Fin 3 → Pipeline.WinSpec sig grid2.rank := fun | 0 => spec2_0 | 1 => spec2_1 | 2 => spec2_2 | ⟨_ + 3, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | ⟨_ + 3, h⟩ => absurd h (Nat.not_lt.2 (Nat.le_add_left _ _))
abbrev ix2 (pf : pre2.Contents (Elt F)) : (w : Fin 3) → grid2.Coords → Fin (spec2 w).shape.rank → Nat := fun | 0 => cc2_transform_0 | 1 => cc2_transform_1 | 2 => cc2_transform_2 | ⟨_ + 3, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | 2 => hreads2_2 | ⟨_ + 3, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | 2 => hinb2_2 | ⟨_ + 3, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | 2 => hwx2_2 | ⟨_ + 3, h⟩ => absurd h (Nat.not_lt.2 (Nat.le_add_left _ _))
abbrev idle2 : Fin 3 → grid2.Coords → Bool := fun | 0 => fun _ => false | 1 => fun _ => false | 2 => fun i => !(k2_cond3 i == 1#1) | ⟨_ + 3, h⟩ => absurd h (Nat.not_lt.2 (Nat.le_add_left _ _))

abbrev win3_0 : Pipeline.Window sig grid3 :=
  Pipeline.Window.ofSpec (Memref.whole main_v61) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev spec4_0 : Pipeline.WinSpec sig grid4.rank :=
  Pipeline.WinSpec.ofSpec (Memref.whole main_v48) S1x2048.size reads4_0 false false 2 stage4_0 sem4_0 nbuf4_0 hstage4_0

abbrev spec4_1 : Pipeline.WinSpec sig grid4.rank :=
  Pipeline.WinSpec.ofSpec (Memref.whole main_v49) S1x2048.size reads4_1 false false 2 stage4_1 sem4_1 nbuf4_1 hstage4_1

abbrev spec4_2 : Pipeline.WinSpec sig grid4.rank :=
  Pipeline.WinSpec.ofSpec (Memref.whole main_v63) S1024x128.size reads4_2 false false 2 stage4_2 sem4_2 nbuf4_2 hstage4_2

abbrev spec4_3 : Pipeline.WinSpec sig grid4.rank :=
  Pipeline.WinSpec.ofSpec (Memref.whole main_v64) S2048x128.size reads4_3 true false 2 stage4_3 sem4_3 nbuf4_3 hstage4_3

abbrev spec4 : Fin 4 → Pipeline.WinSpec sig grid4.rank := fun | 0 => spec4_0 | 1 => spec4_1 | 2 => spec4_2 | 3 => spec4_3 | ⟨_ + 4, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | 3 => nbuf4_3 | ⟨_ + 4, h⟩ => absurd h (Nat.not_lt.2 (Nat.le_add_left _ _))
abbrev ix4 (pf : pre4.Contents (Elt F)) : (w : Fin 4) → grid4.Coords → Fin (spec4 w).shape.rank → Nat := fun | 0 => cc4_transform_0 | 1 => cc4_transform_1 | 2 => cc4_transform_2 | 3 => cc4_transform_3 | ⟨_ + 4, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | 2 => hreads4_2 | 3 => hreads4_3 | ⟨_ + 4, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | 1 => hinb4_1 | 2 => hinb4_2 | 3 => hinb4_3 | ⟨_ + 4, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | 1 => hwx4_1 | 2 => hwx4_2 | 3 => hwx4_3 | ⟨_ + 4, h⟩ => absurd h (Nat.not_lt.2 (Nat.le_add_left _ _))
abbrev idle4 : Fin 4 → grid4.Coords → Bool := fun | 0 => fun _ => false | 1 => fun _ => false | 2 => fun _ => false | 3 => fun i => !(k4_cond3 i == 1#1) | ⟨_ + 4, h⟩ => absurd h (Nat.not_lt.2 (Nat.le_add_left _ _))

abbrev spec5_0 : Pipeline.WinSpec sig grid5.rank :=
  Pipeline.WinSpec.ofSpec (Memref.whole main_v50) S1x2048.size reads5_0 false false 2 stage5_0 sem5_0 nbuf5_0 hstage5_0

abbrev spec5_1 : Pipeline.WinSpec sig grid5.rank :=
  Pipeline.WinSpec.ofSpec (Memref.whole main_v71) S2048x128.size reads5_1 false false 2 stage5_1 sem5_1 nbuf5_1 hstage5_1

abbrev spec5_2 : Pipeline.WinSpec sig grid5.rank :=
  Pipeline.WinSpec.ofSpec (Memref.whole main_v72) S1024x128.size reads5_2 true false 2 stage5_2 sem5_2 nbuf5_2 hstage5_2

abbrev spec5 : Fin 3 → Pipeline.WinSpec sig grid5.rank := fun | 0 => spec5_0 | 1 => spec5_1 | 2 => spec5_2 | ⟨_ + 3, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | ⟨_ + 3, h⟩ => absurd h (Nat.not_lt.2 (Nat.le_add_left _ _))
abbrev ix5 (pf : pre5.Contents (Elt F)) : (w : Fin 3) → grid5.Coords → Fin (spec5 w).shape.rank → Nat := fun | 0 => cc5_transform_0 | 1 => cc5_transform_1 | 2 => cc5_transform_2 | ⟨_ + 3, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | 1 => hreads5_1 | 2 => hreads5_2 | ⟨_ + 3, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | 1 => hinb5_1 | 2 => hinb5_2 | ⟨_ + 3, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | 1 => hwx5_1 | 2 => hwx5_2 | ⟨_ + 3, h⟩ => absurd h (Nat.not_lt.2 (Nat.le_add_left _ _))
abbrev idle5 : Fin 3 → grid5.Coords → Bool := fun | 0 => fun _ => false | 1 => fun _ => false | 2 => fun i => !(k5_cond3 i == 1#1) | ⟨_ + 3, h⟩ => absurd h (Nat.not_lt.2 (Nat.le_add_left _ _))

abbrev win6_0 : Pipeline.Window sig grid6 :=
  Pipeline.Window.ofSpec (Memref.whole main_v72) S1024x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v73) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v76) S1024x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev spec7_0 : Pipeline.WinSpec sig grid7.rank :=
  Pipeline.WinSpec.ofSpec (Memref.whole main_v48) S1x2048.size reads7_0 false false 2 stage7_0 sem7_0 nbuf7_0 hstage7_0

abbrev spec7_1 : Pipeline.WinSpec sig grid7.rank :=
  Pipeline.WinSpec.ofSpec (Memref.whole main_v49) S1x2048.size reads7_1 false false 2 stage7_1 sem7_1 nbuf7_1 hstage7_1

abbrev spec7_2 : Pipeline.WinSpec sig grid7.rank :=
  Pipeline.WinSpec.ofSpec (Memref.whole main_v76) S1024x128.size reads7_2 false false 2 stage7_2 sem7_2 nbuf7_2 hstage7_2

abbrev spec7_3 : Pipeline.WinSpec sig grid7.rank :=
  Pipeline.WinSpec.ofSpec (Memref.whole main_v77) S2048x128.size reads7_3 true false 2 stage7_3 sem7_3 nbuf7_3 hstage7_3

abbrev spec7 : Fin 4 → Pipeline.WinSpec sig grid7.rank := fun | 0 => spec7_0 | 1 => spec7_1 | 2 => spec7_2 | 3 => spec7_3 | ⟨_ + 4, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | 3 => nbuf7_3 | ⟨_ + 4, h⟩ => absurd h (Nat.not_lt.2 (Nat.le_add_left _ _))
abbrev ix7 (pf : pre7.Contents (Elt F)) : (w : Fin 4) → grid7.Coords → Fin (spec7 w).shape.rank → Nat := fun | 0 => cc7_transform_0 | 1 => cc7_transform_1 | 2 => cc7_transform_2 | 3 => cc7_transform_3 | ⟨_ + 4, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | 1 => hreads7_1 | 2 => hreads7_2 | 3 => hreads7_3 | ⟨_ + 4, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | 1 => hinb7_1 | 2 => hinb7_2 | 3 => hinb7_3 | ⟨_ + 4, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | 1 => hwx7_1 | 2 => hwx7_2 | 3 => hwx7_3 | ⟨_ + 4, h⟩ => absurd h (Nat.not_lt.2 (Nat.le_add_left _ _))
abbrev idle7 : Fin 4 → grid7.Coords → Bool := fun | 0 => fun _ => false | 1 => fun _ => false | 2 => fun _ => false | 3 => fun i => !(k7_cond3 i == 1#1) | ⟨_ + 4, h⟩ => absurd h (Nat.not_lt.2 (Nat.le_add_left _ _))

abbrev spec8_0 : Pipeline.WinSpec sig grid8.rank :=
  Pipeline.WinSpec.ofSpec (Memref.whole main_v50) S1x2048.size reads8_0 false false 2 stage8_0 sem8_0 nbuf8_0 hstage8_0

abbrev spec8_1 : Pipeline.WinSpec sig grid8.rank :=
  Pipeline.WinSpec.ofSpec (Memref.whole main_v84) S2048x128.size reads8_1 false false 2 stage8_1 sem8_1 nbuf8_1 hstage8_1

abbrev spec8_2 : Pipeline.WinSpec sig grid8.rank :=
  Pipeline.WinSpec.ofSpec (Memref.whole main_v85) S1024x128.size reads8_2 true false 2 stage8_2 sem8_2 nbuf8_2 hstage8_2

abbrev spec8 : Fin 3 → Pipeline.WinSpec sig grid8.rank := fun | 0 => spec8_0 | 1 => spec8_1 | 2 => spec8_2 | ⟨_ + 3, h⟩ => absurd h (Nat.not_lt.2 (Nat.le_add_left _ _))
theorem hcount8 : ∀ w, grid8.bufCount (spec8 w).reads (spec8 w).sync = (spec8 w).nbuf := fun | 0 => nbuf8_0 | 1 => nbuf8_1 | 2 => nbuf8_2 | ⟨_ + 3, h⟩ => absurd h (Nat.not_lt.2 (Nat.le_add_left _ _))
abbrev ix8 (pf : pre8.Contents (Elt F)) : (w : Fin 3) → grid8.Coords → Fin (spec8 w).shape.rank → Nat := fun | 0 => cc8_transform_0 | 1 => cc8_transform_1 | 2 => cc8_transform_2 | ⟨_ + 3, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 | 1 => hreads8_1 | 2 => hreads8_2 | ⟨_ + 3, h⟩ => absurd h (Nat.not_lt.2 (Nat.le_add_left _ _))
def ok8 (_ : pre8.Contents (Elt F)) : Prop :=
  True
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun _ _ => fun | 0 => hinb8_0 | 1 => hinb8_1 | 2 => hinb8_2 | ⟨_ + 3, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun _ _ => fun | 0 => hwx8_0 | 1 => hwx8_1 | 2 => hwx8_2 | ⟨_ + 3, h⟩ => absurd h (Nat.not_lt.2 (Nat.le_add_left _ _))
abbrev idle8 : Fin 3 → grid8.Coords → Bool := fun | 0 => fun _ => false | 1 => fun _ => false | 2 => fun i => !(k8_cond3 i == 1#1) | ⟨_ + 3, h⟩ => absurd h (Nat.not_lt.2 (Nat.le_add_left _ _))

class Facts : Prop extends Facts₀ where
  harr1 : ∀ w, (spec1 w).arr.IsWhole
  harr2 : ∀ w, (spec2 w).arr.IsWhole
  harr4 : ∀ w, (spec4 w).arr.IsWhole
  harr5 : ∀ w, (spec5 w).arr.IsWhole
  harr7 : ∀ w, (spec7 w).arr.IsWhole
  harr8 : ∀ w, (spec8 w).arr.IsWhole

variable [Facts]
-- ==== ReferenceIdeal.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000x128 : Shape := ⟨2, ![50000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩

abbrev nBuf : Space → Nat
  | .hbm => 76
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S50000x128, .f32⟩
  | .hbm, ⟨11, _⟩ => ⟨S1x128, .f32⟩
  | .hbm, ⟨12, _⟩ => ⟨S50000x128, .f32⟩
  | .hbm, ⟨13, _⟩ => ⟨S50000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x1, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S800000x1, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x64, .f32⟩
  | .hbm, ⟨57, _⟩ => ⟨S1x64, .f32⟩
  | .hbm, ⟨58, _⟩ => ⟨S50000x64, .f32⟩
  | .hbm, ⟨59, _⟩ => ⟨S50000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S800000x1, .f32⟩
  | .hbm, ⟨70, _⟩ => ⟨S800000x64, .f32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_4 : Ref sig .tc := ⟨.hbm, 60, rfl⟩
abbrev main_v40 : Ref sig .tc := ⟨.hbm, 61, rfl⟩
abbrev main_v41 : Ref sig .tc := ⟨.hbm, 62, rfl⟩
abbrev main_c_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.K.RunAll.lean ====
import proofs.«429835_j17746804867087_2_alg».proof.Proof.K.RegionsP

set_option maxRecDepth 1556

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 9) → (pcfgs (F := F) p).Adm)
    (pdats : (p : Fin 9) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V20 m c) ∗ E 0 c) ⊢ R0.pre c)
    (hpost0 : ∀ c : Dev nD, R0.post c ⊢ iprop(StableHlo.held (c : Thread nD τ) (Pipeline.ucRefs τ sig) (V21 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V21 m outs c) ∗ E 1 c) ⊢ R1.pre c)
    (hpost1 : ∀ c : Dev nD, R1.post c ⊢ iprop(StableHlo.held (c : Thread nD τ) (Pipeline.ucRefs τ sig) (V22 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V23 m outs c) ∗ E 2 c) ⊢ R2.pre c)
    (hpost2 : ∀ c : Dev nD, R2.post c ⊢ iprop(StableHlo.held (c : Thread nD τ) (Pipeline.ucRefs τ sig) (V24 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V25 m outs c) ∗ E 3 c) ⊢ R3.pre c)
    (hpost3 : ∀ c : Dev nD, R3.post c ⊢ iprop(StableHlo.held (c : Thread nD τ) (Pipeline.ucRefs τ sig) (V26 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V26 m outs c) ∗ E 4 c) ⊢ R4.pre c)
    (hpost4 : ∀ c : Dev nD, R4.post c ⊢ iprop(StableHlo.held (c : Thread nD τ) (Pipeline.ucRefs τ sig) (V27 m outs c) ∗ E 5 c))
    (R5 : RegionSeg (pcfgs (F := F)) a pdats ι defs₀ 𝒱₀ L lv 5)
    (hpre5 : ∀ c : Dev nD, iprop(StableHlo.held (c : Thread nD τ) (Pipeline.ucRefs τ sig) (V28 m outs c) ∗ E 5 c) ⊢ R5.pre c)
    (hpost5 : ∀ c : Dev nD, R5.post c ⊢ iprop(StableHlo.held (c : Thread nD τ) (Pipeline.ucRefs τ sig) (V29 m outs c) ∗ E 6 c))
    (R6 : RegionSeg (pcfgs (F := F)) a pdats ι defs₀ 𝒱₀ L lv 6)
    (hpre6 : ∀ c : Dev nD, iprop(StableHlo.held (c : Thread nD τ) (Pipeline.ucRefs τ sig) (V34 m outs c) ∗ E 6 c) ⊢ R6.pre c)
    (hpost6 : ∀ c : Dev nD, R6.post c ⊢ iprop(StableHlo.held (c : Thread nD τ) (Pipeline.ucRefs τ sig) (V35 m outs c) ∗ E 7 c))
    (R7 : RegionSeg (pcfgs (F := F)) a pdats ι defs₀ 𝒱₀ L lv 7)
    (hpre7 : ∀ c : Dev nD, iprop(StableHlo.held (c : Thread nD τ) (Pipeline.ucRefs τ sig) (V35 m outs c) ∗ E 7 c) ⊢ R7.pre c)
    (hpost7 : ∀ c : Dev nD, R7.post c ⊢ iprop(StableHlo.held (c : Thread nD τ) (Pipeline.ucRefs τ sig) (V36 m outs c) ∗ E 8 c))
    (R8 : RegionSeg (pcfgs (F := F)) a pdats ι defs₀ 𝒱₀ L lv 8)
    (hpre8 : ∀ c : Dev nD, iprop(StableHlo.held (c : Thread nD τ) (Pipeline.ucRefs τ sig) (V37 m outs c) ∗ E 8 c) ⊢ R8.pre c)
    (hpost8 : ∀ c : Dev nD, R8.post c ⊢ iprop(StableHlo.held (c : Thread nD τ) (Pipeline.ucRefs τ sig) (V38 m outs c) ∗ E 9 c)) :
    θ_run defs (onTc (τ := τ) (main (F := F))) ⟨m, fun _ => 0, ρ⟩ (fun r => ∀ c : Dev nD,
      ∀ b ∈ Pipeline.ucRefs τ sig, r.2.mem ((c : Thread nD τ).1, b) = V39 m outs c b) := by
  refine Pipeline.θ_run_regions_kit_dev (pcfgs (F := F)) a pdats ι (cellOf_inj a) EP defs₀ 𝒱₀ L lv m ρ main
    (segs m outs 𝒱₀ L lv E ι a pdats R0 R1 R2 R3 R4 R5 R6 R7 R8)
    (fun c Q => by
      rewrite [Seg.run_eq_chain, show main (F := F) c = Pipeline.chain ((segs m outs 𝒱₀ L lv E ι a pdats R0 R1 R2 R3 R4 R5 R6 R7 R8 c).map Seg.prog) from main_chain c]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V39 m outs c))
    (hch := fun c => ⟨.rfl, .rfl, .rfl, .rfl, .rfl, .rfl, .rfl, .rfl, .rfl, .rfl, .rfl, .rfl, .rfl, .rfl, .rfl, .rfl, .rfl, .rfl, .rfl, .rfl, hpre0 c, (hpost0 c).trans (hpre1 c), hpost1 c, hpre2 c, hpost2 c, hpre3 c, (hpost3 c).trans (hpre4 c), hpost4 c, hpre5 c, hpost5 c, .rfl, .rfl, .rfl, .rfl, hpre6 c, (hpost6 c).trans (hpre7 c), hpost7 c, hpre8 c, hpost8 c, sep_mono .rfl (hE9 c)⟩)
    (hinit := ?_) (QY := fun c s => ∀ b ∈ Pipeline.ucRefs τ sig, s.mem ((c : Thread nD τ).1, b) = V39 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    exact (pointsTo_read_all (Pipeline.ucRefs τ sig) (fun b => ((c : Thread nD τ).1, b)) (V39 m outs c) s').trans fupd_intro

end Cert.Kernel.Gen

end
-- ==== Proof.Lib.lean ====
import Idealize.ShloMosaic.Lib.Pipeline.FrameBody
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

noncomputable section

namespace Cert.Lib

open Idealize.ShloMosaic Idealize.SL Idealize.SL.RA Idealize.SL.BI
open scoped Idealize.SL.BI
open scoped BigOperators
open Idealize.SL.BI.BIBase Idealize.SL.BI.Laws Idealize.SL.ProofMode Idealize.SL.Sem

variable {Val : EltTy → Type} [∀ e, Nonempty (Val e)] {sig : RefSig} {κ : Kind} {sp : Space} {S : Shape} {e : EltTy}

theorem zz2 : (![0, 0] : Fin 2 → ℕ) = fun _ => 0 := by
  funext a; match a with | ⟨0, _⟩ => rfl | ⟨1, _⟩ => rfl

-- The rectangle at offset zero of full extent is the whole block, so a load through it reads the view.
theorem readAt_full (v : View sig κ sp S e) {off : Fin S.rank → ℕ} (h : off = fun _ => 0)
    (inb : ∀ a, off a + S.size a ≤ S.size a) (f : v.ty.Contents Val) :
    v.readAt Val (Rect.unit off S.size inb).toLoadRect f = v.read Val f :=
  View.ld_unit_zero h inb (v.read Val f)

-- A store of the whole block made last overwrites every index, whatever was stored before.
theorem read_writes_full (v : View sig κ sp S e) {off : Fin S.rank → ℕ} (h : off = fun _ => 0)
    (inb : ∀ a, off a + S.size a ≤ S.size a) (f : v.ty.Contents Val) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h]

theorem bigSep_K2 {M : Type} [URA M] (Φ : Fin 2 → sProp M) :
    bigSep Finset.univ Φ = iprop(Φ (0 : Fin 2) ∗ Φ (1 : Fin 2)) :=
  bigSep_univ_eq_bigSepL [(0 : Fin 2), (1 : Fin 2)] (by decide) (by decide) Φ

/-- Word arithmetic is arithmetic modulo 2 ^ 32 on both sides. -/
theorem word_mul_add (b m k : ℕ) :
    IntOp.addi (Scalar.muli (BitVec.ofNat 32 b) (BitVec.ofNat 32 m)) (BitVec.ofNat 32 k) = BitVec.ofNat 32 (b * m + k) := by
  show BitVec.ofNat 32 b * BitVec.ofNat 32 m + BitVec.ofNat 32 k = _
  rw [BitVec.ofNat_add, BitVec.ofNat_mul]

/-- An equality bit, widened to a word and read as a signed integer, is 1 or 0. -/
theorem onehot_eq (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  by_cases h : a = b
  · rw [if_pos h, beq_iff_eq.mpr h, show ((BitVec.ofBool true).setWidth 32).toInt = 1 by decide]; norm_num
  · rw [if_neg h, beq_eq_false_iff_ne.mpr h, show ((BitVec.ofBool false).setWidth 32).toInt = 0 by decide]; norm_num

/-- A column broadcast along the rows reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

/-- A product into the zero array that contracts one axis of extent n, read at an index: the sum over that axis of the
    operands' products, the operands' indices named coordinate by coordinate. -/
theorem matmul_zero_apply {sl sr so : Shape} {φ₁ φ₂ : FTy} (d : DotDims sl sr so) (n : ℕ) (hr : d.contr.rank = 1)
    (hs : d.contr.size ⟨0, by omega⟩ = n) (l : FVec Ideal sl φ₁) (m : FVec Ideal sr φ₂) (i : so.Idx)
    (li : Fin n → sl.Idx) (ri : Fin n → sr.Idx)
    (hl : ∀ q a, (d.lhsIdx i q a).val = (li (ValueIdx.contrEquiv1 d n hr hs q) a).val)
    (hri : ∀ q a, (d.rhsIdx i q a).val = (ri (ValueIdx.contrEquiv1 d n hr hs q) a).val) :
    FloatOps.matmul d none l m (constant so .f32 0x00000000#32) i = ∑ k : Fin n, l (li k) * m (ri k) := by
  rw [Ideal.matmul_constant_zero_apply]
  refine Fintype.sum_equiv (ValueIdx.contrEquiv1 d n hr hs) _ _ fun q => ?_
  rw [show d.lhsIdx i q = li _ from funext fun a => Fin.ext (hl q a),
    show d.rhsIdx i q = ri _ from funext fun a => Fin.ext (hri q a)]

/-- The word of a number below 2 ^ 31, read signed, is the number. -/
theorem toInt_ofNat_lt (n : ℕ) (h : n < 2147483648) : (BitVec.ofNat 32 n).toInt = (n : Int) := by
  have h1 : (BitVec.ofNat 32 n).toNat = n := by rw [BitVec.toNat_ofNat]; omega
  rw [BitVec.toInt_eq_toNat_cond, h1]
  split <;> omega

/-- The conjunction of the two signed comparison bits l ≤ n and n ≤ u, widened and tested against zero. -/
theorem guard_iff (l u : BitVec 32) (n : ℕ) (h : n < 2147483648) :
    Scalar.cmpi .ne ((Scalar.extui (Scalar.andi (Scalar.cmpi .sge (BitVec.ofNat 32 n) l)
      (Scalar.cmpi .sle (BitVec.ofNat 32 n) u)) : BitVec 32)) 0#32 = 1#1 ↔ l.toInt ≤ (n : Int) ∧ (n : Int) ≤ u.toInt := by
  rw [← toInt_ofNat_lt n h, ← BitVec.sle_iff_toInt_le, ← BitVec.sle_iff_toInt_le]
  show Scalar.cmpi .ne (Scalar.extui (Scalar.andi (BitVec.ofBool (l.sle (BitVec.ofNat 32 n)))
    (BitVec.ofBool ((BitVec.ofNat 32 n).sle u))) : BitVec 32) 0#32 = 1#1 ↔ _
  cases l.sle (BitVec.ofNat 32 n) <;> cases (BitVec.ofNat 32 n).sle u <;> decide

/-- A guarded running sum, read through ev, is the sum of the admitted steps' terms. -/
theorem guarded_sum {X : Type} {N : ℕ} (A : Fin N → Prop) [DecidablePred A] (step : Fin N → X → X) (ps : ℕ → X)
    (ev : X → EReal) (t : Fin N → EReal) (h0 : ev (ps 0) = 0)
    (hs : ∀ (n : ℕ) (h : n < N), ps (n + 1) = if A ⟨n, h⟩ then step ⟨n, h⟩ (ps n) else ps n)
    (hstep : ∀ b x, A b → ev (step b x) = ev x + t b) :
    ev (ps N) = ∑ b : Fin N, if A b then t b else 0 := by
  have key : ∀ (n : ℕ) (hn : n ≤ N), ev (ps n) = ∑ i : Fin n, if A (Fin.castLE hn i) then t (Fin.castLE hn i) else 0 := by
    intro n
    induction n with
    | zero => intro _; rw [h0]; rfl
    | succ n ih =>
      intro hn
      rw [Fin.sum_univ_castSucc, hs n hn]
      have e := ih (Nat.le_of_succ_le hn)
      by_cases ha : A ⟨n, hn⟩
      · rw [if_pos ha, hstep _ _ ha, e]
        exact congrArg (_ + ·) (if_pos ha).symm
      · rw [if_neg ha, e]
        exact (add_zero _).symm.trans (congrArg (_ + ·) (if_neg ha).symm)
  exact key N le_rfl

-- An output window writes its block back at a point whose successor, if there is one, has another block index.
theorem flush_of_index_ne {sig : RefSig} {G : Pipeline.Grid} (w : Pipeline.Window sig G) (hout : w.isOut = true) (t : Fin G.N)
    (ax : Fin w.shape.rank) (h : ∀ hlt : t.val + 1 < G.N, w.index ⟨t.val + 1, hlt⟩ ax ≠ w.index t ax) : w.flush t = true := by
  rw [w.flush_out hout]
  by_cases hl : t.val + 1 = G.N
  · exact Or.inl hl
  · have hlt : t.val + 1 < G.N := by have := t.isLt; omega
    exact Or.inr ⟨hlt, fun he => h hlt (congrFun he ax)⟩

end Cert.Lib

end
-- ==== Proof.K.L0Obl.lean ====
import proofs.«429835_j17746804867087_2_alg».proof.Proof.Gen.Kernel.Launch
import proofs.«429835_j17746804867087_2_alg».proof.Proof.Gen.Kernel.Skeleton
import proofs.«429835_j17746804867087_2_alg».proof.Proof.Gen.Kernel.Points
import proofs.«429835_j17746804867087_2_alg».proof.Proof.Lib

noncomputable section

namespace Cert.Kernel.L0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev rOut : Rect S1024x128 := Rect.unit (s := S1024x128) ![0, 0] S1024x128.size inb_S1024x128_S1024x128_0_0
abbrev rX : Rect S1024x256 := Rect.unit (s := S1024x256) ![0, 0] S1024x256.size inb_S1024x256_S1024x256_0_0
abbrev rW : Rect S256x128 := Rect.unit (s := S256x128) ![0, 0] S256x128.size inb_S256x128_S256x128_0_0
abbrev rB : Rect S1x128 := Rect.unit (s := S1x128) ![0, 0] S1x128.size inb_S1x128_S1x128_0_0

def out (x : Vec F S1024x256 .f32) (W : Vec F S256x128 .f32) (b : Vec F S1x128 .f32) : Vec F S1024x128 .f32 :=
  View.canon [⟨rOut, k0_pay1 (View.ld x rX) (View.ld W rW) (View.ld b rB)⟩]

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := rfl

theorem before_in (c : Dev nD) (t : Fin cfg0.N) :
    ∀ w : Fin cfg0.W, w ≠ 3 → ∀ d, (dat V c).before w t d = (dat V c).fetched w t d
  | ⟨0, _⟩, _ | ⟨1, _⟩, _ | ⟨2, _⟩, _ =>
    (dat V c).before_in_eq_fetched _ rfl (fun _ => rfl) (fun _ _ _ => rfl) (fun _ => rfl) t
  | ⟨3, _⟩, h => absurd rfl h

-- The body loads the three input blocks whole and stores the output block whole: the payload of what it loaded.
theorem sound_kernel (c : Dev nD) (E : Set ℕ) (i : grid0.Coords)
    (a0 : Memref sig .tc .vmem S1024x256 .f32) (h0 : a0.IsWhole) (a1 : Memref sig .tc .vmem S256x128 .f32) (h1 : a1.IsWhole)
    (a2 : Memref sig .tc .vmem S1x128 .f32) (h2 : a2.IsWhole) (a3 : Memref sig .tc .vmem S1024x128 .f32) (h3 : a3.IsWhole)
    (x : Vec F S1024x256 .f32) (W : Vec F S256x128 .f32) (b : Vec F S1x128 .f32) (K : PUnit → sProp 𝕄) :
    iprop(owns (c : Thread nD τ) a0 fullShare x ∗ owns (c : Thread nD τ) a1 fullShare W ∗ owns (c : Thread nD τ) a2 fullShare b
        ∗ (∃ d, owns (c : Thread nD τ) a3 fullShare d)
        ∗ (iprop(owns (c : Thread nD τ) a0 fullShare x ∗ owns (c : Thread nD τ) a1 fullShare W
            ∗ owns (c : Thread nD τ) a2 fullShare b ∗ owns (c : Thread nD τ) a3 fullShare (out x W b)) -∗ K ⟨⟩))
      ⊢ wp frame (wpE (defs₀ (F := F)) Variants.none c none) E (cc0__linear_kernel i a0 h0 a1 h1 a2 h2 a3 h3) K := by
  simp only [cc0__linear_kernel_eq_skeleton]; unfold cc0__linear_kernel_skel owns
  iintro ⟨⟨%f0, %e0, H0⟩, ⟨%f1, %e1, H1⟩, ⟨%f2, %e2, H2⟩, ⟨%_, %f3, -, H3⟩, Hk⟩
  subst e0 e1 e2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ fun y => ⟨_, List.mem_singleton_self _, View.mem_set_unit_zero Cert.Lib.zz2 inb_S1024x128_S1024x128_0_0 y⟩

set_option maxRecDepth 16384 in
theorem sound_body (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d))
        ∗ (∃ d, owns (c : Thread nD τ) (st0_3 t) fullShare ((dat V c).before 3 t d)))
      ⊢ wp frame (wpE (defs₀ (F := F)) Variants.none c none) Set.univ (bodyAt0 t) fun _ =>
        iprop((dat V c).Φ t.succ ∗ (dat V c).owesAt () t.succ
          ∗ owns (c : Thread nD τ) (st0_0 t) fullShare ((dat V c).after 0 t)
          ∗ owns (c : Thread nD τ) (st0_1 t) fullShare ((dat V c).after 1 t)
          ∗ owns (c : Thread nD τ) (st0_2 t) fullShare ((dat V c).after 2 t)
          ∗ owns (c : Thread nD τ) (st0_3 t) fullShare ((dat V c).after 3 t)) := by
  have e0 : ∀ d, (dat V c).before 0 t d = iblk V c 0 t := before_in V c t 0 (by decide)
  have e1 : ∀ d, (dat V c).before 1 t d = iblk V c 1 t := before_in V c t 1 (by decide)
  have e2 : ∀ d, (dat V c).before 2 t d = iblk V c 2 t := before_in V c t 2 (by decide)
  simp only [e0, e1, e2]
  rw [show (dat V c).Φ t.succ = (dat V c).Φ t.castSucc from rfl,
    show (dat V c).owesAt () t.succ = (dat V c).owesAt () t.castSucc from rfl]
  dsimp only [dat]
  unfold bodyAt0
  iintro ⟨HΦ, Ho, ⟨%_, H0⟩, ⟨%_, H1⟩, ⟨%_, H2⟩, ⟨%_, H3⟩⟩
  iapply (sound_kernel c Set.univ _ _ _ _ _ _ _ _ _ (iblk V c 0 t) (iblk V c 1 t) (iblk V c 2 t) _)
  iframe H0 H1 H2
  isplitl [H3]; · iexists _; iexact H3
  iintro ⟨H0, H1, H2, H3⟩
  iframe

theorem body_obligation (c : Dev nD) : BodyObligation (dat (F := F) V c) (defs₀ (F := F)) Variants.none () Set.univ := fun t => by
  rw [bigSep_W0, bigSep_W0]
  exact sound_body V c t

end Cert.Kernel.L0

end
-- ==== Proof.K.G1Def.lean ====
import proofs.«429835_j17746804867087_2_alg».proof.Proof.Gen.Kernel.Launch
import proofs.«429835_j17746804867087_2_alg».proof.Proof.Gen.Kernel.Skeleton
import Idealize.ShloMosaic.Lib.Pipeline.FrameBody
import Idealize.ShloMosaic.Lib.Pipeline.Regions
import Idealize.ShloMosaic.Lib.ValueIdx
import Idealize.ShloMosaic.Lib.Tactic

set_option maxRecDepth 16384

noncomputable section

namespace Cert.Kernel.G1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

theorem N_eq : (cfg1 a).N = 19159 := N_1

theorem eb_lt (t : Fin (cfg1 a).N) : t.val / 49 < 391 := by
  have h : t.val < 19159 := lt_of_lt_of_eq t.isLt (N_eq a)
  omega

def pt (eb : Fin 391) (n : Fin 49) : Fin (cfg1 a).N := ⟨49 * eb.val + n.val, by rw [N_eq a]; omega⟩

def iblk (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

def lo (c : Dev nD) (eb : Fin 391) : BitVec 32 := V c main_v37 (ValueIdx.ix1 eb)
def hi (c : Dev nD) (eb : Fin 391) : BitVec 32 := V c main_v40 (ValueIdx.ix1 eb)

def act (c : Dev nD) (eb : Fin 391) (nb : Fin 49) : Prop :=
  Scalar.cmpi .ne ((Scalar.extui (Scalar.andi (Scalar.cmpi .sge (BitVec.ofNat 32 nb.val) (lo V c eb))
    (Scalar.cmpi .sle (BitVec.ofNat 32 nb.val) (hi V c eb))) : BitVec 32)) 0#32 = 1#1

instance (c : Dev nD) (eb : Fin 391) (nb : Fin 49) : Decidable (act V c eb nb) := by unfold act; infer_instance

def psum (c : Dev nD) (eb : Fin 391) : Nat → Vec F S2048x128 .f32
  | 0 => k1_pay1
  | n + 1 =>
    if h : n < 49 then
      if act V c eb ⟨n, h⟩ then
        k1_pay2 (grid1.coords (pt a eb ⟨n, h⟩)) (iblk V a c 0 (pt a eb ⟨n, h⟩)) (iblk V a c 1 (pt a eb ⟨n, h⟩))
          (iblk V a c 2 (pt a eb ⟨n, h⟩)) (psum c eb n)
      else psum c eb n
    else psum c eb n

abbrev scM : Memref sig .tc .vmem S2048x128 .f32 := Memref.whole cc1_scratch0

def dat (c : Dev nD) : Dat τ (Elt F) Unit ℕ (UR sig nD τ) ℕ (cfg1 a) c where
  A w := V c (Pipeline.arrRef spec1 w)
  after w t := match w with
    | ⟨0, _⟩ => iblk V a c 0 t
    | ⟨1, _⟩ => iblk V a c 1 t
    | ⟨2, _⟩ => iblk V a c 2 t
    | ⟨3, _⟩ => k1_pay3 (psum V a c ⟨t.val / 49, eb_lt a t⟩ 49)
  Φ t := iprop((∃ f : Vec F S2048x128 .f32,
        ⌜∀ eb : Fin 391, eb.val = t.val / 49 → t.val % 49 ≠ 0 → f = psum V a c eb (t.val % 49)⌝
          ∗ owns (c : Thread nD τ) scM fullShare f)
      ∗ Pipeline.scopedRestBut (Ix := Unit) (Name := ℕ) (U := UR sig nD τ) (Lvl := ℕ) (Val := Elt F) spec1 c [cc1_scratch0]
      ∗ (∃ r, prngReg c r)
      ∗ Pipeline.prefHeld (Ix := Unit) (Name := ℕ) (U := UR sig nD τ) (Lvl := ℕ) pre1 c (fun _ => fullShare) a.1)
  q _ := fullShare
  owed _ := 0

end Cert.Kernel.G1

end
-- ==== Proof.K.S2Def.lean ====
import proofs.«429835_j17746804867087_2_alg».proof.Proof.Gen.Kernel.Launch
import proofs.«429835_j17746804867087_2_alg».proof.Proof.Gen.Kernel.Skeleton
import Idealize.ShloMosaic.Lib.Pipeline.FrameBody
import Idealize.ShloMosaic.Lib.ValueIdx

set_option maxRecDepth 16384

noncomputable section

namespace Cert.Kernel.S2

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg2 (F := F)).Adm)

def iblk (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

def nbOf (t : ℕ) : Fin 49 := ⟨t / 391 % 49, Nat.mod_lt _ (by decide)⟩

def pt (nb : Fin 49) (n : ℕ) (h : n < 391) : Fin (cfg2 a).N :=
  ⟨nb.val * 391 + n, by have h49 := nb.isLt; have hN : (cfg2 a).N = 19159 := N_2; omega⟩

def lo (c : Dev nD) (eb : Fin 391) : BitVec 32 := V c main_v44 (ValueIdx.ix1 eb)

def hi (c : Dev nD) (eb : Fin 391) : BitVec 32 := V c main_v47 (ValueIdx.ix1 eb)

def act (c : Dev nD) (nb : Fin 49) (eb : Fin 391) : Prop :=
  Scalar.cmpi .ne (Scalar.extui (Scalar.andi (Scalar.cmpi .sge (BitVec.ofNat 32 nb.val) (lo V c eb))
    (Scalar.cmpi .sle (BitVec.ofNat 32 nb.val) (hi V c eb))) : BitVec 32) 0#32 = 1#1

instance (c : Dev nD) (nb : Fin 49) (eb : Fin 391) : Decidable (act V c nb eb) := by unfold act; infer_instance

def psum (c : Dev nD) (nb : Fin 49) : ℕ → Vec F S1024x128 .f32
  | 0 => k2_pay1
  | n + 1 =>
    if h : n < 391 then
      if act V c nb ⟨n, h⟩ then
        k2_pay2 (grid2.coords (pt a nb n h)) (iblk V a c 0 (pt a nb n h)) (iblk V a c 1 (pt a nb n h)) (psum c nb n)
      else psum c nb n
    else psum c nb n

def Phi (c : Dev nD) (t : Fin ((cfg2 a).N + 1)) : sProp 𝕄 :=
  iprop((∃ f : Buf (Elt F) ((c : Thread nD τ).loc cc2_scratch0),
          ⌜t.val % 391 ≠ 0 → f = psum V a c (nbOf t.val) (t.val % 391)⌝ ∗ (((c : Thread nD τ).loc cc2_scratch0) ↦{fullShare} f))
      ∗ Pipeline.scopedRestBut (Ix := Unit) (Name := ℕ) (U := UR sig nD τ) (Lvl := ℕ) (Val := Elt F) spec2 c [cc2_scratch0]
      ∗ (∃ r, prngReg c r)
      ∗ Pipeline.prefHeld pre2 c (fun _ => fullShare) a.1)

def dat (c : Dev nD) : Dat τ (Elt F) Unit ℕ (UR sig nD τ) ℕ (cfg2 a) c where
  A w := V c (Pipeline.arrRef spec2 w)
  after w t := match w with
    | ⟨0, _⟩ => iblk V a c 0 t
    | ⟨1, _⟩ => iblk V a c 1 t
    | ⟨2, _⟩ => k2_pay3 (psum V a c (nbOf t.val) 391)
  Φ t := Phi V a c t
  q _ := fullShare
  owed _ := 0

end Cert.Kernel.S2

end
-- ==== Proof.K.L3Obl.lean ====
import proofs.«429835_j17746804867087_2_alg».proof.Proof.Gen.Kernel.Launch
import proofs.«429835_j17746804867087_2_alg».proof.Proof.Gen.Kernel.Skeleton
import proofs.«429835_j17746804867087_2_alg».proof.Proof.Gen.Kernel.Points
import proofs.«429835_j17746804867087_2_alg».proof.Proof.Lib

noncomputable section

namespace Cert.Kernel.L3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

abbrev rOut : Rect S1024x128 := Rect.unit (s := S1024x128) ![0, 0] S1024x128.size inb_S1024x128_S1024x128_0_0
abbrev rX : Rect S1024x128 := Rect.unit (s := S1024x128) ![0, 0] S1024x128.size inb_S1024x128_S1024x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

def out (x : Vec F S1024x128 .f32) (W : Vec F S128x128 .f32) (b : Vec F S1x128 .f32) : Vec F S1024x128 .f32 :=
  View.canon [⟨rOut, k3_pay1 (View.ld x rX) (View.ld W rW) (View.ld b rB)⟩]

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec3 c
  q _ := fullShare
  owed _ := 0

theorem A_eq (c : Dev nD) (w : Fin cfg3.W) : (dat V c).A w = V c (Pipeline.arrRef spec3 w) := rfl

theorem before_in (c : Dev nD) (t : Fin cfg3.N) :
    ∀ w : Fin cfg3.W, w ≠ 3 → ∀ d, (dat V c).before w t d = (dat V c).fetched w t d
  | ⟨0, _⟩, _ | ⟨1, _⟩, _ | ⟨2, _⟩, _ =>
    (dat V c).before_in_eq_fetched _ rfl (fun _ => rfl) (fun _ _ _ => rfl) (fun _ => rfl) t
  | ⟨3, _⟩, h => absurd rfl h

-- The body loads the three input blocks whole and stores the output block whole: the payload of what it loaded.
theorem sound_kernel (c : Dev nD) (E : Set ℕ) (i : grid3.Coords)
    (a0 : Memref sig .tc .vmem S1024x128 .f32) (h0 : a0.IsWhole) (a1 : Memref sig .tc .vmem S128x128 .f32) (h1 : a1.IsWhole)
    (a2 : Memref sig .tc .vmem S1x128 .f32) (h2 : a2.IsWhole) (a3 : Memref sig .tc .vmem S1024x128 .f32) (h3 : a3.IsWhole)
    (x : Vec F S1024x128 .f32) (W : Vec F S128x128 .f32) (b : Vec F S1x128 .f32) (K : PUnit → sProp 𝕄) :
    iprop(owns (c : Thread nD τ) a0 fullShare x ∗ owns (c : Thread nD τ) a1 fullShare W ∗ owns (c : Thread nD τ) a2 fullShare b
        ∗ (∃ d, owns (c : Thread nD τ) a3 fullShare d)
        ∗ (iprop(owns (c : Thread nD τ) a0 fullShare x ∗ owns (c : Thread nD τ) a1 fullShare W
            ∗ owns (c : Thread nD τ) a2 fullShare b ∗ owns (c : Thread nD τ) a3 fullShare (out x W b)) -∗ K ⟨⟩))
      ⊢ wp frame (wpE (defs₀ (F := F)) Variants.none c none) E (cc3__linear_kernel i a0 h0 a1 h1 a2 h2 a3 h3) K := by
  simp only [cc3__linear_kernel_eq_skeleton]; unfold cc3__linear_kernel_skel owns
  iintro ⟨⟨%f0, %e0, H0⟩, ⟨%f1, %e1, H1⟩, ⟨%f2, %e2, H2⟩, ⟨%_, %f3, -, H3⟩, Hk⟩
  subst e0 e1 e2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ fun y => ⟨_, List.mem_singleton_self _, View.mem_set_unit_zero Cert.Lib.zz2 inb_S1024x128_S1024x128_0_0 y⟩

set_option maxRecDepth 16384 in
theorem sound_body (c : Dev nD) (t : Fin cfg3.N) :
    iprop((dat V c).Φ t.castSucc ∗ (dat V c).owesAt () t.castSucc
        ∗ (∃ d, owns (c : Thread nD τ) (st3_0 t) fullShare ((dat V c).before 0 t d))
        ∗ (∃ d, owns (c : Thread nD τ) (st3_1 t) fullShare ((dat V c).before 1 t d))
        ∗ (∃ d, owns (c : Thread nD τ) (st3_2 t) fullShare ((dat V c).before 2 t d))
        ∗ (∃ d, owns (c : Thread nD τ) (st3_3 t) fullShare ((dat V c).before 3 t d)))
      ⊢ wp frame (wpE (defs₀ (F := F)) Variants.none c none) Set.univ (bodyAt3 t) fun _ =>
        iprop((dat V c).Φ t.succ ∗ (dat V c).owesAt () t.succ
          ∗ owns (c : Thread nD τ) (st3_0 t) fullShare ((dat V c).after 0 t)
          ∗ owns (c : Thread nD τ) (st3_1 t) fullShare ((dat V c).after 1 t)
          ∗ owns (c : Thread nD τ) (st3_2 t) fullShare ((dat V c).after 2 t)
          ∗ owns (c : Thread nD τ) (st3_3 t) fullShare ((dat V c).after 3 t)) := by
  have e0 : ∀ d, (dat V c).before 0 t d = iblk V c 0 t := before_in V c t 0 (by decide)
  have e1 : ∀ d, (dat V c).before 1 t d = iblk V c 1 t := before_in V c t 1 (by decide)
  have e2 : ∀ d, (dat V c).before 2 t d = iblk V c 2 t := before_in V c t 2 (by decide)
  simp only [e0, e1, e2]
  rw [show (dat V c).Φ t.succ = (dat V c).Φ t.castSucc from rfl,
    show (dat V c).owesAt () t.succ = (dat V c).owesAt () t.castSucc from rfl]
  dsimp only [dat]
  unfold bodyAt3
  iintro ⟨HΦ, Ho, ⟨%_, H0⟩, ⟨%_, H1⟩, ⟨%_, H2⟩, ⟨%_, H3⟩⟩
  iapply (sound_kernel c Set.univ _ _ _ _ _ _ _ _ _ (iblk V c 0 t) (iblk V c 1 t) (iblk V c 2 t) _)
  iframe H0 H1 H2
  isplitl [H3]; · iexists _; iexact H3
  iintro ⟨H0, H1, H2, H3⟩
  iframe

theorem body_obligation (c : Dev nD) : BodyObligation (dat (F := F) V c) (defs₀ (F := F)) Variants.none () Set.univ := fun t => by
  rw [bigSep_W3, bigSep_W3]
  exact sound_body V c t

end Cert.Kernel.L3

end
-- ==== Proof.K.G4Def.lean ====
import proofs.«429835_j17746804867087_2_alg».proof.Proof.Gen.Kernel.Launch
import proofs.«429835_j17746804867087_2_alg».proof.Proof.Gen.Kernel.Skeleton
import Idealize.ShloMosaic.Lib.Pipeline.FrameBody
import Idealize.ShloMosaic.Lib.Pipeline.Regions
import Idealize.ShloMosaic.Lib.ValueIdx
import Idealize.ShloMosaic.Lib.Tactic

set_option maxRecDepth 16384

noncomputable section

namespace Cert.Kernel.G4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg4 (F := F)).Adm)

theorem N_eq : (cfg4 a).N = 19159 := N_4

theorem eb_lt (t : Fin (cfg4 a).N) : t.val / 49 < 391 := by
  have h : t.val < 19159 := lt_of_lt_of_eq t.isLt (N_eq a)
  omega

def pt (eb : Fin 391) (n : Fin 49) : Fin (cfg4 a).N := ⟨49 * eb.val + n.val, by rw [N_eq a]; omega⟩

def iblk (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

def lo (c : Dev nD) (eb : Fin 391) : BitVec 32 := V c main_v37 (ValueIdx.ix1 eb)
def hi (c : Dev nD) (eb : Fin 391) : BitVec 32 := V c main_v40 (ValueIdx.ix1 eb)

def act (c : Dev nD) (eb : Fin 391) (nb : Fin 49) : Prop :=
  Scalar.cmpi .ne ((Scalar.extui (Scalar.andi (Scalar.cmpi .sge (BitVec.ofNat 32 nb.val) (lo V c eb))
    (Scalar.cmpi .sle (BitVec.ofNat 32 nb.val) (hi V c eb))) : BitVec 32)) 0#32 = 1#1

instance (c : Dev nD) (eb : Fin 391) (nb : Fin 49) : Decidable (act V c eb nb) := by unfold act; infer_instance

def psum (c : Dev nD) (eb : Fin 391) : Nat → Vec F S2048x128 .f32
  | 0 => k4_pay1
  | n + 1 =>
    if h : n < 49 then
      if act V c eb ⟨n, h⟩ then
        k4_pay2 (grid4.coords (pt a eb ⟨n, h⟩)) (iblk V a c 0 (pt a eb ⟨n, h⟩)) (iblk V a c 1 (pt a eb ⟨n, h⟩))
          (iblk V a c 2 (pt a eb ⟨n, h⟩)) (psum c eb n)
      else psum c eb n
    else psum c eb n

abbrev scM : Memref sig .tc .vmem S2048x128 .f32 := Memref.whole cc4_scratch0

def dat (c : Dev nD) : Dat τ (Elt F) Unit ℕ (UR sig nD τ) ℕ (cfg4 a) c where
  A w := V c (Pipeline.arrRef spec4 w)
  after w t := match w with
    | ⟨0, _⟩ => iblk V a c 0 t
    | ⟨1, _⟩ => iblk V a c 1 t
    | ⟨2, _⟩ => iblk V a c 2 t
    | ⟨3, _⟩ => k4_pay3 (psum V a c ⟨t.val / 49, eb_lt a t⟩ 49)
  Φ t := iprop((∃ f : Vec F S2048x128 .f32,
        ⌜∀ eb : Fin 391, eb.val = t.val / 49 → t.val % 49 ≠ 0 → f = psum V a c eb (t.val % 49)⌝
          ∗ owns (c : Thread nD τ) scM fullShare f)
      ∗ Pipeline.scopedRestBut (Ix := Unit) (Name := ℕ) (U := UR sig nD τ) (Lvl := ℕ) (Val := Elt F) spec4 c [cc4_scratch0]
      ∗ (∃ r, prngReg c r)
      ∗ Pipeline.prefHeld (Ix := Unit) (Name := ℕ) (U := UR sig nD τ) (Lvl := ℕ) pre4 c (fun _ => fullShare) a.1)
  q _ := fullShare
  owed _ := 0

end Cert.Kernel.G4

end
-- ==== Proof.K.S5Def.lean ====
import proofs.«429835_j17746804867087_2_alg».proof.Proof.Gen.Kernel.Launch
import proofs.«429835_j17746804867087_2_alg».proof.Proof.Gen.Kernel.Skeleton
import Idealize.ShloMosaic.Lib.Pipeline.FrameBody
import Idealize.ShloMosaic.Lib.ValueIdx

set_option maxRecDepth 16384

noncomputable section

namespace Cert.Kernel.S5

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg5 (F := F)).Adm)

def iblk (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

def nbOf (t : ℕ) : Fin 49 := ⟨t / 391 % 49, Nat.mod_lt _ (by decide)⟩

def pt (nb : Fin 49) (n : ℕ) (h : n < 391) : Fin (cfg5 a).N :=
  ⟨nb.val * 391 + n, by have h49 := nb.isLt; have hN : (cfg5 a).N = 19159 := N_5; omega⟩

def lo (c : Dev nD) (eb : Fin 391) : BitVec 32 := V c main_v44 (ValueIdx.ix1 eb)

def hi (c : Dev nD) (eb : Fin 391) : BitVec 32 := V c main_v47 (ValueIdx.ix1 eb)

def act (c : Dev nD) (nb : Fin 49) (eb : Fin 391) : Prop :=
  Scalar.cmpi .ne (Scalar.extui (Scalar.andi (Scalar.cmpi .sge (BitVec.ofNat 32 nb.val) (lo V c eb))
    (Scalar.cmpi .sle (BitVec.ofNat 32 nb.val) (hi V c eb))) : BitVec 32) 0#32 = 1#1

instance (c : Dev nD) (nb : Fin 49) (eb : Fin 391) : Decidable (act V c nb eb) := by unfold act; infer_instance

def psum (c : Dev nD) (nb : Fin 49) : ℕ → Vec F S1024x128 .f32
  | 0 => k5_pay1
  | n + 1 =>
    if h : n < 391 then
      if act V c nb ⟨n, h⟩ then
        k5_pay2 (grid5.coords (pt a nb n h)) (iblk V a c 0 (pt a nb n h)) (iblk V a c 1 (pt a nb n h)) (psum c nb n)
      else psum c nb n
    else psum c nb n

def Phi (c : Dev nD) (t : Fin ((cfg5 a).N + 1)) : sProp 𝕄 :=
  iprop((∃ f : Buf (Elt F) ((c : Thread nD τ).loc cc5_scratch0),
          ⌜t.val % 391 ≠ 0 → f = psum V a c (nbOf t.val) (t.val % 391)⌝ ∗ (((c : Thread nD τ).loc cc5_scratch0) ↦{fullShare} f))
      ∗ Pipeline.scopedRestBut (Ix := Unit) (Name := ℕ) (U := UR sig nD τ) (Lvl := ℕ) (Val := Elt F) spec5 c [cc5_scratch0]
      ∗ (∃ r, prngReg c r)
      ∗ Pipeline.prefHeld pre5 c (fun _ => fullShare) a.1)

def dat (c : Dev nD) : Dat τ (Elt F) Unit ℕ (UR sig nD τ) ℕ (cfg5 a) c where
  A w := V c (Pipeline.arrRef spec5 w)
  after w t := match w with
    | ⟨0, _⟩ => iblk V a c 0 t
    | ⟨1, _⟩ => iblk V a c 1 t
    | ⟨2, _⟩ => k5_pay3 (psum V a c (nbOf t.val) 391)
  Φ t := Phi V a c t
  q _ := fullShare
  owed _ := 0

end Cert.Kernel.S5

end
-- ==== Proof.K.L6Obl.lean ====
import proofs.«429835_j17746804867087_2_alg».proof.Proof.Gen.Kernel.Launch
import proofs.«429835_j17746804867087_2_alg».proof.Proof.Gen.Kernel.Skeleton
import proofs.«429835_j17746804867087_2_alg».proof.Proof.Gen.Kernel.Points
import proofs.«429835_j17746804867087_2_alg».proof.Proof.Lib

noncomputable section

namespace Cert.Kernel.L6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

abbrev rOut : Rect S1024x128 := Rect.unit (s := S1024x128) ![0, 0] S1024x128.size inb_S1024x128_S1024x128_0_0
abbrev rX : Rect S1024x128 := Rect.unit (s := S1024x128) ![0, 0] S1024x128.size inb_S1024x128_S1024x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

def out (x : Vec F S1024x128 .f32) (W : Vec F S128x128 .f32) (b : Vec F S1x128 .f32) : Vec F S1024x128 .f32 :=
  View.canon [⟨rOut, k6_pay1 (View.ld x rX) (View.ld W rW) (View.ld b rB)⟩]

def dat (c : Dev nD) : Dat τ (Elt F) Unit ℕ (UR sig nD τ) ℕ cfg6 c where
  A w := V c (Pipeline.arrRef spec6 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec6 c
  q _ := fullShare
  owed _ := 0

theorem A_eq (c : Dev nD) (w : Fin cfg6.W) : (dat V c).A w = V c (Pipeline.arrRef spec6 w) := rfl

theorem before_in (c : Dev nD) (t : Fin cfg6.N) :
    ∀ w : Fin cfg6.W, w ≠ 3 → ∀ d, (dat V c).before w t d = (dat V c).fetched w t d
  | ⟨0, _⟩, _ | ⟨1, _⟩, _ | ⟨2, _⟩, _ =>
    (dat V c).before_in_eq_fetched _ rfl (fun _ => rfl) (fun _ _ _ => rfl) (fun _ => rfl) t
  | ⟨3, _⟩, h => absurd rfl h

-- The body loads the three input blocks whole and stores the output block whole: the payload of what it loaded.
theorem sound_kernel (c : Dev nD) (E : Set ℕ) (i : grid6.Coords)
    (a0 : Memref sig .tc .vmem S1024x128 .f32) (h0 : a0.IsWhole) (a1 : Memref sig .tc .vmem S128x128 .f32) (h1 : a1.IsWhole)
    (a2 : Memref sig .tc .vmem S1x128 .f32) (h2 : a2.IsWhole) (a3 : Memref sig .tc .vmem S1024x128 .f32) (h3 : a3.IsWhole)
    (x : Vec F S1024x128 .f32) (W : Vec F S128x128 .f32) (b : Vec F S1x128 .f32) (K : PUnit → sProp 𝕄) :
    iprop(owns (c : Thread nD τ) a0 fullShare x ∗ owns (c : Thread nD τ) a1 fullShare W ∗ owns (c : Thread nD τ) a2 fullShare b
        ∗ (∃ d, owns (c : Thread nD τ) a3 fullShare d)
        ∗ (iprop(owns (c : Thread nD τ) a0 fullShare x ∗ owns (c : Thread nD τ) a1 fullShare W
            ∗ owns (c : Thread nD τ) a2 fullShare b ∗ owns (c : Thread nD τ) a3 fullShare (out x W b)) -∗ K ⟨⟩))
      ⊢ wp frame (wpE (defs₀ (F := F)) Variants.none c none) E (cc6__linear_kernel i a0 h0 a1 h1 a2 h2 a3 h3) K := by
  simp only [cc6__linear_kernel_eq_skeleton]; unfold cc6__linear_kernel_skel owns
  iintro ⟨⟨%f0, %e0, H0⟩, ⟨%f1, %e1, H1⟩, ⟨%f2, %e2, H2⟩, ⟨%_, %f3, -, H3⟩, Hk⟩
  subst e0 e1 e2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ fun y => ⟨_, List.mem_singleton_self _, View.mem_set_unit_zero Cert.Lib.zz2 inb_S1024x128_S1024x128_0_0 y⟩

set_option maxRecDepth 16384 in
theorem sound_body (c : Dev nD) (t : Fin cfg6.N) :
    iprop((dat V c).Φ t.castSucc ∗ (dat V c).owesAt () t.castSucc
        ∗ (∃ d, owns (c : Thread nD τ) (st6_0 t) fullShare ((dat V c).before 0 t d))
        ∗ (∃ d, owns (c : Thread nD τ) (st6_1 t) fullShare ((dat V c).before 1 t d))
        ∗ (∃ d, owns (c : Thread nD τ) (st6_2 t) fullShare ((dat V c).before 2 t d))
        ∗ (∃ d, owns (c : Thread nD τ) (st6_3 t) fullShare ((dat V c).before 3 t d)))
      ⊢ wp frame (wpE (defs₀ (F := F)) Variants.none c none) Set.univ (bodyAt6 t) fun _ =>
        iprop((dat V c).Φ t.succ ∗ (dat V c).owesAt () t.succ
          ∗ owns (c : Thread nD τ) (st6_0 t) fullShare ((dat V c).after 0 t)
          ∗ owns (c : Thread nD τ) (st6_1 t) fullShare ((dat V c).after 1 t)
          ∗ owns (c : Thread nD τ) (st6_2 t) fullShare ((dat V c).after 2 t)
          ∗ owns (c : Thread nD τ) (st6_3 t) fullShare ((dat V c).after 3 t)) := by
  have e0 : ∀ d, (dat V c).before 0 t d = iblk V c 0 t := before_in V c t 0 (by decide)
  have e1 : ∀ d, (dat V c).before 1 t d = iblk V c 1 t := before_in V c t 1 (by decide)
  have e2 : ∀ d, (dat V c).before 2 t d = iblk V c 2 t := before_in V c t 2 (by decide)
  simp only [e0, e1, e2]
  rw [show (dat V c).Φ t.succ = (dat V c).Φ t.castSucc from rfl,
    show (dat V c).owesAt () t.succ = (dat V c).owesAt () t.castSucc from rfl]
  dsimp only [dat]
  unfold bodyAt6
  iintro ⟨HΦ, Ho, ⟨%_, H0⟩, ⟨%_, H1⟩, ⟨%_, H2⟩, ⟨%_, H3⟩⟩
  iapply (sound_kernel c Set.univ _ _ _ _ _ _ _ _ _ (iblk V c 0 t) (iblk V c 1 t) (iblk V c 2 t) _)
  iframe H0 H1 H2
  isplitl [H3]; · iexists _; iexact H3
  iintro ⟨H0, H1, H2, H3⟩
  iframe

theorem body_obligation (c : Dev nD) : BodyObligation (dat (F := F) V c) (defs₀ (F := F)) Variants.none () Set.univ := fun t => by
  rw [bigSep_W6, bigSep_W6]
  exact sound_body V c t

end Cert.Kernel.L6

end
-- ==== Proof.K.G7Def.lean ====
import proofs.«429835_j17746804867087_2_alg».proof.Proof.Gen.Kernel.Launch
import proofs.«429835_j17746804867087_2_alg».proof.Proof.Gen.Kernel.Skeleton
import Idealize.ShloMosaic.Lib.Pipeline.FrameBody
import Idealize.ShloMosaic.Lib.Pipeline.Regions
import Idealize.ShloMosaic.Lib.ValueIdx
import Idealize.ShloMosaic.Lib.Tactic

set_option maxRecDepth 16384

noncomputable section

namespace Cert.Kernel.G7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg7 (F := F)).Adm)

theorem N_eq : (cfg7 a).N = 19159 := N_7

theorem eb_lt (t : Fin (cfg7 a).N) : t.val / 49 < 391 := by
  have h : t.val < 19159 := lt_of_lt_of_eq t.isLt (N_eq a)
  omega

def pt (eb : Fin 391) (n : Fin 49) : Fin (cfg7 a).N := ⟨49 * eb.val + n.val, by rw [N_eq a]; omega⟩

def iblk (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

def lo (c : Dev nD) (eb : Fin 391) : BitVec 32 := V c main_v37 (ValueIdx.ix1 eb)
def hi (c : Dev nD) (eb : Fin 391) : BitVec 32 := V c main_v40 (ValueIdx.ix1 eb)

def act (c : Dev nD) (eb : Fin 391) (nb : Fin 49) : Prop :=
  Scalar.cmpi .ne ((Scalar.extui (Scalar.andi (Scalar.cmpi .sge (BitVec.ofNat 32 nb.val) (lo V c eb))
    (Scalar.cmpi .sle (BitVec.ofNat 32 nb.val) (hi V c eb))) : BitVec 32)) 0#32 = 1#1

instance (c : Dev nD) (eb : Fin 391) (nb : Fin 49) : Decidable (act V c eb nb) := by unfold act; infer_instance

def psum (c : Dev nD) (eb : Fin 391) : Nat → Vec F S2048x128 .f32
  | 0 => k7_pay1
  | n + 1 =>
    if h : n < 49 then
      if act V c eb ⟨n, h⟩ then
        k7_pay2 (grid7.coords (pt a eb ⟨n, h⟩)) (iblk V a c 0 (pt a eb ⟨n, h⟩)) (iblk V a c 1 (pt a eb ⟨n, h⟩))
          (iblk V a c 2 (pt a eb ⟨n, h⟩)) (psum c eb n)
      else psum c eb n
    else psum c eb n

abbrev scM : Memref sig .tc .vmem S2048x128 .f32 := Memref.whole cc7_scratch0

def dat (c : Dev nD) : Dat τ (Elt F) Unit ℕ (UR sig nD τ) ℕ (cfg7 a) c where
  A w := V c (Pipeline.arrRef spec7 w)
  after w t := match w with
    | ⟨0, _⟩ => iblk V a c 0 t
    | ⟨1, _⟩ => iblk V a c 1 t
    | ⟨2, _⟩ => iblk V a c 2 t
    | ⟨3, _⟩ => k7_pay3 (psum V a c ⟨t.val / 49, eb_lt a t⟩ 49)
  Φ t := iprop((∃ f : Vec F S2048x128 .f32,
        ⌜∀ eb : Fin 391, eb.val = t.val / 49 → t.val % 49 ≠ 0 → f = psum V a c eb (t.val % 49)⌝
          ∗ owns (c : Thread nD τ) scM fullShare f)
      ∗ Pipeline.scopedRestBut (Ix := Unit) (Name := ℕ) (U := UR sig nD τ) (Lvl := ℕ) (Val := Elt F) spec7 c [cc7_scratch0]
      ∗ (∃ r, prngReg c r)
      ∗ Pipeline.prefHeld (Ix := Unit) (Name := ℕ) (U := UR sig nD τ) (Lvl := ℕ) pre7 c (fun _ => fullShare) a.1)
  q _ := fullShare
  owed _ := 0

end Cert.Kernel.G7

end
-- ==== Proof.K.S8Def.lean ====
import proofs.«429835_j17746804867087_2_alg».proof.Proof.Gen.Kernel.Launch
import proofs.«429835_j17746804867087_2_alg».proof.Proof.Gen.Kernel.Skeleton
import Idealize.ShloMosaic.Lib.Pipeline.FrameBody
import Idealize.ShloMosaic.Lib.ValueIdx

set_option maxRecDepth 16384

noncomputable section

namespace Cert.Kernel.S8

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg8 (F := F)).Adm)

def iblk (c : Dev nD) (w : Fin (cfg8 a).W) (t : Fin (cfg8 a).N) :
    (((cfg8 a).win w).xblock ((cfg8 a).grid.coords t)).Idx → Elt F ((cfg8 a).win w).elt :=
  (((cfg8 a).win w).blk t).view.read (Elt F) (V c (Pipeline.arrRef spec8 w))

def nbOf (t : ℕ) : Fin 49 := ⟨t / 391 % 49, Nat.mod_lt _ (by decide)⟩

def pt (nb : Fin 49) (n : ℕ) (h : n < 391) : Fin (cfg8 a).N :=
  ⟨nb.val * 391 + n, by have h49 := nb.isLt; have hN : (cfg8 a).N = 19159 := N_8; omega⟩

def lo (c : Dev nD) (eb : Fin 391) : BitVec 32 := V c main_v44 (ValueIdx.ix1 eb)

def hi (c : Dev nD) (eb : Fin 391) : BitVec 32 := V c main_v47 (ValueIdx.ix1 eb)

def act (c : Dev nD) (nb : Fin 49) (eb : Fin 391) : Prop :=
  Scalar.cmpi .ne (Scalar.extui (Scalar.andi (Scalar.cmpi .sge (BitVec.ofNat 32 nb.val) (lo V c eb))
    (Scalar.cmpi .sle (BitVec.ofNat 32 nb.val) (hi V c eb))) : BitVec 32) 0#32 = 1#1

instance (c : Dev nD) (nb : Fin 49) (eb : Fin 391) : Decidable (act V c nb eb) := by unfold act; infer_instance

def psum (c : Dev nD) (nb : Fin 49) : ℕ → Vec F S1024x128 .f32
  | 0 => k8_pay1
  | n + 1 =>
    if h : n < 391 then
      if act V c nb ⟨n, h⟩ then
        k8_pay2 (grid8.coords (pt a nb n h)) (iblk V a c 0 (pt a nb n h)) (iblk V a c 1 (pt a nb n h)) (psum c nb n)
      else psum c nb n
    else psum c nb n

def Phi (c : Dev nD) (t : Fin ((cfg8 a).N + 1)) : sProp 𝕄 :=
  iprop((∃ f : Buf (Elt F) ((c : Thread nD τ).loc cc8_scratch0),
          ⌜t.val % 391 ≠ 0 → f = psum V a c (nbOf t.val) (t.val % 391)⌝ ∗ (((c : Thread nD τ).loc cc8_scratch0) ↦{fullShare} f))
      ∗ Pipeline.scopedRestBut (Ix := Unit) (Name := ℕ) (U := UR sig nD τ) (Lvl := ℕ) (Val := Elt F) spec8 c [cc8_scratch0]
      ∗ (∃ r, prngReg c r)
      ∗ Pipeline.prefHeld pre8 c (fun _ => fullShare) a.1)

def dat (c : Dev nD) : Dat τ (Elt F) Unit ℕ (UR sig nD τ) ℕ (cfg8 a) c where
  A w := V c (Pipeline.arrRef spec8 w)
  after w t := match w with
    | ⟨0, _⟩ => iblk V a c 0 t
    | ⟨1, _⟩ => iblk V a c 1 t
    | ⟨2, _⟩ => psum V a c (nbOf t.val) 391
  Φ t := Phi V a c t
  q _ := fullShare
  owed _ := 0

end Cert.Kernel.S8

end
-- ==== Proof.K.Vals.lean ====
import proofs.«429835_j17746804867087_2_alg».proof.Proof.K.RunAll
import proofs.«429835_j17746804867087_2_alg».proof.Proof.K.L0Obl
import proofs.«429835_j17746804867087_2_alg».proof.Proof.K.G1Def
import proofs.«429835_j17746804867087_2_alg».proof.Proof.K.S2Def
import proofs.«429835_j17746804867087_2_alg».proof.Proof.K.L3Obl
import proofs.«429835_j17746804867087_2_alg».proof.Proof.K.G4Def
import proofs.«429835_j17746804867087_2_alg».proof.Proof.K.S5Def
import proofs.«429835_j17746804867087_2_alg».proof.Proof.K.L6Obl
import proofs.«429835_j17746804867087_2_alg».proof.Proof.K.G7Def
import proofs.«429835_j17746804867087_2_alg».proof.Proof.K.S8Def

noncomputable section

namespace Cert.Kernel.Run

open Cert.Kernel Cert.Kernel.Gen
open Idealize.ShloMosaic Idealize.ShloMosaic.TcCoe
open Idealize.SL Idealize.SL.Sem
open Idealize.ShloMosaic.Pipeline (Dat)

-- Writing a buffer with what the updated valuation holds there is that update.
theorem upd_eq {τ : Topo} {sig : RefSig} {Val : EltTy → Type} {V X : Valuation τ sig Val} {r : DevRef τ sig} {o : r.ty.Contents Val}
    (Y : Valuation τ sig Val) (h : V = X) (hY : Y = Function.update X r o) : Function.update V r (Y r) = Y := by
  subst h hY; rw [Function.update_self]

variable {F : FTy → Type} [FloatOps F]
variable (m : (ℓ : Loc nD τ sig) → Buf (Elt F) ℓ)

abbrev c₀ : Dev nD := ⟨0, by decide⟩
theorem dev_eq (c : Dev nD) : c = c₀ := Fin.ext (by have h : c.val < 1 := c.isLt; show c.val = 0; omega)

abbrev rd (X : Dev nD → Valuation τ sig (Elt F)) : (c : Dev nD) → (b : Ref sig .tc) → Buf (Elt F) ((c : Thread nD τ).loc b) :=
  fun c b => X c b

abbrev adm1 (X : Dev nD → Valuation τ sig (Elt F)) : (pcfg1 (F := F)).Adm := ⟨fun k => X c₀ (pre1.ref k), trivial⟩
abbrev adm2 (X : Dev nD → Valuation τ sig (Elt F)) : (pcfg2 (F := F)).Adm := ⟨fun k => X c₀ (pre2.ref k), trivial⟩
abbrev adm4 (X : Dev nD → Valuation τ sig (Elt F)) : (pcfg4 (F := F)).Adm := ⟨fun k => X c₀ (pre4.ref k), trivial⟩
abbrev adm5 (X : Dev nD → Valuation τ sig (Elt F)) : (pcfg5 (F := F)).Adm := ⟨fun k => X c₀ (pre5.ref k), trivial⟩
abbrev adm7 (X : Dev nD → Valuation τ sig (Elt F)) : (pcfg7 (F := F)).Adm := ⟨fun k => X c₀ (pre7.ref k), trivial⟩
abbrev adm8 (X : Dev nD → Valuation τ sig (Elt F)) : (pcfg8 (F := F)).Adm := ⟨fun k => X c₀ (pre8.ref k), trivial⟩

def o21 (c : Dev nD) : Buf (Elt F) ((c : Thread nD τ).loc main_v52) := (L0.dat (rd (V20 m)) c).arrAt 3 cfg0.N
def X21 (c : Dev nD) : Valuation τ sig (Elt F) := Function.update (V20 m c) main_v52 (o21 m c)
def o22 (c : Dev nD) : Buf (Elt F) ((c : Thread nD τ).loc main_v53) := (G1.dat (rd (X21 m)) (adm1 (X21 m)) c).arrAt 3 (cfg1 (adm1 (X21 m))).N
def X22 (c : Dev nD) : Valuation τ sig (Elt F) := Function.update (X21 m c) main_v53 (o22 m c)
def X23 (c : Dev nD) : Valuation τ sig (Elt F) := StableHlo.after hostOps2 (X22 m c)
def o24 (c : Dev nD) : Buf (Elt F) ((c : Thread nD τ).loc main_v61) := (S2.dat (rd (X23 m)) (adm2 (X23 m)) c).arrAt 2 (cfg2 (adm2 (X23 m))).N
def X24 (c : Dev nD) : Valuation τ sig (Elt F) := Function.update (X23 m c) main_v61 (o24 m c)
def X25 (c : Dev nD) : Valuation τ sig (Elt F) := StableHlo.after hostOps3 (X24 m c)
def o26 (c : Dev nD) : Buf (Elt F) ((c : Thread nD τ).loc main_v63) := (L3.dat (rd (X25 m)) c).arrAt 3 cfg3.N
def X26 (c : Dev nD) : Valuation τ sig (Elt F) := Function.update (X25 m c) main_v63 (o26 m c)
def o27 (c : Dev nD) : Buf (Elt F) ((c : Thread nD τ).loc main_v64) := (G4.dat (rd (X26 m)) (adm4 (X26 m)) c).arrAt 3 (cfg4 (adm4 (X26 m))).N
def X27 (c : Dev nD) : Valuation τ sig (Elt F) := Function.update (X26 m c) main_v64 (o27 m c)
def X28 (c : Dev nD) : Valuation τ sig (Elt F) := StableHlo.after hostOps5 (X27 m c)
def o29 (c : Dev nD) : Buf (Elt F) ((c : Thread nD τ).loc main_v72) := (S5.dat (rd (X28 m)) (adm5 (X28 m)) c).arrAt 2 (cfg5 (adm5 (X28 m))).N
def X29 (c : Dev nD) : Valuation τ sig (Elt F) := Function.update (X28 m c) main_v72 (o29 m c)
def X30 (c : Dev nD) : Valuation τ sig (Elt F) := StableHlo.after hostOps6 (X29 m c)
def X31 (c : Dev nD) : Valuation τ sig (Elt F) := StableHlo.after hostOps6_1 (X30 m c)
def X32 (c : Dev nD) : Valuation τ sig (Elt F) := StableHlo.after hostOps6_2 (X31 m c)
def X33 (c : Dev nD) : Valuation τ sig (Elt F) := StableHlo.after hostOps6_3 (X32 m c)
def X34 (c : Dev nD) : Valuation τ sig (Elt F) := StableHlo.after hostOps6_4 (X33 m c)
def o35 (c : Dev nD) : Buf (Elt F) ((c : Thread nD τ).loc main_v76) := (L6.dat (rd (X34 m)) c).arrAt 3 cfg6.N
def X35 (c : Dev nD) : Valuation τ sig (Elt F) := Function.update (X34 m c) main_v76 (o35 m c)
def o36 (c : Dev nD) : Buf (Elt F) ((c : Thread nD τ).loc main_v77) := (G7.dat (rd (X35 m)) (adm7 (X35 m)) c).arrAt 3 (cfg7 (adm7 (X35 m))).N
def X36 (c : Dev nD) : Valuation τ sig (Elt F) := Function.update (X35 m c) main_v77 (o36 m c)
def X37 (c : Dev nD) : Valuation τ sig (Elt F) := StableHlo.after hostOps8 (X36 m c)
def o38 (c : Dev nD) : Buf (Elt F) ((c : Thread nD τ).loc main_v85) := (S8.dat (rd (X37 m)) (adm8 (X37 m)) c).arrAt 2 (cfg8 (adm8 (X37 m))).N
def X38 (c : Dev nD) : Valuation τ sig (Elt F) := Function.update (X37 m c) main_v85 (o38 m c)
def X39 (c : Dev nD) : Valuation τ sig (Elt F) := StableHlo.after hostOps9 (X38 m c)

def outs : Outs (F := F) := fun J r c =>
  match J with
  | 21 => X21 m c r | 22 => X22 m c r | 24 => X24 m c r | 26 => X26 m c r | 27 => X27 m c r
  | 29 => X29 m c r | 35 => X35 m c r | 36 => X36 m c r | 38 => X38 m c r
  | _ => V0 m c r

theorem V21_eq (c : Dev nD) : V21 m (outs m) c = X21 m c := upd_eq (X21 m c) rfl rfl
theorem V22_eq (c : Dev nD) : V22 m (outs m) c = X22 m c := upd_eq (X22 m c) (V21_eq m c) rfl
theorem V23_eq (c : Dev nD) : V23 m (outs m) c = X23 m c := congrArg (StableHlo.after hostOps2) (V22_eq m c)
theorem V24_eq (c : Dev nD) : V24 m (outs m) c = X24 m c := upd_eq (X24 m c) (V23_eq m c) rfl
theorem V25_eq (c : Dev nD) : V25 m (outs m) c = X25 m c := congrArg (StableHlo.after hostOps3) (V24_eq m c)
theorem V26_eq (c : Dev nD) : V26 m (outs m) c = X26 m c := upd_eq (X26 m c) (V25_eq m c) rfl
theorem V27_eq (c : Dev nD) : V27 m (outs m) c = X27 m c := upd_eq (X27 m c) (V26_eq m c) rfl
theorem V28_eq (c : Dev nD) : V28 m (outs m) c = X28 m c := congrArg (StableHlo.after hostOps5) (V27_eq m c)
theorem V29_eq (c : Dev nD) : V29 m (outs m) c = X29 m c := upd_eq (X29 m c) (V28_eq m c) rfl
theorem V34_eq (c : Dev nD) : V34 m (outs m) c = X34 m c :=
  congrArg (fun V => StableHlo.after hostOps6_4 (StableHlo.after hostOps6_3 (StableHlo.after hostOps6_2 (StableHlo.after hostOps6_1 (StableHlo.after hostOps6 V))))) (V29_eq m c)
theorem V35_eq (c : Dev nD) : V35 m (outs m) c = X35 m c := upd_eq (X35 m c) (V34_eq m c) rfl
theorem V36_eq (c : Dev nD) : V36 m (outs m) c = X36 m c := upd_eq (X36 m c) (V35_eq m c) rfl
theorem V37_eq (c : Dev nD) : V37 m (outs m) c = X37 m c := congrArg (StableHlo.after hostOps8) (V36_eq m c)
theorem V38_eq (c : Dev nD) : V38 m (outs m) c = X38 m c := upd_eq (X38 m c) (V37_eq m c) rfl
theorem V39_eq (c : Dev nD) : V39 m (outs m) c = X39 m c := congrArg (StableHlo.after hostOps9) (V38_eq m c)

end Cert.Kernel.Run

end
-- ==== Proof.K.G1Body.lean ====
import proofs.«429835_j17746804867087_2_alg».proof.Proof.Gen.Kernel.Launch
import proofs.«429835_j17746804867087_2_alg».proof.Proof.Gen.Kernel.Skeleton
import proofs.«429835_j17746804867087_2_alg».proof.Proof.Lib
import Idealize.ShloMosaic.Lib.Pipeline.TableIdle
import Idealize.ShloMosaic.Lib.WholeRead

noncomputable section

namespace Cert.Kernel.G1

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem owns_unread {sp : Space} {S : Shape} {e : EltTy} (c : Dev nD) {m : Memref sig .tc sp S e} (h : m.IsWhole)
    (q : PosShare TreeShare) (X : S.Idx → Elt F e) :
    (owns (c : Thread nD τ) m q X : sProp 𝕄) = (m.view.loc (c : Thread nD τ) ↦[m.view.set]{q} h.unread X) := by
  rw [owns_eq_rep, h.eq_unread (View.read_rep _ _)]

-- The word of n is k, as the kernel tests it.
abbrev cEq (k : BitVec 32) (n : Fin 49) : Prop :=
  Scalar.cmpi .ne ((Scalar.extui (Scalar.cmpi .eq (BitVec.ofNat 32 n.val) k)) : BitVec 32) 0#32 = 1#1

-- The two table words admit the node block: wlo ≤ nb ≤ whi, signed.
abbrev cAct (i : grid1.Coords) (wlo whi : BitVec 32) : Prop :=
  Scalar.cmpi .ne ((Scalar.extui (Scalar.andi (Scalar.cmpi .sge (BitVec.ofNat 32 (i 1).val) wlo)
    (Scalar.cmpi .sle (BitVec.ofNat 32 (i 1).val) whi))) : BitVec 32) 0#32 = 1#1

-- The word loaded at the edge block's offset is the table's entry at the edge block.
theorem word_eq (i : grid1.Coords) (arg : Memref sig .tc .smem S391 .i32) (harg : arg.IsWhole) (T : Vec F S391 .i32) :
    View.readAt (Elt F) arg.view (Rect.unit (s := S391) (k1_off1 i) S1.size (k1_off1_inb i)).toLoadRect (harg.unread T)
      (Shape.Idx.first (numel1_S1.symm ▸ Nat.one_pos)) = T (ValueIdx.ix1 (n := 391) (i 0)) := by
  rw [harg.readAt_unread]
  congr 1; funext a; apply Fin.ext
  show k1_off1 i a + 1 * 0 = _
  rw [k1_off1_eq i]
  match a with | ⟨0, _⟩ => rfl

-- s₀ is f reset at the first node block, s adds the block's product when admitted, o is the cast of s at the last node block, else y.
theorem sound_kernel (c : Dev nD) (E : Set ℕ) (i : grid1.Coords)
    (arg2 : Memref sig .tc .smem S391 .i32) (harg2 : arg2.IsWhole) (arg3 : Memref sig .tc .smem S391 .i32) (harg3 : arg3.IsWhole)
    (arg4 : Memref sig .tc .vmem S1x2048 .i32) (harg4 : arg4.IsWhole) (arg5 : Memref sig .tc .vmem S1x2048 .f32) (harg5 : arg5.IsWhole)
    (arg6 : Memref sig .tc .vmem S1024x128 .f32) (harg6 : arg6.IsWhole) (arg7 : Memref sig .tc .vmem S2048x128 .bf16) (harg7 : arg7.IsWhole)
    (arg8 : Memref sig .tc .vmem S2048x128 .f32) (harg8 : arg8.IsWhole)
    (Tlo Thi : Vec F S391 .i32) (x4 : Vec F S1x2048 .i32) (x5 : Vec F S1x2048 .f32) (x6 : Vec F S1024x128 .f32)
    (y o : Vec F S2048x128 .bf16) (f s₀ s : Vec F S2048x128 .f32)
    (h₀ : s₀ = if cEq 0#32 (i 1) then k1_pay1 else f)
    (hs : s = if cAct i (Tlo (ValueIdx.ix1 (n := 391) (i 0))) (Thi (ValueIdx.ix1 (n := 391) (i 0))) then k1_pay2 i x4 x5 x6 s₀ else s₀)
    (ho : o = if k1_cond3 i = 1#1 then k1_pay3 s else y)
    (K : PUnit → sProp 𝕄) :
    iprop(owns (c : Thread nD τ) arg2 fullShare Tlo ∗ owns (c : Thread nD τ) arg3 fullShare Thi
        ∗ owns (c : Thread nD τ) arg4 fullShare x4 ∗ owns (c : Thread nD τ) arg5 fullShare x5 ∗ owns (c : Thread nD τ) arg6 fullShare x6
        ∗ owns (c : Thread nD τ) arg7 fullShare y ∗ owns (c : Thread nD τ) arg8 fullShare f
        ∗ (iprop(owns (c : Thread nD τ) arg2 fullShare Tlo ∗ owns (c : Thread nD τ) arg3 fullShare Thi
            ∗ owns (c : Thread nD τ) arg4 fullShare x4 ∗ owns (c : Thread nD τ) arg5 fullShare x5 ∗ owns (c : Thread nD τ) arg6 fullShare x6
            ∗ owns (c : Thread nD τ) arg7 fullShare o ∗ owns (c : Thread nD τ) arg8 fullShare s) -∗ K ⟨⟩))
      ⊢ wp frame (wpE (defs₀ (F := F)) Variants.none c none) E (cc1__gather_kernel i arg2 harg2 arg3 harg3 arg4 harg4 arg5 harg5 arg6 harg6 arg7 harg7 arg8 harg8) K := by
  subst ho hs h₀
  simp only [cc1__gather_kernel_eq_skeleton]; unfold cc1__gather_kernel_skel
  simp only [owns_unread c harg2, owns_unread c harg3, owns_unread c harg4, owns_unread c harg5, owns_unread c harg6]
  rw [owns_unread c harg7 _ y, owns_unread c harg8 _ f]
  iintro ⟨H2, H3, H4, H5, H6, H7, H8, Hk⟩
  sl_exec
  sl_step
  sl_unfold_run_names
  ihave O7 := (owns_intro (c : Thread nD τ) arg7 fullShare _) $$ H7
  ihave O8 := (owns_intro (c : Thread nD τ) arg8 fullShare _) $$ H8
  unfold cEq cAct
  simp only [word_eq i arg2 harg2 Tlo, word_eq i arg3 harg3 Thi, readAt_full arg4.view zz2, readAt_full arg5.view zz2, readAt_full arg6.view zz2, readAt_full arg8.view zz2,
    read_writes_full arg8.view zz2, read_writes_full arg7.view zz2, dite_eq_ite, apply_ite (View.read (Elt F) arg8.view),
    apply_ite (View.read (Elt F) arg7.view), harg4.read_unread, harg5.read_unread, harg6.read_unread, harg7.read_unread,
    harg8.read_unread]
  iapply Hk
  iframe

end Cert.Kernel.G1
end
-- ==== Proof.K.G1Obl.lean ====
import proofs.«429835_j17746804867087_2_alg».proof.Proof.K.G1Def
import proofs.«429835_j17746804867087_2_alg».proof.Proof.K.G1Body

noncomputable section

namespace Cert.Kernel.G1

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

theorem A_eq (c : Dev nD) (w : Fin (cfg1 a).W) : (dat V a c).A w = V c (Pipeline.arrRef spec1 w) := by
  dsimp only [dat]

theorem coord0 (t : Fin (cfg1 a).N) : ((grid1.coords t) 0).val = t.val / 49 := by
  have h : t.val < 19159 := lt_of_lt_of_eq t.isLt (N_eq a)
  show t.val / 49 % 391 = _
  omega

theorem coord1 (t : Fin (cfg1 a).N) : ((grid1.coords t) 1).val = t.val % 49 := by
  show t.val / 1 % 49 = _
  omega

theorem cond3_iff : ∀ n : Fin 49, cEq 48#32 n ↔ n.val = 48 := by decide

theorem first_iff : ∀ n : Fin 49, cEq 0#32 n ↔ n.val = 0 := by decide

-- (t + 1) / 49 = t / 49 unless t % 49 = 48.
theorem flush3 (t : Fin (cfg1 a).N) (h48 : t.val % 49 ≠ 48) : ((cfg1 a).win 3).flush t = false := by
  have hN : (cfg1 a).grid.N = 19159 := N_eq a
  have ht : t.val < 19159 := lt_of_lt_of_eq t.isLt (N_eq a)
  rw [← Bool.not_eq_true, Window.flush_out _ rfl t]
  rintro (h | ⟨h, hne⟩)
  · omega
  · refine hne (hreads1_3 (grid1.coords ⟨t.val + 1, h⟩) (grid1.coords t) fun ax hr => ?_)
    match ax with
    | ⟨0, _⟩ => exact Fin.ext ((coord0 a ⟨t.val + 1, h⟩).trans ((show (t.val + 1) / 49 = t.val / 49 by omega).trans (coord0 a t).symm))
    | ⟨1, _⟩ => exact absurd hr Bool.false_ne_true

theorem hin (c : Dev nD) :
    (iprop((∃ r, prngReg c r) ∗ Pipeline.prefHeld (Ix := Unit) (Name := ℕ) (U := UR sig nD τ) (Lvl := ℕ) pre1 c (fun _ => fullShare) a.1
      ∗ Pipeline.scopedRest (Ix := Unit) (Name := ℕ) (U := UR sig nD τ) (Lvl := ℕ) (Val := Elt F) spec1 c) : sProp 𝕄)
      ⊢ (dat V a c).Φ 0 := by
  rw [scopedRest1_split]
  dsimp only [dat]
  simp only [scM, owns_whole]
  iintro ⟨Hg, Hp, ⟨%f, Hs⟩, Hr⟩
  iframe Hr Hg Hp
  iexists f; isplitr
  · ipureintro; intro eb _ h; exact absurd rfl h
  · iexact Hs

theorem hout (c : Dev nD) :
    (dat V a c).Φ (Fin.last (cfg1 a).N)
      ⊢ (iprop(((∃ r, prngReg c r) ∗ Pipeline.prefHeld (Ix := Unit) (Name := ℕ) (U := UR sig nD τ) (Lvl := ℕ) pre1 c (fun _ => fullShare) a.1)
        ∗ Pipeline.scopedRest (Ix := Unit) (Name := ℕ) (U := UR sig nD τ) (Lvl := ℕ) (Val := Elt F) spec1 c) : sProp 𝕄) := by
  rw [scopedRest1_split]
  dsimp only [dat]
  simp only [scM, owns_whole]
  iintro ⟨⟨%f, -, Hs⟩, Hr, Hg, Hp⟩
  iframe Hr Hg Hp
  iexists f; iexact Hs

theorem before_0 (c : Dev nD) (t : Fin (cfg1 a).N) (d) : (dat V a c).before 0 t d = iblk V a c 0 t :=
  ((dat V a c).before_in_eq_fetched 0 rfl (fun _ => rfl) (fun _ _ _ => rfl) (fun _ => rfl) t d).trans rfl
theorem before_1 (c : Dev nD) (t : Fin (cfg1 a).N) (d) : (dat V a c).before 1 t d = iblk V a c 1 t :=
  ((dat V a c).before_in_eq_fetched 1 rfl (fun _ => rfl) (fun _ _ _ => rfl) (fun _ => rfl) t d).trans rfl
theorem before_2 (c : Dev nD) (t : Fin (cfg1 a).N) (d) : (dat V a c).before 2 t d = iblk V a c 2 t :=
  ((dat V a c).before_in_eq_fetched 2 rfl (fun _ => rfl) (fun _ _ _ => rfl) (fun _ => rfl) t d).trans rfl

abbrev st3 (t : Fin (cfg1 a).N) := spec1_3.stage ((cfg1 a).slots t 3)

abbrev tLo : Memref sig .tc .smem S391 .i32 := Memref.whole main_v37
abbrev tHi : Memref sig .tc .smem S391 .i32 := Memref.whole main_v40

def tabLo : Vec F S391 .i32 := a.1 0
def tabHi : Vec F S391 .i32 := a.1 1

theorem Phi_eq (c : Dev nD) (t : Fin ((cfg1 a).N + 1)) :
    (dat V a c).Φ t = (iprop((∃ f : Vec F S2048x128 .f32,
        ⌜∀ eb : Fin 391, eb.val = t.val / 49 → t.val % 49 ≠ 0 → f = psum V a c eb (t.val % 49)⌝
          ∗ owns (c : Thread nD τ) scM fullShare f)
      ∗ Pipeline.scopedRestBut (Ix := Unit) (Name := ℕ) (U := UR sig nD τ) (Lvl := ℕ) (Val := Elt F) spec1 c [cc1_scratch0]
      ∗ (∃ r, prngReg c r)
      ∗ owns (c : Thread nD τ) tLo fullShare (tabLo a) ∗ owns (c : Thread nD τ) tHi fullShare (tabHi a)) : sProp 𝕄) := by
  dsimp only [dat]
  unfold Pipeline.prefHeld
  rw [bigSep_K2, ← owns_whole (c : Thread nD τ) (pre1.ref 0) fullShare (a.1 0),
    ← owns_whole (c : Thread nD τ) (pre1.ref 1) fullShare (a.1 1)]
  rfl

-- o is the cast of the full sum when t % 49 = 48 and what was found otherwise.
theorem leaves3 (c : Dev nD) (t : Fin (cfg1 a).N) (d) (o : Vec F S2048x128 .bf16)
    (ho : o = if k1_cond3 (grid1.coords t) = 1#1 then k1_pay3 (psum V a c ⟨t.val / 49, eb_lt a t⟩ (t.val % 49 + 1))
      else (dat V a c).before 3 t d) :
    owns (c : Thread nD τ) (st3 a t) fullShare o ⊢ (dat V a c).leavesExact 3 t := by
  have hi : (cfg1 a).idle 3 ((cfg1 a).grid.coords t) = !(k1_cond3 (grid1.coords t) == 1#1) := rfl
  by_cases h48 : t.val % 49 = 48
  · have hc3 : k1_cond3 (grid1.coords t) = 1#1 := (cond3_iff ((grid1.coords t) 1)).mpr ((coord1 a t).trans h48)
    obtain rfl := ho.trans (if_pos hc3)
    rw [hc3] at hi
    unfold Dat.leavesExact
    rw [h48, hi]
    exact .rfl
  · have hc3 : ¬ k1_cond3 (grid1.coords t) = 1#1 := fun h => h48 ((coord1 a t).symm.trans ((cond3_iff ((grid1.coords t) 1)).mp h))
    obtain rfl := ho.trans (if_neg hc3)
    rw [Dat.leavesExact_idle _ 3 t (by rw [hi, Bool.not_eq_true', beq_eq_false_iff_ne]; exact hc3) (flush3 a t h48)]
    iintro H; iexists d; iexact H

theorem body_obligation (c : Dev nD) (ha : ∀ k, a.1 k = V c (pre1.ref k)) :
    BodyObligation (dat (F := F) V a c) (defs₀ (F := F)) Variants.none () Set.univ := fun t => by
  have hlt : t.val % 49 < 49 := Nat.mod_lt _ (by decide)
  have htN : t.val < 19159 := lt_of_lt_of_eq t.isLt (N_eq a)
  have hc1 := coord1 a t
  have hpt : pt a ⟨t.val / 49, eb_lt a t⟩ ⟨t.val % 49, hlt⟩ = t :=
    Fin.ext (by show 49 * (t.val / 49) + t.val % 49 = t.val; omega)
  rw [bigSep_W1, bigSep_W1]
  show iprop((dat V a c).Φ t.castSucc ∗ (dat V a c).owesAt () t.castSucc
      ∗ (∃ d, owns (c : Thread nD τ) (spec1_0.stage ((cfg1 a).slots t 0)) fullShare ((dat V a c).before 0 t d))
      ∗ (∃ d, owns (c : Thread nD τ) (spec1_1.stage ((cfg1 a).slots t 1)) fullShare ((dat V a c).before 1 t d))
      ∗ (∃ d, owns (c : Thread nD τ) (spec1_2.stage ((cfg1 a).slots t 2)) fullShare ((dat V a c).before 2 t d))
      ∗ (∃ d, owns (c : Thread nD τ) (st3 a t) fullShare ((dat V a c).before 3 t d)))
    ⊢ wp frame (wpE (defs₀ (F := F)) Variants.none c none) Set.univ
      (cc1__gather_kernel (grid1.coords t) tLo (Memref.isWhole_whole _) tHi (Memref.isWhole_whole _)
        (spec1_0.stage ((cfg1 a).slots t 0)) (hstage1_0 (((cfg1 a).slots t 0).cast nbuf1_0))
        (spec1_1.stage ((cfg1 a).slots t 1)) (hstage1_1 (((cfg1 a).slots t 1).cast nbuf1_1))
        (spec1_2.stage ((cfg1 a).slots t 2)) (hstage1_2 (((cfg1 a).slots t 2).cast nbuf1_2))
        (st3 a t) (hstage1_3 (((cfg1 a).slots t 3).cast nbuf1_3)) scM (Memref.isWhole_whole _))
      fun _ => iprop((dat V a c).Φ t.succ ∗ (dat V a c).owesAt () t.castSucc
        ∗ owns (c : Thread nD τ) (spec1_0.stage ((cfg1 a).slots t 0)) fullShare (iblk V a c 0 t)
        ∗ owns (c : Thread nD τ) (spec1_1.stage ((cfg1 a).slots t 1)) fullShare (iblk V a c 1 t)
        ∗ owns (c : Thread nD τ) (spec1_2.stage ((cfg1 a).slots t 2)) fullShare (iblk V a c 2 t)
        ∗ (dat V a c).leavesExact 3 t)
  simp only [before_0, before_1, before_2]
  rw [Phi_eq, Phi_eq]
  simp only [Fin.coe_castSucc, Fin.val_succ]
  iintro ⟨⟨⟨%f, %hf, Hs⟩, Hr, Hg, Hp0, Hp1⟩, Ho, ⟨%d0, H0⟩, ⟨%d1, H1⟩, ⟨%d2, H2⟩, ⟨%d3, H3⟩⟩
  iapply (sound_kernel c Set.univ (grid1.coords t) _ _ _ _ _ _ _ _ _ _ _ _ _ _ (tabLo a) (tabHi a)
    (iblk V a c 0 t) (iblk V a c 1 t) (iblk V a c 2 t) ((dat V a c).before 3 t d3) _ f
    (psum V a c ⟨t.val / 49, eb_lt a t⟩ (t.val % 49)) (psum V a c ⟨t.val / 49, eb_lt a t⟩ (t.val % 49 + 1))
    (by
      by_cases h0 : t.val % 49 = 0
      · rw [if_pos ((first_iff ((grid1.coords t) 1)).mpr (hc1.trans h0)), h0]; rfl
      · rw [if_neg fun h => h0 (hc1.symm.trans ((first_iff ((grid1.coords t) 1)).mp h))]; exact (hf _ rfl h0).symm)
    (by
      rw [psum, dif_pos hlt, hpt]
      refine if_congr ?_ rfl rfl
      unfold cAct act lo hi tabLo tabHi
      rw [show (grid1.coords t) 0 = ⟨t.val / 49, eb_lt a t⟩ from Fin.ext (coord0 a t), hc1, ha 0, ha 1]
      exact Iff.rfl)
    rfl _)
  iframe Hp0 Hp1 H0 H1 H2 H3 Hs
  iintro ⟨Hp0, Hp1, H0, H1, H2, H3, Hs⟩
  iframe Hr Hg Hp0 Hp1 Ho H0 H1 H2
  isplitl [Hs]
  · iexists _; isplitr
    swap; · iexact Hs
    ipureintro; intro eb he hne
    rw [show eb = ⟨t.val / 49, eb_lt a t⟩ from Fin.ext (by show eb.val = t.val / 49; omega),
      show (t.val + 1) % 49 = t.val % 49 + 1 from by omega]
  · iapply (leaves3 V a c t d3 _ rfl) $$ H3

end Cert.Kernel.G1
end
-- ==== Proof.K.S2Body.lean ====
import proofs.«429835_j17746804867087_2_alg».proof.Proof.Gen.Kernel.Launch
import proofs.«429835_j17746804867087_2_alg».proof.Proof.Gen.Kernel.Skeleton
import proofs.«429835_j17746804867087_2_alg».proof.Proof.Lib

set_option maxRecDepth 16384

noncomputable section

namespace Cert.Kernel.S2

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def cell (i : grid2.Coords) : S391.Idx :=
  (Rect.unit (s := S391) (k2_off1 i) S1.size (k2_off1_inb i)).toLoadRect.idx (Shape.Idx.first (numel1_S1.symm ▸ Nat.one_pos))

abbrev cFirst (i : grid2.Coords) : Prop :=
  Scalar.cmpi .ne (Scalar.extui (Scalar.cmpi .eq (BitVec.ofNat 32 (i 1).val) 0#32) : BitVec 32) 0#32 = 1#1

abbrev cAct (i : grid2.Coords) (wlo whi : BitVec 32) : Prop :=
  Scalar.cmpi .ne (Scalar.extui (Scalar.andi (Scalar.cmpi .sge (BitVec.ofNat 32 (i 0).val) wlo)
    (Scalar.cmpi .sle (BitVec.ofNat 32 (i 0).val) whi)) : BitVec 32) 0#32 = 1#1

abbrev Held (c : Dev nD)
    (arg2 : Memref sig .tc .smem S391 .i32) (arg3 : Memref sig .tc .smem S391 .i32)
    (arg4 : Memref sig .tc .vmem S1x2048 .i32) (arg5 : Memref sig .tc .vmem S2048x128 .bf16)
    (arg6 : Memref sig .tc .vmem S1024x128 .f32) (arg7 : Memref sig .tc .vmem S1024x128 .f32)
    (T2 T3 : Vec F S391 .i32) (x4 : Vec F S1x2048 .i32) (x5 : Vec F S2048x128 .bf16) (y6 x7 : Vec F S1024x128 .f32) : sProp 𝕄 :=
  iprop(owns (c : Thread nD τ) arg2 fullShare T2 ∗ owns (c : Thread nD τ) arg3 fullShare T3
    ∗ owns (c : Thread nD τ) arg4 fullShare x4 ∗ owns (c : Thread nD τ) arg5 fullShare x5
    ∗ owns (c : Thread nD τ) arg6 fullShare y6 ∗ owns (c : Thread nD τ) arg7 fullShare x7)

-- The running sum after the body: zeroed at a node block's first edge block, then the product added if the edge block contributes.
def scrAfter (i : grid2.Coords) (wlo whi : BitVec 32) (x4 : Vec F S1x2048 .i32) (x5 : Vec F S2048x128 .bf16)
    (x7 : Vec F S1024x128 .f32) : Vec F S1024x128 .f32 :=
  if cAct i wlo whi then k2_pay2 i x4 x5 (if cFirst i then k2_pay1 else x7) else (if cFirst i then k2_pay1 else x7)

-- The output block after the body: the positive part of the sum at the last edge block, else as found.
def outAfter (i : grid2.Coords) (s : Vec F S1024x128 .f32) (y6 : Vec F S1024x128 .f32) : Vec F S1024x128 .f32 :=
  if k2_cond3 i = 1#1 then k2_pay3 s else y6

set_option maxHeartbeats 1000000 in
-- Each conditional overwrites a whole block or leaves it, so the sum ends at scrAfter and the output block at outAfter.
theorem sound_kernel (c : Dev nD) (E : Set ℕ) (i : grid2.Coords)
    (arg2 : Memref sig .tc .smem S391 .i32) (harg2 : arg2.IsWhole) (arg3 : Memref sig .tc .smem S391 .i32) (harg3 : arg3.IsWhole)
    (arg4 : Memref sig .tc .vmem S1x2048 .i32) (harg4 : arg4.IsWhole) (arg5 : Memref sig .tc .vmem S2048x128 .bf16) (harg5 : arg5.IsWhole)
    (arg6 : Memref sig .tc .vmem S1024x128 .f32) (harg6 : arg6.IsWhole) (arg7 : Memref sig .tc .vmem S1024x128 .f32) (harg7 : arg7.IsWhole)
    (T2 T3 : Vec F S391 .i32) (x4 : Vec F S1x2048 .i32) (x5 : Vec F S2048x128 .bf16) (y6 x7 : Vec F S1024x128 .f32)
    (K : PUnit → sProp 𝕄) :
    iprop(Held c arg2 arg3 arg4 arg5 arg6 arg7 T2 T3 x4 x5 y6 x7
        ∗ (Held c arg2 arg3 arg4 arg5 arg6 arg7 T2 T3 x4 x5
              (outAfter i (scrAfter i (T2 (cell i)) (T3 (cell i)) x4 x5 x7) y6)
              (scrAfter i (T2 (cell i)) (T3 (cell i)) x4 x5 x7) -∗ K ⟨⟩))
      ⊢ wp frame (wpE (defs₀ (F := F)) Variants.none c none) E (cc2__scatter_kernel i arg2 harg2 arg3 harg3 arg4 harg4 arg5 harg5 arg6 harg6 arg7 harg7) K := by
  simp only [cc2__scatter_kernel_eq_skeleton]; unfold cc2__scatter_kernel_skel Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf2 hf3 hf4 hf5 hf6 hf7
  sl_exec
  sl_step
  iapply Hk
  isplitl [H2] <;> try (isplitl [H3] <;> try (isplitl [H4] <;> try (isplitl [H5] <;> try isplitl [H6])))
  all_goals (iexists _; isplitr; swap; iassumption; ipureintro)
  iterate 4 rfl
  all_goals
    sl_unfold_run_names
    simp only [outAfter, scrAfter, dite_eq_ite, readAt_full (S := S1x2048) _ zz2, readAt_full (S := S2048x128) _ zz2,
      readAt_full (S := S1024x128) _ zz2, read_writes_full (S := S1024x128) _ zz2,
      apply_ite (View.read (Elt F) arg6.view), apply_ite (View.read (Elt F) arg7.view)]
    rfl

end Cert.Kernel.S2

end
-- ==== Proof.K.S2Obl.lean ====
import proofs.«429835_j17746804867087_2_alg».proof.Proof.K.S2Def
import proofs.«429835_j17746804867087_2_alg».proof.Proof.K.S2Body

set_option maxRecDepth 16384

noncomputable section

namespace Cert.Kernel.S2

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg2 (F := F)).Adm)

theorem A_eq (c : Dev nD) (w : Fin (cfg2 a).W) : (dat V a c).A w = V c (Pipeline.arrRef spec2 w) := by
  dsimp only [dat]

theorem Phi_eq (c : Dev nD) (t : Fin ((cfg2 a).N + 1)) : (dat V a c).Φ t = Phi V a c t := rfl

-- Point t is node block t / 391, edge block t % 391.
theorem coords0 (t : Fin grid2.N) : ((grid2.coords t) 0).val = (nbOf t.val).val := rfl

theorem coords1 (t : Fin grid2.N) : ((grid2.coords t) 1).val = t.val % 391 := by
  show t.val / 1 % 391 = t.val % 391
  rw [Nat.div_one]

theorem pt_self (t : Fin (cfg2 a).N) (h : t.val % 391 < 391) : pt a (nbOf t.val) (t.val % 391) h = t := by
  have hN : (cfg2 a).N = 19159 := N_2
  have ht := t.isLt
  apply Fin.ext
  show t.val / 391 % 49 * 391 + t.val % 391 = t.val
  omega

-- (t + 1) / 391 = t / 391 unless t % 391 = 390.
theorem flush2 (t : Fin (cfg2 a).N) (h : t.val % 391 ≠ 390) : ((cfg2 a).win 2).flush t = false := by
  have hN : (cfg2 a).grid.N = 19159 := N_2
  have ht := t.isLt
  rw [← Bool.not_eq_true, Window.flush_out _ rfl t]
  rintro (e | ⟨h1, hne⟩)
  · omega
  · exact hne (congrArg (fun j : Fin 49 => ![(BitVec.ofNat 32 j.val).toNat, (0#32 : BitVec 32).toNat])
      (Fin.ext (by show (t.val + 1) / 391 % 49 = t.val / 391 % 49; omega)))

theorem cell_eq (i : grid2.Coords) : cell i = ValueIdx.ix1 (i 1) := by
  funext d
  match d with
  | ⟨0, _⟩ =>
    apply Fin.ext
    show k2_off1 i 0 + 1 * 0 = (i 1).val
    rw [k2_off1_eq]; rfl

-- The comparison of point t's edge block with a constant k, read back as t % 391 = k.
theorem eb_iff (t : Fin grid2.N) {k : ℕ} (hk : k < 2 ^ 32) :
    Scalar.cmpi .ne (Scalar.extui (Scalar.cmpi .eq (BitVec.ofNat 32 ((grid2.coords t) 1).val) (BitVec.ofNat 32 k)) : BitVec 32) 0#32 = 1#1
      ↔ t.val % 391 = k := by
  rw [← coords1 t, Scalar.guard_iff, Scalar.cmpi, IntOp.cmpi_eq]
  have h391 : ((grid2.coords t) 1).val < 391 := ((grid2.coords t) 1).isLt
  constructor
  · intro e
    have := congrArg BitVec.toNat e
    simp only [BitVec.toNat_ofNat] at this
    omega
  · intro e; rw [e]

theorem first_iff (t : Fin grid2.N) : cFirst (grid2.coords t) ↔ t.val % 391 = 0 := eb_iff t (by decide)

theorem last_iff (t : Fin grid2.N) : k2_cond3 (grid2.coords t) = 1#1 ↔ t.val % 391 = 390 := eb_iff t (by decide)

def tabLo : Vec F S391 .i32 := a.1 0
def tabHi : Vec F S391 .i32 := a.1 1

-- The body's test on the two table words it loads is act at the point's node block and edge block.
theorem cAct_iff_act (c : Dev nD) (ha : ∀ k, a.1 k = V c (pre2.ref k)) (t : Fin grid2.N) (h : t.val % 391 < 391) :
    cAct (grid2.coords t) (tabLo a (cell (grid2.coords t))) (tabHi a (cell (grid2.coords t))) ↔ act V c (nbOf t.val) ⟨t.val % 391, h⟩ := by
  rw [cell_eq, show tabLo a = V c main_v44 from ha 0, show tabHi a = V c main_v47 from ha 1]
  unfold cAct act lo hi
  rw [coords0 t, show (grid2.coords t) 1 = ⟨t.val % 391, h⟩ from Fin.ext (coords1 t)]
  exact Iff.rfl

-- One step of the running sum: from the sum over the edge blocks before (anything at a first edge block) to the sum over one more.
theorem scr_step (c : Dev nD) (ha : ∀ k, a.1 k = V c (pre2.ref k)) (t : Fin (cfg2 a).N) (f : Vec F S1024x128 .f32)
    (hf : t.val % 391 ≠ 0 → f = psum V a c (nbOf t.val) (t.val % 391)) :
    scrAfter (grid2.coords t) (tabLo a (cell (grid2.coords t))) (tabHi a (cell (grid2.coords t)))
        (iblk V a c (0 : Fin 3) t) (iblk V a c (1 : Fin 3) t) f
      = psum V a c (nbOf t.val) (t.val % 391 + 1) := by
  have hlt : t.val % 391 < 391 := Nat.mod_lt _ (by decide)
  have hs0 : (if cFirst (grid2.coords t) then (k2_pay1 : Vec F S1024x128 .f32) else f)
      = psum V a c (nbOf t.val) (t.val % 391) := by
    by_cases h0 : t.val % 391 = 0
    · rw [if_pos ((first_iff t).mpr h0), h0]; rfl
    · rw [if_neg (mt (first_iff t).mp h0), hf h0]
  have hact := cAct_iff_act V a c ha t hlt
  unfold scrAfter
  rw [hs0, psum, dif_pos hlt, pt_self]
  by_cases hA : act V c (nbOf t.val) ⟨t.val % 391, hlt⟩
  · rw [if_pos hA, if_pos (hact.mpr hA)]
  · rw [if_neg hA, if_neg (mt hact.mp hA)]

theorem before_in (c : Dev nD) (t : Fin (cfg2 a).N) :
    (∀ d, (dat V a c).before (0 : Fin 3) t d = iblk V a c (0 : Fin 3) t)
      ∧ ∀ d, (dat V a c).before (1 : Fin 3) t d = iblk V a c (1 : Fin 3) t := by
  constructor <;> intro d <;>
  exact ((dat V a c).before_in_eq_fetched _ rfl (fun _ => rfl) (fun _ _ _ => rfl) (fun _ => rfl) t d).trans rfl

theorem Phi_owns (c : Dev nD) (t : Fin ((cfg2 a).N + 1)) :
    Phi V a c t = iprop((∃ f : Vec F S1024x128 .f32,
          ⌜t.val % 391 ≠ 0 → f = psum V a c (nbOf t.val) (t.val % 391)⌝ ∗ owns (c : Thread nD τ) (Memref.whole cc2_scratch0) fullShare f)
      ∗ Pipeline.scopedRestBut (Ix := Unit) (Name := ℕ) (U := UR sig nD τ) (Lvl := ℕ) (Val := Elt F) spec2 c [cc2_scratch0]
      ∗ (∃ r, prngReg c r)
      ∗ owns (c : Thread nD τ) (Memref.whole main_v44) fullShare (tabLo a)
      ∗ owns (c : Thread nD τ) (Memref.whole main_v47) fullShare (tabHi a)) := by
  unfold Phi Pipeline.prefHeld; rw [bigSep_K2]; simp only [owns_whole]; rfl

theorem hin (c : Dev nD) :
    (iprop((∃ r, prngReg c r) ∗ Pipeline.prefHeld pre2 c (fun _ => fullShare) a.1 ∗ Pipeline.scopedRest spec2 c) : sProp 𝕄)
      ⊢ (dat V a c).Φ 0 := by
  rw [Phi_eq]; unfold Phi
  rw [scopedRest2_split]
  iintro ⟨Hg, HT, ⟨%f, HS⟩, HR⟩
  iframe Hg HT HR
  iexists f; isplitr
  · ipureintro; exact fun h => absurd (Nat.zero_mod 391) h
  iexact HS

theorem hout (c : Dev nD) :
    (dat V a c).Φ (Fin.last (cfg2 a).N)
      ⊢ (iprop(((∃ r, prngReg c r) ∗ Pipeline.prefHeld pre2 c (fun _ => fullShare) a.1) ∗ Pipeline.scopedRest spec2 c) : sProp 𝕄) := by
  rw [Phi_eq]; unfold Phi
  rw [scopedRest2_split]
  iintro ⟨⟨%f, -, HS⟩, HR, Hg, HT⟩
  iframe Hg HT HR
  iexists f; iexact HS

abbrev bodyAt (t : Fin (cfg2 a).N) : Prog (TpuEff nD τ sig (Elt F) Λ₀ .tc) PUnit :=
  cc2__scatter_kernel (grid2.coords t) (Memref.whole main_v44) (Memref.isWhole_whole _) (Memref.whole main_v47) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))
    (Memref.whole cc2_scratch0) (Memref.isWhole_whole _)

def bodyPre (c : Dev nD) (t : Fin (cfg2 a).N) : sProp 𝕄 :=
  iprop(Phi V a c t.castSucc ∗ (dat V a c).owesAt () t.castSucc
    ∗ (∃ d, owns (c : Thread nD τ) (spec2_0.stage ((cfg2 a).slots t 0)) fullShare ((dat V a c).before (0 : Fin 3) t d))
    ∗ (∃ d, owns (c : Thread nD τ) (spec2_1.stage ((cfg2 a).slots t 1)) fullShare ((dat V a c).before (1 : Fin 3) t d))
    ∗ (∃ d, owns (c : Thread nD τ) (spec2_2.stage ((cfg2 a).slots t 2)) fullShare ((dat V a c).before (2 : Fin 3) t d)))

def bodyPost (c : Dev nD) (t : Fin (cfg2 a).N) : sProp 𝕄 :=
  iprop(Phi V a c t.succ ∗ (dat V a c).owesAt () t.castSucc
    ∗ owns (c : Thread nD τ) (spec2_0.stage ((cfg2 a).slots t 0)) fullShare (iblk V a c (0 : Fin 3) t)
    ∗ owns (c : Thread nD τ) (spec2_1.stage ((cfg2 a).slots t 1)) fullShare (iblk V a c (1 : Fin 3) t)
    ∗ (dat V a c).leavesExact (2 : Fin 3) t)

theorem idle2_eq (t : Fin (cfg2 a).N) : (cfg2 a).idle 2 ((cfg2 a).grid.coords t) = !(decide (t.val % 391 = 390)) :=
  congrArg not (decide_eq_decide.mpr (last_iff t))

-- At t % 391 = 390 the sum is the node block's full sum, whose positive part is the output block; elsewhere the block is as found.
theorem leaves2 (c : Dev nD) (t : Fin (cfg2 a).N) (d) :
    owns (c : Thread nD τ) (spec2_2.stage ((cfg2 a).slots t 2)) fullShare
        (outAfter (grid2.coords t) (psum V a c (nbOf t.val) (t.val % 391 + 1)) ((dat V a c).before (2 : Fin 3) t d))
      ⊢ (dat V a c).leavesExact (2 : Fin 3) t := by
  unfold outAfter
  by_cases hL : t.val % 391 = 390
  · rw [if_pos ((last_iff t).mpr hL), hL, show (dat V a c).leavesExact (2 : Fin 3) t
        = owns (c : Thread nD τ) (spec2_2.stage ((cfg2 a).slots t 2)) fullShare (k2_pay3 (psum V a c (nbOf t.val) 391)) from by
      unfold Dat.leavesExact; rw [idle2_eq]; simp only [hL, decide_true, Bool.not_true]; rfl]
  · rw [if_neg (mt (last_iff t).mp hL), Dat.leavesExact_idle (dat V a c) (2 : Fin 3) t
      (by rw [idle2_eq]; simp only [hL, decide_false, Bool.not_false]) (flush2 a t hL)]
    iintro H; iexists d; iexact H

set_option maxHeartbeats 1000000 in
theorem sound_body (c : Dev nD) (ha : ∀ k, a.1 k = V c (pre2.ref k)) (t : Fin (cfg2 a).N) :
    bodyPre V a c t ⊢ wp frame (wpE (defs₀ (F := F)) Variants.none c none) Set.univ (bodyAt a t) (fun _ => bodyPost V a c t) := by
  unfold bodyPre bodyPost bodyAt
  simp only [(before_in V a c t).1, (before_in V a c t).2]
  rw [Phi_owns, Phi_owns]
  simp only [Fin.coe_castSucc, Fin.val_succ]
  have hN : (cfg2 a).N = 19159 := N_2
  have ht := t.isLt
  iintro ⟨⟨⟨%f, %hf, HS⟩, HR, Hg, HL, HH⟩, Ho, ⟨%d0, H0⟩, ⟨%d1, H1⟩, ⟨%d2, H2⟩⟩
  iapply (sound_kernel c Set.univ (grid2.coords t) _ _ _ _ _ _ _ _ _ _ _ _ (tabLo a) (tabHi a)
    (iblk V a c (0 : Fin 3) t) (iblk V a c (1 : Fin 3) t) ((dat V a c).before (2 : Fin 3) t d2) f _)
  unfold Held
  iframe HL HH H0 H1 H2 HS
  iintro ⟨HL, HH, H0, H1, H2, HS⟩
  rw [scr_step V a c ha t f hf]
  iframe HR Hg HL HH Ho H0 H1
  isplitl [HS]
  · iexists _; isplitr; swap; · iexact HS
    ipureintro; intro hne
    rw [show (t.val + 1) % 391 = t.val % 391 + 1 from by omega,
      show nbOf (t.val + 1) = nbOf t.val from Fin.ext (by show (t.val + 1) / 391 % 49 = t.val / 391 % 49; omega)]
  iapply (leaves2 V a c t d2)
  iexact H2

theorem body_obligation (c : Dev nD) (ha : ∀ k, a.1 k = V c (pre2.ref k)) :
    BodyObligation (dat V a c) (defs₀ (F := F)) Variants.none () Set.univ := fun t => by
  rw [bigSep_W2, bigSep_W2]
  exact sound_body V a c ha t

end Cert.Kernel.S2

end
-- ==== Proof.K.G4Body.lean ====
import proofs.«429835_j17746804867087_2_alg».proof.Proof.Gen.Kernel.Launch
import proofs.«429835_j17746804867087_2_alg».proof.Proof.Gen.Kernel.Skeleton
import proofs.«429835_j17746804867087_2_alg».proof.Proof.Lib
import Idealize.ShloMosaic.Lib.Pipeline.TableIdle
import Idealize.ShloMosaic.Lib.WholeRead

noncomputable section

namespace Cert.Kernel.G4

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem owns_unread {sp : Space} {S : Shape} {e : EltTy} (c : Dev nD) {m : Memref sig .tc sp S e} (h : m.IsWhole)
    (q : PosShare TreeShare) (X : S.Idx → Elt F e) :
    (owns (c : Thread nD τ) m q X : sProp 𝕄) = (m.view.loc (c : Thread nD τ) ↦[m.view.set]{q} h.unread X) := by
  rw [owns_eq_rep, h.eq_unread (View.read_rep _ _)]

-- The word of n is k, as the kernel tests it.
abbrev cEq (k : BitVec 32) (n : Fin 49) : Prop :=
  Scalar.cmpi .ne ((Scalar.extui (Scalar.cmpi .eq (BitVec.ofNat 32 n.val) k)) : BitVec 32) 0#32 = 1#1

-- The two table words admit the node block: wlo ≤ nb ≤ whi, signed.
abbrev cAct (i : grid4.Coords) (wlo whi : BitVec 32) : Prop :=
  Scalar.cmpi .ne ((Scalar.extui (Scalar.andi (Scalar.cmpi .sge (BitVec.ofNat 32 (i 1).val) wlo)
    (Scalar.cmpi .sle (BitVec.ofNat 32 (i 1).val) whi))) : BitVec 32) 0#32 = 1#1

-- The word loaded at the edge block's offset is the table's entry at the edge block.
theorem word_eq (i : grid4.Coords) (arg : Memref sig .tc .smem S391 .i32) (harg : arg.IsWhole) (T : Vec F S391 .i32) :
    View.readAt (Elt F) arg.view (Rect.unit (s := S391) (k4_off1 i) S1.size (k4_off1_inb i)).toLoadRect (harg.unread T)
      (Shape.Idx.first (numel1_S1.symm ▸ Nat.one_pos)) = T (ValueIdx.ix1 (n := 391) (i 0)) := by
  rw [harg.readAt_unread]
  congr 1; funext a; apply Fin.ext
  show k4_off1 i a + 1 * 0 = _
  rw [k4_off1_eq i]
  match a with | ⟨0, _⟩ => rfl

-- s₀ is f reset at the first node block, s adds the block's product when admitted, o is the cast of s at the last node block, else y.
theorem sound_kernel (c : Dev nD) (E : Set ℕ) (i : grid4.Coords)
    (arg2 : Memref sig .tc .smem S391 .i32) (harg2 : arg2.IsWhole) (arg3 : Memref sig .tc .smem S391 .i32) (harg3 : arg3.IsWhole)
    (arg4 : Memref sig .tc .vmem S1x2048 .i32) (harg4 : arg4.IsWhole) (arg5 : Memref sig .tc .vmem S1x2048 .f32) (harg5 : arg5.IsWhole)
    (arg6 : Memref sig .tc .vmem S1024x128 .f32) (harg6 : arg6.IsWhole) (arg7 : Memref sig .tc .vmem S2048x128 .bf16) (harg7 : arg7.IsWhole)
    (arg8 : Memref sig .tc .vmem S2048x128 .f32) (harg8 : arg8.IsWhole)
    (Tlo Thi : Vec F S391 .i32) (x4 : Vec F S1x2048 .i32) (x5 : Vec F S1x2048 .f32) (x6 : Vec F S1024x128 .f32)
    (y o : Vec F S2048x128 .bf16) (f s₀ s : Vec F S2048x128 .f32)
    (h₀ : s₀ = if cEq 0#32 (i 1) then k4_pay1 else f)
    (hs : s = if cAct i (Tlo (ValueIdx.ix1 (n := 391) (i 0))) (Thi (ValueIdx.ix1 (n := 391) (i 0))) then k4_pay2 i x4 x5 x6 s₀ else s₀)
    (ho : o = if k4_cond3 i = 1#1 then k4_pay3 s else y)
    (K : PUnit → sProp 𝕄) :
    iprop(owns (c : Thread nD τ) arg2 fullShare Tlo ∗ owns (c : Thread nD τ) arg3 fullShare Thi
        ∗ owns (c : Thread nD τ) arg4 fullShare x4 ∗ owns (c : Thread nD τ) arg5 fullShare x5 ∗ owns (c : Thread nD τ) arg6 fullShare x6
        ∗ owns (c : Thread nD τ) arg7 fullShare y ∗ owns (c : Thread nD τ) arg8 fullShare f
        ∗ (iprop(owns (c : Thread nD τ) arg2 fullShare Tlo ∗ owns (c : Thread nD τ) arg3 fullShare Thi
            ∗ owns (c : Thread nD τ) arg4 fullShare x4 ∗ owns (c : Thread nD τ) arg5 fullShare x5 ∗ owns (c : Thread nD τ) arg6 fullShare x6
            ∗ owns (c : Thread nD τ) arg7 fullShare o ∗ owns (c : Thread nD τ) arg8 fullShare s) -∗ K ⟨⟩))
      ⊢ wp frame (wpE (defs₀ (F := F)) Variants.none c none) E (cc4__gather_kernel i arg2 harg2 arg3 harg3 arg4 harg4 arg5 harg5 arg6 harg6 arg7 harg7 arg8 harg8) K := by
  subst ho hs h₀
  simp only [cc4__gather_kernel_eq_skeleton]; unfold cc4__gather_kernel_skel
  simp only [owns_unread c harg2, owns_unread c harg3, owns_unread c harg4, owns_unread c harg5, owns_unread c harg6]
  rw [owns_unread c harg7 _ y, owns_unread c harg8 _ f]
  iintro ⟨H2, H3, H4, H5, H6, H7, H8, Hk⟩
  sl_exec
  sl_step
  sl_unfold_run_names
  ihave O7 := (owns_intro (c : Thread nD τ) arg7 fullShare _) $$ H7
  ihave O8 := (owns_intro (c : Thread nD τ) arg8 fullShare _) $$ H8
  unfold cEq cAct
  simp only [word_eq i arg2 harg2 Tlo, word_eq i arg3 harg3 Thi, readAt_full arg4.view zz2, readAt_full arg5.view zz2, readAt_full arg6.view zz2, readAt_full arg8.view zz2,
    read_writes_full arg8.view zz2, read_writes_full arg7.view zz2, dite_eq_ite, apply_ite (View.read (Elt F) arg8.view),
    apply_ite (View.read (Elt F) arg7.view), harg4.read_unread, harg5.read_unread, harg6.read_unread, harg7.read_unread,
    harg8.read_unread]
  iapply Hk
  iframe

end Cert.Kernel.G4
end
-- ==== Proof.K.G4Obl.lean ====
import proofs.«429835_j17746804867087_2_alg».proof.Proof.K.G4Def
import proofs.«429835_j17746804867087_2_alg».proof.Proof.K.G4Body

noncomputable section

namespace Cert.Kernel.G4

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg4 (F := F)).Adm)

theorem A_eq (c : Dev nD) (w : Fin (cfg4 a).W) : (dat V a c).A w = V c (Pipeline.arrRef spec4 w) := by
  dsimp only [dat]

theorem coord0 (t : Fin (cfg4 a).N) : ((grid4.coords t) 0).val = t.val / 49 := by
  have h : t.val < 19159 := lt_of_lt_of_eq t.isLt (N_eq a)
  show t.val / 49 % 391 = _
  omega

theorem coord1 (t : Fin (cfg4 a).N) : ((grid4.coords t) 1).val = t.val % 49 := by
  show t.val / 1 % 49 = _
  omega

theorem cond3_iff : ∀ n : Fin 49, cEq 48#32 n ↔ n.val = 48 := by decide

theorem first_iff : ∀ n : Fin 49, cEq 0#32 n ↔ n.val = 0 := by decide

-- (t + 1) / 49 = t / 49 unless t % 49 = 48.
theorem flush3 (t : Fin (cfg4 a).N) (h48 : t.val % 49 ≠ 48) : ((cfg4 a).win 3).flush t = false := by
  have hN : (cfg4 a).grid.N = 19159 := N_eq a
  have ht : t.val < 19159 := lt_of_lt_of_eq t.isLt (N_eq a)
  rw [← Bool.not_eq_true, Window.flush_out _ rfl t]
  rintro (h | ⟨h, hne⟩)
  · omega
  · refine hne (hreads4_3 (grid4.coords ⟨t.val + 1, h⟩) (grid4.coords t) fun ax hr => ?_)
    match ax with
    | ⟨0, _⟩ => exact Fin.ext ((coord0 a ⟨t.val + 1, h⟩).trans ((show (t.val + 1) / 49 = t.val / 49 by omega).trans (coord0 a t).symm))
    | ⟨1, _⟩ => exact absurd hr Bool.false_ne_true

theorem hin (c : Dev nD) :
    (iprop((∃ r, prngReg c r) ∗ Pipeline.prefHeld (Ix := Unit) (Name := ℕ) (U := UR sig nD τ) (Lvl := ℕ) pre4 c (fun _ => fullShare) a.1
      ∗ Pipeline.scopedRest (Ix := Unit) (Name := ℕ) (U := UR sig nD τ) (Lvl := ℕ) (Val := Elt F) spec4 c) : sProp 𝕄)
      ⊢ (dat V a c).Φ 0 := by
  rw [scopedRest4_split]
  dsimp only [dat]
  simp only [scM, owns_whole]
  iintro ⟨Hg, Hp, ⟨%f, Hs⟩, Hr⟩
  iframe Hr Hg Hp
  iexists f; isplitr
  · ipureintro; intro eb _ h; exact absurd rfl h
  · iexact Hs

theorem hout (c : Dev nD) :
    (dat V a c).Φ (Fin.last (cfg4 a).N)
      ⊢ (iprop(((∃ r, prngReg c r) ∗ Pipeline.prefHeld (Ix := Unit) (Name := ℕ) (U := UR sig nD τ) (Lvl := ℕ) pre4 c (fun _ => fullShare) a.1)
        ∗ Pipeline.scopedRest (Ix := Unit) (Name := ℕ) (U := UR sig nD τ) (Lvl := ℕ) (Val := Elt F) spec4 c) : sProp 𝕄) := by
  rw [scopedRest4_split]
  dsimp only [dat]
  simp only [scM, owns_whole]
  iintro ⟨⟨%f, -, Hs⟩, Hr, Hg, Hp⟩
  iframe Hr Hg Hp
  iexists f; iexact Hs

theorem before_0 (c : Dev nD) (t : Fin (cfg4 a).N) (d) : (dat V a c).before 0 t d = iblk V a c 0 t :=
  ((dat V a c).before_in_eq_fetched 0 rfl (fun _ => rfl) (fun _ _ _ => rfl) (fun _ => rfl) t d).trans rfl
theorem before_1 (c : Dev nD) (t : Fin (cfg4 a).N) (d) : (dat V a c).before 1 t d = iblk V a c 1 t :=
  ((dat V a c).before_in_eq_fetched 1 rfl (fun _ => rfl) (fun _ _ _ => rfl) (fun _ => rfl) t d).trans rfl
theorem before_2 (c : Dev nD) (t : Fin (cfg4 a).N) (d) : (dat V a c).before 2 t d = iblk V a c 2 t :=
  ((dat V a c).before_in_eq_fetched 2 rfl (fun _ => rfl) (fun _ _ _ => rfl) (fun _ => rfl) t d).trans rfl

abbrev st3 (t : Fin (cfg4 a).N) := spec4_3.stage ((cfg4 a).slots t 3)

abbrev tLo : Memref sig .tc .smem S391 .i32 := Memref.whole main_v37
abbrev tHi : Memref sig .tc .smem S391 .i32 := Memref.whole main_v40

def tabLo : Vec F S391 .i32 := a.1 0
def tabHi : Vec F S391 .i32 := a.1 1

theorem Phi_eq (c : Dev nD) (t : Fin ((cfg4 a).N + 1)) :
    (dat V a c).Φ t = (iprop((∃ f : Vec F S2048x128 .f32,
        ⌜∀ eb : Fin 391, eb.val = t.val / 49 → t.val % 49 ≠ 0 → f = psum V a c eb (t.val % 49)⌝
          ∗ owns (c : Thread nD τ) scM fullShare f)
      ∗ Pipeline.scopedRestBut (Ix := Unit) (Name := ℕ) (U := UR sig nD τ) (Lvl := ℕ) (Val := Elt F) spec4 c [cc4_scratch0]
      ∗ (∃ r, prngReg c r)
      ∗ owns (c : Thread nD τ) tLo fullShare (tabLo a) ∗ owns (c : Thread nD τ) tHi fullShare (tabHi a)) : sProp 𝕄) := by
  dsimp only [dat]
  unfold Pipeline.prefHeld
  rw [bigSep_K2, ← owns_whole (c : Thread nD τ) (pre4.ref 0) fullShare (a.1 0),
    ← owns_whole (c : Thread nD τ) (pre4.ref 1) fullShare (a.1 1)]
  rfl

-- o is the cast of the full sum when t % 49 = 48 and what was found otherwise.
theorem leaves3 (c : Dev nD) (t : Fin (cfg4 a).N) (d) (o : Vec F S2048x128 .bf16)
    (ho : o = if k4_cond3 (grid4.coords t) = 1#1 then k4_pay3 (psum V a c ⟨t.val / 49, eb_lt a t⟩ (t.val % 49 + 1))
      else (dat V a c).before 3 t d) :
    owns (c : Thread nD τ) (st3 a t) fullShare o ⊢ (dat V a c).leavesExact 3 t := by
  have hi : (cfg4 a).idle 3 ((cfg4 a).grid.coords t) = !(k4_cond3 (grid4.coords t) == 1#1) := rfl
  by_cases h48 : t.val % 49 = 48
  · have hc3 : k4_cond3 (grid4.coords t) = 1#1 := (cond3_iff ((grid4.coords t) 1)).mpr ((coord1 a t).trans h48)
    obtain rfl := ho.trans (if_pos hc3)
    rw [hc3] at hi
    unfold Dat.leavesExact
    rw [h48, hi]
    exact .rfl
  · have hc3 : ¬ k4_cond3 (grid4.coords t) = 1#1 := fun h => h48 ((coord1 a t).symm.trans ((cond3_iff ((grid4.coords t) 1)).mp h))
    obtain rfl := ho.trans (if_neg hc3)
    rw [Dat.leavesExact_idle _ 3 t (by rw [hi, Bool.not_eq_true', beq_eq_false_iff_ne]; exact hc3) (flush3 a t h48)]
    iintro H; iexists d; iexact H

theorem body_obligation (c : Dev nD) (ha : ∀ k, a.1 k = V c (pre4.ref k)) :
    BodyObligation (dat (F := F) V a c) (defs₀ (F := F)) Variants.none () Set.univ := fun t => by
  have hlt : t.val % 49 < 49 := Nat.mod_lt _ (by decide)
  have htN : t.val < 19159 := lt_of_lt_of_eq t.isLt (N_eq a)
  have hc1 := coord1 a t
  have hpt : pt a ⟨t.val / 49, eb_lt a t⟩ ⟨t.val % 49, hlt⟩ = t :=
    Fin.ext (by show 49 * (t.val / 49) + t.val % 49 = t.val; omega)
  rw [bigSep_W4, bigSep_W4]
  show iprop((dat V a c).Φ t.castSucc ∗ (dat V a c).owesAt () t.castSucc
      ∗ (∃ d, owns (c : Thread nD τ) (spec4_0.stage ((cfg4 a).slots t 0)) fullShare ((dat V a c).before 0 t d))
      ∗ (∃ d, owns (c : Thread nD τ) (spec4_1.stage ((cfg4 a).slots t 1)) fullShare ((dat V a c).before 1 t d))
      ∗ (∃ d, owns (c : Thread nD τ) (spec4_2.stage ((cfg4 a).slots t 2)) fullShare ((dat V a c).before 2 t d))
      ∗ (∃ d, owns (c : Thread nD τ) (st3 a t) fullShare ((dat V a c).before 3 t d)))
    ⊢ wp frame (wpE (defs₀ (F := F)) Variants.none c none) Set.univ
      (cc4__gather_kernel (grid4.coords t) tLo (Memref.isWhole_whole _) tHi (Memref.isWhole_whole _)
        (spec4_0.stage ((cfg4 a).slots t 0)) (hstage4_0 (((cfg4 a).slots t 0).cast nbuf4_0))
        (spec4_1.stage ((cfg4 a).slots t 1)) (hstage4_1 (((cfg4 a).slots t 1).cast nbuf4_1))
        (spec4_2.stage ((cfg4 a).slots t 2)) (hstage4_2 (((cfg4 a).slots t 2).cast nbuf4_2))
        (st3 a t) (hstage4_3 (((cfg4 a).slots t 3).cast nbuf4_3)) scM (Memref.isWhole_whole _))
      fun _ => iprop((dat V a c).Φ t.succ ∗ (dat V a c).owesAt () t.castSucc
        ∗ owns (c : Thread nD τ) (spec4_0.stage ((cfg4 a).slots t 0)) fullShare (iblk V a c 0 t)
        ∗ owns (c : Thread nD τ) (spec4_1.stage ((cfg4 a).slots t 1)) fullShare (iblk V a c 1 t)
        ∗ owns (c : Thread nD τ) (spec4_2.stage ((cfg4 a).slots t 2)) fullShare (iblk V a c 2 t)
        ∗ (dat V a c).leavesExact 3 t)
  simp only [before_0, before_1, before_2]
  rw [Phi_eq, Phi_eq]
  simp only [Fin.coe_castSucc, Fin.val_succ]
  iintro ⟨⟨⟨%f, %hf, Hs⟩, Hr, Hg, Hp0, Hp1⟩, Ho, ⟨%d0, H0⟩, ⟨%d1, H1⟩, ⟨%d2, H2⟩, ⟨%d3, H3⟩⟩
  iapply (sound_kernel c Set.univ (grid4.coords t) _ _ _ _ _ _ _ _ _ _ _ _ _ _ (tabLo a) (tabHi a)
    (iblk V a c 0 t) (iblk V a c 1 t) (iblk V a c 2 t) ((dat V a c).before 3 t d3) _ f
    (psum V a c ⟨t.val / 49, eb_lt a t⟩ (t.val % 49)) (psum V a c ⟨t.val / 49, eb_lt a t⟩ (t.val % 49 + 1))
    (by
      by_cases h0 : t.val % 49 = 0
      · rw [if_pos ((first_iff ((grid4.coords t) 1)).mpr (hc1.trans h0)), h0]; rfl
      · rw [if_neg fun h => h0 (hc1.symm.trans ((first_iff ((grid4.coords t) 1)).mp h))]; exact (hf _ rfl h0).symm)
    (by
      rw [psum, dif_pos hlt, hpt]
      refine if_congr ?_ rfl rfl
      unfold cAct act lo hi tabLo tabHi
      rw [show (grid4.coords t) 0 = ⟨t.val / 49, eb_lt a t⟩ from Fin.ext (coord0 a t), hc1, ha 0, ha 1]
      exact Iff.rfl)
    rfl _)
  iframe Hp0 Hp1 H0 H1 H2 H3 Hs
  iintro ⟨Hp0, Hp1, H0, H1, H2, H3, Hs⟩
  iframe Hr Hg Hp0 Hp1 Ho H0 H1 H2
  isplitl [Hs]
  · iexists _; isplitr
    swap; · iexact Hs
    ipureintro; intro eb he hne
    rw [show eb = ⟨t.val / 49, eb_lt a t⟩ from Fin.ext (by show eb.val = t.val / 49; omega),
      show (t.val + 1) % 49 = t.val % 49 + 1 from by omega]
  · iapply (leaves3 V a c t d3 _ rfl) $$ H3

end Cert.Kernel.G4
end
-- ==== Proof.K.S5Body.lean ====
import proofs.«429835_j17746804867087_2_alg».proof.Proof.Gen.Kernel.Launch
import proofs.«429835_j17746804867087_2_alg».proof.Proof.Gen.Kernel.Skeleton
import proofs.«429835_j17746804867087_2_alg».proof.Proof.Lib

set_option maxRecDepth 16384

noncomputable section

namespace Cert.Kernel.S5

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def cell (i : grid5.Coords) : S391.Idx :=
  (Rect.unit (s := S391) (k5_off1 i) S1.size (k5_off1_inb i)).toLoadRect.idx (Shape.Idx.first (numel1_S1.symm ▸ Nat.one_pos))

abbrev cFirst (i : grid5.Coords) : Prop :=
  Scalar.cmpi .ne (Scalar.extui (Scalar.cmpi .eq (BitVec.ofNat 32 (i 1).val) 0#32) : BitVec 32) 0#32 = 1#1

abbrev cAct (i : grid5.Coords) (wlo whi : BitVec 32) : Prop :=
  Scalar.cmpi .ne (Scalar.extui (Scalar.andi (Scalar.cmpi .sge (BitVec.ofNat 32 (i 0).val) wlo)
    (Scalar.cmpi .sle (BitVec.ofNat 32 (i 0).val) whi)) : BitVec 32) 0#32 = 1#1

abbrev Held (c : Dev nD)
    (arg2 : Memref sig .tc .smem S391 .i32) (arg3 : Memref sig .tc .smem S391 .i32)
    (arg4 : Memref sig .tc .vmem S1x2048 .i32) (arg5 : Memref sig .tc .vmem S2048x128 .bf16)
    (arg6 : Memref sig .tc .vmem S1024x128 .f32) (arg7 : Memref sig .tc .vmem S1024x128 .f32)
    (T2 T3 : Vec F S391 .i32) (x4 : Vec F S1x2048 .i32) (x5 : Vec F S2048x128 .bf16) (y6 x7 : Vec F S1024x128 .f32) : sProp 𝕄 :=
  iprop(owns (c : Thread nD τ) arg2 fullShare T2 ∗ owns (c : Thread nD τ) arg3 fullShare T3
    ∗ owns (c : Thread nD τ) arg4 fullShare x4 ∗ owns (c : Thread nD τ) arg5 fullShare x5
    ∗ owns (c : Thread nD τ) arg6 fullShare y6 ∗ owns (c : Thread nD τ) arg7 fullShare x7)

-- The running sum after the body: zeroed at a node block's first edge block, then the product added if the edge block contributes.
def scrAfter (i : grid5.Coords) (wlo whi : BitVec 32) (x4 : Vec F S1x2048 .i32) (x5 : Vec F S2048x128 .bf16)
    (x7 : Vec F S1024x128 .f32) : Vec F S1024x128 .f32 :=
  if cAct i wlo whi then k5_pay2 i x4 x5 (if cFirst i then k5_pay1 else x7) else (if cFirst i then k5_pay1 else x7)

-- The output block after the body: the positive part of the sum at the last edge block, else as found.
def outAfter (i : grid5.Coords) (s : Vec F S1024x128 .f32) (y6 : Vec F S1024x128 .f32) : Vec F S1024x128 .f32 :=
  if k5_cond3 i = 1#1 then k5_pay3 s else y6

set_option maxHeartbeats 1000000 in
-- Each conditional overwrites a whole block or leaves it, so the sum ends at scrAfter and the output block at outAfter.
theorem sound_kernel (c : Dev nD) (E : Set ℕ) (i : grid5.Coords)
    (arg2 : Memref sig .tc .smem S391 .i32) (harg2 : arg2.IsWhole) (arg3 : Memref sig .tc .smem S391 .i32) (harg3 : arg3.IsWhole)
    (arg4 : Memref sig .tc .vmem S1x2048 .i32) (harg4 : arg4.IsWhole) (arg5 : Memref sig .tc .vmem S2048x128 .bf16) (harg5 : arg5.IsWhole)
    (arg6 : Memref sig .tc .vmem S1024x128 .f32) (harg6 : arg6.IsWhole) (arg7 : Memref sig .tc .vmem S1024x128 .f32) (harg7 : arg7.IsWhole)
    (T2 T3 : Vec F S391 .i32) (x4 : Vec F S1x2048 .i32) (x5 : Vec F S2048x128 .bf16) (y6 x7 : Vec F S1024x128 .f32)
    (K : PUnit → sProp 𝕄) :
    iprop(Held c arg2 arg3 arg4 arg5 arg6 arg7 T2 T3 x4 x5 y6 x7
        ∗ (Held c arg2 arg3 arg4 arg5 arg6 arg7 T2 T3 x4 x5
              (outAfter i (scrAfter i (T2 (cell i)) (T3 (cell i)) x4 x5 x7) y6)
              (scrAfter i (T2 (cell i)) (T3 (cell i)) x4 x5 x7) -∗ K ⟨⟩))
      ⊢ wp frame (wpE (defs₀ (F := F)) Variants.none c none) E (cc5__scatter_kernel i arg2 harg2 arg3 harg3 arg4 harg4 arg5 harg5 arg6 harg6 arg7 harg7) K := by
  simp only [cc5__scatter_kernel_eq_skeleton]; unfold cc5__scatter_kernel_skel Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf2 hf3 hf4 hf5 hf6 hf7
  sl_exec
  sl_step
  iapply Hk
  isplitl [H2] <;> try (isplitl [H3] <;> try (isplitl [H4] <;> try (isplitl [H5] <;> try isplitl [H6])))
  all_goals (iexists _; isplitr; swap; iassumption; ipureintro)
  iterate 4 rfl
  all_goals
    sl_unfold_run_names
    simp only [outAfter, scrAfter, dite_eq_ite, readAt_full (S := S1x2048) _ zz2, readAt_full (S := S2048x128) _ zz2,
      readAt_full (S := S1024x128) _ zz2, read_writes_full (S := S1024x128) _ zz2,
      apply_ite (View.read (Elt F) arg6.view), apply_ite (View.read (Elt F) arg7.view)]
    rfl

end Cert.Kernel.S5

end
-- ==== Proof.K.S5Obl.lean ====
import proofs.«429835_j17746804867087_2_alg».proof.Proof.K.S5Def
import proofs.«429835_j17746804867087_2_alg».proof.Proof.K.S5Body

set_option maxRecDepth 16384

noncomputable section

namespace Cert.Kernel.S5

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg5 (F := F)).Adm)

theorem A_eq (c : Dev nD) (w : Fin (cfg5 a).W) : (dat V a c).A w = V c (Pipeline.arrRef spec5 w) := by
  dsimp only [dat]

theorem Phi_eq (c : Dev nD) (t : Fin ((cfg5 a).N + 1)) : (dat V a c).Φ t = Phi V a c t := rfl

-- Point t is node block t / 391, edge block t % 391.
theorem coords0 (t : Fin grid5.N) : ((grid5.coords t) 0).val = (nbOf t.val).val := rfl

theorem coords1 (t : Fin grid5.N) : ((grid5.coords t) 1).val = t.val % 391 := by
  show t.val / 1 % 391 = t.val % 391
  rw [Nat.div_one]

theorem pt_self (t : Fin (cfg5 a).N) (h : t.val % 391 < 391) : pt a (nbOf t.val) (t.val % 391) h = t := by
  have hN : (cfg5 a).N = 19159 := N_5
  have ht := t.isLt
  apply Fin.ext
  show t.val / 391 % 49 * 391 + t.val % 391 = t.val
  omega

-- (t + 1) / 391 = t / 391 unless t % 391 = 390.
theorem flush2 (t : Fin (cfg5 a).N) (h : t.val % 391 ≠ 390) : ((cfg5 a).win 2).flush t = false := by
  have hN : (cfg5 a).grid.N = 19159 := N_5
  have ht := t.isLt
  rw [← Bool.not_eq_true, Window.flush_out _ rfl t]
  rintro (e | ⟨h1, hne⟩)
  · omega
  · exact hne (congrArg (fun j : Fin 49 => ![(BitVec.ofNat 32 j.val).toNat, (0#32 : BitVec 32).toNat])
      (Fin.ext (by show (t.val + 1) / 391 % 49 = t.val / 391 % 49; omega)))

theorem cell_eq (i : grid5.Coords) : cell i = ValueIdx.ix1 (i 1) := by
  funext d
  match d with
  | ⟨0, _⟩ =>
    apply Fin.ext
    show k5_off1 i 0 + 1 * 0 = (i 1).val
    rw [k5_off1_eq]; rfl

-- The comparison of point t's edge block with a constant k, read back as t % 391 = k.
theorem eb_iff (t : Fin grid5.N) {k : ℕ} (hk : k < 2 ^ 32) :
    Scalar.cmpi .ne (Scalar.extui (Scalar.cmpi .eq (BitVec.ofNat 32 ((grid5.coords t) 1).val) (BitVec.ofNat 32 k)) : BitVec 32) 0#32 = 1#1
      ↔ t.val % 391 = k := by
  rw [← coords1 t, Scalar.guard_iff, Scalar.cmpi, IntOp.cmpi_eq]
  have h391 : ((grid5.coords t) 1).val < 391 := ((grid5.coords t) 1).isLt
  constructor
  · intro e
    have := congrArg BitVec.toNat e
    simp only [BitVec.toNat_ofNat] at this
    omega
  · intro e; rw [e]

theorem first_iff (t : Fin grid5.N) : cFirst (grid5.coords t) ↔ t.val % 391 = 0 := eb_iff t (by decide)

theorem last_iff (t : Fin grid5.N) : k5_cond3 (grid5.coords t) = 1#1 ↔ t.val % 391 = 390 := eb_iff t (by decide)

def tabLo : Vec F S391 .i32 := a.1 0
def tabHi : Vec F S391 .i32 := a.1 1

-- The body's test on the two table words it loads is act at the point's node block and edge block.
theorem cAct_iff_act (c : Dev nD) (ha : ∀ k, a.1 k = V c (pre5.ref k)) (t : Fin grid5.N) (h : t.val % 391 < 391) :
    cAct (grid5.coords t) (tabLo a (cell (grid5.coords t))) (tabHi a (cell (grid5.coords t))) ↔ act V c (nbOf t.val) ⟨t.val % 391, h⟩ := by
  rw [cell_eq, show tabLo a = V c main_v44 from ha 0, show tabHi a = V c main_v47 from ha 1]
  unfold cAct act lo hi
  rw [coords0 t, show (grid5.coords t) 1 = ⟨t.val % 391, h⟩ from Fin.ext (coords1 t)]
  exact Iff.rfl

-- One step of the running sum: from the sum over the edge blocks before (anything at a first edge block) to the sum over one more.
theorem scr_step (c : Dev nD) (ha : ∀ k, a.1 k = V c (pre5.ref k)) (t : Fin (cfg5 a).N) (f : Vec F S1024x128 .f32)
    (hf : t.val % 391 ≠ 0 → f = psum V a c (nbOf t.val) (t.val % 391)) :
    scrAfter (grid5.coords t) (tabLo a (cell (grid5.coords t))) (tabHi a (cell (grid5.coords t)))
        (iblk V a c (0 : Fin 3) t) (iblk V a c (1 : Fin 3) t) f
      = psum V a c (nbOf t.val) (t.val % 391 + 1) := by
  have hlt : t.val % 391 < 391 := Nat.mod_lt _ (by decide)
  have hs0 : (if cFirst (grid5.coords t) then (k5_pay1 : Vec F S1024x128 .f32) else f)
      = psum V a c (nbOf t.val) (t.val % 391) := by
    by_cases h0 : t.val % 391 = 0
    · rw [if_pos ((first_iff t).mpr h0), h0]; rfl
    · rw [if_neg (mt (first_iff t).mp h0), hf h0]
  have hact := cAct_iff_act V a c ha t hlt
  unfold scrAfter
  rw [hs0, psum, dif_pos hlt, pt_self]
  by_cases hA : act V c (nbOf t.val) ⟨t.val % 391, hlt⟩
  · rw [if_pos hA, if_pos (hact.mpr hA)]
  · rw [if_neg hA, if_neg (mt hact.mp hA)]

theorem before_in (c : Dev nD) (t : Fin (cfg5 a).N) :
    (∀ d, (dat V a c).before (0 : Fin 3) t d = iblk V a c (0 : Fin 3) t)
      ∧ ∀ d, (dat V a c).before (1 : Fin 3) t d = iblk V a c (1 : Fin 3) t := by
  constructor <;> intro d <;>
  exact ((dat V a c).before_in_eq_fetched _ rfl (fun _ => rfl) (fun _ _ _ => rfl) (fun _ => rfl) t d).trans rfl

theorem Phi_owns (c : Dev nD) (t : Fin ((cfg5 a).N + 1)) :
    Phi V a c t = iprop((∃ f : Vec F S1024x128 .f32,
          ⌜t.val % 391 ≠ 0 → f = psum V a c (nbOf t.val) (t.val % 391)⌝ ∗ owns (c : Thread nD τ) (Memref.whole cc5_scratch0) fullShare f)
      ∗ Pipeline.scopedRestBut (Ix := Unit) (Name := ℕ) (U := UR sig nD τ) (Lvl := ℕ) (Val := Elt F) spec5 c [cc5_scratch0]
      ∗ (∃ r, prngReg c r)
      ∗ owns (c : Thread nD τ) (Memref.whole main_v44) fullShare (tabLo a)
      ∗ owns (c : Thread nD τ) (Memref.whole main_v47) fullShare (tabHi a)) := by
  unfold Phi Pipeline.prefHeld; rw [bigSep_K2]; simp only [owns_whole]; rfl

theorem hin (c : Dev nD) :
    (iprop((∃ r, prngReg c r) ∗ Pipeline.prefHeld pre5 c (fun _ => fullShare) a.1 ∗ Pipeline.scopedRest spec5 c) : sProp 𝕄)
      ⊢ (dat V a c).Φ 0 := by
  rw [Phi_eq]; unfold Phi
  rw [scopedRest5_split]
  iintro ⟨Hg, HT, ⟨%f, HS⟩, HR⟩
  iframe Hg HT HR
  iexists f; isplitr
  · ipureintro; exact fun h => absurd (Nat.zero_mod 391) h
  iexact HS

theorem hout (c : Dev nD) :
    (dat V a c).Φ (Fin.last (cfg5 a).N)
      ⊢ (iprop(((∃ r, prngReg c r) ∗ Pipeline.prefHeld pre5 c (fun _ => fullShare) a.1) ∗ Pipeline.scopedRest spec5 c) : sProp 𝕄) := by
  rw [Phi_eq]; unfold Phi
  rw [scopedRest5_split]
  iintro ⟨⟨%f, -, HS⟩, HR, Hg, HT⟩
  iframe Hg HT HR
  iexists f; iexact HS

abbrev bodyAt (t : Fin (cfg5 a).N) : Prog (TpuEff nD τ sig (Elt F) Λ₀ .tc) PUnit :=
  cc5__scatter_kernel (grid5.coords t) (Memref.whole main_v44) (Memref.isWhole_whole _) (Memref.whole main_v47) (Memref.isWhole_whole _)
    (spec5_0.stage ((cfg5 a).slots t 0)) (hstage5_0 (((cfg5 a).slots t 0).cast nbuf5_0))
    (spec5_1.stage ((cfg5 a).slots t 1)) (hstage5_1 (((cfg5 a).slots t 1).cast nbuf5_1))
    (spec5_2.stage ((cfg5 a).slots t 2)) (hstage5_2 (((cfg5 a).slots t 2).cast nbuf5_2))
    (Memref.whole cc5_scratch0) (Memref.isWhole_whole _)

def bodyPre (c : Dev nD) (t : Fin (cfg5 a).N) : sProp 𝕄 :=
  iprop(Phi V a c t.castSucc ∗ (dat V a c).owesAt () t.castSucc
    ∗ (∃ d, owns (c : Thread nD τ) (spec5_0.stage ((cfg5 a).slots t 0)) fullShare ((dat V a c).before (0 : Fin 3) t d))
    ∗ (∃ d, owns (c : Thread nD τ) (spec5_1.stage ((cfg5 a).slots t 1)) fullShare ((dat V a c).before (1 : Fin 3) t d))
    ∗ (∃ d, owns (c : Thread nD τ) (spec5_2.stage ((cfg5 a).slots t 2)) fullShare ((dat V a c).before (2 : Fin 3) t d)))

def bodyPost (c : Dev nD) (t : Fin (cfg5 a).N) : sProp 𝕄 :=
  iprop(Phi V a c t.succ ∗ (dat V a c).owesAt () t.castSucc
    ∗ owns (c : Thread nD τ) (spec5_0.stage ((cfg5 a).slots t 0)) fullShare (iblk V a c (0 : Fin 3) t)
    ∗ owns (c : Thread nD τ) (spec5_1.stage ((cfg5 a).slots t 1)) fullShare (iblk V a c (1 : Fin 3) t)
    ∗ (dat V a c).leavesExact (2 : Fin 3) t)

theorem idle2_eq (t : Fin (cfg5 a).N) : (cfg5 a).idle 2 ((cfg5 a).grid.coords t) = !(decide (t.val % 391 = 390)) :=
  congrArg not (decide_eq_decide.mpr (last_iff t))

-- At t % 391 = 390 the sum is the node block's full sum, whose positive part is the output block; elsewhere the block is as found.
theorem leaves2 (c : Dev nD) (t : Fin (cfg5 a).N) (d) :
    owns (c : Thread nD τ) (spec5_2.stage ((cfg5 a).slots t 2)) fullShare
        (outAfter (grid5.coords t) (psum V a c (nbOf t.val) (t.val % 391 + 1)) ((dat V a c).before (2 : Fin 3) t d))
      ⊢ (dat V a c).leavesExact (2 : Fin 3) t := by
  unfold outAfter
  by_cases hL : t.val % 391 = 390
  · rw [if_pos ((last_iff t).mpr hL), hL, show (dat V a c).leavesExact (2 : Fin 3) t
        = owns (c : Thread nD τ) (spec5_2.stage ((cfg5 a).slots t 2)) fullShare (k5_pay3 (psum V a c (nbOf t.val) 391)) from by
      unfold Dat.leavesExact; rw [idle2_eq]; simp only [hL, decide_true, Bool.not_true]; rfl]
  · rw [if_neg (mt (last_iff t).mp hL), Dat.leavesExact_idle (dat V a c) (2 : Fin 3) t
      (by rw [idle2_eq]; simp only [hL, decide_false, Bool.not_false]) (flush2 a t hL)]
    iintro H; iexists d; iexact H

set_option maxHeartbeats 1000000 in
theorem sound_body (c : Dev nD) (ha : ∀ k, a.1 k = V c (pre5.ref k)) (t : Fin (cfg5 a).N) :
    bodyPre V a c t ⊢ wp frame (wpE (defs₀ (F := F)) Variants.none c none) Set.univ (bodyAt a t) (fun _ => bodyPost V a c t) := by
  unfold bodyPre bodyPost bodyAt
  simp only [(before_in V a c t).1, (before_in V a c t).2]
  rw [Phi_owns, Phi_owns]
  simp only [Fin.coe_castSucc, Fin.val_succ]
  have hN : (cfg5 a).N = 19159 := N_5
  have ht := t.isLt
  iintro ⟨⟨⟨%f, %hf, HS⟩, HR, Hg, HL, HH⟩, Ho, ⟨%d0, H0⟩, ⟨%d1, H1⟩, ⟨%d2, H2⟩⟩
  iapply (sound_kernel c Set.univ (grid5.coords t) _ _ _ _ _ _ _ _ _ _ _ _ (tabLo a) (tabHi a)
    (iblk V a c (0 : Fin 3) t) (iblk V a c (1 : Fin 3) t) ((dat V a c).before (2 : Fin 3) t d2) f _)
  unfold Held
  iframe HL HH H0 H1 H2 HS
  iintro ⟨HL, HH, H0, H1, H2, HS⟩
  rw [scr_step V a c ha t f hf]
  iframe HR Hg HL HH Ho H0 H1
  isplitl [HS]
  · iexists _; isplitr; swap; · iexact HS
    ipureintro; intro hne
    rw [show (t.val + 1) % 391 = t.val % 391 + 1 from by omega,
      show nbOf (t.val + 1) = nbOf t.val from Fin.ext (by show (t.val + 1) / 391 % 49 = t.val / 391 % 49; omega)]
  iapply (leaves2 V a c t d2)
  iexact H2

theorem body_obligation (c : Dev nD) (ha : ∀ k, a.1 k = V c (pre5.ref k)) :
    BodyObligation (dat V a c) (defs₀ (F := F)) Variants.none () Set.univ := fun t => by
  rw [bigSep_W5, bigSep_W5]
  exact sound_body V a c ha t

end Cert.Kernel.S5

end
-- ==== Proof.K.G7Body.lean ====
import proofs.«429835_j17746804867087_2_alg».proof.Proof.Gen.Kernel.Launch
import proofs.«429835_j17746804867087_2_alg».proof.Proof.Gen.Kernel.Skeleton
import proofs.«429835_j17746804867087_2_alg».proof.Proof.Lib
import Idealize.ShloMosaic.Lib.Pipeline.TableIdle
import Idealize.ShloMosaic.Lib.WholeRead

noncomputable section

namespace Cert.Kernel.G7

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem owns_unread {sp : Space} {S : Shape} {e : EltTy} (c : Dev nD) {m : Memref sig .tc sp S e} (h : m.IsWhole)
    (q : PosShare TreeShare) (X : S.Idx → Elt F e) :
    (owns (c : Thread nD τ) m q X : sProp 𝕄) = (m.view.loc (c : Thread nD τ) ↦[m.view.set]{q} h.unread X) := by
  rw [owns_eq_rep, h.eq_unread (View.read_rep _ _)]

-- The word of n is k, as the kernel tests it.
abbrev cEq (k : BitVec 32) (n : Fin 49) : Prop :=
  Scalar.cmpi .ne ((Scalar.extui (Scalar.cmpi .eq (BitVec.ofNat 32 n.val) k)) : BitVec 32) 0#32 = 1#1

-- The two table words admit the node block: wlo ≤ nb ≤ whi, signed.
abbrev cAct (i : grid7.Coords) (wlo whi : BitVec 32) : Prop :=
  Scalar.cmpi .ne ((Scalar.extui (Scalar.andi (Scalar.cmpi .sge (BitVec.ofNat 32 (i 1).val) wlo)
    (Scalar.cmpi .sle (BitVec.ofNat 32 (i 1).val) whi))) : BitVec 32) 0#32 = 1#1

-- The word loaded at the edge block's offset is the table's entry at the edge block.
theorem word_eq (i : grid7.Coords) (arg : Memref sig .tc .smem S391 .i32) (harg : arg.IsWhole) (T : Vec F S391 .i32) :
    View.readAt (Elt F) arg.view (Rect.unit (s := S391) (k7_off1 i) S1.size (k7_off1_inb i)).toLoadRect (harg.unread T)
      (Shape.Idx.first (numel1_S1.symm ▸ Nat.one_pos)) = T (ValueIdx.ix1 (n := 391) (i 0)) := by
  rw [harg.readAt_unread]
  congr 1; funext a; apply Fin.ext
  show k7_off1 i a + 1 * 0 = _
  rw [k7_off1_eq i]
  match a with | ⟨0, _⟩ => rfl

-- s₀ is f reset at the first node block, s adds the block's product when admitted, o is the cast of s at the last node block, else y.
theorem sound_kernel (c : Dev nD) (E : Set ℕ) (i : grid7.Coords)
    (arg2 : Memref sig .tc .smem S391 .i32) (harg2 : arg2.IsWhole) (arg3 : Memref sig .tc .smem S391 .i32) (harg3 : arg3.IsWhole)
    (arg4 : Memref sig .tc .vmem S1x2048 .i32) (harg4 : arg4.IsWhole) (arg5 : Memref sig .tc .vmem S1x2048 .f32) (harg5 : arg5.IsWhole)
    (arg6 : Memref sig .tc .vmem S1024x128 .f32) (harg6 : arg6.IsWhole) (arg7 : Memref sig .tc .vmem S2048x128 .bf16) (harg7 : arg7.IsWhole)
    (arg8 : Memref sig .tc .vmem S2048x128 .f32) (harg8 : arg8.IsWhole)
    (Tlo Thi : Vec F S391 .i32) (x4 : Vec F S1x2048 .i32) (x5 : Vec F S1x2048 .f32) (x6 : Vec F S1024x128 .f32)
    (y o : Vec F S2048x128 .bf16) (f s₀ s : Vec F S2048x128 .f32)
    (h₀ : s₀ = if cEq 0#32 (i 1) then k7_pay1 else f)
    (hs : s = if cAct i (Tlo (ValueIdx.ix1 (n := 391) (i 0))) (Thi (ValueIdx.ix1 (n := 391) (i 0))) then k7_pay2 i x4 x5 x6 s₀ else s₀)
    (ho : o = if k7_cond3 i = 1#1 then k7_pay3 s else y)
    (K : PUnit → sProp 𝕄) :
    iprop(owns (c : Thread nD τ) arg2 fullShare Tlo ∗ owns (c : Thread nD τ) arg3 fullShare Thi
        ∗ owns (c : Thread nD τ) arg4 fullShare x4 ∗ owns (c : Thread nD τ) arg5 fullShare x5 ∗ owns (c : Thread nD τ) arg6 fullShare x6
        ∗ owns (c : Thread nD τ) arg7 fullShare y ∗ owns (c : Thread nD τ) arg8 fullShare f
        ∗ (iprop(owns (c : Thread nD τ) arg2 fullShare Tlo ∗ owns (c : Thread nD τ) arg3 fullShare Thi
            ∗ owns (c : Thread nD τ) arg4 fullShare x4 ∗ owns (c : Thread nD τ) arg5 fullShare x5 ∗ owns (c : Thread nD τ) arg6 fullShare x6
            ∗ owns (c : Thread nD τ) arg7 fullShare o ∗ owns (c : Thread nD τ) arg8 fullShare s) -∗ K ⟨⟩))
      ⊢ wp frame (wpE (defs₀ (F := F)) Variants.none c none) E (cc7__gather_kernel i arg2 harg2 arg3 harg3 arg4 harg4 arg5 harg5 arg6 harg6 arg7 harg7 arg8 harg8) K := by
  subst ho hs h₀
  simp only [cc7__gather_kernel_eq_skeleton]; unfold cc7__gather_kernel_skel
  simp only [owns_unread c harg2, owns_unread c harg3, owns_unread c harg4, owns_unread c harg5, owns_unread c harg6]
  rw [owns_unread c harg7 _ y, owns_unread c harg8 _ f]
  iintro ⟨H2, H3, H4, H5, H6, H7, H8, Hk⟩
  sl_exec
  sl_step
  sl_unfold_run_names
  ihave O7 := (owns_intro (c : Thread nD τ) arg7 fullShare _) $$ H7
  ihave O8 := (owns_intro (c : Thread nD τ) arg8 fullShare _) $$ H8
  unfold cEq cAct
  simp only [word_eq i arg2 harg2 Tlo, word_eq i arg3 harg3 Thi, readAt_full arg4.view zz2, readAt_full arg5.view zz2, readAt_full arg6.view zz2, readAt_full arg8.view zz2,
    read_writes_full arg8.view zz2, read_writes_full arg7.view zz2, dite_eq_ite, apply_ite (View.read (Elt F) arg8.view),
    apply_ite (View.read (Elt F) arg7.view), harg4.read_unread, harg5.read_unread, harg6.read_unread, harg7.read_unread,
    harg8.read_unread]
  iapply Hk
  iframe

end Cert.Kernel.G7
end
-- ==== Proof.K.G7Obl.lean ====
import proofs.«429835_j17746804867087_2_alg».proof.Proof.K.G7Def
import proofs.«429835_j17746804867087_2_alg».proof.Proof.K.G7Body

noncomputable section

namespace Cert.Kernel.G7

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg7 (F := F)).Adm)

theorem A_eq (c : Dev nD) (w : Fin (cfg7 a).W) : (dat V a c).A w = V c (Pipeline.arrRef spec7 w) := by
  dsimp only [dat]

theorem coord0 (t : Fin (cfg7 a).N) : ((grid7.coords t) 0).val = t.val / 49 := by
  have h : t.val < 19159 := lt_of_lt_of_eq t.isLt (N_eq a)
  show t.val / 49 % 391 = _
  omega

theorem coord1 (t : Fin (cfg7 a).N) : ((grid7.coords t) 1).val = t.val % 49 := by
  show t.val / 1 % 49 = _
  omega

theorem cond3_iff : ∀ n : Fin 49, cEq 48#32 n ↔ n.val = 48 := by decide

theorem first_iff : ∀ n : Fin 49, cEq 0#32 n ↔ n.val = 0 := by decide

-- (t + 1) / 49 = t / 49 unless t % 49 = 48.
theorem flush3 (t : Fin (cfg7 a).N) (h48 : t.val % 49 ≠ 48) : ((cfg7 a).win 3).flush t = false := by
  have hN : (cfg7 a).grid.N = 19159 := N_eq a
  have ht : t.val < 19159 := lt_of_lt_of_eq t.isLt (N_eq a)
  rw [← Bool.not_eq_true, Window.flush_out _ rfl t]
  rintro (h | ⟨h, hne⟩)
  · omega
  · refine hne (hreads7_3 (grid7.coords ⟨t.val + 1, h⟩) (grid7.coords t) fun ax hr => ?_)
    match ax with
    | ⟨0, _⟩ => exact Fin.ext ((coord0 a ⟨t.val + 1, h⟩).trans ((show (t.val + 1) / 49 = t.val / 49 by omega).trans (coord0 a t).symm))
    | ⟨1, _⟩ => exact absurd hr Bool.false_ne_true

theorem hin (c : Dev nD) :
    (iprop((∃ r, prngReg c r) ∗ Pipeline.prefHeld (Ix := Unit) (Name := ℕ) (U := UR sig nD τ) (Lvl := ℕ) pre7 c (fun _ => fullShare) a.1
      ∗ Pipeline.scopedRest (Ix := Unit) (Name := ℕ) (U := UR sig nD τ) (Lvl := ℕ) (Val := Elt F) spec7 c) : sProp 𝕄)
      ⊢ (dat V a c).Φ 0 := by
  rw [scopedRest7_split]
  dsimp only [dat]
  simp only [scM, owns_whole]
  iintro ⟨Hg, Hp, ⟨%f, Hs⟩, Hr⟩
  iframe Hr Hg Hp
  iexists f; isplitr
  · ipureintro; intro eb _ h; exact absurd rfl h
  · iexact Hs

theorem hout (c : Dev nD) :
    (dat V a c).Φ (Fin.last (cfg7 a).N)
      ⊢ (iprop(((∃ r, prngReg c r) ∗ Pipeline.prefHeld (Ix := Unit) (Name := ℕ) (U := UR sig nD τ) (Lvl := ℕ) pre7 c (fun _ => fullShare) a.1)
        ∗ Pipeline.scopedRest (Ix := Unit) (Name := ℕ) (U := UR sig nD τ) (Lvl := ℕ) (Val := Elt F) spec7 c) : sProp 𝕄) := by
  rw [scopedRest7_split]
  dsimp only [dat]
  simp only [scM, owns_whole]
  iintro ⟨⟨%f, -, Hs⟩, Hr, Hg, Hp⟩
  iframe Hr Hg Hp
  iexists f; iexact Hs

theorem before_0 (c : Dev nD) (t : Fin (cfg7 a).N) (d) : (dat V a c).before 0 t d = iblk V a c 0 t :=
  ((dat V a c).before_in_eq_fetched 0 rfl (fun _ => rfl) (fun _ _ _ => rfl) (fun _ => rfl) t d).trans rfl
theorem before_1 (c : Dev nD) (t : Fin (cfg7 a).N) (d) : (dat V a c).before 1 t d = iblk V a c 1 t :=
  ((dat V a c).before_in_eq_fetched 1 rfl (fun _ => rfl) (fun _ _ _ => rfl) (fun _ => rfl) t d).trans rfl
theorem before_2 (c : Dev nD) (t : Fin (cfg7 a).N) (d) : (dat V a c).before 2 t d = iblk V a c 2 t :=
  ((dat V a c).before_in_eq_fetched 2 rfl (fun _ => rfl) (fun _ _ _ => rfl) (fun _ => rfl) t d).trans rfl

abbrev st3 (t : Fin (cfg7 a).N) := spec7_3.stage ((cfg7 a).slots t 3)

abbrev tLo : Memref sig .tc .smem S391 .i32 := Memref.whole main_v37
abbrev tHi : Memref sig .tc .smem S391 .i32 := Memref.whole main_v40

def tabLo : Vec F S391 .i32 := a.1 0
def tabHi : Vec F S391 .i32 := a.1 1

theorem Phi_eq (c : Dev nD) (t : Fin ((cfg7 a).N + 1)) :
    (dat V a c).Φ t = (iprop((∃ f : Vec F S2048x128 .f32,
        ⌜∀ eb : Fin 391, eb.val = t.val / 49 → t.val % 49 ≠ 0 → f = psum V a c eb (t.val % 49)⌝
          ∗ owns (c : Thread nD τ) scM fullShare f)
      ∗ Pipeline.scopedRestBut (Ix := Unit) (Name := ℕ) (U := UR sig nD τ) (Lvl := ℕ) (Val := Elt F) spec7 c [cc7_scratch0]
      ∗ (∃ r, prngReg c r)
      ∗ owns (c : Thread nD τ) tLo fullShare (tabLo a) ∗ owns (c : Thread nD τ) tHi fullShare (tabHi a)) : sProp 𝕄) := by
  dsimp only [dat]
  unfold Pipeline.prefHeld
  rw [bigSep_K2, ← owns_whole (c : Thread nD τ) (pre7.ref 0) fullShare (a.1 0),
    ← owns_whole (c : Thread nD τ) (pre7.ref 1) fullShare (a.1 1)]
  rfl

-- o is the cast of the full sum when t % 49 = 48 and what was found otherwise.
theorem leaves3 (c : Dev nD) (t : Fin (cfg7 a).N) (d) (o : Vec F S2048x128 .bf16)
    (ho : o = if k7_cond3 (grid7.coords t) = 1#1 then k7_pay3 (psum V a c ⟨t.val / 49, eb_lt a t⟩ (t.val % 49 + 1))
      else (dat V a c).before 3 t d) :
    owns (c : Thread nD τ) (st3 a t) fullShare o ⊢ (dat V a c).leavesExact 3 t := by
  have hi : (cfg7 a).idle 3 ((cfg7 a).grid.coords t) = !(k7_cond3 (grid7.coords t) == 1#1) := rfl
  by_cases h48 : t.val % 49 = 48
  · have hc3 : k7_cond3 (grid7.coords t) = 1#1 := (cond3_iff ((grid7.coords t) 1)).mpr ((coord1 a t).trans h48)
    obtain rfl := ho.trans (if_pos hc3)
    rw [hc3] at hi
    unfold Dat.leavesExact
    rw [h48, hi]
    exact .rfl
  · have hc3 : ¬ k7_cond3 (grid7.coords t) = 1#1 := fun h => h48 ((coord1 a t).symm.trans ((cond3_iff ((grid7.coords t) 1)).mp h))
    obtain rfl := ho.trans (if_neg hc3)
    rw [Dat.leavesExact_idle _ 3 t (by rw [hi, Bool.not_eq_true', beq_eq_false_iff_ne]; exact hc3) (flush3 a t h48)]
    iintro H; iexists d; iexact H

theorem body_obligation (c : Dev nD) (ha : ∀ k, a.1 k = V c (pre7.ref k)) :
    BodyObligation (dat (F := F) V a c) (defs₀ (F := F)) Variants.none () Set.univ := fun t => by
  have hlt : t.val % 49 < 49 := Nat.mod_lt _ (by decide)
  have htN : t.val < 19159 := lt_of_lt_of_eq t.isLt (N_eq a)
  have hc1 := coord1 a t
  have hpt : pt a ⟨t.val / 49, eb_lt a t⟩ ⟨t.val % 49, hlt⟩ = t :=
    Fin.ext (by show 49 * (t.val / 49) + t.val % 49 = t.val; omega)
  rw [bigSep_W7, bigSep_W7]
  show iprop((dat V a c).Φ t.castSucc ∗ (dat V a c).owesAt () t.castSucc
      ∗ (∃ d, owns (c : Thread nD τ) (spec7_0.stage ((cfg7 a).slots t 0)) fullShare ((dat V a c).before 0 t d))
      ∗ (∃ d, owns (c : Thread nD τ) (spec7_1.stage ((cfg7 a).slots t 1)) fullShare ((dat V a c).before 1 t d))
      ∗ (∃ d, owns (c : Thread nD τ) (spec7_2.stage ((cfg7 a).slots t 2)) fullShare ((dat V a c).before 2 t d))
      ∗ (∃ d, owns (c : Thread nD τ) (st3 a t) fullShare ((dat V a c).before 3 t d)))
    ⊢ wp frame (wpE (defs₀ (F := F)) Variants.none c none) Set.univ
      (cc7__gather_kernel (grid7.coords t) tLo (Memref.isWhole_whole _) tHi (Memref.isWhole_whole _)
        (spec7_0.stage ((cfg7 a).slots t 0)) (hstage7_0 (((cfg7 a).slots t 0).cast nbuf7_0))
        (spec7_1.stage ((cfg7 a).slots t 1)) (hstage7_1 (((cfg7 a).slots t 1).cast nbuf7_1))
        (spec7_2.stage ((cfg7 a).slots t 2)) (hstage7_2 (((cfg7 a).slots t 2).cast nbuf7_2))
        (st3 a t) (hstage7_3 (((cfg7 a).slots t 3).cast nbuf7_3)) scM (Memref.isWhole_whole _))
      fun _ => iprop((dat V a c).Φ t.succ ∗ (dat V a c).owesAt () t.castSucc
        ∗ owns (c : Thread nD τ) (spec7_0.stage ((cfg7 a).slots t 0)) fullShare (iblk V a c 0 t)
        ∗ owns (c : Thread nD τ) (spec7_1.stage ((cfg7 a).slots t 1)) fullShare (iblk V a c 1 t)
        ∗ owns (c : Thread nD τ) (spec7_2.stage ((cfg7 a).slots t 2)) fullShare (iblk V a c 2 t)
        ∗ (dat V a c).leavesExact 3 t)
  simp only [before_0, before_1, before_2]
  rw [Phi_eq, Phi_eq]
  simp only [Fin.coe_castSucc, Fin.val_succ]
  iintro ⟨⟨⟨%f, %hf, Hs⟩, Hr, Hg, Hp0, Hp1⟩, Ho, ⟨%d0, H0⟩, ⟨%d1, H1⟩, ⟨%d2, H2⟩, ⟨%d3, H3⟩⟩
  iapply (sound_kernel c Set.univ (grid7.coords t) _ _ _ _ _ _ _ _ _ _ _ _ _ _ (tabLo a) (tabHi a)
    (iblk V a c 0 t) (iblk V a c 1 t) (iblk V a c 2 t) ((dat V a c).before 3 t d3) _ f
    (psum V a c ⟨t.val / 49, eb_lt a t⟩ (t.val % 49)) (psum V a c ⟨t.val / 49, eb_lt a t⟩ (t.val % 49 + 1))
    (by
      by_cases h0 : t.val % 49 = 0
      · rw [if_pos ((first_iff ((grid7.coords t) 1)).mpr (hc1.trans h0)), h0]; rfl
      · rw [if_neg fun h => h0 (hc1.symm.trans ((first_iff ((grid7.coords t) 1)).mp h))]; exact (hf _ rfl h0).symm)
    (by
      rw [psum, dif_pos hlt, hpt]
      refine if_congr ?_ rfl rfl
      unfold cAct act lo hi tabLo tabHi
      rw [show (grid7.coords t) 0 = ⟨t.val / 49, eb_lt a t⟩ from Fin.ext (coord0 a t), hc1, ha 0, ha 1]
      exact Iff.rfl)
    rfl _)
  iframe Hp0 Hp1 H0 H1 H2 H3 Hs
  iintro ⟨Hp0, Hp1, H0, H1, H2, H3, Hs⟩
  iframe Hr Hg Hp0 Hp1 Ho H0 H1 H2
  isplitl [Hs]
  · iexists _; isplitr
    swap; · iexact Hs
    ipureintro; intro eb he hne
    rw [show eb = ⟨t.val / 49, eb_lt a t⟩ from Fin.ext (by show eb.val = t.val / 49; omega),
      show (t.val + 1) % 49 = t.val % 49 + 1 from by omega]
  · iapply (leaves3 V a c t d3 _ rfl) $$ H3

end Cert.Kernel.G7
end
-- ==== Proof.K.S8Body.lean ====
import proofs.«429835_j17746804867087_2_alg».proof.Proof.Gen.Kernel.Launch
import proofs.«429835_j17746804867087_2_alg».proof.Proof.Gen.Kernel.Skeleton
import proofs.«429835_j17746804867087_2_alg».proof.Proof.Lib

set_option maxRecDepth 16384

noncomputable section

namespace Cert.Kernel.S8

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def cell (i : grid8.Coords) : S391.Idx :=
  (Rect.unit (s := S391) (k8_off1 i) S1.size (k8_off1_inb i)).toLoadRect.idx (Shape.Idx.first (numel1_S1.symm ▸ Nat.one_pos))

abbrev cFirst (i : grid8.Coords) : Prop :=
  Scalar.cmpi .ne (Scalar.extui (Scalar.cmpi .eq (BitVec.ofNat 32 (i 1).val) 0#32) : BitVec 32) 0#32 = 1#1

abbrev cAct (i : grid8.Coords) (wlo whi : BitVec 32) : Prop :=
  Scalar.cmpi .ne (Scalar.extui (Scalar.andi (Scalar.cmpi .sge (BitVec.ofNat 32 (i 0).val) wlo)
    (Scalar.cmpi .sle (BitVec.ofNat 32 (i 0).val) whi)) : BitVec 32) 0#32 = 1#1

abbrev Held (c : Dev nD)
    (arg2 : Memref sig .tc .smem S391 .i32) (arg3 : Memref sig .tc .smem S391 .i32)
    (arg4 : Memref sig .tc .vmem S1x2048 .i32) (arg5 : Memref sig .tc .vmem S2048x128 .bf16)
    (arg6 : Memref sig .tc .vmem S1024x128 .f32) (arg7 : Memref sig .tc .vmem S1024x128 .f32)
    (T2 T3 : Vec F S391 .i32) (x4 : Vec F S1x2048 .i32) (x5 : Vec F S2048x128 .bf16) (y6 x7 : Vec F S1024x128 .f32) : sProp 𝕄 :=
  iprop(owns (c : Thread nD τ) arg2 fullShare T2 ∗ owns (c : Thread nD τ) arg3 fullShare T3
    ∗ owns (c : Thread nD τ) arg4 fullShare x4 ∗ owns (c : Thread nD τ) arg5 fullShare x5
    ∗ owns (c : Thread nD τ) arg6 fullShare y6 ∗ owns (c : Thread nD τ) arg7 fullShare x7)

-- The running sum after the body: zeroed at a node block's first edge block, then the product added if the edge block contributes.
def scrAfter (i : grid8.Coords) (wlo whi : BitVec 32) (x4 : Vec F S1x2048 .i32) (x5 : Vec F S2048x128 .bf16)
    (x7 : Vec F S1024x128 .f32) : Vec F S1024x128 .f32 :=
  if cAct i wlo whi then k8_pay2 i x4 x5 (if cFirst i then k8_pay1 else x7) else (if cFirst i then k8_pay1 else x7)

-- The output block after the body: the positive part of the sum at the last edge block, else as found.
def outAfter (i : grid8.Coords) (s : Vec F S1024x128 .f32) (y6 : Vec F S1024x128 .f32) : Vec F S1024x128 .f32 :=
  if k8_cond3 i = 1#1 then s else y6

set_option maxHeartbeats 1000000 in
-- Each conditional overwrites a whole block or leaves it, so the sum ends at scrAfter and the output block at outAfter.
theorem sound_kernel (c : Dev nD) (E : Set ℕ) (i : grid8.Coords)
    (arg2 : Memref sig .tc .smem S391 .i32) (harg2 : arg2.IsWhole) (arg3 : Memref sig .tc .smem S391 .i32) (harg3 : arg3.IsWhole)
    (arg4 : Memref sig .tc .vmem S1x2048 .i32) (harg4 : arg4.IsWhole) (arg5 : Memref sig .tc .vmem S2048x128 .bf16) (harg5 : arg5.IsWhole)
    (arg6 : Memref sig .tc .vmem S1024x128 .f32) (harg6 : arg6.IsWhole) (arg7 : Memref sig .tc .vmem S1024x128 .f32) (harg7 : arg7.IsWhole)
    (T2 T3 : Vec F S391 .i32) (x4 : Vec F S1x2048 .i32) (x5 : Vec F S2048x128 .bf16) (y6 x7 : Vec F S1024x128 .f32)
    (K : PUnit → sProp 𝕄) :
    iprop(Held c arg2 arg3 arg4 arg5 arg6 arg7 T2 T3 x4 x5 y6 x7
        ∗ (Held c arg2 arg3 arg4 arg5 arg6 arg7 T2 T3 x4 x5
              (outAfter i (scrAfter i (T2 (cell i)) (T3 (cell i)) x4 x5 x7) y6)
              (scrAfter i (T2 (cell i)) (T3 (cell i)) x4 x5 x7) -∗ K ⟨⟩))
      ⊢ wp frame (wpE (defs₀ (F := F)) Variants.none c none) E (cc8__scatter_kernel i arg2 harg2 arg3 harg3 arg4 harg4 arg5 harg5 arg6 harg6 arg7 harg7) K := by
  simp only [cc8__scatter_kernel_eq_skeleton]; unfold cc8__scatter_kernel_skel Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf2 hf3 hf4 hf5 hf6 hf7
  sl_exec
  sl_step
  iapply Hk
  isplitl [H2] <;> try (isplitl [H3] <;> try (isplitl [H4] <;> try (isplitl [H5] <;> try isplitl [H6])))
  all_goals (iexists _; isplitr; swap; iassumption; ipureintro)
  iterate 4 rfl
  all_goals
    sl_unfold_run_names
    simp only [outAfter, scrAfter, dite_eq_ite, readAt_full (S := S1x2048) _ zz2, readAt_full (S := S2048x128) _ zz2,
      readAt_full (S := S1024x128) _ zz2, read_writes_full (S := S1024x128) _ zz2,
      apply_ite (View.read (Elt F) arg6.view), apply_ite (View.read (Elt F) arg7.view)]
    rfl

end Cert.Kernel.S8

end
-- ==== Proof.K.S8Obl.lean ====
import proofs.«429835_j17746804867087_2_alg».proof.Proof.K.S8Def
import proofs.«429835_j17746804867087_2_alg».proof.Proof.K.S8Body

set_option maxRecDepth 16384

noncomputable section

namespace Cert.Kernel.S8

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg8 (F := F)).Adm)

theorem A_eq (c : Dev nD) (w : Fin (cfg8 a).W) : (dat V a c).A w = V c (Pipeline.arrRef spec8 w) := by
  dsimp only [dat]

theorem Phi_eq (c : Dev nD) (t : Fin ((cfg8 a).N + 1)) : (dat V a c).Φ t = Phi V a c t := rfl

-- Point t is node block t / 391, edge block t % 391.
theorem coords0 (t : Fin grid8.N) : ((grid8.coords t) 0).val = (nbOf t.val).val := rfl

theorem coords1 (t : Fin grid8.N) : ((grid8.coords t) 1).val = t.val % 391 := by
  show t.val / 1 % 391 = t.val % 391
  rw [Nat.div_one]

theorem pt_self (t : Fin (cfg8 a).N) (h : t.val % 391 < 391) : pt a (nbOf t.val) (t.val % 391) h = t := by
  have hN : (cfg8 a).N = 19159 := N_8
  have ht := t.isLt
  apply Fin.ext
  show t.val / 391 % 49 * 391 + t.val % 391 = t.val
  omega

-- (t + 1) / 391 = t / 391 unless t % 391 = 390.
theorem flush2 (t : Fin (cfg8 a).N) (h : t.val % 391 ≠ 390) : ((cfg8 a).win 2).flush t = false := by
  have hN : (cfg8 a).grid.N = 19159 := N_8
  have ht := t.isLt
  rw [← Bool.not_eq_true, Window.flush_out _ rfl t]
  rintro (e | ⟨h1, hne⟩)
  · omega
  · exact hne (congrArg (fun j : Fin 49 => ![(BitVec.ofNat 32 j.val).toNat, (0#32 : BitVec 32).toNat])
      (Fin.ext (by show (t.val + 1) / 391 % 49 = t.val / 391 % 49; omega)))

theorem cell_eq (i : grid8.Coords) : cell i = ValueIdx.ix1 (i 1) := by
  funext d
  match d with
  | ⟨0, _⟩ =>
    apply Fin.ext
    show k8_off1 i 0 + 1 * 0 = (i 1).val
    rw [k8_off1_eq]; rfl

-- The comparison of point t's edge block with a constant k, read back as t % 391 = k.
theorem eb_iff (t : Fin grid8.N) {k : ℕ} (hk : k < 2 ^ 32) :
    Scalar.cmpi .ne (Scalar.extui (Scalar.cmpi .eq (BitVec.ofNat 32 ((grid8.coords t) 1).val) (BitVec.ofNat 32 k)) : BitVec 32) 0#32 = 1#1
      ↔ t.val % 391 = k := by
  rw [← coords1 t, Scalar.guard_iff, Scalar.cmpi, IntOp.cmpi_eq]
  have h391 : ((grid8.coords t) 1).val < 391 := ((grid8.coords t) 1).isLt
  constructor
  · intro e
    have := congrArg BitVec.toNat e
    simp only [BitVec.toNat_ofNat] at this
    omega
  · intro e; rw [e]

theorem first_iff (t : Fin grid8.N) : cFirst (grid8.coords t) ↔ t.val % 391 = 0 := eb_iff t (by decide)

theorem last_iff (t : Fin grid8.N) : k8_cond3 (grid8.coords t) = 1#1 ↔ t.val % 391 = 390 := eb_iff t (by decide)

def tabLo : Vec F S391 .i32 := a.1 0
def tabHi : Vec F S391 .i32 := a.1 1

-- The body's test on the two table words it loads is act at the point's node block and edge block.
theorem cAct_iff_act (c : Dev nD) (ha : ∀ k, a.1 k = V c (pre8.ref k)) (t : Fin grid8.N) (h : t.val % 391 < 391) :
    cAct (grid8.coords t) (tabLo a (cell (grid8.coords t))) (tabHi a (cell (grid8.coords t))) ↔ act V c (nbOf t.val) ⟨t.val % 391, h⟩ := by
  rw [cell_eq, show tabLo a = V c main_v44 from ha 0, show tabHi a = V c main_v47 from ha 1]
  unfold cAct act lo hi
  rw [coords0 t, show (grid8.coords t) 1 = ⟨t.val % 391, h⟩ from Fin.ext (coords1 t)]
  exact Iff.rfl

-- One step of the running sum: from the sum over the edge blocks before (anything at a first edge block) to the sum over one more.
theorem scr_step (c : Dev nD) (ha : ∀ k, a.1 k = V c (pre8.ref k)) (t : Fin (cfg8 a).N) (f : Vec F S1024x128 .f32)
    (hf : t.val % 391 ≠ 0 → f = psum V a c (nbOf t.val) (t.val % 391)) :
    scrAfter (grid8.coords t) (tabLo a (cell (grid8.coords t))) (tabHi a (cell (grid8.coords t)))
        (iblk V a c (0 : Fin 3) t) (iblk V a c (1 : Fin 3) t) f
      = psum V a c (nbOf t.val) (t.val % 391 + 1) := by
  have hlt : t.val % 391 < 391 := Nat.mod_lt _ (by decide)
  have hs0 : (if cFirst (grid8.coords t) then (k8_pay1 : Vec F S1024x128 .f32) else f)
      = psum V a c (nbOf t.val) (t.val % 391) := by
    by_cases h0 : t.val % 391 = 0
    · rw [if_pos ((first_iff t).mpr h0), h0]; rfl
    · rw [if_neg (mt (first_iff t).mp h0), hf h0]
  have hact := cAct_iff_act V a c ha t hlt
  unfold scrAfter
  rw [hs0, psum, dif_pos hlt, pt_self]
  by_cases hA : act V c (nbOf t.val) ⟨t.val % 391, hlt⟩
  · rw [if_pos hA, if_pos (hact.mpr hA)]
  · rw [if_neg hA, if_neg (mt hact.mp hA)]

theorem before_in (c : Dev nD) (t : Fin (cfg8 a).N) :
    (∀ d, (dat V a c).before (0 : Fin 3) t d = iblk V a c (0 : Fin 3) t)
      ∧ ∀ d, (dat V a c).before (1 : Fin 3) t d = iblk V a c (1 : Fin 3) t := by
  constructor <;> intro d <;>
  exact ((dat V a c).before_in_eq_fetched _ rfl (fun _ => rfl) (fun _ _ _ => rfl) (fun _ => rfl) t d).trans rfl

theorem Phi_owns (c : Dev nD) (t : Fin ((cfg8 a).N + 1)) :
    Phi V a c t = iprop((∃ f : Vec F S1024x128 .f32,
          ⌜t.val % 391 ≠ 0 → f = psum V a c (nbOf t.val) (t.val % 391)⌝ ∗ owns (c : Thread nD τ) (Memref.whole cc8_scratch0) fullShare f)
      ∗ Pipeline.scopedRestBut (Ix := Unit) (Name := ℕ) (U := UR sig nD τ) (Lvl := ℕ) (Val := Elt F) spec8 c [cc8_scratch0]
      ∗ (∃ r, prngReg c r)
      ∗ owns (c : Thread nD τ) (Memref.whole main_v44) fullShare (tabLo a)
      ∗ owns (c : Thread nD τ) (Memref.whole main_v47) fullShare (tabHi a)) := by
  unfold Phi Pipeline.prefHeld; rw [bigSep_K2]; simp only [owns_whole]; rfl

theorem hin (c : Dev nD) :
    (iprop((∃ r, prngReg c r) ∗ Pipeline.prefHeld pre8 c (fun _ => fullShare) a.1 ∗ Pipeline.scopedRest spec8 c) : sProp 𝕄)
      ⊢ (dat V a c).Φ 0 := by
  rw [Phi_eq]; unfold Phi
  rw [scopedRest8_split]
  iintro ⟨Hg, HT, ⟨%f, HS⟩, HR⟩
  iframe Hg HT HR
  iexists f; isplitr
  · ipureintro; exact fun h => absurd (Nat.zero_mod 391) h
  iexact HS

theorem hout (c : Dev nD) :
    (dat V a c).Φ (Fin.last (cfg8 a).N)
      ⊢ (iprop(((∃ r, prngReg c r) ∗ Pipeline.prefHeld pre8 c (fun _ => fullShare) a.1) ∗ Pipeline.scopedRest spec8 c) : sProp 𝕄) := by
  rw [Phi_eq]; unfold Phi
  rw [scopedRest8_split]
  iintro ⟨⟨%f, -, HS⟩, HR, Hg, HT⟩
  iframe Hg HT HR
  iexists f; iexact HS

abbrev bodyAt (t : Fin (cfg8 a).N) : Prog (TpuEff nD τ sig (Elt F) Λ₀ .tc) PUnit :=
  cc8__scatter_kernel (grid8.coords t) (Memref.whole main_v44) (Memref.isWhole_whole _) (Memref.whole main_v47) (Memref.isWhole_whole _)
    (spec8_0.stage ((cfg8 a).slots t 0)) (hstage8_0 (((cfg8 a).slots t 0).cast nbuf8_0))
    (spec8_1.stage ((cfg8 a).slots t 1)) (hstage8_1 (((cfg8 a).slots t 1).cast nbuf8_1))
    (spec8_2.stage ((cfg8 a).slots t 2)) (hstage8_2 (((cfg8 a).slots t 2).cast nbuf8_2))
    (Memref.whole cc8_scratch0) (Memref.isWhole_whole _)

def bodyPre (c : Dev nD) (t : Fin (cfg8 a).N) : sProp 𝕄 :=
  iprop(Phi V a c t.castSucc ∗ (dat V a c).owesAt () t.castSucc
    ∗ (∃ d, owns (c : Thread nD τ) (spec8_0.stage ((cfg8 a).slots t 0)) fullShare ((dat V a c).before (0 : Fin 3) t d))
    ∗ (∃ d, owns (c : Thread nD τ) (spec8_1.stage ((cfg8 a).slots t 1)) fullShare ((dat V a c).before (1 : Fin 3) t d))
    ∗ (∃ d, owns (c : Thread nD τ) (spec8_2.stage ((cfg8 a).slots t 2)) fullShare ((dat V a c).before (2 : Fin 3) t d)))

def bodyPost (c : Dev nD) (t : Fin (cfg8 a).N) : sProp 𝕄 :=
  iprop(Phi V a c t.succ ∗ (dat V a c).owesAt () t.castSucc
    ∗ owns (c : Thread nD τ) (spec8_0.stage ((cfg8 a).slots t 0)) fullShare (iblk V a c (0 : Fin 3) t)
    ∗ owns (c : Thread nD τ) (spec8_1.stage ((cfg8 a).slots t 1)) fullShare (iblk V a c (1 : Fin 3) t)
    ∗ (dat V a c).leavesExact (2 : Fin 3) t)

theorem idle2_eq (t : Fin (cfg8 a).N) : (cfg8 a).idle 2 ((cfg8 a).grid.coords t) = !(decide (t.val % 391 = 390)) :=
  congrArg not (decide_eq_decide.mpr (last_iff t))

-- At t % 391 = 390 the sum is the node block's full sum, whose positive part is the output block; elsewhere the block is as found.
theorem leaves2 (c : Dev nD) (t : Fin (cfg8 a).N) (d) :
    owns (c : Thread nD τ) (spec8_2.stage ((cfg8 a).slots t 2)) fullShare
        (outAfter (grid8.coords t) (psum V a c (nbOf t.val) (t.val % 391 + 1)) ((dat V a c).before (2 : Fin 3) t d))
      ⊢ (dat V a c).leavesExact (2 : Fin 3) t := by
  unfold outAfter
  by_cases hL : t.val % 391 = 390
  · rw [if_pos ((last_iff t).mpr hL), hL, show (dat V a c).leavesExact (2 : Fin 3) t
        = owns (c : Thread nD τ) (spec8_2.stage ((cfg8 a).slots t 2)) fullShare (psum V a c (nbOf t.val) 391) from by
      unfold Dat.leavesExact; rw [idle2_eq]; simp only [hL, decide_true, Bool.not_true]; rfl]
  · rw [if_neg (mt (last_iff t).mp hL), Dat.leavesExact_idle (dat V a c) (2 : Fin 3) t
      (by rw [idle2_eq]; simp only [hL, decide_false, Bool.not_false]) (flush2 a t hL)]
    iintro H; iexists d; iexact H

set_option maxHeartbeats 1000000 in
theorem sound_body (c : Dev nD) (ha : ∀ k, a.1 k = V c (pre8.ref k)) (t : Fin (cfg8 a).N) :
    bodyPre V a c t ⊢ wp frame (wpE (defs₀ (F := F)) Variants.none c none) Set.univ (bodyAt a t) (fun _ => bodyPost V a c t) := by
  unfold bodyPre bodyPost bodyAt
  simp only [(before_in V a c t).1, (before_in V a c t).2]
  rw [Phi_owns, Phi_owns]
  simp only [Fin.coe_castSucc, Fin.val_succ]
  have hN : (cfg8 a).N = 19159 := N_8
  have ht := t.isLt
  iintro ⟨⟨⟨%f, %hf, HS⟩, HR, Hg, HL, HH⟩, Ho, ⟨%d0, H0⟩, ⟨%d1, H1⟩, ⟨%d2, H2⟩⟩
  iapply (sound_kernel c Set.univ (grid8.coords t) _ _ _ _ _ _ _ _ _ _ _ _ (tabLo a) (tabHi a)
    (iblk V a c (0 : Fin 3) t) (iblk V a c (1 : Fin 3) t) ((dat V a c).before (2 : Fin 3) t d2) f _)
  unfold Held
  iframe HL HH H0 H1 H2 HS
  iintro ⟨HL, HH, H0, H1, H2, HS⟩
  rw [scr_step V a c ha t f hf]
  iframe HR Hg HL HH Ho H0 H1
  isplitl [HS]
  · iexists _; isplitr; swap; · iexact HS
    ipureintro; intro hne
    rw [show (t.val + 1) % 391 = t.val % 391 + 1 from by omega,
      show nbOf (t.val + 1) = nbOf t.val from Fin.ext (by show (t.val + 1) / 391 % 49 = t.val / 391 % 49; omega)]
  iapply (leaves2 V a c t d2)
  iexact H2

theorem body_obligation (c : Dev nD) (ha : ∀ k, a.1 k = V c (pre8.ref k)) :
    BodyObligation (dat V a c) (defs₀ (F := F)) Variants.none () Set.univ := fun t => by
  rw [bigSep_W8, bigSep_W8]
  exact sound_body V a c ha t

end Cert.Kernel.S8

end
-- ==== Proof.K.Segs.lean ====
import proofs.«429835_j17746804867087_2_alg».proof.Proof.K.Vals
import proofs.«429835_j17746804867087_2_alg».proof.Proof.K.L0Obl
import proofs.«429835_j17746804867087_2_alg».proof.Proof.K.G1Obl
import proofs.«429835_j17746804867087_2_alg».proof.Proof.K.S2Obl
import proofs.«429835_j17746804867087_2_alg».proof.Proof.K.L3Obl
import proofs.«429835_j17746804867087_2_alg».proof.Proof.K.G4Obl
import proofs.«429835_j17746804867087_2_alg».proof.Proof.K.S5Obl
import proofs.«429835_j17746804867087_2_alg».proof.Proof.K.L6Obl
import proofs.«429835_j17746804867087_2_alg».proof.Proof.K.G7Obl
import proofs.«429835_j17746804867087_2_alg».proof.Proof.K.S8Obl
import Idealize.ShloMosaic.Lib.Pipeline.RegionsLoop
import Idealize.ShloMosaic.Lib.Pipeline.Kit

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

section Seg

variable {p : Fin 9} {a : (p : Fin 9) → (pcfgs (F := F) p).Adm}
  (pd : (p : Fin 9) → (c : Dev nD) → Dat τ (Elt F) Unit ℕ (UR sig nD τ) ℕ (Pipeline.pin (pcfgs (F := F)) a p) c)
  (lf : Pipeline.PLaunchFacts (nD := nD) (τ := τ) (pcfgs (F := F)) p)
  (V V' : Dev nD → Valuation τ sig (Elt F)) (o : Fin (Pipeline.pin (pcfgs (F := F)) a p).W)
  (hV' : ∀ c, V' c = Function.update (V c) (Pipeline.arrRef (Pipeline.pin (pcfgs (F := F)) a p).spec o) ((pd p c).arrAt o (Pipeline.pin (pcfgs (F := F)) a p).N))
  (hA : ∀ c w, (pd p c).A w = rd V c (Pipeline.arrRef (Pipeline.pin (pcfgs (F := F)) a p).spec w))
  (ho : ∀ w, w ≠ o → ((Pipeline.pin (pcfgs (F := F)) a p).spec w).isOut = false)

include lf hV' hA ho in
-- The windows' references are distinct, so the update at the output's reference is seen at no other window.
theorem arr_exit (c : Dev nD) (w : Fin (Pipeline.pin (pcfgs (F := F)) a p).W) :
    (pd p c).arrAt w (Pipeline.pin (pcfgs (F := F)) a p).N = rd V' c (Pipeline.arrRef (Pipeline.pin (pcfgs (F := F)) a p).spec w) := by
  show _ = V' c _
  rw [hV']
  by_cases h : w = o
  · subst h; rw [Function.update_self]
  · rw [Function.update_of_ne (StableHlo.devRef_ne_of_ne (lf.win.arr_inj.ne h))]
    exact ((pd p c).arrAt_in w (ho w h) _).trans (hA c w)

include hV' in
-- A buffer that is no window's array is not the updated one.
theorem rest_exit (c : Dev nD) (b : Ref sig .tc) (hb : b ∉ Finset.univ.image (Pipeline.arrRef (Pipeline.pin (pcfgs (F := F)) a p).spec)) :
    rd V' c b = rd V c b := by
  show V' c _ = V c _
  rw [hV']
  exact Function.update_of_ne (StableHlo.devRef_ne_of_ne fun e => hb (Finset.mem_image.mpr ⟨o, Finset.mem_univ _, e.symm⟩)) _ _

-- One segment for every region: from the buffers at `V` to the buffers at `V'`, which is `V` updated at the output's array.
set_option backward.isDefEq.respectTransparency.types false in
def seg (hq : ∀ c w, (pd p c).q w = fullShare) (howed : ∀ c t, (pd p c).owed t = 0) (hrec : ∀ c, (pd p c).recorded 0 = Set.univ)
    (ha : ∀ c k, (a p).1 k = V c ((pcfgs (F := F) p).pre.ref k))
    (hb : ∀ c, (∀ k, (a p).1 k = V c ((pcfgs (F := F) p).pre.ref k)) → BodyObligation (pd p c) (defs₀ (F := F)) 𝒱₀ () Set.univ)
    (hin : ∀ c, (iprop((∃ r, prngReg c r) ∗ Pipeline.prefHeld (Ix := Unit) (Name := ℕ) (U := UR sig nD τ) (Lvl := ℕ) (pcfgs (F := F) p).pre c (fun _ => fullShare) (a p).1
      ∗ Pipeline.scopedRest (Ix := Unit) (Name := ℕ) (U := UR sig nD τ) (Lvl := ℕ) (Val := Elt F) (Pipeline.pin (pcfgs (F := F)) a p).spec c) : sProp 𝕄) ⊢ (pd p c).Φ 0)
    (hout : ∀ c, (pd p c).Φ (Fin.last (Pipeline.pin (pcfgs (F := F)) a p).N) ⊢ (iprop(((∃ r, prngReg c r) ∗ Pipeline.prefHeld (Ix := Unit) (Name := ℕ) (U := UR sig nD τ) (Lvl := ℕ) (pcfgs (F := F) p).pre c (fun _ => fullShare) (a p).1)
      ∗ Pipeline.scopedRest (Ix := Unit) (Name := ℕ) (U := UR sig nD τ) (Lvl := ℕ) (Val := Elt F) (Pipeline.pin (pcfgs (F := F)) a p).spec c) : sProp 𝕄)) :
    Pipeline.RegionSeg (pcfgs (F := F)) a pd () defs₀ 𝒱₀ L lv p where
  win := lf.win.to₀
  block_pos := lf.block_pos
  stage_whole := lf.stage_whole
  K := PEmpty
  osem k := k.elim
  ho := Pipeline.OwnSemFacts.none _
  hbody c := (hb c (ha c)).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop((∃ r, prngReg c r) ∗ Pipeline.prefHeld (Ix := Unit) (Name := ℕ) (U := UR sig nD τ) (Lvl := ℕ) (pcfgs (F := F) p).pre c (fun _ => fullShare) (a p).1)
  Z c := Pipeline.unscopedRestP (Ix := Unit) (Name := ℕ) (U := UR sig nD τ) (Lvl := ℕ) (pcfgs (F := F) p).pre (Pipeline.pin (pcfgs (F := F)) a p).spec c (rd V c)
  hentry c := by
    rw [Pipeline.ownSems0_none]
    have hsplit := Pipeline.arrays_of_unscopedBufs (pcfgs (F := F)) a pd lf.win lf.arr_whole c ((pd p c).share_full (hq c)) (rd V c) (hA c)
    rw [Pipeline.unscopedBufs_held, Pipeline.unscopedRest_split (Ix := Unit) (Name := ℕ) (U := UR sig nD τ) (Lvl := ℕ) lf.pre c (rd V c), ← funext (ha c)] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin Pipeline.Dat.bound; rw [howed, hrec]
      icases HO with ⟨%W, HO⟩; iexists W; isplitr; · ipureintro; exact fun _ _ => Or.inl trivial
      iexact HO
    isplitl [Hp]; · iexact Hp
    iexact Hrest
  hin := hin
  hout c := by rw [Pipeline.ownSems0_none]; exact (hout c).trans (sep_mono .rfl emp_sep_intro)
  hexit c := by
    have hjoin := Pipeline.unscopedBufs_of_arrays (pcfgs (F := F)) a (Ix := Unit) (Name := ℕ) (U := UR sig nD τ) (Lvl := ℕ) lf.win lf.arr_whole c pd ((pd p c).share_full (hq c))
      (rd V c) (rd V' c) ((pd p c).arrAt · (Pipeline.pin (pcfgs (F := F)) a p).N) (arr_exit pd lf V V' o hV' hA ho c) (rest_exit pd V V' o hV' c)
    rw [Pipeline.unscopedBufs_held, Pipeline.unscopedRest_split (Ix := Unit) (Name := ℕ) (U := UR sig nD τ) (Lvl := ℕ) lf.pre c (rd V c), ← funext (ha c)] at hjoin
    iintro ⟨Ha, HO, ⟨Hp, Hpf⟩, Hrest⟩
    imodintro
    isplitl [Ha Hpf Hrest]
    · iapply hjoin; iframe
    isplitl [Hp]; · iexact Hp
    unfold Pipeline.Dat.owesAt Pipeline.owesWithin; rw [howed]
    icases HO with ⟨%W, -, HO⟩; iexists W; iexact HO

end Seg

theorem hinA {gr W : ℕ} (win : Fin W → Pipeline.WinSpec sig gr) (c : Dev nD) (v : (Pipeline.Prefetch.none (sig := sig)).Contents (Elt F)) :
    (iprop((∃ r, prngReg c r) ∗ Pipeline.prefHeld (Ix := Unit) (Name := ℕ) (U := UR sig nD τ) (Lvl := ℕ) Pipeline.Prefetch.none c (fun _ => fullShare) v
      ∗ Pipeline.scopedRest (Ix := Unit) (Name := ℕ) (U := UR sig nD τ) (Lvl := ℕ) (Val := Elt F) win c) : sProp 𝕄) ⊢ Pipeline.ΦA win c := by
  unfold Pipeline.ΦA
  iintro ⟨Hp, -, Hr⟩
  isplitl [Hr]; · iexact Hr
  iexact Hp
theorem houtA {gr W : ℕ} (win : Fin W → Pipeline.WinSpec sig gr) (c : Dev nD) (v : (Pipeline.Prefetch.none (sig := sig)).Contents (Elt F)) :
    (Pipeline.ΦA win c : sProp 𝕄) ⊢ iprop(((∃ r, prngReg c r) ∗ Pipeline.prefHeld (Ix := Unit) (Name := ℕ) (U := UR sig nD τ) (Lvl := ℕ) Pipeline.Prefetch.none c (fun _ => fullShare) v)
      ∗ Pipeline.scopedRest (Ix := Unit) (Name := ℕ) (U := UR sig nD τ) (Lvl := ℕ) (Val := Elt F) win c) := by
  unfold Pipeline.ΦA Pipeline.prefHeld
  rw [show (Finset.univ : Finset (Fin 0)) = ∅ from rfl, BI.bigSep_empty]
  iintro ⟨Hr, Hp⟩
  isplitl [Hp]
  · isplitl [Hp]; · iexact Hp
    iempintro
  iexact Hr

def adm : (p : Fin 9) → (pcfgs (F := F) p).Adm
  | ⟨0, _⟩ => cfg0.toPCfg_adm
  | ⟨1, _⟩ => adm1 (X21 m)
  | ⟨2, _⟩ => adm2 (X23 m)
  | ⟨3, _⟩ => cfg3.toPCfg_adm
  | ⟨4, _⟩ => adm4 (X26 m)
  | ⟨5, _⟩ => adm5 (X28 m)
  | ⟨6, _⟩ => cfg6.toPCfg_adm
  | ⟨7, _⟩ => adm7 (X35 m)
  | ⟨8, _⟩ => adm8 (X37 m)
  | ⟨_ + 9, h⟩ => absurd h (Nat.not_lt.2 (Nat.le_add_left _ _))

def pdats : (p : Fin 9) → (c : Dev nD) → Dat τ (Elt F) Unit ℕ (UR sig nD τ) ℕ (Pipeline.pin (pcfgs (F := F)) (adm m) p) c
  | ⟨0, _⟩ => fun c => L0.dat (rd (V20 m)) c
  | ⟨1, _⟩ => fun c => G1.dat (rd (X21 m)) (adm1 (X21 m)) c
  | ⟨2, _⟩ => fun c => S2.dat (rd (X23 m)) (adm2 (X23 m)) c
  | ⟨3, _⟩ => fun c => L3.dat (rd (X25 m)) c
  | ⟨4, _⟩ => fun c => G4.dat (rd (X26 m)) (adm4 (X26 m)) c
  | ⟨5, _⟩ => fun c => S5.dat (rd (X28 m)) (adm5 (X28 m)) c
  | ⟨6, _⟩ => fun c => L6.dat (rd (X34 m)) c
  | ⟨7, _⟩ => fun c => G7.dat (rd (X35 m)) (adm7 (X35 m)) c
  | ⟨8, _⟩ => fun c => S8.dat (rd (X37 m)) (adm8 (X37 m)) c
  | ⟨_ + 9, h⟩ => absurd h (Nat.not_lt.2 (Nat.le_add_left _ _))

set_option backward.isDefEq.respectTransparency.types false in
def reg0 : Pipeline.RegionSeg (pcfgs (F := F)) (adm m) (pdats m) () defs₀ 𝒱₀ L lv 0 :=
  seg (pdats m) launch0 (V20 m) (X21 m) 3 (fun _ => rfl) (fun _ _ => rfl) (by decide : ∀ w : Fin 4, w ≠ 3 → (spec0 w).isOut = false)
    (fun _ _ => rfl) (fun _ _ => rfl) (fun _ => rfl) (fun _ k => k.elim0)
    (fun c _ => L0.body_obligation (rd (V20 m)) c) (fun c => hinA spec0 c _) (fun c => houtA spec0 c _)

set_option backward.isDefEq.respectTransparency.types false in
def reg1 : Pipeline.RegionSeg (pcfgs (F := F)) (adm m) (pdats m) () defs₀ 𝒱₀ L lv 1 :=
  seg (pdats m) launch1 (X21 m) (X22 m) 3 (fun _ => rfl) (fun _ _ => rfl) (by decide : ∀ w : Fin 4, w ≠ 3 → (spec1 w).isOut = false)
    (fun _ _ => rfl) (fun _ _ => rfl) (fun _ => rfl) (fun c k => by obtain rfl := dev_eq c; rfl)
    (G1.body_obligation (rd (X21 m)) (adm1 (X21 m))) (G1.hin (rd (X21 m)) (adm1 (X21 m))) (G1.hout (rd (X21 m)) (adm1 (X21 m)))

set_option backward.isDefEq.respectTransparency.types false in
def reg2 : Pipeline.RegionSeg (pcfgs (F := F)) (adm m) (pdats m) () defs₀ 𝒱₀ L lv 2 :=
  seg (pdats m) launch2 (X23 m) (X24 m) 2 (fun _ => rfl) (fun _ _ => rfl) (by decide : ∀ w : Fin 3, w ≠ 2 → (spec2 w).isOut = false)
    (fun _ _ => rfl) (fun _ _ => rfl) (fun _ => rfl) (fun c k => by obtain rfl := dev_eq c; rfl)
    (S2.body_obligation (rd (X23 m)) (adm2 (X23 m))) (S2.hin (rd (X23 m)) (adm2 (X23 m))) (S2.hout (rd (X23 m)) (adm2 (X23 m)))

set_option backward.isDefEq.respectTransparency.types false in
def reg3 : Pipeline.RegionSeg (pcfgs (F := F)) (adm m) (pdats m) () defs₀ 𝒱₀ L lv 3 :=
  seg (pdats m) launch3 (X25 m) (X26 m) 3 (fun _ => rfl) (fun _ _ => rfl) (by decide : ∀ w : Fin 4, w ≠ 3 → (spec3 w).isOut = false)
    (fun _ _ => rfl) (fun _ _ => rfl) (fun _ => rfl) (fun _ k => k.elim0)
    (fun c _ => L3.body_obligation (rd (X25 m)) c) (fun c => hinA spec3 c _) (fun c => houtA spec3 c _)

set_option backward.isDefEq.respectTransparency.types false in
def reg4 : Pipeline.RegionSeg (pcfgs (F := F)) (adm m) (pdats m) () defs₀ 𝒱₀ L lv 4 :=
  seg (pdats m) launch4 (X26 m) (X27 m) 3 (fun _ => rfl) (fun _ _ => rfl) (by decide : ∀ w : Fin 4, w ≠ 3 → (spec4 w).isOut = false)
    (fun _ _ => rfl) (fun _ _ => rfl) (fun _ => rfl) (fun c k => by obtain rfl := dev_eq c; rfl)
    (G4.body_obligation (rd (X26 m)) (adm4 (X26 m))) (G4.hin (rd (X26 m)) (adm4 (X26 m))) (G4.hout (rd (X26 m)) (adm4 (X26 m)))

set_option backward.isDefEq.respectTransparency.types false in
def reg5 : Pipeline.RegionSeg (pcfgs (F := F)) (adm m) (pdats m) () defs₀ 𝒱₀ L lv 5 :=
  seg (pdats m) launch5 (X28 m) (X29 m) 2 (fun _ => rfl) (fun _ _ => rfl) (by decide : ∀ w : Fin 3, w ≠ 2 → (spec5 w).isOut = false)
    (fun _ _ => rfl) (fun _ _ => rfl) (fun _ => rfl) (fun c k => by obtain rfl := dev_eq c; rfl)
    (S5.body_obligation (rd (X28 m)) (adm5 (X28 m))) (S5.hin (rd (X28 m)) (adm5 (X28 m))) (S5.hout (rd (X28 m)) (adm5 (X28 m)))

set_option backward.isDefEq.respectTransparency.types false in
def reg6 : Pipeline.RegionSeg (pcfgs (F := F)) (adm m) (pdats m) () defs₀ 𝒱₀ L lv 6 :=
  seg (pdats m) launch6 (X34 m) (X35 m) 3 (fun _ => rfl) (fun _ _ => rfl) (by decide : ∀ w : Fin 4, w ≠ 3 → (spec6 w).isOut = false)
    (fun _ _ => rfl) (fun _ _ => rfl) (fun _ => rfl) (fun _ k => k.elim0)
    (fun c _ => L6.body_obligation (rd (X34 m)) c) (fun c => hinA spec6 c _) (fun c => houtA spec6 c _)

set_option backward.isDefEq.respectTransparency.types false in
def reg7 : Pipeline.RegionSeg (pcfgs (F := F)) (adm m) (pdats m) () defs₀ 𝒱₀ L lv 7 :=
  seg (pdats m) launch7 (X35 m) (X36 m) 3 (fun _ => rfl) (fun _ _ => rfl) (by decide : ∀ w : Fin 4, w ≠ 3 → (spec7 w).isOut = false)
    (fun _ _ => rfl) (fun _ _ => rfl) (fun _ => rfl) (fun c k => by obtain rfl := dev_eq c; rfl)
    (G7.body_obligation (rd (X35 m)) (adm7 (X35 m))) (G7.hin (rd (X35 m)) (adm7 (X35 m))) (G7.hout (rd (X35 m)) (adm7 (X35 m)))

set_option backward.isDefEq.respectTransparency.types false in
def reg8 : Pipeline.RegionSeg (pcfgs (F := F)) (adm m) (pdats m) () defs₀ 𝒱₀ L lv 8 :=
  seg (pdats m) launch8 (X37 m) (X38 m) 2 (fun _ => rfl) (fun _ _ => rfl) (by decide : ∀ w : Fin 3, w ≠ 2 → (spec8 w).isOut = false)
    (fun _ _ => rfl) (fun _ _ => rfl) (fun _ => rfl) (fun c k => by obtain rfl := dev_eq c; rfl)
    (S8.body_obligation (rd (X37 m)) (adm8 (X37 m))) (S8.hin (rd (X37 m)) (adm8 (X37 m))) (S8.hout (rd (X37 m)) (adm8 (X37 m)))

end Cert.Kernel.Run

end
-- ==== Proof.K.Frame.lean ====
import proofs.«429835_j17746804867087_2_alg».proof.Proof.K.Segs

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = X39 m c b) := by
  have hrun : θ_run defs (onTc (τ := τ) (main (F := F))) ⟨m, fun _ => 0, ρ⟩ (fun r => ∀ c : Dev nD,
      ∀ b ∈ Pipeline.ucRefs τ sig, r.2.mem ((c : Thread nD τ).1, b) = V39 m (outs m) c b) := run_cond (F := F) m (Ix := Unit) (U := UR sig nD τ) (Lvl := ℕ) emb₁ () 𝒱₀ L lv (fun _ _ => rfl) ρ (outs m) (adm m) (pdats m)
    (O₀ := 0) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by refine Entails.trans ?_ fupd_intro; exact sep_emp_intro.trans (sep_mono .rfl (Entails.of_eq (BI.bigSep_emp_const _).symm)))
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE9 := fun c => by iintro ⟨-, HO⟩; iexact HO)
    (reg0 m) (fun c => .rfl) (fun c => by rw [V21_eq]; exact .rfl)
    (reg1 m) (fun c => by rw [V21_eq]; exact .rfl) (fun c => by rw [V22_eq]; exact .rfl)
    (reg2 m) (fun c => by rw [V23_eq]; exact .rfl) (fun c => by rw [V24_eq]; exact .rfl)
    (reg3 m) (fun c => by rw [V25_eq]; exact .rfl) (fun c => by rw [V26_eq]; exact .rfl)
    (reg4 m) (fun c => by rw [V26_eq]; exact .rfl) (fun c => by rw [V27_eq]; exact .rfl)
    (reg5 m) (fun c => by rw [V28_eq]; exact .rfl) (fun c => by rw [V29_eq]; exact .rfl)
    (reg6 m) (fun c => by rw [V34_eq]; exact .rfl) (fun c => by rw [V35_eq]; exact .rfl)
    (reg7 m) (fun c => by rw [V35_eq]; exact .rfl) (fun c => by rw [V36_eq]; exact .rfl)
    (reg8 m) (fun c => by rw [V37_eq]; exact .rfl) (fun c => by rw [V38_eq]; exact .rfl)
  exact (θ_run defs _ _).mono (fun r h c b hb => (h c b hb).trans (congrFun (V39_eq m c) b)) hrun

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem X39_main_arg0 (c : Dev nD) : X39 m c main_arg0 = m ((c.tc : Thread nD τ).loc main_arg0) := by
  rw [← V39_eq]; exact V39_main_arg0 m (outs m) c
theorem X39_main_arg1 (c : Dev nD) : X39 m c main_arg1 = m ((c.tc : Thread nD τ).loc main_arg1) := by
  rw [← V39_eq]; exact V39_main_arg1 m (outs m) c
theorem X39_main_arg2 (c : Dev nD) : X39 m c main_arg2 = m ((c.tc : Thread nD τ).loc main_arg2) := by
  rw [← V39_eq]; exact V39_main_arg2 m (outs m) c
theorem X39_main_arg3 (c : Dev nD) : X39 m c main_arg3 = m ((c.tc : Thread nD τ).loc main_arg3) := by
  rw [← V39_eq]; exact V39_main_arg3 m (outs m) c
theorem X39_main_arg4 (c : Dev nD) : X39 m c main_arg4 = m ((c.tc : Thread nD τ).loc main_arg4) := by
  rw [← V39_eq]; exact V39_main_arg4 m (outs m) c
theorem X39_main_arg5 (c : Dev nD) : X39 m c main_arg5 = m ((c.tc : Thread nD τ).loc main_arg5) := by
  rw [← V39_eq]; exact V39_main_arg5 m (outs m) c
theorem X39_main_arg6 (c : Dev nD) : X39 m c main_arg6 = m ((c.tc : Thread nD τ).loc main_arg6) := by
  rw [← V39_eq]; exact V39_main_arg6 m (outs m) c
theorem X39_main_arg7 (c : Dev nD) : X39 m c main_arg7 = m ((c.tc : Thread nD τ).loc main_arg7) := by
  rw [← V39_eq]; exact V39_main_arg7 m (outs m) c
theorem X39_main_arg8 (c : Dev nD) : X39 m c main_arg8 = m ((c.tc : Thread nD τ).loc main_arg8) := by
  rw [← V39_eq]; exact V39_main_arg8 m (outs m) c
theorem X39_main_arg9 (c : Dev nD) : X39 m c main_arg9 = m ((c.tc : Thread nD τ).loc main_arg9) := by
  rw [← V39_eq]; exact V39_main_arg9 m (outs m) c

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (X39_main_arg0 m c),
    (h c _ (mem_uc main_arg1 (by decide))).trans (X39_main_arg1 m c),
    (h c _ (mem_uc main_arg2 (by decide))).trans (X39_main_arg2 m c),
    (h c _ (mem_uc main_arg3 (by decide))).trans (X39_main_arg3 m c),
    (h c _ (mem_uc main_arg4 (by decide))).trans (X39_main_arg4 m c),
    (h c _ (mem_uc main_arg5 (by decide))).trans (X39_main_arg5 m c),
    (h c _ (mem_uc main_arg6 (by decide))).trans (X39_main_arg6 m c),
    (h c _ (mem_uc main_arg7 (by decide))).trans (X39_main_arg7 m c),
    (h c _ (mem_uc main_arg8 (by decide))).trans (X39_main_arg8 m c),
    (h c _ (mem_uc main_arg9 (by decide))).trans (X39_main_arg9 m c)⟩) (run_all m ρ)

end Cert.Kernel.Run

end
-- ==== Proof.KI.RunAll.lean ====
import proofs.«429835_j17746804867087_2_alg».proof.Proof.KI.RegionsP

set_option maxRecDepth 1556

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 9) → (pcfgs (F := F) p).Adm)
    (pdats : (p : Fin 9) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V20 m c) ∗ E 0 c) ⊢ R0.pre c)
    (hpost0 : ∀ c : Dev nD, R0.post c ⊢ iprop(StableHlo.held (c : Thread nD τ) (Pipeline.ucRefs τ sig) (V21 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V21 m outs c) ∗ E 1 c) ⊢ R1.pre c)
    (hpost1 : ∀ c : Dev nD, R1.post c ⊢ iprop(StableHlo.held (c : Thread nD τ) (Pipeline.ucRefs τ sig) (V22 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V23 m outs c) ∗ E 2 c) ⊢ R2.pre c)
    (hpost2 : ∀ c : Dev nD, R2.post c ⊢ iprop(StableHlo.held (c : Thread nD τ) (Pipeline.ucRefs τ sig) (V24 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V25 m outs c) ∗ E 3 c) ⊢ R3.pre c)
    (hpost3 : ∀ c : Dev nD, R3.post c ⊢ iprop(StableHlo.held (c : Thread nD τ) (Pipeline.ucRefs τ sig) (V26 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V26 m outs c) ∗ E 4 c) ⊢ R4.pre c)
    (hpost4 : ∀ c : Dev nD, R4.post c ⊢ iprop(StableHlo.held (c : Thread nD τ) (Pipeline.ucRefs τ sig) (V27 m outs c) ∗ E 5 c))
    (R5 : RegionSeg (pcfgs (F := F)) a pdats ι defs₀ 𝒱₀ L lv 5)
    (hpre5 : ∀ c : Dev nD, iprop(StableHlo.held (c : Thread nD τ) (Pipeline.ucRefs τ sig) (V28 m outs c) ∗ E 5 c) ⊢ R5.pre c)
    (hpost5 : ∀ c : Dev nD, R5.post c ⊢ iprop(StableHlo.held (c : Thread nD τ) (Pipeline.ucRefs τ sig) (V29 m outs c) ∗ E 6 c))
    (R6 : RegionSeg (pcfgs (F := F)) a pdats ι defs₀ 𝒱₀ L lv 6)
    (hpre6 : ∀ c : Dev nD, iprop(StableHlo.held (c : Thread nD τ) (Pipeline.ucRefs τ sig) (V34 m outs c) ∗ E 6 c) ⊢ R6.pre c)
    (hpost6 : ∀ c : Dev nD, R6.post c ⊢ iprop(StableHlo.held (c : Thread nD τ) (Pipeline.ucRefs τ sig) (V35 m outs c) ∗ E 7 c))
    (R7 : RegionSeg (pcfgs (F := F)) a pdats ι defs₀ 𝒱₀ L lv 7)
    (hpre7 : ∀ c : Dev nD, iprop(StableHlo.held (c : Thread nD τ) (Pipeline.ucRefs τ sig) (V35 m outs c) ∗ E 7 c) ⊢ R7.pre c)
    (hpost7 : ∀ c : Dev nD, R7.post c ⊢ iprop(StableHlo.held (c : Thread nD τ) (Pipeline.ucRefs τ sig) (V36 m outs c) ∗ E 8 c))
    (R8 : RegionSeg (pcfgs (F := F)) a pdats ι defs₀ 𝒱₀ L lv 8)
    (hpre8 : ∀ c : Dev nD, iprop(StableHlo.held (c : Thread nD τ) (Pipeline.ucRefs τ sig) (V37 m outs c) ∗ E 8 c) ⊢ R8.pre c)
    (hpost8 : ∀ c : Dev nD, R8.post c ⊢ iprop(StableHlo.held (c : Thread nD τ) (Pipeline.ucRefs τ sig) (V38 m outs c) ∗ E 9 c)) :
    θ_run defs (onTc (τ := τ) (main (F := F))) ⟨m, fun _ => 0, ρ⟩ (fun r => ∀ c : Dev nD,
      ∀ b ∈ Pipeline.ucRefs τ sig, r.2.mem ((c : Thread nD τ).1, b) = V39 m outs c b) := by
  refine Pipeline.θ_run_regions_kit_dev (pcfgs (F := F)) a pdats ι (cellOf_inj a) EP defs₀ 𝒱₀ L lv m ρ main
    (segs m outs 𝒱₀ L lv E ι a pdats R0 R1 R2 R3 R4 R5 R6 R7 R8)
    (fun c Q => by
      rewrite [Seg.run_eq_chain, show main (F := F) c = Pipeline.chain ((segs m outs 𝒱₀ L lv E ι a pdats R0 R1 R2 R3 R4 R5 R6 R7 R8 c).map Seg.prog) from main_chain c]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V39 m outs c))
    (hch := fun c => ⟨.rfl, .rfl, .rfl, .rfl, .rfl, .rfl, .rfl, .rfl, .rfl, .rfl, .rfl, .rfl, .rfl, .rfl, .rfl, .rfl, .rfl, .rfl, .rfl, .rfl, hpre0 c, (hpost0 c).trans (hpre1 c), hpost1 c, hpre2 c, hpost2 c, hpre3 c, (hpost3 c).trans (hpre4 c), hpost4 c, hpre5 c, hpost5 c, .rfl, .rfl, .rfl, .rfl, hpre6 c, (hpost6 c).trans (hpre7 c), hpost7 c, hpre8 c, hpost8 c, sep_mono .rfl (hE9 c)⟩)
    (hinit := ?_) (QY := fun c s => ∀ b ∈ Pipeline.ucRefs τ sig, s.mem ((c : Thread nD τ).1, b) = V39 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    exact (pointsTo_read_all (Pipeline.ucRefs τ sig) (fun b => ((c : Thread nD τ).1, b)) (V39 m outs c) s').trans fupd_intro

end Cert.KernelIdeal.Gen

end
-- ==== Proof.KI.L0Obl.lean ====
import proofs.«429835_j17746804867087_2_alg».proof.Proof.Gen.KernelIdeal.Launch
import proofs.«429835_j17746804867087_2_alg».proof.Proof.Gen.KernelIdeal.Skeleton
import proofs.«429835_j17746804867087_2_alg».proof.Proof.Gen.KernelIdeal.Points
import proofs.«429835_j17746804867087_2_alg».proof.Proof.Lib

noncomputable section

namespace Cert.KernelIdeal.L0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev rOut : Rect S1024x128 := Rect.unit (s := S1024x128) ![0, 0] S1024x128.size inb_S1024x128_S1024x128_0_0
abbrev rX : Rect S1024x256 := Rect.unit (s := S1024x256) ![0, 0] S1024x256.size inb_S1024x256_S1024x256_0_0
abbrev rW : Rect S256x128 := Rect.unit (s := S256x128) ![0, 0] S256x128.size inb_S256x128_S256x128_0_0
abbrev rB : Rect S1x128 := Rect.unit (s := S1x128) ![0, 0] S1x128.size inb_S1x128_S1x128_0_0

def out (x : Vec F S1024x256 .f32) (W : Vec F S256x128 .f32) (b : Vec F S1x128 .f32) : Vec F S1024x128 .f32 :=
  View.canon [⟨rOut, k0_pay1 (View.ld x rX) (View.ld W rW) (View.ld b rB)⟩]

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := rfl

theorem before_in (c : Dev nD) (t : Fin cfg0.N) :
    ∀ w : Fin cfg0.W, w ≠ 3 → ∀ d, (dat V c).before w t d = (dat V c).fetched w t d
  | ⟨0, _⟩, _ | ⟨1, _⟩, _ | ⟨2, _⟩, _ =>
    (dat V c).before_in_eq_fetched _ rfl (fun _ => rfl) (fun _ _ _ => rfl) (fun _ => rfl) t
  | ⟨3, _⟩, h => absurd rfl h

-- The body loads the three input blocks whole and stores the output block whole: the payload of what it loaded.
theorem sound_kernel (c : Dev nD) (E : Set ℕ) (i : grid0.Coords)
    (a0 : Memref sig .tc .vmem S1024x256 .f32) (h0 : a0.IsWhole) (a1 : Memref sig .tc .vmem S256x128 .f32) (h1 : a1.IsWhole)
    (a2 : Memref sig .tc .vmem S1x128 .f32) (h2 : a2.IsWhole) (a3 : Memref sig .tc .vmem S1024x128 .f32) (h3 : a3.IsWhole)
    (x : Vec F S1024x256 .f32) (W : Vec F S256x128 .f32) (b : Vec F S1x128 .f32) (K : PUnit → sProp 𝕄) :
    iprop(owns (c : Thread nD τ) a0 fullShare x ∗ owns (c : Thread nD τ) a1 fullShare W ∗ owns (c : Thread nD τ) a2 fullShare b
        ∗ (∃ d, owns (c : Thread nD τ) a3 fullShare d)
        ∗ (iprop(owns (c : Thread nD τ) a0 fullShare x ∗ owns (c : Thread nD τ) a1 fullShare W
            ∗ owns (c : Thread nD τ) a2 fullShare b ∗ owns (c : Thread nD τ) a3 fullShare (out x W b)) -∗ K ⟨⟩))
      ⊢ wp frame (wpE (defs₀ (F := F)) Variants.none c none) E (cc0__linear_kernel i a0 h0 a1 h1 a2 h2 a3 h3) K := by
  simp only [cc0__linear_kernel_eq_skeleton]; unfold cc0__linear_kernel_skel owns
  iintro ⟨⟨%f0, %e0, H0⟩, ⟨%f1, %e1, H1⟩, ⟨%f2, %e2, H2⟩, ⟨%_, %f3, -, H3⟩, Hk⟩
  subst e0 e1 e2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ fun y => ⟨_, List.mem_singleton_self _, View.mem_set_unit_zero Cert.Lib.zz2 inb_S1024x128_S1024x128_0_0 y⟩

set_option maxRecDepth 16384 in
theorem sound_body (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d))
        ∗ (∃ d, owns (c : Thread nD τ) (st0_3 t) fullShare ((dat V c).before 3 t d)))
      ⊢ wp frame (wpE (defs₀ (F := F)) Variants.none c none) Set.univ (bodyAt0 t) fun _ =>
        iprop((dat V c).Φ t.succ ∗ (dat V c).owesAt () t.succ
          ∗ owns (c : Thread nD τ) (st0_0 t) fullShare ((dat V c).after 0 t)
          ∗ owns (c : Thread nD τ) (st0_1 t) fullShare ((dat V c).after 1 t)
          ∗ owns (c : Thread nD τ) (st0_2 t) fullShare ((dat V c).after 2 t)
          ∗ owns (c : Thread nD τ) (st0_3 t) fullShare ((dat V c).after 3 t)) := by
  have e0 : ∀ d, (dat V c).before 0 t d = iblk V c 0 t := before_in V c t 0 (by decide)
  have e1 : ∀ d, (dat V c).before 1 t d = iblk V c 1 t := before_in V c t 1 (by decide)
  have e2 : ∀ d, (dat V c).before 2 t d = iblk V c 2 t := before_in V c t 2 (by decide)
  simp only [e0, e1, e2]
  rw [show (dat V c).Φ t.succ = (dat V c).Φ t.castSucc from rfl,
    show (dat V c).owesAt () t.succ = (dat V c).owesAt () t.castSucc from rfl]
  dsimp only [dat]
  unfold bodyAt0
  iintro ⟨HΦ, Ho, ⟨%_, H0⟩, ⟨%_, H1⟩, ⟨%_, H2⟩, ⟨%_, H3⟩⟩
  iapply (sound_kernel c Set.univ _ _ _ _ _ _ _ _ _ (iblk V c 0 t) (iblk V c 1 t) (iblk V c 2 t) _)
  iframe H0 H1 H2
  isplitl [H3]; · iexists _; iexact H3
  iintro ⟨H0, H1, H2, H3⟩
  iframe

theorem body_obligation (c : Dev nD) : BodyObligation (dat (F := F) V c) (defs₀ (F := F)) Variants.none () Set.univ := fun t => by
  rw [bigSep_W0, bigSep_W0]
  exact sound_body V c t

end Cert.KernelIdeal.L0

end
-- ==== Proof.KI.G1Def.lean ====
import proofs.«429835_j17746804867087_2_alg».proof.Proof.Gen.KernelIdeal.Launch
import proofs.«429835_j17746804867087_2_alg».proof.Proof.Gen.KernelIdeal.Skeleton
import Idealize.ShloMosaic.Lib.Pipeline.FrameBody
import Idealize.ShloMosaic.Lib.Pipeline.Regions
import Idealize.ShloMosaic.Lib.ValueIdx
import Idealize.ShloMosaic.Lib.Tactic

set_option maxRecDepth 16384

noncomputable section

namespace Cert.KernelIdeal.G1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

theorem N_eq : (cfg1 a).N = 19159 := N_1

theorem eb_lt (t : Fin (cfg1 a).N) : t.val / 49 < 391 := by
  have h : t.val < 19159 := lt_of_lt_of_eq t.isLt (N_eq a)
  omega

def pt (eb : Fin 391) (n : Fin 49) : Fin (cfg1 a).N := ⟨49 * eb.val + n.val, by rw [N_eq a]; omega⟩

def iblk (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

def lo (c : Dev nD) (eb : Fin 391) : BitVec 32 := V c main_v37 (ValueIdx.ix1 eb)
def hi (c : Dev nD) (eb : Fin 391) : BitVec 32 := V c main_v40 (ValueIdx.ix1 eb)

def act (c : Dev nD) (eb : Fin 391) (nb : Fin 49) : Prop :=
  Scalar.cmpi .ne ((Scalar.extui (Scalar.andi (Scalar.cmpi .sge (BitVec.ofNat 32 nb.val) (lo V c eb))
    (Scalar.cmpi .sle (BitVec.ofNat 32 nb.val) (hi V c eb))) : BitVec 32)) 0#32 = 1#1

instance (c : Dev nD) (eb : Fin 391) (nb : Fin 49) : Decidable (act V c eb nb) := by unfold act; infer_instance

def psum (c : Dev nD) (eb : Fin 391) : Nat → Vec F S2048x128 .f32
  | 0 => k1_pay1
  | n + 1 =>
    if h : n < 49 then
      if act V c eb ⟨n, h⟩ then
        k1_pay2 (grid1.coords (pt a eb ⟨n, h⟩)) (iblk V a c 0 (pt a eb ⟨n, h⟩)) (iblk V a c 1 (pt a eb ⟨n, h⟩))
          (iblk V a c 2 (pt a eb ⟨n, h⟩)) (psum c eb n)
      else psum c eb n
    else psum c eb n

abbrev scM : Memref sig .tc .vmem S2048x128 .f32 := Memref.whole cc1_scratch0

def dat (c : Dev nD) : Dat τ (Elt F) Unit ℕ (UR sig nD τ) ℕ (cfg1 a) c where
  A w := V c (Pipeline.arrRef spec1 w)
  after w t := match w with
    | ⟨0, _⟩ => iblk V a c 0 t
    | ⟨1, _⟩ => iblk V a c 1 t
    | ⟨2, _⟩ => iblk V a c 2 t
    | ⟨3, _⟩ => k1_pay3 (psum V a c ⟨t.val / 49, eb_lt a t⟩ 49)
  Φ t := iprop((∃ f : Vec F S2048x128 .f32,
        ⌜∀ eb : Fin 391, eb.val = t.val / 49 → t.val % 49 ≠ 0 → f = psum V a c eb (t.val % 49)⌝
          ∗ owns (c : Thread nD τ) scM fullShare f)
      ∗ Pipeline.scopedRestBut (Ix := Unit) (Name := ℕ) (U := UR sig nD τ) (Lvl := ℕ) (Val := Elt F) spec1 c [cc1_scratch0]
      ∗ (∃ r, prngReg c r)
      ∗ Pipeline.prefHeld (Ix := Unit) (Name := ℕ) (U := UR sig nD τ) (Lvl := ℕ) pre1 c (fun _ => fullShare) a.1)
  q _ := fullShare
  owed _ := 0

end Cert.KernelIdeal.G1

end
-- ==== Proof.KI.S2Def.lean ====
import proofs.«429835_j17746804867087_2_alg».proof.Proof.Gen.KernelIdeal.Launch
import proofs.«429835_j17746804867087_2_alg».proof.Proof.Gen.KernelIdeal.Skeleton
import Idealize.ShloMosaic.Lib.Pipeline.FrameBody
import Idealize.ShloMosaic.Lib.ValueIdx

set_option maxRecDepth 16384

noncomputable section

namespace Cert.KernelIdeal.S2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg2 (F := F)).Adm)

def iblk (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

def nbOf (t : ℕ) : Fin 49 := ⟨t / 391 % 49, Nat.mod_lt _ (by decide)⟩

def pt (nb : Fin 49) (n : ℕ) (h : n < 391) : Fin (cfg2 a).N :=
  ⟨nb.val * 391 + n, by have h49 := nb.isLt; have hN : (cfg2 a).N = 19159 := N_2; omega⟩

def lo (c : Dev nD) (eb : Fin 391) : BitVec 32 := V c main_v44 (ValueIdx.ix1 eb)

def hi (c : Dev nD) (eb : Fin 391) : BitVec 32 := V c main_v47 (ValueIdx.ix1 eb)

def act (c : Dev nD) (nb : Fin 49) (eb : Fin 391) : Prop :=
  Scalar.cmpi .ne (Scalar.extui (Scalar.andi (Scalar.cmpi .sge (BitVec.ofNat 32 nb.val) (lo V c eb))
    (Scalar.cmpi .sle (BitVec.ofNat 32 nb.val) (hi V c eb))) : BitVec 32) 0#32 = 1#1

instance (c : Dev nD) (nb : Fin 49) (eb : Fin 391) : Decidable (act V c nb eb) := by unfold act; infer_instance

def psum (c : Dev nD) (nb : Fin 49) : ℕ → Vec F S1024x128 .f32
  | 0 => k2_pay1
  | n + 1 =>
    if h : n < 391 then
      if act V c nb ⟨n, h⟩ then
        k2_pay2 (grid2.coords (pt a nb n h)) (iblk V a c 0 (pt a nb n h)) (iblk V a c 1 (pt a nb n h)) (psum c nb n)
      else psum c nb n
    else psum c nb n

def Phi (c : Dev nD) (t : Fin ((cfg2 a).N + 1)) : sProp 𝕄 :=
  iprop((∃ f : Buf (Elt F) ((c : Thread nD τ).loc cc2_scratch0),
          ⌜t.val % 391 ≠ 0 → f = psum V a c (nbOf t.val) (t.val % 391)⌝ ∗ (((c : Thread nD τ).loc cc2_scratch0) ↦{fullShare} f))
      ∗ Pipeline.scopedRestBut (Ix := Unit) (Name := ℕ) (U := UR sig nD τ) (Lvl := ℕ) (Val := Elt F) spec2 c [cc2_scratch0]
      ∗ (∃ r, prngReg c r)
      ∗ Pipeline.prefHeld pre2 c (fun _ => fullShare) a.1)

def dat (c : Dev nD) : Dat τ (Elt F) Unit ℕ (UR sig nD τ) ℕ (cfg2 a) c where
  A w := V c (Pipeline.arrRef spec2 w)
  after w t := match w with
    | ⟨0, _⟩ => iblk V a c 0 t
    | ⟨1, _⟩ => iblk V a c 1 t
    | ⟨2, _⟩ => k2_pay3 (psum V a c (nbOf t.val) 391)
  Φ t := Phi V a c t
  q _ := fullShare
  owed _ := 0

end Cert.KernelIdeal.S2

end
-- ==== Proof.KI.L3Obl.lean ====
import proofs.«429835_j17746804867087_2_alg».proof.Proof.Gen.KernelIdeal.Launch
import proofs.«429835_j17746804867087_2_alg».proof.Proof.Gen.KernelIdeal.Skeleton
import proofs.«429835_j17746804867087_2_alg».proof.Proof.Gen.KernelIdeal.Points
import proofs.«429835_j17746804867087_2_alg».proof.Proof.Lib

noncomputable section

namespace Cert.KernelIdeal.L3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

abbrev rOut : Rect S1024x128 := Rect.unit (s := S1024x128) ![0, 0] S1024x128.size inb_S1024x128_S1024x128_0_0
abbrev rX : Rect S1024x128 := Rect.unit (s := S1024x128) ![0, 0] S1024x128.size inb_S1024x128_S1024x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

def out (x : Vec F S1024x128 .f32) (W : Vec F S128x128 .f32) (b : Vec F S1x128 .f32) : Vec F S1024x128 .f32 :=
  View.canon [⟨rOut, k3_pay1 (View.ld x rX) (View.ld W rW) (View.ld b rB)⟩]

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec3 c
  q _ := fullShare
  owed _ := 0

theorem A_eq (c : Dev nD) (w : Fin cfg3.W) : (dat V c).A w = V c (Pipeline.arrRef spec3 w) := rfl

theorem before_in (c : Dev nD) (t : Fin cfg3.N) :
    ∀ w : Fin cfg3.W, w ≠ 3 → ∀ d, (dat V c).before w t d = (dat V c).fetched w t d
  | ⟨0, _⟩, _ | ⟨1, _⟩, _ | ⟨2, _⟩, _ =>
    (dat V c).before_in_eq_fetched _ rfl (fun _ => rfl) (fun _ _ _ => rfl) (fun _ => rfl) t
  | ⟨3, _⟩, h => absurd rfl h

-- The body loads the three input blocks whole and stores the output block whole: the payload of what it loaded.
theorem sound_kernel (c : Dev nD) (E : Set ℕ) (i : grid3.Coords)
    (a0 : Memref sig .tc .vmem S1024x128 .f32) (h0 : a0.IsWhole) (a1 : Memref sig .tc .vmem S128x128 .f32) (h1 : a1.IsWhole)
    (a2 : Memref sig .tc .vmem S1x128 .f32) (h2 : a2.IsWhole) (a3 : Memref sig .tc .vmem S1024x128 .f32) (h3 : a3.IsWhole)
    (x : Vec F S1024x128 .f32) (W : Vec F S128x128 .f32) (b : Vec F S1x128 .f32) (K : PUnit → sProp 𝕄) :
    iprop(owns (c : Thread nD τ) a0 fullShare x ∗ owns (c : Thread nD τ) a1 fullShare W ∗ owns (c : Thread nD τ) a2 fullShare b
        ∗ (∃ d, owns (c : Thread nD τ) a3 fullShare d)
        ∗ (iprop(owns (c : Thread nD τ) a0 fullShare x ∗ owns (c : Thread nD τ) a1 fullShare W
            ∗ owns (c : Thread nD τ) a2 fullShare b ∗ owns (c : Thread nD τ) a3 fullShare (out x W b)) -∗ K ⟨⟩))
      ⊢ wp frame (wpE (defs₀ (F := F)) Variants.none c none) E (cc3__linear_kernel i a0 h0 a1 h1 a2 h2 a3 h3) K := by
  simp only [cc3__linear_kernel_eq_skeleton]; unfold cc3__linear_kernel_skel owns
  iintro ⟨⟨%f0, %e0, H0⟩, ⟨%f1, %e1, H1⟩, ⟨%f2, %e2, H2⟩, ⟨%_, %f3, -, H3⟩, Hk⟩
  subst e0 e1 e2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ fun y => ⟨_, List.mem_singleton_self _, View.mem_set_unit_zero Cert.Lib.zz2 inb_S1024x128_S1024x128_0_0 y⟩

set_option maxRecDepth 16384 in
theorem sound_body (c : Dev nD) (t : Fin cfg3.N) :
    iprop((dat V c).Φ t.castSucc ∗ (dat V c).owesAt () t.castSucc
        ∗ (∃ d, owns (c : Thread nD τ) (st3_0 t) fullShare ((dat V c).before 0 t d))
        ∗ (∃ d, owns (c : Thread nD τ) (st3_1 t) fullShare ((dat V c).before 1 t d))
        ∗ (∃ d, owns (c : Thread nD τ) (st3_2 t) fullShare ((dat V c).before 2 t d))
        ∗ (∃ d, owns (c : Thread nD τ) (st3_3 t) fullShare ((dat V c).before 3 t d)))
      ⊢ wp frame (wpE (defs₀ (F := F)) Variants.none c none) Set.univ (bodyAt3 t) fun _ =>
        iprop((dat V c).Φ t.succ ∗ (dat V c).owesAt () t.succ
          ∗ owns (c : Thread nD τ) (st3_0 t) fullShare ((dat V c).after 0 t)
          ∗ owns (c : Thread nD τ) (st3_1 t) fullShare ((dat V c).after 1 t)
          ∗ owns (c : Thread nD τ) (st3_2 t) fullShare ((dat V c).after 2 t)
          ∗ owns (c : Thread nD τ) (st3_3 t) fullShare ((dat V c).after 3 t)) := by
  have e0 : ∀ d, (dat V c).before 0 t d = iblk V c 0 t := before_in V c t 0 (by decide)
  have e1 : ∀ d, (dat V c).before 1 t d = iblk V c 1 t := before_in V c t 1 (by decide)
  have e2 : ∀ d, (dat V c).before 2 t d = iblk V c 2 t := before_in V c t 2 (by decide)
  simp only [e0, e1, e2]
  rw [show (dat V c).Φ t.succ = (dat V c).Φ t.castSucc from rfl,
    show (dat V c).owesAt () t.succ = (dat V c).owesAt () t.castSucc from rfl]
  dsimp only [dat]
  unfold bodyAt3
  iintro ⟨HΦ, Ho, ⟨%_, H0⟩, ⟨%_, H1⟩, ⟨%_, H2⟩, ⟨%_, H3⟩⟩
  iapply (sound_kernel c Set.univ _ _ _ _ _ _ _ _ _ (iblk V c 0 t) (iblk V c 1 t) (iblk V c 2 t) _)
  iframe H0 H1 H2
  isplitl [H3]; · iexists _; iexact H3
  iintro ⟨H0, H1, H2, H3⟩
  iframe

theorem body_obligation (c : Dev nD) : BodyObligation (dat (F := F) V c) (defs₀ (F := F)) Variants.none () Set.univ := fun t => by
  rw [bigSep_W3, bigSep_W3]
  exact sound_body V c t

end Cert.KernelIdeal.L3

end
-- ==== Proof.KI.G4Def.lean ====
import proofs.«429835_j17746804867087_2_alg».proof.Proof.Gen.KernelIdeal.Launch
import proofs.«429835_j17746804867087_2_alg».proof.Proof.Gen.KernelIdeal.Skeleton
import Idealize.ShloMosaic.Lib.Pipeline.FrameBody
import Idealize.ShloMosaic.Lib.Pipeline.Regions
import Idealize.ShloMosaic.Lib.ValueIdx
import Idealize.ShloMosaic.Lib.Tactic

set_option maxRecDepth 16384

noncomputable section

namespace Cert.KernelIdeal.G4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg4 (F := F)).Adm)

theorem N_eq : (cfg4 a).N = 19159 := N_4

theorem eb_lt (t : Fin (cfg4 a).N) : t.val / 49 < 391 := by
  have h : t.val < 19159 := lt_of_lt_of_eq t.isLt (N_eq a)
  omega

def pt (eb : Fin 391) (n : Fin 49) : Fin (cfg4 a).N := ⟨49 * eb.val + n.val, by rw [N_eq a]; omega⟩

def iblk (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

def lo (c : Dev nD) (eb : Fin 391) : BitVec 32 := V c main_v37 (ValueIdx.ix1 eb)
def hi (c : Dev nD) (eb : Fin 391) : BitVec 32 := V c main_v40 (ValueIdx.ix1 eb)

def act (c : Dev nD) (eb : Fin 391) (nb : Fin 49) : Prop :=
  Scalar.cmpi .ne ((Scalar.extui (Scalar.andi (Scalar.cmpi .sge (BitVec.ofNat 32 nb.val) (lo V c eb))
    (Scalar.cmpi .sle (BitVec.ofNat 32 nb.val) (hi V c eb))) : BitVec 32)) 0#32 = 1#1

instance (c : Dev nD) (eb : Fin 391) (nb : Fin 49) : Decidable (act V c eb nb) := by unfold act; infer_instance

def psum (c : Dev nD) (eb : Fin 391) : Nat → Vec F S2048x128 .f32
  | 0 => k4_pay1
  | n + 1 =>
    if h : n < 49 then
      if act V c eb ⟨n, h⟩ then
        k4_pay2 (grid4.coords (pt a eb ⟨n, h⟩)) (iblk V a c 0 (pt a eb ⟨n, h⟩)) (iblk V a c 1 (pt a eb ⟨n, h⟩))
          (iblk V a c 2 (pt a eb ⟨n, h⟩)) (psum c eb n)
      else psum c eb n
    else psum c eb n

abbrev scM : Memref sig .tc .vmem S2048x128 .f32 := Memref.whole cc4_scratch0

def dat (c : Dev nD) : Dat τ (Elt F) Unit ℕ (UR sig nD τ) ℕ (cfg4 a) c where
  A w := V c (Pipeline.arrRef spec4 w)
  after w t := match w with
    | ⟨0, _⟩ => iblk V a c 0 t
    | ⟨1, _⟩ => iblk V a c 1 t
    | ⟨2, _⟩ => iblk V a c 2 t
    | ⟨3, _⟩ => k4_pay3 (psum V a c ⟨t.val / 49, eb_lt a t⟩ 49)
  Φ t := iprop((∃ f : Vec F S2048x128 .f32,
        ⌜∀ eb : Fin 391, eb.val = t.val / 49 → t.val % 49 ≠ 0 → f = psum V a c eb (t.val % 49)⌝
          ∗ owns (c : Thread nD τ) scM fullShare f)
      ∗ Pipeline.scopedRestBut (Ix := Unit) (Name := ℕ) (U := UR sig nD τ) (Lvl := ℕ) (Val := Elt F) spec4 c [cc4_scratch0]
      ∗ (∃ r, prngReg c r)
      ∗ Pipeline.prefHeld (Ix := Unit) (Name := ℕ) (U := UR sig nD τ) (Lvl := ℕ) pre4 c (fun _ => fullShare) a.1)
  q _ := fullShare
  owed _ := 0

end Cert.KernelIdeal.G4

end
-- ==== Proof.KI.S5Def.lean ====
import proofs.«429835_j17746804867087_2_alg».proof.Proof.Gen.KernelIdeal.Launch
import proofs.«429835_j17746804867087_2_alg».proof.Proof.Gen.KernelIdeal.Skeleton
import Idealize.ShloMosaic.Lib.Pipeline.FrameBody
import Idealize.ShloMosaic.Lib.ValueIdx

set_option maxRecDepth 16384

noncomputable section

namespace Cert.KernelIdeal.S5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg5 (F := F)).Adm)

def iblk (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

def nbOf (t : ℕ) : Fin 49 := ⟨t / 391 % 49, Nat.mod_lt _ (by decide)⟩

def pt (nb : Fin 49) (n : ℕ) (h : n < 391) : Fin (cfg5 a).N :=
  ⟨nb.val * 391 + n, by have h49 := nb.isLt; have hN : (cfg5 a).N = 19159 := N_5; omega⟩

def lo (c : Dev nD) (eb : Fin 391) : BitVec 32 := V c main_v44 (ValueIdx.ix1 eb)

def hi (c : Dev nD) (eb : Fin 391) : BitVec 32 := V c main_v47 (ValueIdx.ix1 eb)

def act (c : Dev nD) (nb : Fin 49) (eb : Fin 391) : Prop :=
  Scalar.cmpi .ne (Scalar.extui (Scalar.andi (Scalar.cmpi .sge (BitVec.ofNat 32 nb.val) (lo V c eb))
    (Scalar.cmpi .sle (BitVec.ofNat 32 nb.val) (hi V c eb))) : BitVec 32) 0#32 = 1#1

instance (c : Dev nD) (nb : Fin 49) (eb : Fin 391) : Decidable (act V c nb eb) := by unfold act; infer_instance

def psum (c : Dev nD) (nb : Fin 49) : ℕ → Vec F S1024x128 .f32
  | 0 => k5_pay1
  | n + 1 =>
    if h : n < 391 then
      if act V c nb ⟨n, h⟩ then
        k5_pay2 (grid5.coords (pt a nb n h)) (iblk V a c 0 (pt a nb n h)) (iblk V a c 1 (pt a nb n h)) (psum c nb n)
      else psum c nb n
    else psum c nb n

def Phi (c : Dev nD) (t : Fin ((cfg5 a).N + 1)) : sProp 𝕄 :=
  iprop((∃ f : Buf (Elt F) ((c : Thread nD τ).loc cc5_scratch0),
          ⌜t.val % 391 ≠ 0 → f = psum V a c (nbOf t.val) (t.val % 391)⌝ ∗ (((c : Thread nD τ).loc cc5_scratch0) ↦{fullShare} f))
      ∗ Pipeline.scopedRestBut (Ix := Unit) (Name := ℕ) (U := UR sig nD τ) (Lvl := ℕ) (Val := Elt F) spec5 c [cc5_scratch0]
      ∗ (∃ r, prngReg c r)
      ∗ Pipeline.prefHeld pre5 c (fun _ => fullShare) a.1)

def dat (c : Dev nD) : Dat τ (Elt F) Unit ℕ (UR sig nD τ) ℕ (cfg5 a) c where
  A w := V c (Pipeline.arrRef spec5 w)
  after w t := match w with
    | ⟨0, _⟩ => iblk V a c 0 t
    | ⟨1, _⟩ => iblk V a c 1 t
    | ⟨2, _⟩ => k5_pay3 (psum V a c (nbOf t.val) 391)
  Φ t := Phi V a c t
  q _ := fullShare
  owed _ := 0

end Cert.KernelIdeal.S5

end
-- ==== Proof.KI.L6Obl.lean ====
import proofs.«429835_j17746804867087_2_alg».proof.Proof.Gen.KernelIdeal.Launch
import proofs.«429835_j17746804867087_2_alg».proof.Proof.Gen.KernelIdeal.Skeleton
import proofs.«429835_j17746804867087_2_alg».proof.Proof.Gen.KernelIdeal.Points
import proofs.«429835_j17746804867087_2_alg».proof.Proof.Lib

noncomputable section

namespace Cert.KernelIdeal.L6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

abbrev rOut : Rect S1024x128 := Rect.unit (s := S1024x128) ![0, 0] S1024x128.size inb_S1024x128_S1024x128_0_0
abbrev rX : Rect S1024x128 := Rect.unit (s := S1024x128) ![0, 0] S1024x128.size inb_S1024x128_S1024x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

def out (x : Vec F S1024x128 .f32) (W : Vec F S128x128 .f32) (b : Vec F S1x128 .f32) : Vec F S1024x128 .f32 :=
  View.canon [⟨rOut, k6_pay1 (View.ld x rX) (View.ld W rW) (View.ld b rB)⟩]

def dat (c : Dev nD) : Dat τ (Elt F) Unit ℕ (UR sig nD τ) ℕ cfg6 c where
  A w := V c (Pipeline.arrRef spec6 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec6 c
  q _ := fullShare
  owed _ := 0

theorem A_eq (c : Dev nD) (w : Fin cfg6.W) : (dat V c).A w = V c (Pipeline.arrRef spec6 w) := rfl

theorem before_in (c : Dev nD) (t : Fin cfg6.N) :
    ∀ w : Fin cfg6.W, w ≠ 3 → ∀ d, (dat V c).before w t d = (dat V c).fetched w t d
  | ⟨0, _⟩, _ | ⟨1, _⟩, _ | ⟨2, _⟩, _ =>
    (dat V c).before_in_eq_fetched _ rfl (fun _ => rfl) (fun _ _ _ => rfl) (fun _ => rfl) t
  | ⟨3, _⟩, h => absurd rfl h

-- The body loads the three input blocks whole and stores the output block whole: the payload of what it loaded.
theorem sound_kernel (c : Dev nD) (E : Set ℕ) (i : grid6.Coords)
    (a0 : Memref sig .tc .vmem S1024x128 .f32) (h0 : a0.IsWhole) (a1 : Memref sig .tc .vmem S128x128 .f32) (h1 : a1.IsWhole)
    (a2 : Memref sig .tc .vmem S1x128 .f32) (h2 : a2.IsWhole) (a3 : Memref sig .tc .vmem S1024x128 .f32) (h3 : a3.IsWhole)
    (x : Vec F S1024x128 .f32) (W : Vec F S128x128 .f32) (b : Vec F S1x128 .f32) (K : PUnit → sProp 𝕄) :
    iprop(owns (c : Thread nD τ) a0 fullShare x ∗ owns (c : Thread nD τ) a1 fullShare W ∗ owns (c : Thread nD τ) a2 fullShare b
        ∗ (∃ d, owns (c : Thread nD τ) a3 fullShare d)
        ∗ (iprop(owns (c : Thread nD τ) a0 fullShare x ∗ owns (c : Thread nD τ) a1 fullShare W
            ∗ owns (c : Thread nD τ) a2 fullShare b ∗ owns (c : Thread nD τ) a3 fullShare (out x W b)) -∗ K ⟨⟩))
      ⊢ wp frame (wpE (defs₀ (F := F)) Variants.none c none) E (cc6__linear_kernel i a0 h0 a1 h1 a2 h2 a3 h3) K := by
  simp only [cc6__linear_kernel_eq_skeleton]; unfold cc6__linear_kernel_skel owns
  iintro ⟨⟨%f0, %e0, H0⟩, ⟨%f1, %e1, H1⟩, ⟨%f2, %e2, H2⟩, ⟨%_, %f3, -, H3⟩, Hk⟩
  subst e0 e1 e2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ fun y => ⟨_, List.mem_singleton_self _, View.mem_set_unit_zero Cert.Lib.zz2 inb_S1024x128_S1024x128_0_0 y⟩

set_option maxRecDepth 16384 in
theorem sound_body (c : Dev nD) (t : Fin cfg6.N) :
    iprop((dat V c).Φ t.castSucc ∗ (dat V c).owesAt () t.castSucc
        ∗ (∃ d, owns (c : Thread nD τ) (st6_0 t) fullShare ((dat V c).before 0 t d))
        ∗ (∃ d, owns (c : Thread nD τ) (st6_1 t) fullShare ((dat V c).before 1 t d))
        ∗ (∃ d, owns (c : Thread nD τ) (st6_2 t) fullShare ((dat V c).before 2 t d))
        ∗ (∃ d, owns (c : Thread nD τ) (st6_3 t) fullShare ((dat V c).before 3 t d)))
      ⊢ wp frame (wpE (defs₀ (F := F)) Variants.none c none) Set.univ (bodyAt6 t) fun _ =>
        iprop((dat V c).Φ t.succ ∗ (dat V c).owesAt () t.succ
          ∗ owns (c : Thread nD τ) (st6_0 t) fullShare ((dat V c).after 0 t)
          ∗ owns (c : Thread nD τ) (st6_1 t) fullShare ((dat V c).after 1 t)
          ∗ owns (c : Thread nD τ) (st6_2 t) fullShare ((dat V c).after 2 t)
          ∗ owns (c : Thread nD τ) (st6_3 t) fullShare ((dat V c).after 3 t)) := by
  have e0 : ∀ d, (dat V c).before 0 t d = iblk V c 0 t := before_in V c t 0 (by decide)
  have e1 : ∀ d, (dat V c).before 1 t d = iblk V c 1 t := before_in V c t 1 (by decide)
  have e2 : ∀ d, (dat V c).before 2 t d = iblk V c 2 t := before_in V c t 2 (by decide)
  simp only [e0, e1, e2]
  rw [show (dat V c).Φ t.succ = (dat V c).Φ t.castSucc from rfl,
    show (dat V c).owesAt () t.succ = (dat V c).owesAt () t.castSucc from rfl]
  dsimp only [dat]
  unfold bodyAt6
  iintro ⟨HΦ, Ho, ⟨%_, H0⟩, ⟨%_, H1⟩, ⟨%_, H2⟩, ⟨%_, H3⟩⟩
  iapply (sound_kernel c Set.univ _ _ _ _ _ _ _ _ _ (iblk V c 0 t) (iblk V c 1 t) (iblk V c 2 t) _)
  iframe H0 H1 H2
  isplitl [H3]; · iexists _; iexact H3
  iintro ⟨H0, H1, H2, H3⟩
  iframe

theorem body_obligation (c : Dev nD) : BodyObligation (dat (F := F) V c) (defs₀ (F := F)) Variants.none () Set.univ := fun t => by
  rw [bigSep_W6, bigSep_W6]
  exact sound_body V c t

end Cert.KernelIdeal.L6

end
-- ==== Proof.KI.G7Def.lean ====
import proofs.«429835_j17746804867087_2_alg».proof.Proof.Gen.KernelIdeal.Launch
import proofs.«429835_j17746804867087_2_alg».proof.Proof.Gen.KernelIdeal.Skeleton
import Idealize.ShloMosaic.Lib.Pipeline.FrameBody
import Idealize.ShloMosaic.Lib.Pipeline.Regions
import Idealize.ShloMosaic.Lib.ValueIdx
import Idealize.ShloMosaic.Lib.Tactic

set_option maxRecDepth 16384

noncomputable section

namespace Cert.KernelIdeal.G7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg7 (F := F)).Adm)

theorem N_eq : (cfg7 a).N = 19159 := N_7

theorem eb_lt (t : Fin (cfg7 a).N) : t.val / 49 < 391 := by
  have h : t.val < 19159 := lt_of_lt_of_eq t.isLt (N_eq a)
  omega

def pt (eb : Fin 391) (n : Fin 49) : Fin (cfg7 a).N := ⟨49 * eb.val + n.val, by rw [N_eq a]; omega⟩

def iblk (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

def lo (c : Dev nD) (eb : Fin 391) : BitVec 32 := V c main_v37 (ValueIdx.ix1 eb)
def hi (c : Dev nD) (eb : Fin 391) : BitVec 32 := V c main_v40 (ValueIdx.ix1 eb)

def act (c : Dev nD) (eb : Fin 391) (nb : Fin 49) : Prop :=
  Scalar.cmpi .ne ((Scalar.extui (Scalar.andi (Scalar.cmpi .sge (BitVec.ofNat 32 nb.val) (lo V c eb))
    (Scalar.cmpi .sle (BitVec.ofNat 32 nb.val) (hi V c eb))) : BitVec 32)) 0#32 = 1#1

instance (c : Dev nD) (eb : Fin 391) (nb : Fin 49) : Decidable (act V c eb nb) := by unfold act; infer_instance

def psum (c : Dev nD) (eb : Fin 391) : Nat → Vec F S2048x128 .f32
  | 0 => k7_pay1
  | n + 1 =>
    if h : n < 49 then
      if act V c eb ⟨n, h⟩ then
        k7_pay2 (grid7.coords (pt a eb ⟨n, h⟩)) (iblk V a c 0 (pt a eb ⟨n, h⟩)) (iblk V a c 1 (pt a eb ⟨n, h⟩))
          (iblk V a c 2 (pt a eb ⟨n, h⟩)) (psum c eb n)
      else psum c eb n
    else psum c eb n

abbrev scM : Memref sig .tc .vmem S2048x128 .f32 := Memref.whole cc7_scratch0

def dat (c : Dev nD) : Dat τ (Elt F) Unit ℕ (UR sig nD τ) ℕ (cfg7 a) c where
  A w := V c (Pipeline.arrRef spec7 w)
  after w t := match w with
    | ⟨0, _⟩ => iblk V a c 0 t
    | ⟨1, _⟩ => iblk V a c 1 t
    | ⟨2, _⟩ => iblk V a c 2 t
    | ⟨3, _⟩ => k7_pay3 (psum V a c ⟨t.val / 49, eb_lt a t⟩ 49)
  Φ t := iprop((∃ f : Vec F S2048x128 .f32,
        ⌜∀ eb : Fin 391, eb.val = t.val / 49 → t.val % 49 ≠ 0 → f = psum V a c eb (t.val % 49)⌝
          ∗ owns (c : Thread nD τ) scM fullShare f)
      ∗ Pipeline.scopedRestBut (Ix := Unit) (Name := ℕ) (U := UR sig nD τ) (Lvl := ℕ) (Val := Elt F) spec7 c [cc7_scratch0]
      ∗ (∃ r, prngReg c r)
      ∗ Pipeline.prefHeld (Ix := Unit) (Name := ℕ) (U := UR sig nD τ) (Lvl := ℕ) pre7 c (fun _ => fullShare) a.1)
  q _ := fullShare
  owed _ := 0

end Cert.KernelIdeal.G7

end
-- ==== Proof.KI.S8Def.lean ====
import proofs.«429835_j17746804867087_2_alg».proof.Proof.Gen.KernelIdeal.Launch
import proofs.«429835_j17746804867087_2_alg».proof.Proof.Gen.KernelIdeal.Skeleton
import Idealize.ShloMosaic.Lib.Pipeline.FrameBody
import Idealize.ShloMosaic.Lib.ValueIdx

set_option maxRecDepth 16384

noncomputable section

namespace Cert.KernelIdeal.S8

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg8 (F := F)).Adm)

def iblk (c : Dev nD) (w : Fin (cfg8 a).W) (t : Fin (cfg8 a).N) :
    (((cfg8 a).win w).xblock ((cfg8 a).grid.coords t)).Idx → Elt F ((cfg8 a).win w).elt :=
  (((cfg8 a).win w).blk t).view.read (Elt F) (V c (Pipeline.arrRef spec8 w))

def nbOf (t : ℕ) : Fin 49 := ⟨t / 391 % 49, Nat.mod_lt _ (by decide)⟩

def pt (nb : Fin 49) (n : ℕ) (h : n < 391) : Fin (cfg8 a).N :=
  ⟨nb.val * 391 + n, by have h49 := nb.isLt; have hN : (cfg8 a).N = 19159 := N_8; omega⟩

def lo (c : Dev nD) (eb : Fin 391) : BitVec 32 := V c main_v44 (ValueIdx.ix1 eb)

def hi (c : Dev nD) (eb : Fin 391) : BitVec 32 := V c main_v47 (ValueIdx.ix1 eb)

def act (c : Dev nD) (nb : Fin 49) (eb : Fin 391) : Prop :=
  Scalar.cmpi .ne (Scalar.extui (Scalar.andi (Scalar.cmpi .sge (BitVec.ofNat 32 nb.val) (lo V c eb))
    (Scalar.cmpi .sle (BitVec.ofNat 32 nb.val) (hi V c eb))) : BitVec 32) 0#32 = 1#1

instance (c : Dev nD) (nb : Fin 49) (eb : Fin 391) : Decidable (act V c nb eb) := by unfold act; infer_instance

def psum (c : Dev nD) (nb : Fin 49) : ℕ → Vec F S1024x128 .f32
  | 0 => k8_pay1
  | n + 1 =>
    if h : n < 391 then
      if act V c nb ⟨n, h⟩ then
        k8_pay2 (grid8.coords (pt a nb n h)) (iblk V a c 0 (pt a nb n h)) (iblk V a c 1 (pt a nb n h)) (psum c nb n)
      else psum c nb n
    else psum c nb n

def Phi (c : Dev nD) (t : Fin ((cfg8 a).N + 1)) : sProp 𝕄 :=
  iprop((∃ f : Buf (Elt F) ((c : Thread nD τ).loc cc8_scratch0),
          ⌜t.val % 391 ≠ 0 → f = psum V a c (nbOf t.val) (t.val % 391)⌝ ∗ (((c : Thread nD τ).loc cc8_scratch0) ↦{fullShare} f))
      ∗ Pipeline.scopedRestBut (Ix := Unit) (Name := ℕ) (U := UR sig nD τ) (Lvl := ℕ) (Val := Elt F) spec8 c [cc8_scratch0]
      ∗ (∃ r, prngReg c r)
      ∗ Pipeline.prefHeld pre8 c (fun _ => fullShare) a.1)

def dat (c : Dev nD) : Dat τ (Elt F) Unit ℕ (UR sig nD τ) ℕ (cfg8 a) c where
  A w := V c (Pipeline.arrRef spec8 w)
  after w t := match w with
    | ⟨0, _⟩ => iblk V a c 0 t
    | ⟨1, _⟩ => iblk V a c 1 t
    | ⟨2, _⟩ => psum V a c (nbOf t.val) 391
  Φ t := Phi V a c t
  q _ := fullShare
  owed _ := 0

end Cert.KernelIdeal.S8

end
-- ==== Proof.KI.Vals.lean ====
import proofs.«429835_j17746804867087_2_alg».proof.Proof.KI.RunAll
import proofs.«429835_j17746804867087_2_alg».proof.Proof.KI.L0Obl
import proofs.«429835_j17746804867087_2_alg».proof.Proof.KI.G1Def
import proofs.«429835_j17746804867087_2_alg».proof.Proof.KI.S2Def
import proofs.«429835_j17746804867087_2_alg».proof.Proof.KI.L3Obl
import proofs.«429835_j17746804867087_2_alg».proof.Proof.KI.G4Def
import proofs.«429835_j17746804867087_2_alg».proof.Proof.KI.S5Def
import proofs.«429835_j17746804867087_2_alg».proof.Proof.KI.L6Obl
import proofs.«429835_j17746804867087_2_alg».proof.Proof.KI.G7Def
import proofs.«429835_j17746804867087_2_alg».proof.Proof.KI.S8Def

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

-- Writing a buffer with what the updated valuation holds there is that update.
theorem upd_eq {τ : Topo} {sig : RefSig} {Val : EltTy → Type} {V X : Valuation τ sig Val} {r : DevRef τ sig} {o : r.ty.Contents Val}
    (Y : Valuation τ sig Val) (h : V = X) (hY : Y = Function.update X r o) : Function.update V r (Y r) = Y := by
  subst h hY; rw [Function.update_self]

variable {F : FTy → Type} [FloatOps F]
variable (m : (ℓ : Loc nD τ sig) → Buf (Elt F) ℓ)

abbrev c₀ : Dev nD := ⟨0, by decide⟩
theorem dev_eq (c : Dev nD) : c = c₀ := Fin.ext (by have h : c.val < 1 := c.isLt; show c.val = 0; omega)

abbrev rd (X : Dev nD → Valuation τ sig (Elt F)) : (c : Dev nD) → (b : Ref sig .tc) → Buf (Elt F) ((c : Thread nD τ).loc b) :=
  fun c b => X c b

abbrev adm1 (X : Dev nD → Valuation τ sig (Elt F)) : (pcfg1 (F := F)).Adm := ⟨fun k => X c₀ (pre1.ref k), trivial⟩
abbrev adm2 (X : Dev nD → Valuation τ sig (Elt F)) : (pcfg2 (F := F)).Adm := ⟨fun k => X c₀ (pre2.ref k), trivial⟩
abbrev adm4 (X : Dev nD → Valuation τ sig (Elt F)) : (pcfg4 (F := F)).Adm := ⟨fun k => X c₀ (pre4.ref k), trivial⟩
abbrev adm5 (X : Dev nD → Valuation τ sig (Elt F)) : (pcfg5 (F := F)).Adm := ⟨fun k => X c₀ (pre5.ref k), trivial⟩
abbrev adm7 (X : Dev nD → Valuation τ sig (Elt F)) : (pcfg7 (F := F)).Adm := ⟨fun k => X c₀ (pre7.ref k), trivial⟩
abbrev adm8 (X : Dev nD → Valuation τ sig (Elt F)) : (pcfg8 (F := F)).Adm := ⟨fun k => X c₀ (pre8.ref k), trivial⟩

def o21 (c : Dev nD) : Buf (Elt F) ((c : Thread nD τ).loc main_v52) := (L0.dat (rd (V20 m)) c).arrAt 3 cfg0.N
def X21 (c : Dev nD) : Valuation τ sig (Elt F) := Function.update (V20 m c) main_v52 (o21 m c)
def o22 (c : Dev nD) : Buf (Elt F) ((c : Thread nD τ).loc main_v53) := (G1.dat (rd (X21 m)) (adm1 (X21 m)) c).arrAt 3 (cfg1 (adm1 (X21 m))).N
def X22 (c : Dev nD) : Valuation τ sig (Elt F) := Function.update (X21 m c) main_v53 (o22 m c)
def X23 (c : Dev nD) : Valuation τ sig (Elt F) := StableHlo.after hostOps2 (X22 m c)
def o24 (c : Dev nD) : Buf (Elt F) ((c : Thread nD τ).loc main_v61) := (S2.dat (rd (X23 m)) (adm2 (X23 m)) c).arrAt 2 (cfg2 (adm2 (X23 m))).N
def X24 (c : Dev nD) : Valuation τ sig (Elt F) := Function.update (X23 m c) main_v61 (o24 m c)
def X25 (c : Dev nD) : Valuation τ sig (Elt F) := StableHlo.after hostOps3 (X24 m c)
def o26 (c : Dev nD) : Buf (Elt F) ((c : Thread nD τ).loc main_v63) := (L3.dat (rd (X25 m)) c).arrAt 3 cfg3.N
def X26 (c : Dev nD) : Valuation τ sig (Elt F) := Function.update (X25 m c) main_v63 (o26 m c)
def o27 (c : Dev nD) : Buf (Elt F) ((c : Thread nD τ).loc main_v64) := (G4.dat (rd (X26 m)) (adm4 (X26 m)) c).arrAt 3 (cfg4 (adm4 (X26 m))).N
def X27 (c : Dev nD) : Valuation τ sig (Elt F) := Function.update (X26 m c) main_v64 (o27 m c)
def X28 (c : Dev nD) : Valuation τ sig (Elt F) := StableHlo.after hostOps5 (X27 m c)
def o29 (c : Dev nD) : Buf (Elt F) ((c : Thread nD τ).loc main_v72) := (S5.dat (rd (X28 m)) (adm5 (X28 m)) c).arrAt 2 (cfg5 (adm5 (X28 m))).N
def X29 (c : Dev nD) : Valuation τ sig (Elt F) := Function.update (X28 m c) main_v72 (o29 m c)
def X30 (c : Dev nD) : Valuation τ sig (Elt F) := StableHlo.after hostOps6 (X29 m c)
def X31 (c : Dev nD) : Valuation τ sig (Elt F) := StableHlo.after hostOps6_1 (X30 m c)
def X32 (c : Dev nD) : Valuation τ sig (Elt F) := StableHlo.after hostOps6_2 (X31 m c)
def X33 (c : Dev nD) : Valuation τ sig (Elt F) := StableHlo.after hostOps6_3 (X32 m c)
def X34 (c : Dev nD) : Valuation τ sig (Elt F) := StableHlo.after hostOps6_4 (X33 m c)
def o35 (c : Dev nD) : Buf (Elt F) ((c : Thread nD τ).loc main_v76) := (L6.dat (rd (X34 m)) c).arrAt 3 cfg6.N
def X35 (c : Dev nD) : Valuation τ sig (Elt F) := Function.update (X34 m c) main_v76 (o35 m c)
def o36 (c : Dev nD) : Buf (Elt F) ((c : Thread nD τ).loc main_v77) := (G7.dat (rd (X35 m)) (adm7 (X35 m)) c).arrAt 3 (cfg7 (adm7 (X35 m))).N
def X36 (c : Dev nD) : Valuation τ sig (Elt F) := Function.update (X35 m c) main_v77 (o36 m c)
def X37 (c : Dev nD) : Valuation τ sig (Elt F) := StableHlo.after hostOps8 (X36 m c)
def o38 (c : Dev nD) : Buf (Elt F) ((c : Thread nD τ).loc main_v85) := (S8.dat (rd (X37 m)) (adm8 (X37 m)) c).arrAt 2 (cfg8 (adm8 (X37 m))).N
def X38 (c : Dev nD) : Valuation τ sig (Elt F) := Function.update (X37 m c) main_v85 (o38 m c)
def X39 (c : Dev nD) : Valuation τ sig (Elt F) := StableHlo.after hostOps9 (X38 m c)

def outs : Outs (F := F) := fun J r c =>
  match J with
  | 21 => X21 m c r | 22 => X22 m c r | 24 => X24 m c r | 26 => X26 m c r | 27 => X27 m c r
  | 29 => X29 m c r | 35 => X35 m c r | 36 => X36 m c r | 38 => X38 m c r
  | _ => V0 m c r

theorem V21_eq (c : Dev nD) : V21 m (outs m) c = X21 m c := upd_eq (X21 m c) rfl rfl
theorem V22_eq (c : Dev nD) : V22 m (outs m) c = X22 m c := upd_eq (X22 m c) (V21_eq m c) rfl
theorem V23_eq (c : Dev nD) : V23 m (outs m) c = X23 m c := congrArg (StableHlo.after hostOps2) (V22_eq m c)
theorem V24_eq (c : Dev nD) : V24 m (outs m) c = X24 m c := upd_eq (X24 m c) (V23_eq m c) rfl
theorem V25_eq (c : Dev nD) : V25 m (outs m) c = X25 m c := congrArg (StableHlo.after hostOps3) (V24_eq m c)
theorem V26_eq (c : Dev nD) : V26 m (outs m) c = X26 m c := upd_eq (X26 m c) (V25_eq m c) rfl
theorem V27_eq (c : Dev nD) : V27 m (outs m) c = X27 m c := upd_eq (X27 m c) (V26_eq m c) rfl
theorem V28_eq (c : Dev nD) : V28 m (outs m) c = X28 m c := congrArg (StableHlo.after hostOps5) (V27_eq m c)
theorem V29_eq (c : Dev nD) : V29 m (outs m) c = X29 m c := upd_eq (X29 m c) (V28_eq m c) rfl
theorem V34_eq (c : Dev nD) : V34 m (outs m) c = X34 m c :=
  congrArg (fun V => StableHlo.after hostOps6_4 (StableHlo.after hostOps6_3 (StableHlo.after hostOps6_2 (StableHlo.after hostOps6_1 (StableHlo.after hostOps6 V))))) (V29_eq m c)
theorem V35_eq (c : Dev nD) : V35 m (outs m) c = X35 m c := upd_eq (X35 m c) (V34_eq m c) rfl
theorem V36_eq (c : Dev nD) : V36 m (outs m) c = X36 m c := upd_eq (X36 m c) (V35_eq m c) rfl
theorem V37_eq (c : Dev nD) : V37 m (outs m) c = X37 m c := congrArg (StableHlo.after hostOps8) (V36_eq m c)
theorem V38_eq (c : Dev nD) : V38 m (outs m) c = X38 m c := upd_eq (X38 m c) (V37_eq m c) rfl
theorem V39_eq (c : Dev nD) : V39 m (outs m) c = X39 m c := congrArg (StableHlo.after hostOps9) (V38_eq m c)

end Cert.KernelIdeal.Run

end
-- ==== Proof.KI.G1Body.lean ====
import proofs.«429835_j17746804867087_2_alg».proof.Proof.Gen.KernelIdeal.Launch
import proofs.«429835_j17746804867087_2_alg».proof.Proof.Gen.KernelIdeal.Skeleton
import proofs.«429835_j17746804867087_2_alg».proof.Proof.Lib
import Idealize.ShloMosaic.Lib.Pipeline.TableIdle
import Idealize.ShloMosaic.Lib.WholeRead

noncomputable section

namespace Cert.KernelIdeal.G1

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem owns_unread {sp : Space} {S : Shape} {e : EltTy} (c : Dev nD) {m : Memref sig .tc sp S e} (h : m.IsWhole)
    (q : PosShare TreeShare) (X : S.Idx → Elt F e) :
    (owns (c : Thread nD τ) m q X : sProp 𝕄) = (m.view.loc (c : Thread nD τ) ↦[m.view.set]{q} h.unread X) := by
  rw [owns_eq_rep, h.eq_unread (View.read_rep _ _)]

-- The word of n is k, as the kernel tests it.
abbrev cEq (k : BitVec 32) (n : Fin 49) : Prop :=
  Scalar.cmpi .ne ((Scalar.extui (Scalar.cmpi .eq (BitVec.ofNat 32 n.val) k)) : BitVec 32) 0#32 = 1#1

-- The two table words admit the node block: wlo ≤ nb ≤ whi, signed.
abbrev cAct (i : grid1.Coords) (wlo whi : BitVec 32) : Prop :=
  Scalar.cmpi .ne ((Scalar.extui (Scalar.andi (Scalar.cmpi .sge (BitVec.ofNat 32 (i 1).val) wlo)
    (Scalar.cmpi .sle (BitVec.ofNat 32 (i 1).val) whi))) : BitVec 32) 0#32 = 1#1

-- The word loaded at the edge block's offset is the table's entry at the edge block.
theorem word_eq (i : grid1.Coords) (arg : Memref sig .tc .smem S391 .i32) (harg : arg.IsWhole) (T : Vec F S391 .i32) :
    View.readAt (Elt F) arg.view (Rect.unit (s := S391) (k1_off1 i) S1.size (k1_off1_inb i)).toLoadRect (harg.unread T)
      (Shape.Idx.first (numel1_S1.symm ▸ Nat.one_pos)) = T (ValueIdx.ix1 (n := 391) (i 0)) := by
  rw [harg.readAt_unread]
  congr 1; funext a; apply Fin.ext
  show k1_off1 i a + 1 * 0 = _
  rw [k1_off1_eq i]
  match a with | ⟨0, _⟩ => rfl

-- s₀ is f reset at the first node block, s adds the block's product when admitted, o is the cast of s at the last node block, else y.
theorem sound_kernel (c : Dev nD) (E : Set ℕ) (i : grid1.Coords)
    (arg2 : Memref sig .tc .smem S391 .i32) (harg2 : arg2.IsWhole) (arg3 : Memref sig .tc .smem S391 .i32) (harg3 : arg3.IsWhole)
    (arg4 : Memref sig .tc .vmem S1x2048 .i32) (harg4 : arg4.IsWhole) (arg5 : Memref sig .tc .vmem S1x2048 .f32) (harg5 : arg5.IsWhole)
    (arg6 : Memref sig .tc .vmem S1024x128 .f32) (harg6 : arg6.IsWhole) (arg7 : Memref sig .tc .vmem S2048x128 .bf16) (harg7 : arg7.IsWhole)
    (arg8 : Memref sig .tc .vmem S2048x128 .f32) (harg8 : arg8.IsWhole)
    (Tlo Thi : Vec F S391 .i32) (x4 : Vec F S1x2048 .i32) (x5 : Vec F S1x2048 .f32) (x6 : Vec F S1024x128 .f32)
    (y o : Vec F S2048x128 .bf16) (f s₀ s : Vec F S2048x128 .f32)
    (h₀ : s₀ = if cEq 0#32 (i 1) then k1_pay1 else f)
    (hs : s = if cAct i (Tlo (ValueIdx.ix1 (n := 391) (i 0))) (Thi (ValueIdx.ix1 (n := 391) (i 0))) then k1_pay2 i x4 x5 x6 s₀ else s₀)
    (ho : o = if k1_cond3 i = 1#1 then k1_pay3 s else y)
    (K : PUnit → sProp 𝕄) :
    iprop(owns (c : Thread nD τ) arg2 fullShare Tlo ∗ owns (c : Thread nD τ) arg3 fullShare Thi
        ∗ owns (c : Thread nD τ) arg4 fullShare x4 ∗ owns (c : Thread nD τ) arg5 fullShare x5 ∗ owns (c : Thread nD τ) arg6 fullShare x6
        ∗ owns (c : Thread nD τ) arg7 fullShare y ∗ owns (c : Thread nD τ) arg8 fullShare f
        ∗ (iprop(owns (c : Thread nD τ) arg2 fullShare Tlo ∗ owns (c : Thread nD τ) arg3 fullShare Thi
            ∗ owns (c : Thread nD τ) arg4 fullShare x4 ∗ owns (c : Thread nD τ) arg5 fullShare x5 ∗ owns (c : Thread nD τ) arg6 fullShare x6
            ∗ owns (c : Thread nD τ) arg7 fullShare o ∗ owns (c : Thread nD τ) arg8 fullShare s) -∗ K ⟨⟩))
      ⊢ wp frame (wpE (defs₀ (F := F)) Variants.none c none) E (cc1__gather_kernel i arg2 harg2 arg3 harg3 arg4 harg4 arg5 harg5 arg6 harg6 arg7 harg7 arg8 harg8) K := by
  subst ho hs h₀
  simp only [cc1__gather_kernel_eq_skeleton]; unfold cc1__gather_kernel_skel
  simp only [owns_unread c harg2, owns_unread c harg3, owns_unread c harg4, owns_unread c harg5, owns_unread c harg6]
  rw [owns_unread c harg7 _ y, owns_unread c harg8 _ f]
  iintro ⟨H2, H3, H4, H5, H6, H7, H8, Hk⟩
  sl_exec
  sl_step
  sl_unfold_run_names
  ihave O7 := (owns_intro (c : Thread nD τ) arg7 fullShare _) $$ H7
  ihave O8 := (owns_intro (c : Thread nD τ) arg8 fullShare _) $$ H8
  unfold cEq cAct
  simp only [word_eq i arg2 harg2 Tlo, word_eq i arg3 harg3 Thi, readAt_full arg4.view zz2, readAt_full arg5.view zz2, readAt_full arg6.view zz2, readAt_full arg8.view zz2,
    read_writes_full arg8.view zz2, read_writes_full arg7.view zz2, dite_eq_ite, apply_ite (View.read (Elt F) arg8.view),
    apply_ite (View.read (Elt F) arg7.view), harg4.read_unread, harg5.read_unread, harg6.read_unread, harg7.read_unread,
    harg8.read_unread]
  iapply Hk
  iframe

end Cert.KernelIdeal.G1
end
-- ==== Proof.KI.G1Obl.lean ====
import proofs.«429835_j17746804867087_2_alg».proof.Proof.KI.G1Def
import proofs.«429835_j17746804867087_2_alg».proof.Proof.KI.G1Body

noncomputable section

namespace Cert.KernelIdeal.G1

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

theorem A_eq (c : Dev nD) (w : Fin (cfg1 a).W) : (dat V a c).A w = V c (Pipeline.arrRef spec1 w) := by
  dsimp only [dat]

theorem coord0 (t : Fin (cfg1 a).N) : ((grid1.coords t) 0).val = t.val / 49 := by
  have h : t.val < 19159 := lt_of_lt_of_eq t.isLt (N_eq a)
  show t.val / 49 % 391 = _
  omega

theorem coord1 (t : Fin (cfg1 a).N) : ((grid1.coords t) 1).val = t.val % 49 := by
  show t.val / 1 % 49 = _
  omega

theorem cond3_iff : ∀ n : Fin 49, cEq 48#32 n ↔ n.val = 48 := by decide

theorem first_iff : ∀ n : Fin 49, cEq 0#32 n ↔ n.val = 0 := by decide

-- (t + 1) / 49 = t / 49 unless t % 49 = 48.
theorem flush3 (t : Fin (cfg1 a).N) (h48 : t.val % 49 ≠ 48) : ((cfg1 a).win 3).flush t = false := by
  have hN : (cfg1 a).grid.N = 19159 := N_eq a
  have ht : t.val < 19159 := lt_of_lt_of_eq t.isLt (N_eq a)
  rw [← Bool.not_eq_true, Window.flush_out _ rfl t]
  rintro (h | ⟨h, hne⟩)
  · omega
  · refine hne (hreads1_3 (grid1.coords ⟨t.val + 1, h⟩) (grid1.coords t) fun ax hr => ?_)
    match ax with
    | ⟨0, _⟩ => exact Fin.ext ((coord0 a ⟨t.val + 1, h⟩).trans ((show (t.val + 1) / 49 = t.val / 49 by omega).trans (coord0 a t).symm))
    | ⟨1, _⟩ => exact absurd hr Bool.false_ne_true

theorem hin (c : Dev nD) :
    (iprop((∃ r, prngReg c r) ∗ Pipeline.prefHeld (Ix := Unit) (Name := ℕ) (U := UR sig nD τ) (Lvl := ℕ) pre1 c (fun _ => fullShare) a.1
      ∗ Pipeline.scopedRest (Ix := Unit) (Name := ℕ) (U := UR sig nD τ) (Lvl := ℕ) (Val := Elt F) spec1 c) : sProp 𝕄)
      ⊢ (dat V a c).Φ 0 := by
  rw [scopedRest1_split]
  dsimp only [dat]
  simp only [scM, owns_whole]
  iintro ⟨Hg, Hp, ⟨%f, Hs⟩, Hr⟩
  iframe Hr Hg Hp
  iexists f; isplitr
  · ipureintro; intro eb _ h; exact absurd rfl h
  · iexact Hs

theorem hout (c : Dev nD) :
    (dat V a c).Φ (Fin.last (cfg1 a).N)
      ⊢ (iprop(((∃ r, prngReg c r) ∗ Pipeline.prefHeld (Ix := Unit) (Name := ℕ) (U := UR sig nD τ) (Lvl := ℕ) pre1 c (fun _ => fullShare) a.1)
        ∗ Pipeline.scopedRest (Ix := Unit) (Name := ℕ) (U := UR sig nD τ) (Lvl := ℕ) (Val := Elt F) spec1 c) : sProp 𝕄) := by
  rw [scopedRest1_split]
  dsimp only [dat]
  simp only [scM, owns_whole]
  iintro ⟨⟨%f, -, Hs⟩, Hr, Hg, Hp⟩
  iframe Hr Hg Hp
  iexists f; iexact Hs

theorem before_0 (c : Dev nD) (t : Fin (cfg1 a).N) (d) : (dat V a c).before 0 t d = iblk V a c 0 t :=
  ((dat V a c).before_in_eq_fetched 0 rfl (fun _ => rfl) (fun _ _ _ => rfl) (fun _ => rfl) t d).trans rfl
theorem before_1 (c : Dev nD) (t : Fin (cfg1 a).N) (d) : (dat V a c).before 1 t d = iblk V a c 1 t :=
  ((dat V a c).before_in_eq_fetched 1 rfl (fun _ => rfl) (fun _ _ _ => rfl) (fun _ => rfl) t d).trans rfl
theorem before_2 (c : Dev nD) (t : Fin (cfg1 a).N) (d) : (dat V a c).before 2 t d = iblk V a c 2 t :=
  ((dat V a c).before_in_eq_fetched 2 rfl (fun _ => rfl) (fun _ _ _ => rfl) (fun _ => rfl) t d).trans rfl

abbrev st3 (t : Fin (cfg1 a).N) := spec1_3.stage ((cfg1 a).slots t 3)

abbrev tLo : Memref sig .tc .smem S391 .i32 := Memref.whole main_v37
abbrev tHi : Memref sig .tc .smem S391 .i32 := Memref.whole main_v40

def tabLo : Vec F S391 .i32 := a.1 0
def tabHi : Vec F S391 .i32 := a.1 1

theorem Phi_eq (c : Dev nD) (t : Fin ((cfg1 a).N + 1)) :
    (dat V a c).Φ t = (iprop((∃ f : Vec F S2048x128 .f32,
        ⌜∀ eb : Fin 391, eb.val = t.val / 49 → t.val % 49 ≠ 0 → f = psum V a c eb (t.val % 49)⌝
          ∗ owns (c : Thread nD τ) scM fullShare f)
      ∗ Pipeline.scopedRestBut (Ix := Unit) (Name := ℕ) (U := UR sig nD τ) (Lvl := ℕ) (Val := Elt F) spec1 c [cc1_scratch0]
      ∗ (∃ r, prngReg c r)
      ∗ owns (c : Thread nD τ) tLo fullShare (tabLo a) ∗ owns (c : Thread nD τ) tHi fullShare (tabHi a)) : sProp 𝕄) := by
  dsimp only [dat]
  unfold Pipeline.prefHeld
  rw [bigSep_K2, ← owns_whole (c : Thread nD τ) (pre1.ref 0) fullShare (a.1 0),
    ← owns_whole (c : Thread nD τ) (pre1.ref 1) fullShare (a.1 1)]
  rfl

-- o is the cast of the full sum when t % 49 = 48 and what was found otherwise.
theorem leaves3 (c : Dev nD) (t : Fin (cfg1 a).N) (d) (o : Vec F S2048x128 .bf16)
    (ho : o = if k1_cond3 (grid1.coords t) = 1#1 then k1_pay3 (psum V a c ⟨t.val / 49, eb_lt a t⟩ (t.val % 49 + 1))
      else (dat V a c).before 3 t d) :
    owns (c : Thread nD τ) (st3 a t) fullShare o ⊢ (dat V a c).leavesExact 3 t := by
  have hi : (cfg1 a).idle 3 ((cfg1 a).grid.coords t) = !(k1_cond3 (grid1.coords t) == 1#1) := rfl
  by_cases h48 : t.val % 49 = 48
  · have hc3 : k1_cond3 (grid1.coords t) = 1#1 := (cond3_iff ((grid1.coords t) 1)).mpr ((coord1 a t).trans h48)
    obtain rfl := ho.trans (if_pos hc3)
    rw [hc3] at hi
    unfold Dat.leavesExact
    rw [h48, hi]
    exact .rfl
  · have hc3 : ¬ k1_cond3 (grid1.coords t) = 1#1 := fun h => h48 ((coord1 a t).symm.trans ((cond3_iff ((grid1.coords t) 1)).mp h))
    obtain rfl := ho.trans (if_neg hc3)
    rw [Dat.leavesExact_idle _ 3 t (by rw [hi, Bool.not_eq_true', beq_eq_false_iff_ne]; exact hc3) (flush3 a t h48)]
    iintro H; iexists d; iexact H

theorem body_obligation (c : Dev nD) (ha : ∀ k, a.1 k = V c (pre1.ref k)) :
    BodyObligation (dat (F := F) V a c) (defs₀ (F := F)) Variants.none () Set.univ := fun t => by
  have hlt : t.val % 49 < 49 := Nat.mod_lt _ (by decide)
  have htN : t.val < 19159 := lt_of_lt_of_eq t.isLt (N_eq a)
  have hc1 := coord1 a t
  have hpt : pt a ⟨t.val / 49, eb_lt a t⟩ ⟨t.val % 49, hlt⟩ = t :=
    Fin.ext (by show 49 * (t.val / 49) + t.val % 49 = t.val; omega)
  rw [bigSep_W1, bigSep_W1]
  show iprop((dat V a c).Φ t.castSucc ∗ (dat V a c).owesAt () t.castSucc
      ∗ (∃ d, owns (c : Thread nD τ) (spec1_0.stage ((cfg1 a).slots t 0)) fullShare ((dat V a c).before 0 t d))
      ∗ (∃ d, owns (c : Thread nD τ) (spec1_1.stage ((cfg1 a).slots t 1)) fullShare ((dat V a c).before 1 t d))
      ∗ (∃ d, owns (c : Thread nD τ) (spec1_2.stage ((cfg1 a).slots t 2)) fullShare ((dat V a c).before 2 t d))
      ∗ (∃ d, owns (c : Thread nD τ) (st3 a t) fullShare ((dat V a c).before 3 t d)))
    ⊢ wp frame (wpE (defs₀ (F := F)) Variants.none c none) Set.univ
      (cc1__gather_kernel (grid1.coords t) tLo (Memref.isWhole_whole _) tHi (Memref.isWhole_whole _)
        (spec1_0.stage ((cfg1 a).slots t 0)) (hstage1_0 (((cfg1 a).slots t 0).cast nbuf1_0))
        (spec1_1.stage ((cfg1 a).slots t 1)) (hstage1_1 (((cfg1 a).slots t 1).cast nbuf1_1))
        (spec1_2.stage ((cfg1 a).slots t 2)) (hstage1_2 (((cfg1 a).slots t 2).cast nbuf1_2))
        (st3 a t) (hstage1_3 (((cfg1 a).slots t 3).cast nbuf1_3)) scM (Memref.isWhole_whole _))
      fun _ => iprop((dat V a c).Φ t.succ ∗ (dat V a c).owesAt () t.castSucc
        ∗ owns (c : Thread nD τ) (spec1_0.stage ((cfg1 a).slots t 0)) fullShare (iblk V a c 0 t)
        ∗ owns (c : Thread nD τ) (spec1_1.stage ((cfg1 a).slots t 1)) fullShare (iblk V a c 1 t)
        ∗ owns (c : Thread nD τ) (spec1_2.stage ((cfg1 a).slots t 2)) fullShare (iblk V a c 2 t)
        ∗ (dat V a c).leavesExact 3 t)
  simp only [before_0, before_1, before_2]
  rw [Phi_eq, Phi_eq]
  simp only [Fin.coe_castSucc, Fin.val_succ]
  iintro ⟨⟨⟨%f, %hf, Hs⟩, Hr, Hg, Hp0, Hp1⟩, Ho, ⟨%d0, H0⟩, ⟨%d1, H1⟩, ⟨%d2, H2⟩, ⟨%d3, H3⟩⟩
  iapply (sound_kernel c Set.univ (grid1.coords t) _ _ _ _ _ _ _ _ _ _ _ _ _ _ (tabLo a) (tabHi a)
    (iblk V a c 0 t) (iblk V a c 1 t) (iblk V a c 2 t) ((dat V a c).before 3 t d3) _ f
    (psum V a c ⟨t.val / 49, eb_lt a t⟩ (t.val % 49)) (psum V a c ⟨t.val / 49, eb_lt a t⟩ (t.val % 49 + 1))
    (by
      by_cases h0 : t.val % 49 = 0
      · rw [if_pos ((first_iff ((grid1.coords t) 1)).mpr (hc1.trans h0)), h0]; rfl
      · rw [if_neg fun h => h0 (hc1.symm.trans ((first_iff ((grid1.coords t) 1)).mp h))]; exact (hf _ rfl h0).symm)
    (by
      rw [psum, dif_pos hlt, hpt]
      refine if_congr ?_ rfl rfl
      unfold cAct act lo hi tabLo tabHi
      rw [show (grid1.coords t) 0 = ⟨t.val / 49, eb_lt a t⟩ from Fin.ext (coord0 a t), hc1, ha 0, ha 1]
      exact Iff.rfl)
    rfl _)
  iframe Hp0 Hp1 H0 H1 H2 H3 Hs
  iintro ⟨Hp0, Hp1, H0, H1, H2, H3, Hs⟩
  iframe Hr Hg Hp0 Hp1 Ho H0 H1 H2
  isplitl [Hs]
  · iexists _; isplitr
    swap; · iexact Hs
    ipureintro; intro eb he hne
    rw [show eb = ⟨t.val / 49, eb_lt a t⟩ from Fin.ext (by show eb.val = t.val / 49; omega),
      show (t.val + 1) % 49 = t.val % 49 + 1 from by omega]
  · iapply (leaves3 V a c t d3 _ rfl) $$ H3

end Cert.KernelIdeal.G1
end
-- ==== Proof.KI.S2Body.lean ====
import proofs.«429835_j17746804867087_2_alg».proof.Proof.Gen.KernelIdeal.Launch
import proofs.«429835_j17746804867087_2_alg».proof.Proof.Gen.KernelIdeal.Skeleton
import proofs.«429835_j17746804867087_2_alg».proof.Proof.Lib

set_option maxRecDepth 16384

noncomputable section

namespace Cert.KernelIdeal.S2

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def cell (i : grid2.Coords) : S391.Idx :=
  (Rect.unit (s := S391) (k2_off1 i) S1.size (k2_off1_inb i)).toLoadRect.idx (Shape.Idx.first (numel1_S1.symm ▸ Nat.one_pos))

abbrev cFirst (i : grid2.Coords) : Prop :=
  Scalar.cmpi .ne (Scalar.extui (Scalar.cmpi .eq (BitVec.ofNat 32 (i 1).val) 0#32) : BitVec 32) 0#32 = 1#1

abbrev cAct (i : grid2.Coords) (wlo whi : BitVec 32) : Prop :=
  Scalar.cmpi .ne (Scalar.extui (Scalar.andi (Scalar.cmpi .sge (BitVec.ofNat 32 (i 0).val) wlo)
    (Scalar.cmpi .sle (BitVec.ofNat 32 (i 0).val) whi)) : BitVec 32) 0#32 = 1#1

abbrev Held (c : Dev nD)
    (arg2 : Memref sig .tc .smem S391 .i32) (arg3 : Memref sig .tc .smem S391 .i32)
    (arg4 : Memref sig .tc .vmem S1x2048 .i32) (arg5 : Memref sig .tc .vmem S2048x128 .bf16)
    (arg6 : Memref sig .tc .vmem S1024x128 .f32) (arg7 : Memref sig .tc .vmem S1024x128 .f32)
    (T2 T3 : Vec F S391 .i32) (x4 : Vec F S1x2048 .i32) (x5 : Vec F S2048x128 .bf16) (y6 x7 : Vec F S1024x128 .f32) : sProp 𝕄 :=
  iprop(owns (c : Thread nD τ) arg2 fullShare T2 ∗ owns (c : Thread nD τ) arg3 fullShare T3
    ∗ owns (c : Thread nD τ) arg4 fullShare x4 ∗ owns (c : Thread nD τ) arg5 fullShare x5
    ∗ owns (c : Thread nD τ) arg6 fullShare y6 ∗ owns (c : Thread nD τ) arg7 fullShare x7)

-- The running sum after the body: zeroed at a node block's first edge block, then the product added if the edge block contributes.
def scrAfter (i : grid2.Coords) (wlo whi : BitVec 32) (x4 : Vec F S1x2048 .i32) (x5 : Vec F S2048x128 .bf16)
    (x7 : Vec F S1024x128 .f32) : Vec F S1024x128 .f32 :=
  if cAct i wlo whi then k2_pay2 i x4 x5 (if cFirst i then k2_pay1 else x7) else (if cFirst i then k2_pay1 else x7)

-- The output block after the body: the positive part of the sum at the last edge block, else as found.
def outAfter (i : grid2.Coords) (s : Vec F S1024x128 .f32) (y6 : Vec F S1024x128 .f32) : Vec F S1024x128 .f32 :=
  if k2_cond3 i = 1#1 then k2_pay3 s else y6

set_option maxHeartbeats 1000000 in
-- Each conditional overwrites a whole block or leaves it, so the sum ends at scrAfter and the output block at outAfter.
theorem sound_kernel (c : Dev nD) (E : Set ℕ) (i : grid2.Coords)
    (arg2 : Memref sig .tc .smem S391 .i32) (harg2 : arg2.IsWhole) (arg3 : Memref sig .tc .smem S391 .i32) (harg3 : arg3.IsWhole)
    (arg4 : Memref sig .tc .vmem S1x2048 .i32) (harg4 : arg4.IsWhole) (arg5 : Memref sig .tc .vmem S2048x128 .bf16) (harg5 : arg5.IsWhole)
    (arg6 : Memref sig .tc .vmem S1024x128 .f32) (harg6 : arg6.IsWhole) (arg7 : Memref sig .tc .vmem S1024x128 .f32) (harg7 : arg7.IsWhole)
    (T2 T3 : Vec F S391 .i32) (x4 : Vec F S1x2048 .i32) (x5 : Vec F S2048x128 .bf16) (y6 x7 : Vec F S1024x128 .f32)
    (K : PUnit → sProp 𝕄) :
    iprop(Held c arg2 arg3 arg4 arg5 arg6 arg7 T2 T3 x4 x5 y6 x7
        ∗ (Held c arg2 arg3 arg4 arg5 arg6 arg7 T2 T3 x4 x5
              (outAfter i (scrAfter i (T2 (cell i)) (T3 (cell i)) x4 x5 x7) y6)
              (scrAfter i (T2 (cell i)) (T3 (cell i)) x4 x5 x7) -∗ K ⟨⟩))
      ⊢ wp frame (wpE (defs₀ (F := F)) Variants.none c none) E (cc2__scatter_kernel i arg2 harg2 arg3 harg3 arg4 harg4 arg5 harg5 arg6 harg6 arg7 harg7) K := by
  simp only [cc2__scatter_kernel_eq_skeleton]; unfold cc2__scatter_kernel_skel Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf2 hf3 hf4 hf5 hf6 hf7
  sl_exec
  sl_step
  iapply Hk
  isplitl [H2] <;> try (isplitl [H3] <;> try (isplitl [H4] <;> try (isplitl [H5] <;> try isplitl [H6])))
  all_goals (iexists _; isplitr; swap; iassumption; ipureintro)
  iterate 4 rfl
  all_goals
    sl_unfold_run_names
    simp only [outAfter, scrAfter, dite_eq_ite, readAt_full (S := S1x2048) _ zz2, readAt_full (S := S2048x128) _ zz2,
      readAt_full (S := S1024x128) _ zz2, read_writes_full (S := S1024x128) _ zz2,
      apply_ite (View.read (Elt F) arg6.view), apply_ite (View.read (Elt F) arg7.view)]
    rfl

end Cert.KernelIdeal.S2

end
-- ==== Proof.KI.S2Obl.lean ====
import proofs.«429835_j17746804867087_2_alg».proof.Proof.KI.S2Def
import proofs.«429835_j17746804867087_2_alg».proof.Proof.KI.S2Body

set_option maxRecDepth 16384

noncomputable section

namespace Cert.KernelIdeal.S2

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg2 (F := F)).Adm)

theorem A_eq (c : Dev nD) (w : Fin (cfg2 a).W) : (dat V a c).A w = V c (Pipeline.arrRef spec2 w) := by
  dsimp only [dat]

theorem Phi_eq (c : Dev nD) (t : Fin ((cfg2 a).N + 1)) : (dat V a c).Φ t = Phi V a c t := rfl

-- Point t is node block t / 391, edge block t % 391.
theorem coords0 (t : Fin grid2.N) : ((grid2.coords t) 0).val = (nbOf t.val).val := rfl

theorem coords1 (t : Fin grid2.N) : ((grid2.coords t) 1).val = t.val % 391 := by
  show t.val / 1 % 391 = t.val % 391
  rw [Nat.div_one]

theorem pt_self (t : Fin (cfg2 a).N) (h : t.val % 391 < 391) : pt a (nbOf t.val) (t.val % 391) h = t := by
  have hN : (cfg2 a).N = 19159 := N_2
  have ht := t.isLt
  apply Fin.ext
  show t.val / 391 % 49 * 391 + t.val % 391 = t.val
  omega

-- (t + 1) / 391 = t / 391 unless t % 391 = 390.
theorem flush2 (t : Fin (cfg2 a).N) (h : t.val % 391 ≠ 390) : ((cfg2 a).win 2).flush t = false := by
  have hN : (cfg2 a).grid.N = 19159 := N_2
  have ht := t.isLt
  rw [← Bool.not_eq_true, Window.flush_out _ rfl t]
  rintro (e | ⟨h1, hne⟩)
  · omega
  · exact hne (congrArg (fun j : Fin 49 => ![(BitVec.ofNat 32 j.val).toNat, (0#32 : BitVec 32).toNat])
      (Fin.ext (by show (t.val + 1) / 391 % 49 = t.val / 391 % 49; omega)))

theorem cell_eq (i : grid2.Coords) : cell i = ValueIdx.ix1 (i 1) := by
  funext d
  match d with
  | ⟨0, _⟩ =>
    apply Fin.ext
    show k2_off1 i 0 + 1 * 0 = (i 1).val
    rw [k2_off1_eq]; rfl

-- The comparison of point t's edge block with a constant k, read back as t % 391 = k.
theorem eb_iff (t : Fin grid2.N) {k : ℕ} (hk : k < 2 ^ 32) :
    Scalar.cmpi .ne (Scalar.extui (Scalar.cmpi .eq (BitVec.ofNat 32 ((grid2.coords t) 1).val) (BitVec.ofNat 32 k)) : BitVec 32) 0#32 = 1#1
      ↔ t.val % 391 = k := by
  rw [← coords1 t, Scalar.guard_iff, Scalar.cmpi, IntOp.cmpi_eq]
  have h391 : ((grid2.coords t) 1).val < 391 := ((grid2.coords t) 1).isLt
  constructor
  · intro e
    have := congrArg BitVec.toNat e
    simp only [BitVec.toNat_ofNat] at this
    omega
  · intro e; rw [e]

theorem first_iff (t : Fin grid2.N) : cFirst (grid2.coords t) ↔ t.val % 391 = 0 := eb_iff t (by decide)

theorem last_iff (t : Fin grid2.N) : k2_cond3 (grid2.coords t) = 1#1 ↔ t.val % 391 = 390 := eb_iff t (by decide)

def tabLo : Vec F S391 .i32 := a.1 0
def tabHi : Vec F S391 .i32 := a.1 1

-- The body's test on the two table words it loads is act at the point's node block and edge block.
theorem cAct_iff_act (c : Dev nD) (ha : ∀ k, a.1 k = V c (pre2.ref k)) (t : Fin grid2.N) (h : t.val % 391 < 391) :
    cAct (grid2.coords t) (tabLo a (cell (grid2.coords t))) (tabHi a (cell (grid2.coords t))) ↔ act V c (nbOf t.val) ⟨t.val % 391, h⟩ := by
  rw [cell_eq, show tabLo a = V c main_v44 from ha 0, show tabHi a = V c main_v47 from ha 1]
  unfold cAct act lo hi
  rw [coords0 t, show (grid2.coords t) 1 = ⟨t.val % 391, h⟩ from Fin.ext (coords1 t)]
  exact Iff.rfl

-- One step of the running sum: from the sum over the edge blocks before (anything at a first edge block) to the sum over one more.
theorem scr_step (c : Dev nD) (ha : ∀ k, a.1 k = V c (pre2.ref k)) (t : Fin (cfg2 a).N) (f : Vec F S1024x128 .f32)
    (hf : t.val % 391 ≠ 0 → f = psum V a c (nbOf t.val) (t.val % 391)) :
    scrAfter (grid2.coords t) (tabLo a (cell (grid2.coords t))) (tabHi a (cell (grid2.coords t)))
        (iblk V a c (0 : Fin 3) t) (iblk V a c (1 : Fin 3) t) f
      = psum V a c (nbOf t.val) (t.val % 391 + 1) := by
  have hlt : t.val % 391 < 391 := Nat.mod_lt _ (by decide)
  have hs0 : (if cFirst (grid2.coords t) then (k2_pay1 : Vec F S1024x128 .f32) else f)
      = psum V a c (nbOf t.val) (t.val % 391) := by
    by_cases h0 : t.val % 391 = 0
    · rw [if_pos ((first_iff t).mpr h0), h0]; rfl
    · rw [if_neg (mt (first_iff t).mp h0), hf h0]
  have hact := cAct_iff_act V a c ha t hlt
  unfold scrAfter
  rw [hs0, psum, dif_pos hlt, pt_self]
  by_cases hA : act V c (nbOf t.val) ⟨t.val % 391, hlt⟩
  · rw [if_pos hA, if_pos (hact.mpr hA)]
  · rw [if_neg hA, if_neg (mt hact.mp hA)]

theorem before_in (c : Dev nD) (t : Fin (cfg2 a).N) :
    (∀ d, (dat V a c).before (0 : Fin 3) t d = iblk V a c (0 : Fin 3) t)
      ∧ ∀ d, (dat V a c).before (1 : Fin 3) t d = iblk V a c (1 : Fin 3) t := by
  constructor <;> intro d <;>
  exact ((dat V a c).before_in_eq_fetched _ rfl (fun _ => rfl) (fun _ _ _ => rfl) (fun _ => rfl) t d).trans rfl

theorem Phi_owns (c : Dev nD) (t : Fin ((cfg2 a).N + 1)) :
    Phi V a c t = iprop((∃ f : Vec F S1024x128 .f32,
          ⌜t.val % 391 ≠ 0 → f = psum V a c (nbOf t.val) (t.val % 391)⌝ ∗ owns (c : Thread nD τ) (Memref.whole cc2_scratch0) fullShare f)
      ∗ Pipeline.scopedRestBut (Ix := Unit) (Name := ℕ) (U := UR sig nD τ) (Lvl := ℕ) (Val := Elt F) spec2 c [cc2_scratch0]
      ∗ (∃ r, prngReg c r)
      ∗ owns (c : Thread nD τ) (Memref.whole main_v44) fullShare (tabLo a)
      ∗ owns (c : Thread nD τ) (Memref.whole main_v47) fullShare (tabHi a)) := by
  unfold Phi Pipeline.prefHeld; rw [bigSep_K2]; simp only [owns_whole]; rfl

theorem hin (c : Dev nD) :
    (iprop((∃ r, prngReg c r) ∗ Pipeline.prefHeld pre2 c (fun _ => fullShare) a.1 ∗ Pipeline.scopedRest spec2 c) : sProp 𝕄)
      ⊢ (dat V a c).Φ 0 := by
  rw [Phi_eq]; unfold Phi
  rw [scopedRest2_split]
  iintro ⟨Hg, HT, ⟨%f, HS⟩, HR⟩
  iframe Hg HT HR
  iexists f; isplitr
  · ipureintro; exact fun h => absurd (Nat.zero_mod 391) h
  iexact HS

theorem hout (c : Dev nD) :
    (dat V a c).Φ (Fin.last (cfg2 a).N)
      ⊢ (iprop(((∃ r, prngReg c r) ∗ Pipeline.prefHeld pre2 c (fun _ => fullShare) a.1) ∗ Pipeline.scopedRest spec2 c) : sProp 𝕄) := by
  rw [Phi_eq]; unfold Phi
  rw [scopedRest2_split]
  iintro ⟨⟨%f, -, HS⟩, HR, Hg, HT⟩
  iframe Hg HT HR
  iexists f; iexact HS

abbrev bodyAt (t : Fin (cfg2 a).N) : Prog (TpuEff nD τ sig (Elt F) Λ₀ .tc) PUnit :=
  cc2__scatter_kernel (grid2.coords t) (Memref.whole main_v44) (Memref.isWhole_whole _) (Memref.whole main_v47) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))
    (Memref.whole cc2_scratch0) (Memref.isWhole_whole _)

def bodyPre (c : Dev nD) (t : Fin (cfg2 a).N) : sProp 𝕄 :=
  iprop(Phi V a c t.castSucc ∗ (dat V a c).owesAt () t.castSucc
    ∗ (∃ d, owns (c : Thread nD τ) (spec2_0.stage ((cfg2 a).slots t 0)) fullShare ((dat V a c).before (0 : Fin 3) t d))
    ∗ (∃ d, owns (c : Thread nD τ) (spec2_1.stage ((cfg2 a).slots t 1)) fullShare ((dat V a c).before (1 : Fin 3) t d))
    ∗ (∃ d, owns (c : Thread nD τ) (spec2_2.stage ((cfg2 a).slots t 2)) fullShare ((dat V a c).before (2 : Fin 3) t d)))

def bodyPost (c : Dev nD) (t : Fin (cfg2 a).N) : sProp 𝕄 :=
  iprop(Phi V a c t.succ ∗ (dat V a c).owesAt () t.castSucc
    ∗ owns (c : Thread nD τ) (spec2_0.stage ((cfg2 a).slots t 0)) fullShare (iblk V a c (0 : Fin 3) t)
    ∗ owns (c : Thread nD τ) (spec2_1.stage ((cfg2 a).slots t 1)) fullShare (iblk V a c (1 : Fin 3) t)
    ∗ (dat V a c).leavesExact (2 : Fin 3) t)

theorem idle2_eq (t : Fin (cfg2 a).N) : (cfg2 a).idle 2 ((cfg2 a).grid.coords t) = !(decide (t.val % 391 = 390)) :=
  congrArg not (decide_eq_decide.mpr (last_iff t))

-- At t % 391 = 390 the sum is the node block's full sum, whose positive part is the output block; elsewhere the block is as found.
theorem leaves2 (c : Dev nD) (t : Fin (cfg2 a).N) (d) :
    owns (c : Thread nD τ) (spec2_2.stage ((cfg2 a).slots t 2)) fullShare
        (outAfter (grid2.coords t) (psum V a c (nbOf t.val) (t.val % 391 + 1)) ((dat V a c).before (2 : Fin 3) t d))
      ⊢ (dat V a c).leavesExact (2 : Fin 3) t := by
  unfold outAfter
  by_cases hL : t.val % 391 = 390
  · rw [if_pos ((last_iff t).mpr hL), hL, show (dat V a c).leavesExact (2 : Fin 3) t
        = owns (c : Thread nD τ) (spec2_2.stage ((cfg2 a).slots t 2)) fullShare (k2_pay3 (psum V a c (nbOf t.val) 391)) from by
      unfold Dat.leavesExact; rw [idle2_eq]; simp only [hL, decide_true, Bool.not_true]; rfl]
  · rw [if_neg (mt (last_iff t).mp hL), Dat.leavesExact_idle (dat V a c) (2 : Fin 3) t
      (by rw [idle2_eq]; simp only [hL, decide_false, Bool.not_false]) (flush2 a t hL)]
    iintro H; iexists d; iexact H

set_option maxHeartbeats 1000000 in
theorem sound_body (c : Dev nD) (ha : ∀ k, a.1 k = V c (pre2.ref k)) (t : Fin (cfg2 a).N) :
    bodyPre V a c t ⊢ wp frame (wpE (defs₀ (F := F)) Variants.none c none) Set.univ (bodyAt a t) (fun _ => bodyPost V a c t) := by
  unfold bodyPre bodyPost bodyAt
  simp only [(before_in V a c t).1, (before_in V a c t).2]
  rw [Phi_owns, Phi_owns]
  simp only [Fin.coe_castSucc, Fin.val_succ]
  have hN : (cfg2 a).N = 19159 := N_2
  have ht := t.isLt
  iintro ⟨⟨⟨%f, %hf, HS⟩, HR, Hg, HL, HH⟩, Ho, ⟨%d0, H0⟩, ⟨%d1, H1⟩, ⟨%d2, H2⟩⟩
  iapply (sound_kernel c Set.univ (grid2.coords t) _ _ _ _ _ _ _ _ _ _ _ _ (tabLo a) (tabHi a)
    (iblk V a c (0 : Fin 3) t) (iblk V a c (1 : Fin 3) t) ((dat V a c).before (2 : Fin 3) t d2) f _)
  unfold Held
  iframe HL HH H0 H1 H2 HS
  iintro ⟨HL, HH, H0, H1, H2, HS⟩
  rw [scr_step V a c ha t f hf]
  iframe HR Hg HL HH Ho H0 H1
  isplitl [HS]
  · iexists _; isplitr; swap; · iexact HS
    ipureintro; intro hne
    rw [show (t.val + 1) % 391 = t.val % 391 + 1 from by omega,
      show nbOf (t.val + 1) = nbOf t.val from Fin.ext (by show (t.val + 1) / 391 % 49 = t.val / 391 % 49; omega)]
  iapply (leaves2 V a c t d2)
  iexact H2

theorem body_obligation (c : Dev nD) (ha : ∀ k, a.1 k = V c (pre2.ref k)) :
    BodyObligation (dat V a c) (defs₀ (F := F)) Variants.none () Set.univ := fun t => by
  rw [bigSep_W2, bigSep_W2]
  exact sound_body V a c ha t

end Cert.KernelIdeal.S2

end
-- ==== Proof.KI.G4Body.lean ====
import proofs.«429835_j17746804867087_2_alg».proof.Proof.Gen.KernelIdeal.Launch
import proofs.«429835_j17746804867087_2_alg».proof.Proof.Gen.KernelIdeal.Skeleton
import proofs.«429835_j17746804867087_2_alg».proof.Proof.Lib
import Idealize.ShloMosaic.Lib.Pipeline.TableIdle
import Idealize.ShloMosaic.Lib.WholeRead

noncomputable section

namespace Cert.KernelIdeal.G4

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem owns_unread {sp : Space} {S : Shape} {e : EltTy} (c : Dev nD) {m : Memref sig .tc sp S e} (h : m.IsWhole)
    (q : PosShare TreeShare) (X : S.Idx → Elt F e) :
    (owns (c : Thread nD τ) m q X : sProp 𝕄) = (m.view.loc (c : Thread nD τ) ↦[m.view.set]{q} h.unread X) := by
  rw [owns_eq_rep, h.eq_unread (View.read_rep _ _)]

-- The word of n is k, as the kernel tests it.
abbrev cEq (k : BitVec 32) (n : Fin 49) : Prop :=
  Scalar.cmpi .ne ((Scalar.extui (Scalar.cmpi .eq (BitVec.ofNat 32 n.val) k)) : BitVec 32) 0#32 = 1#1

-- The two table words admit the node block: wlo ≤ nb ≤ whi, signed.
abbrev cAct (i : grid4.Coords) (wlo whi : BitVec 32) : Prop :=
  Scalar.cmpi .ne ((Scalar.extui (Scalar.andi (Scalar.cmpi .sge (BitVec.ofNat 32 (i 1).val) wlo)
    (Scalar.cmpi .sle (BitVec.ofNat 32 (i 1).val) whi))) : BitVec 32) 0#32 = 1#1

-- The word loaded at the edge block's offset is the table's entry at the edge block.
theorem word_eq (i : grid4.Coords) (arg : Memref sig .tc .smem S391 .i32) (harg : arg.IsWhole) (T : Vec F S391 .i32) :
    View.readAt (Elt F) arg.view (Rect.unit (s := S391) (k4_off1 i) S1.size (k4_off1_inb i)).toLoadRect (harg.unread T)
      (Shape.Idx.first (numel1_S1.symm ▸ Nat.one_pos)) = T (ValueIdx.ix1 (n := 391) (i 0)) := by
  rw [harg.readAt_unread]
  congr 1; funext a; apply Fin.ext
  show k4_off1 i a + 1 * 0 = _
  rw [k4_off1_eq i]
  match a with | ⟨0, _⟩ => rfl

-- s₀ is f reset at the first node block, s adds the block's product when admitted, o is the cast of s at the last node block, else y.
theorem sound_kernel (c : Dev nD) (E : Set ℕ) (i : grid4.Coords)
    (arg2 : Memref sig .tc .smem S391 .i32) (harg2 : arg2.IsWhole) (arg3 : Memref sig .tc .smem S391 .i32) (harg3 : arg3.IsWhole)
    (arg4 : Memref sig .tc .vmem S1x2048 .i32) (harg4 : arg4.IsWhole) (arg5 : Memref sig .tc .vmem S1x2048 .f32) (harg5 : arg5.IsWhole)
    (arg6 : Memref sig .tc .vmem S1024x128 .f32) (harg6 : arg6.IsWhole) (arg7 : Memref sig .tc .vmem S2048x128 .bf16) (harg7 : arg7.IsWhole)
    (arg8 : Memref sig .tc .vmem S2048x128 .f32) (harg8 : arg8.IsWhole)
    (Tlo Thi : Vec F S391 .i32) (x4 : Vec F S1x2048 .i32) (x5 : Vec F S1x2048 .f32) (x6 : Vec F S1024x128 .f32)
    (y o : Vec F S2048x128 .bf16) (f s₀ s : Vec F S2048x128 .f32)
    (h₀ : s₀ = if cEq 0#32 (i 1) then k4_pay1 else f)
    (hs : s = if cAct i (Tlo (ValueIdx.ix1 (n := 391) (i 0))) (Thi (ValueIdx.ix1 (n := 391) (i 0))) then k4_pay2 i x4 x5 x6 s₀ else s₀)
    (ho : o = if k4_cond3 i = 1#1 then k4_pay3 s else y)
    (K : PUnit → sProp 𝕄) :
    iprop(owns (c : Thread nD τ) arg2 fullShare Tlo ∗ owns (c : Thread nD τ) arg3 fullShare Thi
        ∗ owns (c : Thread nD τ) arg4 fullShare x4 ∗ owns (c : Thread nD τ) arg5 fullShare x5 ∗ owns (c : Thread nD τ) arg6 fullShare x6
        ∗ owns (c : Thread nD τ) arg7 fullShare y ∗ owns (c : Thread nD τ) arg8 fullShare f
        ∗ (iprop(owns (c : Thread nD τ) arg2 fullShare Tlo ∗ owns (c : Thread nD τ) arg3 fullShare Thi
            ∗ owns (c : Thread nD τ) arg4 fullShare x4 ∗ owns (c : Thread nD τ) arg5 fullShare x5 ∗ owns (c : Thread nD τ) arg6 fullShare x6
            ∗ owns (c : Thread nD τ) arg7 fullShare o ∗ owns (c : Thread nD τ) arg8 fullShare s) -∗ K ⟨⟩))
      ⊢ wp frame (wpE (defs₀ (F := F)) Variants.none c none) E (cc4__gather_kernel i arg2 harg2 arg3 harg3 arg4 harg4 arg5 harg5 arg6 harg6 arg7 harg7 arg8 harg8) K := by
  subst ho hs h₀
  simp only [cc4__gather_kernel_eq_skeleton]; unfold cc4__gather_kernel_skel
  simp only [owns_unread c harg2, owns_unread c harg3, owns_unread c harg4, owns_unread c harg5, owns_unread c harg6]
  rw [owns_unread c harg7 _ y, owns_unread c harg8 _ f]
  iintro ⟨H2, H3, H4, H5, H6, H7, H8, Hk⟩
  sl_exec
  sl_step
  sl_unfold_run_names
  ihave O7 := (owns_intro (c : Thread nD τ) arg7 fullShare _) $$ H7
  ihave O8 := (owns_intro (c : Thread nD τ) arg8 fullShare _) $$ H8
  unfold cEq cAct
  simp only [word_eq i arg2 harg2 Tlo, word_eq i arg3 harg3 Thi, readAt_full arg4.view zz2, readAt_full arg5.view zz2, readAt_full arg6.view zz2, readAt_full arg8.view zz2,
    read_writes_full arg8.view zz2, read_writes_full arg7.view zz2, dite_eq_ite, apply_ite (View.read (Elt F) arg8.view),
    apply_ite (View.read (Elt F) arg7.view), harg4.read_unread, harg5.read_unread, harg6.read_unread, harg7.read_unread,
    harg8.read_unread]
  iapply Hk
  iframe

end Cert.KernelIdeal.G4
end
-- ==== Proof.KI.G4Obl.lean ====
import proofs.«429835_j17746804867087_2_alg».proof.Proof.KI.G4Def
import proofs.«429835_j17746804867087_2_alg».proof.Proof.KI.G4Body

noncomputable section

namespace Cert.KernelIdeal.G4

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg4 (F := F)).Adm)

theorem A_eq (c : Dev nD) (w : Fin (cfg4 a).W) : (dat V a c).A w = V c (Pipeline.arrRef spec4 w) := by
  dsimp only [dat]

theorem coord0 (t : Fin (cfg4 a).N) : ((grid4.coords t) 0).val = t.val / 49 := by
  have h : t.val < 19159 := lt_of_lt_of_eq t.isLt (N_eq a)
  show t.val / 49 % 391 = _
  omega

theorem coord1 (t : Fin (cfg4 a).N) : ((grid4.coords t) 1).val = t.val % 49 := by
  show t.val / 1 % 49 = _
  omega

theorem cond3_iff : ∀ n : Fin 49, cEq 48#32 n ↔ n.val = 48 := by decide

theorem first_iff : ∀ n : Fin 49, cEq 0#32 n ↔ n.val = 0 := by decide

-- (t + 1) / 49 = t / 49 unless t % 49 = 48.
theorem flush3 (t : Fin (cfg4 a).N) (h48 : t.val % 49 ≠ 48) : ((cfg4 a).win 3).flush t = false := by
  have hN : (cfg4 a).grid.N = 19159 := N_eq a
  have ht : t.val < 19159 := lt_of_lt_of_eq t.isLt (N_eq a)
  rw [← Bool.not_eq_true, Window.flush_out _ rfl t]
  rintro (h | ⟨h, hne⟩)
  · omega
  · refine hne (hreads4_3 (grid4.coords ⟨t.val + 1, h⟩) (grid4.coords t) fun ax hr => ?_)
    match ax with
    | ⟨0, _⟩ => exact Fin.ext ((coord0 a ⟨t.val + 1, h⟩).trans ((show (t.val + 1) / 49 = t.val / 49 by omega).trans (coord0 a t).symm))
    | ⟨1, _⟩ => exact absurd hr Bool.false_ne_true

theorem hin (c : Dev nD) :
    (iprop((∃ r, prngReg c r) ∗ Pipeline.prefHeld (Ix := Unit) (Name := ℕ) (U := UR sig nD τ) (Lvl := ℕ) pre4 c (fun _ => fullShare) a.1
      ∗ Pipeline.scopedRest (Ix := Unit) (Name := ℕ) (U := UR sig nD τ) (Lvl := ℕ) (Val := Elt F) spec4 c) : sProp 𝕄)
      ⊢ (dat V a c).Φ 0 := by
  rw [scopedRest4_split]
  dsimp only [dat]
  simp only [scM, owns_whole]
  iintro ⟨Hg, Hp, ⟨%f, Hs⟩, Hr⟩
  iframe Hr Hg Hp
  iexists f; isplitr
  · ipureintro; intro eb _ h; exact absurd rfl h
  · iexact Hs

theorem hout (c : Dev nD) :
    (dat V a c).Φ (Fin.last (cfg4 a).N)
      ⊢ (iprop(((∃ r, prngReg c r) ∗ Pipeline.prefHeld (Ix := Unit) (Name := ℕ) (U := UR sig nD τ) (Lvl := ℕ) pre4 c (fun _ => fullShare) a.1)
        ∗ Pipeline.scopedRest (Ix := Unit) (Name := ℕ) (U := UR sig nD τ) (Lvl := ℕ) (Val := Elt F) spec4 c) : sProp 𝕄) := by
  rw [scopedRest4_split]
  dsimp only [dat]
  simp only [scM, owns_whole]
  iintro ⟨⟨%f, -, Hs⟩, Hr, Hg, Hp⟩
  iframe Hr Hg Hp
  iexists f; iexact Hs

theorem before_0 (c : Dev nD) (t : Fin (cfg4 a).N) (d) : (dat V a c).before 0 t d = iblk V a c 0 t :=
  ((dat V a c).before_in_eq_fetched 0 rfl (fun _ => rfl) (fun _ _ _ => rfl) (fun _ => rfl) t d).trans rfl
theorem before_1 (c : Dev nD) (t : Fin (cfg4 a).N) (d) : (dat V a c).before 1 t d = iblk V a c 1 t :=
  ((dat V a c).before_in_eq_fetched 1 rfl (fun _ => rfl) (fun _ _ _ => rfl) (fun _ => rfl) t d).trans rfl
theorem before_2 (c : Dev nD) (t : Fin (cfg4 a).N) (d) : (dat V a c).before 2 t d = iblk V a c 2 t :=
  ((dat V a c).before_in_eq_fetched 2 rfl (fun _ => rfl) (fun _ _ _ => rfl) (fun _ => rfl) t d).trans rfl

abbrev st3 (t : Fin (cfg4 a).N) := spec4_3.stage ((cfg4 a).slots t 3)

abbrev tLo : Memref sig .tc .smem S391 .i32 := Memref.whole main_v37
abbrev tHi : Memref sig .tc .smem S391 .i32 := Memref.whole main_v40

def tabLo : Vec F S391 .i32 := a.1 0
def tabHi : Vec F S391 .i32 := a.1 1

theorem Phi_eq (c : Dev nD) (t : Fin ((cfg4 a).N + 1)) :
    (dat V a c).Φ t = (iprop((∃ f : Vec F S2048x128 .f32,
        ⌜∀ eb : Fin 391, eb.val = t.val / 49 → t.val % 49 ≠ 0 → f = psum V a c eb (t.val % 49)⌝
          ∗ owns (c : Thread nD τ) scM fullShare f)
      ∗ Pipeline.scopedRestBut (Ix := Unit) (Name := ℕ) (U := UR sig nD τ) (Lvl := ℕ) (Val := Elt F) spec4 c [cc4_scratch0]
      ∗ (∃ r, prngReg c r)
      ∗ owns (c : Thread nD τ) tLo fullShare (tabLo a) ∗ owns (c : Thread nD τ) tHi fullShare (tabHi a)) : sProp 𝕄) := by
  dsimp only [dat]
  unfold Pipeline.prefHeld
  rw [bigSep_K2, ← owns_whole (c : Thread nD τ) (pre4.ref 0) fullShare (a.1 0),
    ← owns_whole (c : Thread nD τ) (pre4.ref 1) fullShare (a.1 1)]
  rfl

-- o is the cast of the full sum when t % 49 = 48 and what was found otherwise.
theorem leaves3 (c : Dev nD) (t : Fin (cfg4 a).N) (d) (o : Vec F S2048x128 .bf16)
    (ho : o = if k4_cond3 (grid4.coords t) = 1#1 then k4_pay3 (psum V a c ⟨t.val / 49, eb_lt a t⟩ (t.val % 49 + 1))
      else (dat V a c).before 3 t d) :
    owns (c : Thread nD τ) (st3 a t) fullShare o ⊢ (dat V a c).leavesExact 3 t := by
  have hi : (cfg4 a).idle 3 ((cfg4 a).grid.coords t) = !(k4_cond3 (grid4.coords t) == 1#1) := rfl
  by_cases h48 : t.val % 49 = 48
  · have hc3 : k4_cond3 (grid4.coords t) = 1#1 := (cond3_iff ((grid4.coords t) 1)).mpr ((coord1 a t).trans h48)
    obtain rfl := ho.trans (if_pos hc3)
    rw [hc3] at hi
    unfold Dat.leavesExact
    rw [h48, hi]
    exact .rfl
  · have hc3 : ¬ k4_cond3 (grid4.coords t) = 1#1 := fun h => h48 ((coord1 a t).symm.trans ((cond3_iff ((grid4.coords t) 1)).mp h))
    obtain rfl := ho.trans (if_neg hc3)
    rw [Dat.leavesExact_idle _ 3 t (by rw [hi, Bool.not_eq_true', beq_eq_false_iff_ne]; exact hc3) (flush3 a t h48)]
    iintro H; iexists d; iexact H

theorem body_obligation (c : Dev nD) (ha : ∀ k, a.1 k = V c (pre4.ref k)) :
    BodyObligation (dat (F := F) V a c) (defs₀ (F := F)) Variants.none () Set.univ := fun t => by
  have hlt : t.val % 49 < 49 := Nat.mod_lt _ (by decide)
  have htN : t.val < 19159 := lt_of_lt_of_eq t.isLt (N_eq a)
  have hc1 := coord1 a t
  have hpt : pt a ⟨t.val / 49, eb_lt a t⟩ ⟨t.val % 49, hlt⟩ = t :=
    Fin.ext (by show 49 * (t.val / 49) + t.val % 49 = t.val; omega)
  rw [bigSep_W4, bigSep_W4]
  show iprop((dat V a c).Φ t.castSucc ∗ (dat V a c).owesAt () t.castSucc
      ∗ (∃ d, owns (c : Thread nD τ) (spec4_0.stage ((cfg4 a).slots t 0)) fullShare ((dat V a c).before 0 t d))
      ∗ (∃ d, owns (c : Thread nD τ) (spec4_1.stage ((cfg4 a).slots t 1)) fullShare ((dat V a c).before 1 t d))
      ∗ (∃ d, owns (c : Thread nD τ) (spec4_2.stage ((cfg4 a).slots t 2)) fullShare ((dat V a c).before 2 t d))
      ∗ (∃ d, owns (c : Thread nD τ) (st3 a t) fullShare ((dat V a c).before 3 t d)))
    ⊢ wp frame (wpE (defs₀ (F := F)) Variants.none c none) Set.univ
      (cc4__gather_kernel (grid4.coords t) tLo (Memref.isWhole_whole _) tHi (Memref.isWhole_whole _)
        (spec4_0.stage ((cfg4 a).slots t 0)) (hstage4_0 (((cfg4 a).slots t 0).cast nbuf4_0))
        (spec4_1.stage ((cfg4 a).slots t 1)) (hstage4_1 (((cfg4 a).slots t 1).cast nbuf4_1))
        (spec4_2.stage ((cfg4 a).slots t 2)) (hstage4_2 (((cfg4 a).slots t 2).cast nbuf4_2))
        (st3 a t) (hstage4_3 (((cfg4 a).slots t 3).cast nbuf4_3)) scM (Memref.isWhole_whole _))
      fun _ => iprop((dat V a c).Φ t.succ ∗ (dat V a c).owesAt () t.castSucc
        ∗ owns (c : Thread nD τ) (spec4_0.stage ((cfg4 a).slots t 0)) fullShare (iblk V a c 0 t)
        ∗ owns (c : Thread nD τ) (spec4_1.stage ((cfg4 a).slots t 1)) fullShare (iblk V a c 1 t)
        ∗ owns (c : Thread nD τ) (spec4_2.stage ((cfg4 a).slots t 2)) fullShare (iblk V a c 2 t)
        ∗ (dat V a c).leavesExact 3 t)
  simp only [before_0, before_1, before_2]
  rw [Phi_eq, Phi_eq]
  simp only [Fin.coe_castSucc, Fin.val_succ]
  iintro ⟨⟨⟨%f, %hf, Hs⟩, Hr, Hg, Hp0, Hp1⟩, Ho, ⟨%d0, H0⟩, ⟨%d1, H1⟩, ⟨%d2, H2⟩, ⟨%d3, H3⟩⟩
  iapply (sound_kernel c Set.univ (grid4.coords t) _ _ _ _ _ _ _ _ _ _ _ _ _ _ (tabLo a) (tabHi a)
    (iblk V a c 0 t) (iblk V a c 1 t) (iblk V a c 2 t) ((dat V a c).before 3 t d3) _ f
    (psum V a c ⟨t.val / 49, eb_lt a t⟩ (t.val % 49)) (psum V a c ⟨t.val / 49, eb_lt a t⟩ (t.val % 49 + 1))
    (by
      by_cases h0 : t.val % 49 = 0
      · rw [if_pos ((first_iff ((grid4.coords t) 1)).mpr (hc1.trans h0)), h0]; rfl
      · rw [if_neg fun h => h0 (hc1.symm.trans ((first_iff ((grid4.coords t) 1)).mp h))]; exact (hf _ rfl h0).symm)
    (by
      rw [psum, dif_pos hlt, hpt]
      refine if_congr ?_ rfl rfl
      unfold cAct act lo hi tabLo tabHi
      rw [show (grid4.coords t) 0 = ⟨t.val / 49, eb_lt a t⟩ from Fin.ext (coord0 a t), hc1, ha 0, ha 1]
      exact Iff.rfl)
    rfl _)
  iframe Hp0 Hp1 H0 H1 H2 H3 Hs
  iintro ⟨Hp0, Hp1, H0, H1, H2, H3, Hs⟩
  iframe Hr Hg Hp0 Hp1 Ho H0 H1 H2
  isplitl [Hs]
  · iexists _; isplitr
    swap; · iexact Hs
    ipureintro; intro eb he hne
    rw [show eb = ⟨t.val / 49, eb_lt a t⟩ from Fin.ext (by show eb.val = t.val / 49; omega),
      show (t.val + 1) % 49 = t.val % 49 + 1 from by omega]
  · iapply (leaves3 V a c t d3 _ rfl) $$ H3

end Cert.KernelIdeal.G4
end
-- ==== Proof.KI.S5Body.lean ====
import proofs.«429835_j17746804867087_2_alg».proof.Proof.Gen.KernelIdeal.Launch
import proofs.«429835_j17746804867087_2_alg».proof.Proof.Gen.KernelIdeal.Skeleton
import proofs.«429835_j17746804867087_2_alg».proof.Proof.Lib

set_option maxRecDepth 16384

noncomputable section

namespace Cert.KernelIdeal.S5

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def cell (i : grid5.Coords) : S391.Idx :=
  (Rect.unit (s := S391) (k5_off1 i) S1.size (k5_off1_inb i)).toLoadRect.idx (Shape.Idx.first (numel1_S1.symm ▸ Nat.one_pos))

abbrev cFirst (i : grid5.Coords) : Prop :=
  Scalar.cmpi .ne (Scalar.extui (Scalar.cmpi .eq (BitVec.ofNat 32 (i 1).val) 0#32) : BitVec 32) 0#32 = 1#1

abbrev cAct (i : grid5.Coords) (wlo whi : BitVec 32) : Prop :=
  Scalar.cmpi .ne (Scalar.extui (Scalar.andi (Scalar.cmpi .sge (BitVec.ofNat 32 (i 0).val) wlo)
    (Scalar.cmpi .sle (BitVec.ofNat 32 (i 0).val) whi)) : BitVec 32) 0#32 = 1#1

abbrev Held (c : Dev nD)
    (arg2 : Memref sig .tc .smem S391 .i32) (arg3 : Memref sig .tc .smem S391 .i32)
    (arg4 : Memref sig .tc .vmem S1x2048 .i32) (arg5 : Memref sig .tc .vmem S2048x128 .bf16)
    (arg6 : Memref sig .tc .vmem S1024x128 .f32) (arg7 : Memref sig .tc .vmem S1024x128 .f32)
    (T2 T3 : Vec F S391 .i32) (x4 : Vec F S1x2048 .i32) (x5 : Vec F S2048x128 .bf16) (y6 x7 : Vec F S1024x128 .f32) : sProp 𝕄 :=
  iprop(owns (c : Thread nD τ) arg2 fullShare T2 ∗ owns (c : Thread nD τ) arg3 fullShare T3
    ∗ owns (c : Thread nD τ) arg4 fullShare x4 ∗ owns (c : Thread nD τ) arg5 fullShare x5
    ∗ owns (c : Thread nD τ) arg6 fullShare y6 ∗ owns (c : Thread nD τ) arg7 fullShare x7)

-- The running sum after the body: zeroed at a node block's first edge block, then the product added if the edge block contributes.
def scrAfter (i : grid5.Coords) (wlo whi : BitVec 32) (x4 : Vec F S1x2048 .i32) (x5 : Vec F S2048x128 .bf16)
    (x7 : Vec F S1024x128 .f32) : Vec F S1024x128 .f32 :=
  if cAct i wlo whi then k5_pay2 i x4 x5 (if cFirst i then k5_pay1 else x7) else (if cFirst i then k5_pay1 else x7)

-- The output block after the body: the positive part of the sum at the last edge block, else as found.
def outAfter (i : grid5.Coords) (s : Vec F S1024x128 .f32) (y6 : Vec F S1024x128 .f32) : Vec F S1024x128 .f32 :=
  if k5_cond3 i = 1#1 then k5_pay3 s else y6

set_option maxHeartbeats 1000000 in
-- Each conditional overwrites a whole block or leaves it, so the sum ends at scrAfter and the output block at outAfter.
theorem sound_kernel (c : Dev nD) (E : Set ℕ) (i : grid5.Coords)
    (arg2 : Memref sig .tc .smem S391 .i32) (harg2 : arg2.IsWhole) (arg3 : Memref sig .tc .smem S391 .i32) (harg3 : arg3.IsWhole)
    (arg4 : Memref sig .tc .vmem S1x2048 .i32) (harg4 : arg4.IsWhole) (arg5 : Memref sig .tc .vmem S2048x128 .bf16) (harg5 : arg5.IsWhole)
    (arg6 : Memref sig .tc .vmem S1024x128 .f32) (harg6 : arg6.IsWhole) (arg7 : Memref sig .tc .vmem S1024x128 .f32) (harg7 : arg7.IsWhole)
    (T2 T3 : Vec F S391 .i32) (x4 : Vec F S1x2048 .i32) (x5 : Vec F S2048x128 .bf16) (y6 x7 : Vec F S1024x128 .f32)
    (K : PUnit → sProp 𝕄) :
    iprop(Held c arg2 arg3 arg4 arg5 arg6 arg7 T2 T3 x4 x5 y6 x7
        ∗ (Held c arg2 arg3 arg4 arg5 arg6 arg7 T2 T3 x4 x5
              (outAfter i (scrAfter i (T2 (cell i)) (T3 (cell i)) x4 x5 x7) y6)
              (scrAfter i (T2 (cell i)) (T3 (cell i)) x4 x5 x7) -∗ K ⟨⟩))
      ⊢ wp frame (wpE (defs₀ (F := F)) Variants.none c none) E (cc5__scatter_kernel i arg2 harg2 arg3 harg3 arg4 harg4 arg5 harg5 arg6 harg6 arg7 harg7) K := by
  simp only [cc5__scatter_kernel_eq_skeleton]; unfold cc5__scatter_kernel_skel Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf2 hf3 hf4 hf5 hf6 hf7
  sl_exec
  sl_step
  iapply Hk
  isplitl [H2] <;> try (isplitl [H3] <;> try (isplitl [H4] <;> try (isplitl [H5] <;> try isplitl [H6])))
  all_goals (iexists _; isplitr; swap; iassumption; ipureintro)
  iterate 4 rfl
  all_goals
    sl_unfold_run_names
    simp only [outAfter, scrAfter, dite_eq_ite, readAt_full (S := S1x2048) _ zz2, readAt_full (S := S2048x128) _ zz2,
      readAt_full (S := S1024x128) _ zz2, read_writes_full (S := S1024x128) _ zz2,
      apply_ite (View.read (Elt F) arg6.view), apply_ite (View.read (Elt F) arg7.view)]
    rfl

end Cert.KernelIdeal.S5

end
-- ==== Proof.KI.S5Obl.lean ====
import proofs.«429835_j17746804867087_2_alg».proof.Proof.KI.S5Def
import proofs.«429835_j17746804867087_2_alg».proof.Proof.KI.S5Body

set_option maxRecDepth 16384

noncomputable section

namespace Cert.KernelIdeal.S5

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg5 (F := F)).Adm)

theorem A_eq (c : Dev nD) (w : Fin (cfg5 a).W) : (dat V a c).A w = V c (Pipeline.arrRef spec5 w) := by
  dsimp only [dat]

theorem Phi_eq (c : Dev nD) (t : Fin ((cfg5 a).N + 1)) : (dat V a c).Φ t = Phi V a c t := rfl

-- Point t is node block t / 391, edge block t % 391.
theorem coords0 (t : Fin grid5.N) : ((grid5.coords t) 0).val = (nbOf t.val).val := rfl

theorem coords1 (t : Fin grid5.N) : ((grid5.coords t) 1).val = t.val % 391 := by
  show t.val / 1 % 391 = t.val % 391
  rw [Nat.div_one]

theorem pt_self (t : Fin (cfg5 a).N) (h : t.val % 391 < 391) : pt a (nbOf t.val) (t.val % 391) h = t := by
  have hN : (cfg5 a).N = 19159 := N_5
  have ht := t.isLt
  apply Fin.ext
  show t.val / 391 % 49 * 391 + t.val % 391 = t.val
  omega

-- (t + 1) / 391 = t / 391 unless t % 391 = 390.
theorem flush2 (t : Fin (cfg5 a).N) (h : t.val % 391 ≠ 390) : ((cfg5 a).win 2).flush t = false := by
  have hN : (cfg5 a).grid.N = 19159 := N_5
  have ht := t.isLt
  rw [← Bool.not_eq_true, Window.flush_out _ rfl t]
  rintro (e | ⟨h1, hne⟩)
  · omega
  · exact hne (congrArg (fun j : Fin 49 => ![(BitVec.ofNat 32 j.val).toNat, (0#32 : BitVec 32).toNat])
      (Fin.ext (by show (t.val + 1) / 391 % 49 = t.val / 391 % 49; omega)))

theorem cell_eq (i : grid5.Coords) : cell i = ValueIdx.ix1 (i 1) := by
  funext d
  match d with
  | ⟨0, _⟩ =>
    apply Fin.ext
    show k5_off1 i 0 + 1 * 0 = (i 1).val
    rw [k5_off1_eq]; rfl

-- The comparison of point t's edge block with a constant k, read back as t % 391 = k.
theorem eb_iff (t : Fin grid5.N) {k : ℕ} (hk : k < 2 ^ 32) :
    Scalar.cmpi .ne (Scalar.extui (Scalar.cmpi .eq (BitVec.ofNat 32 ((grid5.coords t) 1).val) (BitVec.ofNat 32 k)) : BitVec 32) 0#32 = 1#1
      ↔ t.val % 391 = k := by
  rw [← coords1 t, Scalar.guard_iff, Scalar.cmpi, IntOp.cmpi_eq]
  have h391 : ((grid5.coords t) 1).val < 391 := ((grid5.coords t) 1).isLt
  constructor
  · intro e
    have := congrArg BitVec.toNat e
    simp only [BitVec.toNat_ofNat] at this
    omega
  · intro e; rw [e]

theorem first_iff (t : Fin grid5.N) : cFirst (grid5.coords t) ↔ t.val % 391 = 0 := eb_iff t (by decide)

theorem last_iff (t : Fin grid5.N) : k5_cond3 (grid5.coords t) = 1#1 ↔ t.val % 391 = 390 := eb_iff t (by decide)

def tabLo : Vec F S391 .i32 := a.1 0
def tabHi : Vec F S391 .i32 := a.1 1

-- The body's test on the two table words it loads is act at the point's node block and edge block.
theorem cAct_iff_act (c : Dev nD) (ha : ∀ k, a.1 k = V c (pre5.ref k)) (t : Fin grid5.N) (h : t.val % 391 < 391) :
    cAct (grid5.coords t) (tabLo a (cell (grid5.coords t))) (tabHi a (cell (grid5.coords t))) ↔ act V c (nbOf t.val) ⟨t.val % 391, h⟩ := by
  rw [cell_eq, show tabLo a = V c main_v44 from ha 0, show tabHi a = V c main_v47 from ha 1]
  unfold cAct act lo hi
  rw [coords0 t, show (grid5.coords t) 1 = ⟨t.val % 391, h⟩ from Fin.ext (coords1 t)]
  exact Iff.rfl

-- One step of the running sum: from the sum over the edge blocks before (anything at a first edge block) to the sum over one more.
theorem scr_step (c : Dev nD) (ha : ∀ k, a.1 k = V c (pre5.ref k)) (t : Fin (cfg5 a).N) (f : Vec F S1024x128 .f32)
    (hf : t.val % 391 ≠ 0 → f = psum V a c (nbOf t.val) (t.val % 391)) :
    scrAfter (grid5.coords t) (tabLo a (cell (grid5.coords t))) (tabHi a (cell (grid5.coords t)))
        (iblk V a c (0 : Fin 3) t) (iblk V a c (1 : Fin 3) t) f
      = psum V a c (nbOf t.val) (t.val % 391 + 1) := by
  have hlt : t.val % 391 < 391 := Nat.mod_lt _ (by decide)
  have hs0 : (if cFirst (grid5.coords t) then (k5_pay1 : Vec F S1024x128 .f32) else f)
      = psum V a c (nbOf t.val) (t.val % 391) := by
    by_cases h0 : t.val % 391 = 0
    · rw [if_pos ((first_iff t).mpr h0), h0]; rfl
    · rw [if_neg (mt (first_iff t).mp h0), hf h0]
  have hact := cAct_iff_act V a c ha t hlt
  unfold scrAfter
  rw [hs0, psum, dif_pos hlt, pt_self]
  by_cases hA : act V c (nbOf t.val) ⟨t.val % 391, hlt⟩
  · rw [if_pos hA, if_pos (hact.mpr hA)]
  · rw [if_neg hA, if_neg (mt hact.mp hA)]

theorem before_in (c : Dev nD) (t : Fin (cfg5 a).N) :
    (∀ d, (dat V a c).before (0 : Fin 3) t d = iblk V a c (0 : Fin 3) t)
      ∧ ∀ d, (dat V a c).before (1 : Fin 3) t d = iblk V a c (1 : Fin 3) t := by
  constructor <;> intro d <;>
  exact ((dat V a c).before_in_eq_fetched _ rfl (fun _ => rfl) (fun _ _ _ => rfl) (fun _ => rfl) t d).trans rfl

theorem Phi_owns (c : Dev nD) (t : Fin ((cfg5 a).N + 1)) :
    Phi V a c t = iprop((∃ f : Vec F S1024x128 .f32,
          ⌜t.val % 391 ≠ 0 → f = psum V a c (nbOf t.val) (t.val % 391)⌝ ∗ owns (c : Thread nD τ) (Memref.whole cc5_scratch0) fullShare f)
      ∗ Pipeline.scopedRestBut (Ix := Unit) (Name := ℕ) (U := UR sig nD τ) (Lvl := ℕ) (Val := Elt F) spec5 c [cc5_scratch0]
      ∗ (∃ r, prngReg c r)
      ∗ owns (c : Thread nD τ) (Memref.whole main_v44) fullShare (tabLo a)
      ∗ owns (c : Thread nD τ) (Memref.whole main_v47) fullShare (tabHi a)) := by
  unfold Phi Pipeline.prefHeld; rw [bigSep_K2]; simp only [owns_whole]; rfl

theorem hin (c : Dev nD) :
    (iprop((∃ r, prngReg c r) ∗ Pipeline.prefHeld pre5 c (fun _ => fullShare) a.1 ∗ Pipeline.scopedRest spec5 c) : sProp 𝕄)
      ⊢ (dat V a c).Φ 0 := by
  rw [Phi_eq]; unfold Phi
  rw [scopedRest5_split]
  iintro ⟨Hg, HT, ⟨%f, HS⟩, HR⟩
  iframe Hg HT HR
  iexists f; isplitr
  · ipureintro; exact fun h => absurd (Nat.zero_mod 391) h
  iexact HS

theorem hout (c : Dev nD) :
    (dat V a c).Φ (Fin.last (cfg5 a).N)
      ⊢ (iprop(((∃ r, prngReg c r) ∗ Pipeline.prefHeld pre5 c (fun _ => fullShare) a.1) ∗ Pipeline.scopedRest spec5 c) : sProp 𝕄) := by
  rw [Phi_eq]; unfold Phi
  rw [scopedRest5_split]
  iintro ⟨⟨%f, -, HS⟩, HR, Hg, HT⟩
  iframe Hg HT HR
  iexists f; iexact HS

abbrev bodyAt (t : Fin (cfg5 a).N) : Prog (TpuEff nD τ sig (Elt F) Λ₀ .tc) PUnit :=
  cc5__scatter_kernel (grid5.coords t) (Memref.whole main_v44) (Memref.isWhole_whole _) (Memref.whole main_v47) (Memref.isWhole_whole _)
    (spec5_0.stage ((cfg5 a).slots t 0)) (hstage5_0 (((cfg5 a).slots t 0).cast nbuf5_0))
    (spec5_1.stage ((cfg5 a).slots t 1)) (hstage5_1 (((cfg5 a).slots t 1).cast nbuf5_1))
    (spec5_2.stage ((cfg5 a).slots t 2)) (hstage5_2 (((cfg5 a).slots t 2).cast nbuf5_2))
    (Memref.whole cc5_scratch0) (Memref.isWhole_whole _)

def bodyPre (c : Dev nD) (t : Fin (cfg5 a).N) : sProp 𝕄 :=
  iprop(Phi V a c t.castSucc ∗ (dat V a c).owesAt () t.castSucc
    ∗ (∃ d, owns (c : Thread nD τ) (spec5_0.stage ((cfg5 a).slots t 0)) fullShare ((dat V a c).before (0 : Fin 3) t d))
    ∗ (∃ d, owns (c : Thread nD τ) (spec5_1.stage ((cfg5 a).slots t 1)) fullShare ((dat V a c).before (1 : Fin 3) t d))
    ∗ (∃ d, owns (c : Thread nD τ) (spec5_2.stage ((cfg5 a).slots t 2)) fullShare ((dat V a c).before (2 : Fin 3) t d)))

def bodyPost (c : Dev nD) (t : Fin (cfg5 a).N) : sProp 𝕄 :=
  iprop(Phi V a c t.succ ∗ (dat V a c).owesAt () t.castSucc
    ∗ owns (c : Thread nD τ) (spec5_0.stage ((cfg5 a).slots t 0)) fullShare (iblk V a c (0 : Fin 3) t)
    ∗ owns (c : Thread nD τ) (spec5_1.stage ((cfg5 a).slots t 1)) fullShare (iblk V a c (1 : Fin 3) t)
    ∗ (dat V a c).leavesExact (2 : Fin 3) t)

theorem idle2_eq (t : Fin (cfg5 a).N) : (cfg5 a).idle 2 ((cfg5 a).grid.coords t) = !(decide (t.val % 391 = 390)) :=
  congrArg not (decide_eq_decide.mpr (last_iff t))

-- At t % 391 = 390 the sum is the node block's full sum, whose positive part is the output block; elsewhere the block is as found.
theorem leaves2 (c : Dev nD) (t : Fin (cfg5 a).N) (d) :
    owns (c : Thread nD τ) (spec5_2.stage ((cfg5 a).slots t 2)) fullShare
        (outAfter (grid5.coords t) (psum V a c (nbOf t.val) (t.val % 391 + 1)) ((dat V a c).before (2 : Fin 3) t d))
      ⊢ (dat V a c).leavesExact (2 : Fin 3) t := by
  unfold outAfter
  by_cases hL : t.val % 391 = 390
  · rw [if_pos ((last_iff t).mpr hL), hL, show (dat V a c).leavesExact (2 : Fin 3) t
        = owns (c : Thread nD τ) (spec5_2.stage ((cfg5 a).slots t 2)) fullShare (k5_pay3 (psum V a c (nbOf t.val) 391)) from by
      unfold Dat.leavesExact; rw [idle2_eq]; simp only [hL, decide_true, Bool.not_true]; rfl]
  · rw [if_neg (mt (last_iff t).mp hL), Dat.leavesExact_idle (dat V a c) (2 : Fin 3) t
      (by rw [idle2_eq]; simp only [hL, decide_false, Bool.not_false]) (flush2 a t hL)]
    iintro H; iexists d; iexact H

set_option maxHeartbeats 1000000 in
theorem sound_body (c : Dev nD) (ha : ∀ k, a.1 k = V c (pre5.ref k)) (t : Fin (cfg5 a).N) :
    bodyPre V a c t ⊢ wp frame (wpE (defs₀ (F := F)) Variants.none c none) Set.univ (bodyAt a t) (fun _ => bodyPost V a c t) := by
  unfold bodyPre bodyPost bodyAt
  simp only [(before_in V a c t).1, (before_in V a c t).2]
  rw [Phi_owns, Phi_owns]
  simp only [Fin.coe_castSucc, Fin.val_succ]
  have hN : (cfg5 a).N = 19159 := N_5
  have ht := t.isLt
  iintro ⟨⟨⟨%f, %hf, HS⟩, HR, Hg, HL, HH⟩, Ho, ⟨%d0, H0⟩, ⟨%d1, H1⟩, ⟨%d2, H2⟩⟩
  iapply (sound_kernel c Set.univ (grid5.coords t) _ _ _ _ _ _ _ _ _ _ _ _ (tabLo a) (tabHi a)
    (iblk V a c (0 : Fin 3) t) (iblk V a c (1 : Fin 3) t) ((dat V a c).before (2 : Fin 3) t d2) f _)
  unfold Held
  iframe HL HH H0 H1 H2 HS
  iintro ⟨HL, HH, H0, H1, H2, HS⟩
  rw [scr_step V a c ha t f hf]
  iframe HR Hg HL HH Ho H0 H1
  isplitl [HS]
  · iexists _; isplitr; swap; · iexact HS
    ipureintro; intro hne
    rw [show (t.val + 1) % 391 = t.val % 391 + 1 from by omega,
      show nbOf (t.val + 1) = nbOf t.val from Fin.ext (by show (t.val + 1) / 391 % 49 = t.val / 391 % 49; omega)]
  iapply (leaves2 V a c t d2)
  iexact H2

theorem body_obligation (c : Dev nD) (ha : ∀ k, a.1 k = V c (pre5.ref k)) :
    BodyObligation (dat V a c) (defs₀ (F := F)) Variants.none () Set.univ := fun t => by
  rw [bigSep_W5, bigSep_W5]
  exact sound_body V a c ha t

end Cert.KernelIdeal.S5

end
-- ==== Proof.KI.G7Body.lean ====
import proofs.«429835_j17746804867087_2_alg».proof.Proof.Gen.KernelIdeal.Launch
import proofs.«429835_j17746804867087_2_alg».proof.Proof.Gen.KernelIdeal.Skeleton
import proofs.«429835_j17746804867087_2_alg».proof.Proof.Lib
import Idealize.ShloMosaic.Lib.Pipeline.TableIdle
import Idealize.ShloMosaic.Lib.WholeRead

noncomputable section

namespace Cert.KernelIdeal.G7

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem owns_unread {sp : Space} {S : Shape} {e : EltTy} (c : Dev nD) {m : Memref sig .tc sp S e} (h : m.IsWhole)
    (q : PosShare TreeShare) (X : S.Idx → Elt F e) :
    (owns (c : Thread nD τ) m q X : sProp 𝕄) = (m.view.loc (c : Thread nD τ) ↦[m.view.set]{q} h.unread X) := by
  rw [owns_eq_rep, h.eq_unread (View.read_rep _ _)]

-- The word of n is k, as the kernel tests it.
abbrev cEq (k : BitVec 32) (n : Fin 49) : Prop :=
  Scalar.cmpi .ne ((Scalar.extui (Scalar.cmpi .eq (BitVec.ofNat 32 n.val) k)) : BitVec 32) 0#32 = 1#1

-- The two table words admit the node block: wlo ≤ nb ≤ whi, signed.
abbrev cAct (i : grid7.Coords) (wlo whi : BitVec 32) : Prop :=
  Scalar.cmpi .ne ((Scalar.extui (Scalar.andi (Scalar.cmpi .sge (BitVec.ofNat 32 (i 1).val) wlo)
    (Scalar.cmpi .sle (BitVec.ofNat 32 (i 1).val) whi))) : BitVec 32) 0#32 = 1#1

-- The word loaded at the edge block's offset is the table's entry at the edge block.
theorem word_eq (i : grid7.Coords) (arg : Memref sig .tc .smem S391 .i32) (harg : arg.IsWhole) (T : Vec F S391 .i32) :
    View.readAt (Elt F) arg.view (Rect.unit (s := S391) (k7_off1 i) S1.size (k7_off1_inb i)).toLoadRect (harg.unread T)
      (Shape.Idx.first (numel1_S1.symm ▸ Nat.one_pos)) = T (ValueIdx.ix1 (n := 391) (i 0)) := by
  rw [harg.readAt_unread]
  congr 1; funext a; apply Fin.ext
  show k7_off1 i a + 1 * 0 = _
  rw [k7_off1_eq i]
  match a with | ⟨0, _⟩ => rfl

-- s₀ is f reset at the first node block, s adds the block's product when admitted, o is the cast of s at the last node block, else y.
theorem sound_kernel (c : Dev nD) (E : Set ℕ) (i : grid7.Coords)
    (arg2 : Memref sig .tc .smem S391 .i32) (harg2 : arg2.IsWhole) (arg3 : Memref sig .tc .smem S391 .i32) (harg3 : arg3.IsWhole)
    (arg4 : Memref sig .tc .vmem S1x2048 .i32) (harg4 : arg4.IsWhole) (arg5 : Memref sig .tc .vmem S1x2048 .f32) (harg5 : arg5.IsWhole)
    (arg6 : Memref sig .tc .vmem S1024x128 .f32) (harg6 : arg6.IsWhole) (arg7 : Memref sig .tc .vmem S2048x128 .bf16) (harg7 : arg7.IsWhole)
    (arg8 : Memref sig .tc .vmem S2048x128 .f32) (harg8 : arg8.IsWhole)
    (Tlo Thi : Vec F S391 .i32) (x4 : Vec F S1x2048 .i32) (x5 : Vec F S1x2048 .f32) (x6 : Vec F S1024x128 .f32)
    (y o : Vec F S2048x128 .bf16) (f s₀ s : Vec F S2048x128 .f32)
    (h₀ : s₀ = if cEq 0#32 (i 1) then k7_pay1 else f)
    (hs : s = if cAct i (Tlo (ValueIdx.ix1 (n := 391) (i 0))) (Thi (ValueIdx.ix1 (n := 391) (i 0))) then k7_pay2 i x4 x5 x6 s₀ else s₀)
    (ho : o = if k7_cond3 i = 1#1 then k7_pay3 s else y)
    (K : PUnit → sProp 𝕄) :
    iprop(owns (c : Thread nD τ) arg2 fullShare Tlo ∗ owns (c : Thread nD τ) arg3 fullShare Thi
        ∗ owns (c : Thread nD τ) arg4 fullShare x4 ∗ owns (c : Thread nD τ) arg5 fullShare x5 ∗ owns (c : Thread nD τ) arg6 fullShare x6
        ∗ owns (c : Thread nD τ) arg7 fullShare y ∗ owns (c : Thread nD τ) arg8 fullShare f
        ∗ (iprop(owns (c : Thread nD τ) arg2 fullShare Tlo ∗ owns (c : Thread nD τ) arg3 fullShare Thi
            ∗ owns (c : Thread nD τ) arg4 fullShare x4 ∗ owns (c : Thread nD τ) arg5 fullShare x5 ∗ owns (c : Thread nD τ) arg6 fullShare x6
            ∗ owns (c : Thread nD τ) arg7 fullShare o ∗ owns (c : Thread nD τ) arg8 fullShare s) -∗ K ⟨⟩))
      ⊢ wp frame (wpE (defs₀ (F := F)) Variants.none c none) E (cc7__gather_kernel i arg2 harg2 arg3 harg3 arg4 harg4 arg5 harg5 arg6 harg6 arg7 harg7 arg8 harg8) K := by
  subst ho hs h₀
  simp only [cc7__gather_kernel_eq_skeleton]; unfold cc7__gather_kernel_skel
  simp only [owns_unread c harg2, owns_unread c harg3, owns_unread c harg4, owns_unread c harg5, owns_unread c harg6]
  rw [owns_unread c harg7 _ y, owns_unread c harg8 _ f]
  iintro ⟨H2, H3, H4, H5, H6, H7, H8, Hk⟩
  sl_exec
  sl_step
  sl_unfold_run_names
  ihave O7 := (owns_intro (c : Thread nD τ) arg7 fullShare _) $$ H7
  ihave O8 := (owns_intro (c : Thread nD τ) arg8 fullShare _) $$ H8
  unfold cEq cAct
  simp only [word_eq i arg2 harg2 Tlo, word_eq i arg3 harg3 Thi, readAt_full arg4.view zz2, readAt_full arg5.view zz2, readAt_full arg6.view zz2, readAt_full arg8.view zz2,
    read_writes_full arg8.view zz2, read_writes_full arg7.view zz2, dite_eq_ite, apply_ite (View.read (Elt F) arg8.view),
    apply_ite (View.read (Elt F) arg7.view), harg4.read_unread, harg5.read_unread, harg6.read_unread, harg7.read_unread,
    harg8.read_unread]
  iapply Hk
  iframe

end Cert.KernelIdeal.G7
end
-- ==== Proof.KI.G7Obl.lean ====
import proofs.«429835_j17746804867087_2_alg».proof.Proof.KI.G7Def
import proofs.«429835_j17746804867087_2_alg».proof.Proof.KI.G7Body

noncomputable section

namespace Cert.KernelIdeal.G7

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg7 (F := F)).Adm)

theorem A_eq (c : Dev nD) (w : Fin (cfg7 a).W) : (dat V a c).A w = V c (Pipeline.arrRef spec7 w) := by
  dsimp only [dat]

theorem coord0 (t : Fin (cfg7 a).N) : ((grid7.coords t) 0).val = t.val / 49 := by
  have h : t.val < 19159 := lt_of_lt_of_eq t.isLt (N_eq a)
  show t.val / 49 % 391 = _
  omega

theorem coord1 (t : Fin (cfg7 a).N) : ((grid7.coords t) 1).val = t.val % 49 := by
  show t.val / 1 % 49 = _
  omega

theorem cond3_iff : ∀ n : Fin 49, cEq 48#32 n ↔ n.val = 48 := by decide

theorem first_iff : ∀ n : Fin 49, cEq 0#32 n ↔ n.val = 0 := by decide

-- (t + 1) / 49 = t / 49 unless t % 49 = 48.
theorem flush3 (t : Fin (cfg7 a).N) (h48 : t.val % 49 ≠ 48) : ((cfg7 a).win 3).flush t = false := by
  have hN : (cfg7 a).grid.N = 19159 := N_eq a
  have ht : t.val < 19159 := lt_of_lt_of_eq t.isLt (N_eq a)
  rw [← Bool.not_eq_true, Window.flush_out _ rfl t]
  rintro (h | ⟨h, hne⟩)
  · omega
  · refine hne (hreads7_3 (grid7.coords ⟨t.val + 1, h⟩) (grid7.coords t) fun ax hr => ?_)
    match ax with
    | ⟨0, _⟩ => exact Fin.ext ((coord0 a ⟨t.val + 1, h⟩).trans ((show (t.val + 1) / 49 = t.val / 49 by omega).trans (coord0 a t).symm))
    | ⟨1, _⟩ => exact absurd hr Bool.false_ne_true

theorem hin (c : Dev nD) :
    (iprop((∃ r, prngReg c r) ∗ Pipeline.prefHeld (Ix := Unit) (Name := ℕ) (U := UR sig nD τ) (Lvl := ℕ) pre7 c (fun _ => fullShare) a.1
      ∗ Pipeline.scopedRest (Ix := Unit) (Name := ℕ) (U := UR sig nD τ) (Lvl := ℕ) (Val := Elt F) spec7 c) : sProp 𝕄)
      ⊢ (dat V a c).Φ 0 := by
  rw [scopedRest7_split]
  dsimp only [dat]
  simp only [scM, owns_whole]
  iintro ⟨Hg, Hp, ⟨%f, Hs⟩, Hr⟩
  iframe Hr Hg Hp
  iexists f; isplitr
  · ipureintro; intro eb _ h; exact absurd rfl h
  · iexact Hs

theorem hout (c : Dev nD) :
    (dat V a c).Φ (Fin.last (cfg7 a).N)
      ⊢ (iprop(((∃ r, prngReg c r) ∗ Pipeline.prefHeld (Ix := Unit) (Name := ℕ) (U := UR sig nD τ) (Lvl := ℕ) pre7 c (fun _ => fullShare) a.1)
        ∗ Pipeline.scopedRest (Ix := Unit) (Name := ℕ) (U := UR sig nD τ) (Lvl := ℕ) (Val := Elt F) spec7 c) : sProp 𝕄) := by
  rw [scopedRest7_split]
  dsimp only [dat]
  simp only [scM, owns_whole]
  iintro ⟨⟨%f, -, Hs⟩, Hr, Hg, Hp⟩
  iframe Hr Hg Hp
  iexists f; iexact Hs

theorem before_0 (c : Dev nD) (t : Fin (cfg7 a).N) (d) : (dat V a c).before 0 t d = iblk V a c 0 t :=
  ((dat V a c).before_in_eq_fetched 0 rfl (fun _ => rfl) (fun _ _ _ => rfl) (fun _ => rfl) t d).trans rfl
theorem before_1 (c : Dev nD) (t : Fin (cfg7 a).N) (d) : (dat V a c).before 1 t d = iblk V a c 1 t :=
  ((dat V a c).before_in_eq_fetched 1 rfl (fun _ => rfl) (fun _ _ _ => rfl) (fun _ => rfl) t d).trans rfl
theorem before_2 (c : Dev nD) (t : Fin (cfg7 a).N) (d) : (dat V a c).before 2 t d = iblk V a c 2 t :=
  ((dat V a c).before_in_eq_fetched 2 rfl (fun _ => rfl) (fun _ _ _ => rfl) (fun _ => rfl) t d).trans rfl

abbrev st3 (t : Fin (cfg7 a).N) := spec7_3.stage ((cfg7 a).slots t 3)

abbrev tLo : Memref sig .tc .smem S391 .i32 := Memref.whole main_v37
abbrev tHi : Memref sig .tc .smem S391 .i32 := Memref.whole main_v40

def tabLo : Vec F S391 .i32 := a.1 0
def tabHi : Vec F S391 .i32 := a.1 1

theorem Phi_eq (c : Dev nD) (t : Fin ((cfg7 a).N + 1)) :
    (dat V a c).Φ t = (iprop((∃ f : Vec F S2048x128 .f32,
        ⌜∀ eb : Fin 391, eb.val = t.val / 49 → t.val % 49 ≠ 0 → f = psum V a c eb (t.val % 49)⌝
          ∗ owns (c : Thread nD τ) scM fullShare f)
      ∗ Pipeline.scopedRestBut (Ix := Unit) (Name := ℕ) (U := UR sig nD τ) (Lvl := ℕ) (Val := Elt F) spec7 c [cc7_scratch0]
      ∗ (∃ r, prngReg c r)
      ∗ owns (c : Thread nD τ) tLo fullShare (tabLo a) ∗ owns (c : Thread nD τ) tHi fullShare (tabHi a)) : sProp 𝕄) := by
  dsimp only [dat]
  unfold Pipeline.prefHeld
  rw [bigSep_K2, ← owns_whole (c : Thread nD τ) (pre7.ref 0) fullShare (a.1 0),
    ← owns_whole (c : Thread nD τ) (pre7.ref 1) fullShare (a.1 1)]
  rfl

-- o is the cast of the full sum when t % 49 = 48 and what was found otherwise.
theorem leaves3 (c : Dev nD) (t : Fin (cfg7 a).N) (d) (o : Vec F S2048x128 .bf16)
    (ho : o = if k7_cond3 (grid7.coords t) = 1#1 then k7_pay3 (psum V a c ⟨t.val / 49, eb_lt a t⟩ (t.val % 49 + 1))
      else (dat V a c).before 3 t d) :
    owns (c : Thread nD τ) (st3 a t) fullShare o ⊢ (dat V a c).leavesExact 3 t := by
  have hi : (cfg7 a).idle 3 ((cfg7 a).grid.coords t) = !(k7_cond3 (grid7.coords t) == 1#1) := rfl
  by_cases h48 : t.val % 49 = 48
  · have hc3 : k7_cond3 (grid7.coords t) = 1#1 := (cond3_iff ((grid7.coords t) 1)).mpr ((coord1 a t).trans h48)
    obtain rfl := ho.trans (if_pos hc3)
    rw [hc3] at hi
    unfold Dat.leavesExact
    rw [h48, hi]
    exact .rfl
  · have hc3 : ¬ k7_cond3 (grid7.coords t) = 1#1 := fun h => h48 ((coord1 a t).symm.trans ((cond3_iff ((grid7.coords t) 1)).mp h))
    obtain rfl := ho.trans (if_neg hc3)
    rw [Dat.leavesExact_idle _ 3 t (by rw [hi, Bool.not_eq_true', beq_eq_false_iff_ne]; exact hc3) (flush3 a t h48)]
    iintro H; iexists d; iexact H

theorem body_obligation (c : Dev nD) (ha : ∀ k, a.1 k = V c (pre7.ref k)) :
    BodyObligation (dat (F := F) V a c) (defs₀ (F := F)) Variants.none () Set.univ := fun t => by
  have hlt : t.val % 49 < 49 := Nat.mod_lt _ (by decide)
  have htN : t.val < 19159 := lt_of_lt_of_eq t.isLt (N_eq a)
  have hc1 := coord1 a t
  have hpt : pt a ⟨t.val / 49, eb_lt a t⟩ ⟨t.val % 49, hlt⟩ = t :=
    Fin.ext (by show 49 * (t.val / 49) + t.val % 49 = t.val; omega)
  rw [bigSep_W7, bigSep_W7]
  show iprop((dat V a c).Φ t.castSucc ∗ (dat V a c).owesAt () t.castSucc
      ∗ (∃ d, owns (c : Thread nD τ) (spec7_0.stage ((cfg7 a).slots t 0)) fullShare ((dat V a c).before 0 t d))
      ∗ (∃ d, owns (c : Thread nD τ) (spec7_1.stage ((cfg7 a).slots t 1)) fullShare ((dat V a c).before 1 t d))
      ∗ (∃ d, owns (c : Thread nD τ) (spec7_2.stage ((cfg7 a).slots t 2)) fullShare ((dat V a c).before 2 t d))
      ∗ (∃ d, owns (c : Thread nD τ) (st3 a t) fullShare ((dat V a c).before 3 t d)))
    ⊢ wp frame (wpE (defs₀ (F := F)) Variants.none c none) Set.univ
      (cc7__gather_kernel (grid7.coords t) tLo (Memref.isWhole_whole _) tHi (Memref.isWhole_whole _)
        (spec7_0.stage ((cfg7 a).slots t 0)) (hstage7_0 (((cfg7 a).slots t 0).cast nbuf7_0))
        (spec7_1.stage ((cfg7 a).slots t 1)) (hstage7_1 (((cfg7 a).slots t 1).cast nbuf7_1))
        (spec7_2.stage ((cfg7 a).slots t 2)) (hstage7_2 (((cfg7 a).slots t 2).cast nbuf7_2))
        (st3 a t) (hstage7_3 (((cfg7 a).slots t 3).cast nbuf7_3)) scM (Memref.isWhole_whole _))
      fun _ => iprop((dat V a c).Φ t.succ ∗ (dat V a c).owesAt () t.castSucc
        ∗ owns (c : Thread nD τ) (spec7_0.stage ((cfg7 a).slots t 0)) fullShare (iblk V a c 0 t)
        ∗ owns (c : Thread nD τ) (spec7_1.stage ((cfg7 a).slots t 1)) fullShare (iblk V a c 1 t)
        ∗ owns (c : Thread nD τ) (spec7_2.stage ((cfg7 a).slots t 2)) fullShare (iblk V a c 2 t)
        ∗ (dat V a c).leavesExact 3 t)
  simp only [before_0, before_1, before_2]
  rw [Phi_eq, Phi_eq]
  simp only [Fin.coe_castSucc, Fin.val_succ]
  iintro ⟨⟨⟨%f, %hf, Hs⟩, Hr, Hg, Hp0, Hp1⟩, Ho, ⟨%d0, H0⟩, ⟨%d1, H1⟩, ⟨%d2, H2⟩, ⟨%d3, H3⟩⟩
  iapply (sound_kernel c Set.univ (grid7.coords t) _ _ _ _ _ _ _ _ _ _ _ _ _ _ (tabLo a) (tabHi a)
    (iblk V a c 0 t) (iblk V a c 1 t) (iblk V a c 2 t) ((dat V a c).before 3 t d3) _ f
    (psum V a c ⟨t.val / 49, eb_lt a t⟩ (t.val % 49)) (psum V a c ⟨t.val / 49, eb_lt a t⟩ (t.val % 49 + 1))
    (by
      by_cases h0 : t.val % 49 = 0
      · rw [if_pos ((first_iff ((grid7.coords t) 1)).mpr (hc1.trans h0)), h0]; rfl
      · rw [if_neg fun h => h0 (hc1.symm.trans ((first_iff ((grid7.coords t) 1)).mp h))]; exact (hf _ rfl h0).symm)
    (by
      rw [psum, dif_pos hlt, hpt]
      refine if_congr ?_ rfl rfl
      unfold cAct act lo hi tabLo tabHi
      rw [show (grid7.coords t) 0 = ⟨t.val / 49, eb_lt a t⟩ from Fin.ext (coord0 a t), hc1, ha 0, ha 1]
      exact Iff.rfl)
    rfl _)
  iframe Hp0 Hp1 H0 H1 H2 H3 Hs
  iintro ⟨Hp0, Hp1, H0, H1, H2, H3, Hs⟩
  iframe Hr Hg Hp0 Hp1 Ho H0 H1 H2
  isplitl [Hs]
  · iexists _; isplitr
    swap; · iexact Hs
    ipureintro; intro eb he hne
    rw [show eb = ⟨t.val / 49, eb_lt a t⟩ from Fin.ext (by show eb.val = t.val / 49; omega),
      show (t.val + 1) % 49 = t.val % 49 + 1 from by omega]
  · iapply (leaves3 V a c t d3 _ rfl) $$ H3

end Cert.KernelIdeal.G7
end
-- ==== Proof.KI.S8Body.lean ====
import proofs.«429835_j17746804867087_2_alg».proof.Proof.Gen.KernelIdeal.Launch
import proofs.«429835_j17746804867087_2_alg».proof.Proof.Gen.KernelIdeal.Skeleton
import proofs.«429835_j17746804867087_2_alg».proof.Proof.Lib

set_option maxRecDepth 16384

noncomputable section

namespace Cert.KernelIdeal.S8

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

def cell (i : grid8.Coords) : S391.Idx :=
  (Rect.unit (s := S391) (k8_off1 i) S1.size (k8_off1_inb i)).toLoadRect.idx (Shape.Idx.first (numel1_S1.symm ▸ Nat.one_pos))

abbrev cFirst (i : grid8.Coords) : Prop :=
  Scalar.cmpi .ne (Scalar.extui (Scalar.cmpi .eq (BitVec.ofNat 32 (i 1).val) 0#32) : BitVec 32) 0#32 = 1#1

abbrev cAct (i : grid8.Coords) (wlo whi : BitVec 32) : Prop :=
  Scalar.cmpi .ne (Scalar.extui (Scalar.andi (Scalar.cmpi .sge (BitVec.ofNat 32 (i 0).val) wlo)
    (Scalar.cmpi .sle (BitVec.ofNat 32 (i 0).val) whi)) : BitVec 32) 0#32 = 1#1

abbrev Held (c : Dev nD)
    (arg2 : Memref sig .tc .smem S391 .i32) (arg3 : Memref sig .tc .smem S391 .i32)
    (arg4 : Memref sig .tc .vmem S1x2048 .i32) (arg5 : Memref sig .tc .vmem S2048x128 .bf16)
    (arg6 : Memref sig .tc .vmem S1024x128 .f32) (arg7 : Memref sig .tc .vmem S1024x128 .f32)
    (T2 T3 : Vec F S391 .i32) (x4 : Vec F S1x2048 .i32) (x5 : Vec F S2048x128 .bf16) (y6 x7 : Vec F S1024x128 .f32) : sProp 𝕄 :=
  iprop(owns (c : Thread nD τ) arg2 fullShare T2 ∗ owns (c : Thread nD τ) arg3 fullShare T3
    ∗ owns (c : Thread nD τ) arg4 fullShare x4 ∗ owns (c : Thread nD τ) arg5 fullShare x5
    ∗ owns (c : Thread nD τ) arg6 fullShare y6 ∗ owns (c : Thread nD τ) arg7 fullShare x7)

-- The running sum after the body: zeroed at a node block's first edge block, then the product added if the edge block contributes.
def scrAfter (i : grid8.Coords) (wlo whi : BitVec 32) (x4 : Vec F S1x2048 .i32) (x5 : Vec F S2048x128 .bf16)
    (x7 : Vec F S1024x128 .f32) : Vec F S1024x128 .f32 :=
  if cAct i wlo whi then k8_pay2 i x4 x5 (if cFirst i then k8_pay1 else x7) else (if cFirst i then k8_pay1 else x7)

-- The output block after the body: the positive part of the sum at the last edge block, else as found.
def outAfter (i : grid8.Coords) (s : Vec F S1024x128 .f32) (y6 : Vec F S1024x128 .f32) : Vec F S1024x128 .f32 :=
  if k8_cond3 i = 1#1 then s else y6

set_option maxHeartbeats 1000000 in
-- Each conditional overwrites a whole block or leaves it, so the sum ends at scrAfter and the output block at outAfter.
theorem sound_kernel (c : Dev nD) (E : Set ℕ) (i : grid8.Coords)
    (arg2 : Memref sig .tc .smem S391 .i32) (harg2 : arg2.IsWhole) (arg3 : Memref sig .tc .smem S391 .i32) (harg3 : arg3.IsWhole)
    (arg4 : Memref sig .tc .vmem S1x2048 .i32) (harg4 : arg4.IsWhole) (arg5 : Memref sig .tc .vmem S2048x128 .bf16) (harg5 : arg5.IsWhole)
    (arg6 : Memref sig .tc .vmem S1024x128 .f32) (harg6 : arg6.IsWhole) (arg7 : Memref sig .tc .vmem S1024x128 .f32) (harg7 : arg7.IsWhole)
    (T2 T3 : Vec F S391 .i32) (x4 : Vec F S1x2048 .i32) (x5 : Vec F S2048x128 .bf16) (y6 x7 : Vec F S1024x128 .f32)
    (K : PUnit → sProp 𝕄) :
    iprop(Held c arg2 arg3 arg4 arg5 arg6 arg7 T2 T3 x4 x5 y6 x7
        ∗ (Held c arg2 arg3 arg4 arg5 arg6 arg7 T2 T3 x4 x5
              (outAfter i (scrAfter i (T2 (cell i)) (T3 (cell i)) x4 x5 x7) y6)
              (scrAfter i (T2 (cell i)) (T3 (cell i)) x4 x5 x7) -∗ K ⟨⟩))
      ⊢ wp frame (wpE (defs₀ (F := F)) Variants.none c none) E (cc8__scatter_kernel i arg2 harg2 arg3 harg3 arg4 harg4 arg5 harg5 arg6 harg6 arg7 harg7) K := by
  simp only [cc8__scatter_kernel_eq_skeleton]; unfold cc8__scatter_kernel_skel Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf2 hf3 hf4 hf5 hf6 hf7
  sl_exec
  sl_step
  iapply Hk
  isplitl [H2] <;> try (isplitl [H3] <;> try (isplitl [H4] <;> try (isplitl [H5] <;> try isplitl [H6])))
  all_goals (iexists _; isplitr; swap; iassumption; ipureintro)
  iterate 4 rfl
  all_goals
    sl_unfold_run_names
    simp only [outAfter, scrAfter, dite_eq_ite, readAt_full (S := S1x2048) _ zz2, readAt_full (S := S2048x128) _ zz2,
      readAt_full (S := S1024x128) _ zz2, read_writes_full (S := S1024x128) _ zz2,
      apply_ite (View.read (Elt F) arg6.view), apply_ite (View.read (Elt F) arg7.view)]
    rfl

end Cert.KernelIdeal.S8

end
-- ==== Proof.KI.S8Obl.lean ====
import proofs.«429835_j17746804867087_2_alg».proof.Proof.KI.S8Def
import proofs.«429835_j17746804867087_2_alg».proof.Proof.KI.S8Body

set_option maxRecDepth 16384

noncomputable section

namespace Cert.KernelIdeal.S8

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg8 (F := F)).Adm)

theorem A_eq (c : Dev nD) (w : Fin (cfg8 a).W) : (dat V a c).A w = V c (Pipeline.arrRef spec8 w) := by
  dsimp only [dat]

theorem Phi_eq (c : Dev nD) (t : Fin ((cfg8 a).N + 1)) : (dat V a c).Φ t = Phi V a c t := rfl

-- Point t is node block t / 391, edge block t % 391.
theorem coords0 (t : Fin grid8.N) : ((grid8.coords t) 0).val = (nbOf t.val).val := rfl

theorem coords1 (t : Fin grid8.N) : ((grid8.coords t) 1).val = t.val % 391 := by
  show t.val / 1 % 391 = t.val % 391
  rw [Nat.div_one]

theorem pt_self (t : Fin (cfg8 a).N) (h : t.val % 391 < 391) : pt a (nbOf t.val) (t.val % 391) h = t := by
  have hN : (cfg8 a).N = 19159 := N_8
  have ht := t.isLt
  apply Fin.ext
  show t.val / 391 % 49 * 391 + t.val % 391 = t.val
  omega

-- (t + 1) / 391 = t / 391 unless t % 391 = 390.
theorem flush2 (t : Fin (cfg8 a).N) (h : t.val % 391 ≠ 390) : ((cfg8 a).win 2).flush t = false := by
  have hN : (cfg8 a).grid.N = 19159 := N_8
  have ht := t.isLt
  rw [← Bool.not_eq_true, Window.flush_out _ rfl t]
  rintro (e | ⟨h1, hne⟩)
  · omega
  · exact hne (congrArg (fun j : Fin 49 => ![(BitVec.ofNat 32 j.val).toNat, (0#32 : BitVec 32).toNat])
      (Fin.ext (by show (t.val + 1) / 391 % 49 = t.val / 391 % 49; omega)))

theorem cell_eq (i : grid8.Coords) : cell i = ValueIdx.ix1 (i 1) := by
  funext d
  match d with
  | ⟨0, _⟩ =>
    apply Fin.ext
    show k8_off1 i 0 + 1 * 0 = (i 1).val
    rw [k8_off1_eq]; rfl

-- The comparison of point t's edge block with a constant k, read back as t % 391 = k.
theorem eb_iff (t : Fin grid8.N) {k : ℕ} (hk : k < 2 ^ 32) :
    Scalar.cmpi .ne (Scalar.extui (Scalar.cmpi .eq (BitVec.ofNat 32 ((grid8.coords t) 1).val) (BitVec.ofNat 32 k)) : BitVec 32) 0#32 = 1#1
      ↔ t.val % 391 = k := by
  rw [← coords1 t, Scalar.guard_iff, Scalar.cmpi, IntOp.cmpi_eq]
  have h391 : ((grid8.coords t) 1).val < 391 := ((grid8.coords t) 1).isLt
  constructor
  · intro e
    have := congrArg BitVec.toNat e
    simp only [BitVec.toNat_ofNat] at this
    omega
  · intro e; rw [e]

theorem first_iff (t : Fin grid8.N) : cFirst (grid8.coords t) ↔ t.val % 391 = 0 := eb_iff t (by decide)

theorem last_iff (t : Fin grid8.N) : k8_cond3 (grid8.coords t) = 1#1 ↔ t.val % 391 = 390 := eb_iff t (by decide)

def tabLo : Vec F S391 .i32 := a.1 0
def tabHi : Vec F S391 .i32 := a.1 1

-- The body's test on the two table words it loads is act at the point's node block and edge block.
theorem cAct_iff_act (c : Dev nD) (ha : ∀ k, a.1 k = V c (pre8.ref k)) (t : Fin grid8.N) (h : t.val % 391 < 391) :
    cAct (grid8.coords t) (tabLo a (cell (grid8.coords t))) (tabHi a (cell (grid8.coords t))) ↔ act V c (nbOf t.val) ⟨t.val % 391, h⟩ := by
  rw [cell_eq, show tabLo a = V c main_v44 from ha 0, show tabHi a = V c main_v47 from ha 1]
  unfold cAct act lo hi
  rw [coords0 t, show (grid8.coords t) 1 = ⟨t.val % 391, h⟩ from Fin.ext (coords1 t)]
  exact Iff.rfl

-- One step of the running sum: from the sum over the edge blocks before (anything at a first edge block) to the sum over one more.
theorem scr_step (c : Dev nD) (ha : ∀ k, a.1 k = V c (pre8.ref k)) (t : Fin (cfg8 a).N) (f : Vec F S1024x128 .f32)
    (hf : t.val % 391 ≠ 0 → f = psum V a c (nbOf t.val) (t.val % 391)) :
    scrAfter (grid8.coords t) (tabLo a (cell (grid8.coords t))) (tabHi a (cell (grid8.coords t)))
        (iblk V a c (0 : Fin 3) t) (iblk V a c (1 : Fin 3) t) f
      = psum V a c (nbOf t.val) (t.val % 391 + 1) := by
  have hlt : t.val % 391 < 391 := Nat.mod_lt _ (by decide)
  have hs0 : (if cFirst (grid8.coords t) then (k8_pay1 : Vec F S1024x128 .f32) else f)
      = psum V a c (nbOf t.val) (t.val % 391) := by
    by_cases h0 : t.val % 391 = 0
    · rw [if_pos ((first_iff t).mpr h0), h0]; rfl
    · rw [if_neg (mt (first_iff t).mp h0), hf h0]
  have hact := cAct_iff_act V a c ha t hlt
  unfold scrAfter
  rw [hs0, psum, dif_pos hlt, pt_self]
  by_cases hA : act V c (nbOf t.val) ⟨t.val % 391, hlt⟩
  · rw [if_pos hA, if_pos (hact.mpr hA)]
  · rw [if_neg hA, if_neg (mt hact.mp hA)]

theorem before_in (c : Dev nD) (t : Fin (cfg8 a).N) :
    (∀ d, (dat V a c).before (0 : Fin 3) t d = iblk V a c (0 : Fin 3) t)
      ∧ ∀ d, (dat V a c).before (1 : Fin 3) t d = iblk V a c (1 : Fin 3) t := by
  constructor <;> intro d <;>
  exact ((dat V a c).before_in_eq_fetched _ rfl (fun _ => rfl) (fun _ _ _ => rfl) (fun _ => rfl) t d).trans rfl

theorem Phi_owns (c : Dev nD) (t : Fin ((cfg8 a).N + 1)) :
    Phi V a c t = iprop((∃ f : Vec F S1024x128 .f32,
          ⌜t.val % 391 ≠ 0 → f = psum V a c (nbOf t.val) (t.val % 391)⌝ ∗ owns (c : Thread nD τ) (Memref.whole cc8_scratch0) fullShare f)
      ∗ Pipeline.scopedRestBut (Ix := Unit) (Name := ℕ) (U := UR sig nD τ) (Lvl := ℕ) (Val := Elt F) spec8 c [cc8_scratch0]
      ∗ (∃ r, prngReg c r)
      ∗ owns (c : Thread nD τ) (Memref.whole main_v44) fullShare (tabLo a)
      ∗ owns (c : Thread nD τ) (Memref.whole main_v47) fullShare (tabHi a)) := by
  unfold Phi Pipeline.prefHeld; rw [bigSep_K2]; simp only [owns_whole]; rfl

theorem hin (c : Dev nD) :
    (iprop((∃ r, prngReg c r) ∗ Pipeline.prefHeld pre8 c (fun _ => fullShare) a.1 ∗ Pipeline.scopedRest spec8 c) : sProp 𝕄)
      ⊢ (dat V a c).Φ 0 := by
  rw [Phi_eq]; unfold Phi
  rw [scopedRest8_split]
  iintro ⟨Hg, HT, ⟨%f, HS⟩, HR⟩
  iframe Hg HT HR
  iexists f; isplitr
  · ipureintro; exact fun h => absurd (Nat.zero_mod 391) h
  iexact HS

theorem hout (c : Dev nD) :
    (dat V a c).Φ (Fin.last (cfg8 a).N)
      ⊢ (iprop(((∃ r, prngReg c r) ∗ Pipeline.prefHeld pre8 c (fun _ => fullShare) a.1) ∗ Pipeline.scopedRest spec8 c) : sProp 𝕄) := by
  rw [Phi_eq]; unfold Phi
  rw [scopedRest8_split]
  iintro ⟨⟨%f, -, HS⟩, HR, Hg, HT⟩
  iframe Hg HT HR
  iexists f; iexact HS

abbrev bodyAt (t : Fin (cfg8 a).N) : Prog (TpuEff nD τ sig (Elt F) Λ₀ .tc) PUnit :=
  cc8__scatter_kernel (grid8.coords t) (Memref.whole main_v44) (Memref.isWhole_whole _) (Memref.whole main_v47) (Memref.isWhole_whole _)
    (spec8_0.stage ((cfg8 a).slots t 0)) (hstage8_0 (((cfg8 a).slots t 0).cast nbuf8_0))
    (spec8_1.stage ((cfg8 a).slots t 1)) (hstage8_1 (((cfg8 a).slots t 1).cast nbuf8_1))
    (spec8_2.stage ((cfg8 a).slots t 2)) (hstage8_2 (((cfg8 a).slots t 2).cast nbuf8_2))
    (Memref.whole cc8_scratch0) (Memref.isWhole_whole _)

def bodyPre (c : Dev nD) (t : Fin (cfg8 a).N) : sProp 𝕄 :=
  iprop(Phi V a c t.castSucc ∗ (dat V a c).owesAt () t.castSucc
    ∗ (∃ d, owns (c : Thread nD τ) (spec8_0.stage ((cfg8 a).slots t 0)) fullShare ((dat V a c).before (0 : Fin 3) t d))
    ∗ (∃ d, owns (c : Thread nD τ) (spec8_1.stage ((cfg8 a).slots t 1)) fullShare ((dat V a c).before (1 : Fin 3) t d))
    ∗ (∃ d, owns (c : Thread nD τ) (spec8_2.stage ((cfg8 a).slots t 2)) fullShare ((dat V a c).before (2 : Fin 3) t d)))

def bodyPost (c : Dev nD) (t : Fin (cfg8 a).N) : sProp 𝕄 :=
  iprop(Phi V a c t.succ ∗ (dat V a c).owesAt () t.castSucc
    ∗ owns (c : Thread nD τ) (spec8_0.stage ((cfg8 a).slots t 0)) fullShare (iblk V a c (0 : Fin 3) t)
    ∗ owns (c : Thread nD τ) (spec8_1.stage ((cfg8 a).slots t 1)) fullShare (iblk V a c (1 : Fin 3) t)
    ∗ (dat V a c).leavesExact (2 : Fin 3) t)

theorem idle2_eq (t : Fin (cfg8 a).N) : (cfg8 a).idle 2 ((cfg8 a).grid.coords t) = !(decide (t.val % 391 = 390)) :=
  congrArg not (decide_eq_decide.mpr (last_iff t))

-- At t % 391 = 390 the sum is the node block's full sum, whose positive part is the output block; elsewhere the block is as found.
theorem leaves2 (c : Dev nD) (t : Fin (cfg8 a).N) (d) :
    owns (c : Thread nD τ) (spec8_2.stage ((cfg8 a).slots t 2)) fullShare
        (outAfter (grid8.coords t) (psum V a c (nbOf t.val) (t.val % 391 + 1)) ((dat V a c).before (2 : Fin 3) t d))
      ⊢ (dat V a c).leavesExact (2 : Fin 3) t := by
  unfold outAfter
  by_cases hL : t.val % 391 = 390
  · rw [if_pos ((last_iff t).mpr hL), hL, show (dat V a c).leavesExact (2 : Fin 3) t
        = owns (c : Thread nD τ) (spec8_2.stage ((cfg8 a).slots t 2)) fullShare (psum V a c (nbOf t.val) 391) from by
      unfold Dat.leavesExact; rw [idle2_eq]; simp only [hL, decide_true, Bool.not_true]; rfl]
  · rw [if_neg (mt (last_iff t).mp hL), Dat.leavesExact_idle (dat V a c) (2 : Fin 3) t
      (by rw [idle2_eq]; simp only [hL, decide_false, Bool.not_false]) (flush2 a t hL)]
    iintro H; iexists d; iexact H

set_option maxHeartbeats 1000000 in
theorem sound_body (c : Dev nD) (ha : ∀ k, a.1 k = V c (pre8.ref k)) (t : Fin (cfg8 a).N) :
    bodyPre V a c t ⊢ wp frame (wpE (defs₀ (F := F)) Variants.none c none) Set.univ (bodyAt a t) (fun _ => bodyPost V a c t) := by
  unfold bodyPre bodyPost bodyAt
  simp only [(before_in V a c t).1, (before_in V a c t).2]
  rw [Phi_owns, Phi_owns]
  simp only [Fin.coe_castSucc, Fin.val_succ]
  have hN : (cfg8 a).N = 19159 := N_8
  have ht := t.isLt
  iintro ⟨⟨⟨%f, %hf, HS⟩, HR, Hg, HL, HH⟩, Ho, ⟨%d0, H0⟩, ⟨%d1, H1⟩, ⟨%d2, H2⟩⟩
  iapply (sound_kernel c Set.univ (grid8.coords t) _ _ _ _ _ _ _ _ _ _ _ _ (tabLo a) (tabHi a)
    (iblk V a c (0 : Fin 3) t) (iblk V a c (1 : Fin 3) t) ((dat V a c).before (2 : Fin 3) t d2) f _)
  unfold Held
  iframe HL HH H0 H1 H2 HS
  iintro ⟨HL, HH, H0, H1, H2, HS⟩
  rw [scr_step V a c ha t f hf]
  iframe HR Hg HL HH Ho H0 H1
  isplitl [HS]
  · iexists _; isplitr; swap; · iexact HS
    ipureintro; intro hne
    rw [show (t.val + 1) % 391 = t.val % 391 + 1 from by omega,
      show nbOf (t.val + 1) = nbOf t.val from Fin.ext (by show (t.val + 1) / 391 % 49 = t.val / 391 % 49; omega)]
  iapply (leaves2 V a c t d2)
  iexact H2

theorem body_obligation (c : Dev nD) (ha : ∀ k, a.1 k = V c (pre8.ref k)) :
    BodyObligation (dat V a c) (defs₀ (F := F)) Variants.none () Set.univ := fun t => by
  rw [bigSep_W8, bigSep_W8]
  exact sound_body V a c ha t

end Cert.KernelIdeal.S8

end
-- ==== Proof.KI.Segs.lean ====
import proofs.«429835_j17746804867087_2_alg».proof.Proof.KI.Vals
import proofs.«429835_j17746804867087_2_alg».proof.Proof.KI.L0Obl
import proofs.«429835_j17746804867087_2_alg».proof.Proof.KI.G1Obl
import proofs.«429835_j17746804867087_2_alg».proof.Proof.KI.S2Obl
import proofs.«429835_j17746804867087_2_alg».proof.Proof.KI.L3Obl
import proofs.«429835_j17746804867087_2_alg».proof.Proof.KI.G4Obl
import proofs.«429835_j17746804867087_2_alg».proof.Proof.KI.S5Obl
import proofs.«429835_j17746804867087_2_alg».proof.Proof.KI.L6Obl
import proofs.«429835_j17746804867087_2_alg».proof.Proof.KI.G7Obl
import proofs.«429835_j17746804867087_2_alg».proof.Proof.KI.S8Obl
import Idealize.ShloMosaic.Lib.Pipeline.RegionsLoop
import Idealize.ShloMosaic.Lib.Pipeline.Kit

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

section Seg

variable {p : Fin 9} {a : (p : Fin 9) → (pcfgs (F := F) p).Adm}
  (pd : (p : Fin 9) → (c : Dev nD) → Dat τ (Elt F) Unit ℕ (UR sig nD τ) ℕ (Pipeline.pin (pcfgs (F := F)) a p) c)
  (lf : Pipeline.PLaunchFacts (nD := nD) (τ := τ) (pcfgs (F := F)) p)
  (V V' : Dev nD → Valuation τ sig (Elt F)) (o : Fin (Pipeline.pin (pcfgs (F := F)) a p).W)
  (hV' : ∀ c, V' c = Function.update (V c) (Pipeline.arrRef (Pipeline.pin (pcfgs (F := F)) a p).spec o) ((pd p c).arrAt o (Pipeline.pin (pcfgs (F := F)) a p).N))
  (hA : ∀ c w, (pd p c).A w = rd V c (Pipeline.arrRef (Pipeline.pin (pcfgs (F := F)) a p).spec w))
  (ho : ∀ w, w ≠ o → ((Pipeline.pin (pcfgs (F := F)) a p).spec w).isOut = false)

include lf hV' hA ho in
-- The windows' references are distinct, so the update at the output's reference is seen at no other window.
theorem arr_exit (c : Dev nD) (w : Fin (Pipeline.pin (pcfgs (F := F)) a p).W) :
    (pd p c).arrAt w (Pipeline.pin (pcfgs (F := F)) a p).N = rd V' c (Pipeline.arrRef (Pipeline.pin (pcfgs (F := F)) a p).spec w) := by
  show _ = V' c _
  rw [hV']
  by_cases h : w = o
  · subst h; rw [Function.update_self]
  · rw [Function.update_of_ne (StableHlo.devRef_ne_of_ne (lf.win.arr_inj.ne h))]
    exact ((pd p c).arrAt_in w (ho w h) _).trans (hA c w)

include hV' in
-- A buffer that is no window's array is not the updated one.
theorem rest_exit (c : Dev nD) (b : Ref sig .tc) (hb : b ∉ Finset.univ.image (Pipeline.arrRef (Pipeline.pin (pcfgs (F := F)) a p).spec)) :
    rd V' c b = rd V c b := by
  show V' c _ = V c _
  rw [hV']
  exact Function.update_of_ne (StableHlo.devRef_ne_of_ne fun e => hb (Finset.mem_image.mpr ⟨o, Finset.mem_univ _, e.symm⟩)) _ _

-- One segment for every region: from the buffers at `V` to the buffers at `V'`, which is `V` updated at the output's array.
set_option backward.isDefEq.respectTransparency.types false in
def seg (hq : ∀ c w, (pd p c).q w = fullShare) (howed : ∀ c t, (pd p c).owed t = 0) (hrec : ∀ c, (pd p c).recorded 0 = Set.univ)
    (ha : ∀ c k, (a p).1 k = V c ((pcfgs (F := F) p).pre.ref k))
    (hb : ∀ c, (∀ k, (a p).1 k = V c ((pcfgs (F := F) p).pre.ref k)) → BodyObligation (pd p c) (defs₀ (F := F)) 𝒱₀ () Set.univ)
    (hin : ∀ c, (iprop((∃ r, prngReg c r) ∗ Pipeline.prefHeld (Ix := Unit) (Name := ℕ) (U := UR sig nD τ) (Lvl := ℕ) (pcfgs (F := F) p).pre c (fun _ => fullShare) (a p).1
      ∗ Pipeline.scopedRest (Ix := Unit) (Name := ℕ) (U := UR sig nD τ) (Lvl := ℕ) (Val := Elt F) (Pipeline.pin (pcfgs (F := F)) a p).spec c) : sProp 𝕄) ⊢ (pd p c).Φ 0)
    (hout : ∀ c, (pd p c).Φ (Fin.last (Pipeline.pin (pcfgs (F := F)) a p).N) ⊢ (iprop(((∃ r, prngReg c r) ∗ Pipeline.prefHeld (Ix := Unit) (Name := ℕ) (U := UR sig nD τ) (Lvl := ℕ) (pcfgs (F := F) p).pre c (fun _ => fullShare) (a p).1)
      ∗ Pipeline.scopedRest (Ix := Unit) (Name := ℕ) (U := UR sig nD τ) (Lvl := ℕ) (Val := Elt F) (Pipeline.pin (pcfgs (F := F)) a p).spec c) : sProp 𝕄)) :
    Pipeline.RegionSeg (pcfgs (F := F)) a pd () defs₀ 𝒱₀ L lv p where
  win := lf.win.to₀
  block_pos := lf.block_pos
  stage_whole := lf.stage_whole
  K := PEmpty
  osem k := k.elim
  ho := Pipeline.OwnSemFacts.none _
  hbody c := (hb c (ha c)).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop((∃ r, prngReg c r) ∗ Pipeline.prefHeld (Ix := Unit) (Name := ℕ) (U := UR sig nD τ) (Lvl := ℕ) (pcfgs (F := F) p).pre c (fun _ => fullShare) (a p).1)
  Z c := Pipeline.unscopedRestP (Ix := Unit) (Name := ℕ) (U := UR sig nD τ) (Lvl := ℕ) (pcfgs (F := F) p).pre (Pipeline.pin (pcfgs (F := F)) a p).spec c (rd V c)
  hentry c := by
    rw [Pipeline.ownSems0_none]
    have hsplit := Pipeline.arrays_of_unscopedBufs (pcfgs (F := F)) a pd lf.win lf.arr_whole c ((pd p c).share_full (hq c)) (rd V c) (hA c)
    rw [Pipeline.unscopedBufs_held, Pipeline.unscopedRest_split (Ix := Unit) (Name := ℕ) (U := UR sig nD τ) (Lvl := ℕ) lf.pre c (rd V c), ← funext (ha c)] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin Pipeline.Dat.bound; rw [howed, hrec]
      icases HO with ⟨%W, HO⟩; iexists W; isplitr; · ipureintro; exact fun _ _ => Or.inl trivial
      iexact HO
    isplitl [Hp]; · iexact Hp
    iexact Hrest
  hin := hin
  hout c := by rw [Pipeline.ownSems0_none]; exact (hout c).trans (sep_mono .rfl emp_sep_intro)
  hexit c := by
    have hjoin := Pipeline.unscopedBufs_of_arrays (pcfgs (F := F)) a (Ix := Unit) (Name := ℕ) (U := UR sig nD τ) (Lvl := ℕ) lf.win lf.arr_whole c pd ((pd p c).share_full (hq c))
      (rd V c) (rd V' c) ((pd p c).arrAt · (Pipeline.pin (pcfgs (F := F)) a p).N) (arr_exit pd lf V V' o hV' hA ho c) (rest_exit pd V V' o hV' c)
    rw [Pipeline.unscopedBufs_held, Pipeline.unscopedRest_split (Ix := Unit) (Name := ℕ) (U := UR sig nD τ) (Lvl := ℕ) lf.pre c (rd V c), ← funext (ha c)] at hjoin
    iintro ⟨Ha, HO, ⟨Hp, Hpf⟩, Hrest⟩
    imodintro
    isplitl [Ha Hpf Hrest]
    · iapply hjoin; iframe
    isplitl [Hp]; · iexact Hp
    unfold Pipeline.Dat.owesAt Pipeline.owesWithin; rw [howed]
    icases HO with ⟨%W, -, HO⟩; iexists W; iexact HO

end Seg

theorem hinA {gr W : ℕ} (win : Fin W → Pipeline.WinSpec sig gr) (c : Dev nD) (v : (Pipeline.Prefetch.none (sig := sig)).Contents (Elt F)) :
    (iprop((∃ r, prngReg c r) ∗ Pipeline.prefHeld (Ix := Unit) (Name := ℕ) (U := UR sig nD τ) (Lvl := ℕ) Pipeline.Prefetch.none c (fun _ => fullShare) v
      ∗ Pipeline.scopedRest (Ix := Unit) (Name := ℕ) (U := UR sig nD τ) (Lvl := ℕ) (Val := Elt F) win c) : sProp 𝕄) ⊢ Pipeline.ΦA win c := by
  unfold Pipeline.ΦA
  iintro ⟨Hp, -, Hr⟩
  isplitl [Hr]; · iexact Hr
  iexact Hp
theorem houtA {gr W : ℕ} (win : Fin W → Pipeline.WinSpec sig gr) (c : Dev nD) (v : (Pipeline.Prefetch.none (sig := sig)).Contents (Elt F)) :
    (Pipeline.ΦA win c : sProp 𝕄) ⊢ iprop(((∃ r, prngReg c r) ∗ Pipeline.prefHeld (Ix := Unit) (Name := ℕ) (U := UR sig nD τ) (Lvl := ℕ) Pipeline.Prefetch.none c (fun _ => fullShare) v)
      ∗ Pipeline.scopedRest (Ix := Unit) (Name := ℕ) (U := UR sig nD τ) (Lvl := ℕ) (Val := Elt F) win c) := by
  unfold Pipeline.ΦA Pipeline.prefHeld
  rw [show (Finset.univ : Finset (Fin 0)) = ∅ from rfl, BI.bigSep_empty]
  iintro ⟨Hr, Hp⟩
  isplitl [Hp]
  · isplitl [Hp]; · iexact Hp
    iempintro
  iexact Hr

def adm : (p : Fin 9) → (pcfgs (F := F) p).Adm
  | ⟨0, _⟩ => cfg0.toPCfg_adm
  | ⟨1, _⟩ => adm1 (X21 m)
  | ⟨2, _⟩ => adm2 (X23 m)
  | ⟨3, _⟩ => cfg3.toPCfg_adm
  | ⟨4, _⟩ => adm4 (X26 m)
  | ⟨5, _⟩ => adm5 (X28 m)
  | ⟨6, _⟩ => cfg6.toPCfg_adm
  | ⟨7, _⟩ => adm7 (X35 m)
  | ⟨8, _⟩ => adm8 (X37 m)
  | ⟨_ + 9, h⟩ => absurd h (Nat.not_lt.2 (Nat.le_add_left _ _))

def pdats : (p : Fin 9) → (c : Dev nD) → Dat τ (Elt F) Unit ℕ (UR sig nD τ) ℕ (Pipeline.pin (pcfgs (F := F)) (adm m) p) c
  | ⟨0, _⟩ => fun c => L0.dat (rd (V20 m)) c
  | ⟨1, _⟩ => fun c => G1.dat (rd (X21 m)) (adm1 (X21 m)) c
  | ⟨2, _⟩ => fun c => S2.dat (rd (X23 m)) (adm2 (X23 m)) c
  | ⟨3, _⟩ => fun c => L3.dat (rd (X25 m)) c
  | ⟨4, _⟩ => fun c => G4.dat (rd (X26 m)) (adm4 (X26 m)) c
  | ⟨5, _⟩ => fun c => S5.dat (rd (X28 m)) (adm5 (X28 m)) c
  | ⟨6, _⟩ => fun c => L6.dat (rd (X34 m)) c
  | ⟨7, _⟩ => fun c => G7.dat (rd (X35 m)) (adm7 (X35 m)) c
  | ⟨8, _⟩ => fun c => S8.dat (rd (X37 m)) (adm8 (X37 m)) c
  | ⟨_ + 9, h⟩ => absurd h (Nat.not_lt.2 (Nat.le_add_left _ _))

set_option backward.isDefEq.respectTransparency.types false in
def reg0 : Pipeline.RegionSeg (pcfgs (F := F)) (adm m) (pdats m) () defs₀ 𝒱₀ L lv 0 :=
  seg (pdats m) launch0 (V20 m) (X21 m) 3 (fun _ => rfl) (fun _ _ => rfl) (by decide : ∀ w : Fin 4, w ≠ 3 → (spec0 w).isOut = false)
    (fun _ _ => rfl) (fun _ _ => rfl) (fun _ => rfl) (fun _ k => k.elim0)
    (fun c _ => L0.body_obligation (rd (V20 m)) c) (fun c => hinA spec0 c _) (fun c => houtA spec0 c _)

set_option backward.isDefEq.respectTransparency.types false in
def reg1 : Pipeline.RegionSeg (pcfgs (F := F)) (adm m) (pdats m) () defs₀ 𝒱₀ L lv 1 :=
  seg (pdats m) launch1 (X21 m) (X22 m) 3 (fun _ => rfl) (fun _ _ => rfl) (by decide : ∀ w : Fin 4, w ≠ 3 → (spec1 w).isOut = false)
    (fun _ _ => rfl) (fun _ _ => rfl) (fun _ => rfl) (fun c k => by obtain rfl := dev_eq c; rfl)
    (G1.body_obligation (rd (X21 m)) (adm1 (X21 m))) (G1.hin (rd (X21 m)) (adm1 (X21 m))) (G1.hout (rd (X21 m)) (adm1 (X21 m)))

set_option backward.isDefEq.respectTransparency.types false in
def reg2 : Pipeline.RegionSeg (pcfgs (F := F)) (adm m) (pdats m) () defs₀ 𝒱₀ L lv 2 :=
  seg (pdats m) launch2 (X23 m) (X24 m) 2 (fun _ => rfl) (fun _ _ => rfl) (by decide : ∀ w : Fin 3, w ≠ 2 → (spec2 w).isOut = false)
    (fun _ _ => rfl) (fun _ _ => rfl) (fun _ => rfl) (fun c k => by obtain rfl := dev_eq c; rfl)
    (S2.body_obligation (rd (X23 m)) (adm2 (X23 m))) (S2.hin (rd (X23 m)) (adm2 (X23 m))) (S2.hout (rd (X23 m)) (adm2 (X23 m)))

set_option backward.isDefEq.respectTransparency.types false in
def reg3 : Pipeline.RegionSeg (pcfgs (F := F)) (adm m) (pdats m) () defs₀ 𝒱₀ L lv 3 :=
  seg (pdats m) launch3 (X25 m) (X26 m) 3 (fun _ => rfl) (fun _ _ => rfl) (by decide : ∀ w : Fin 4, w ≠ 3 → (spec3 w).isOut = false)
    (fun _ _ => rfl) (fun _ _ => rfl) (fun _ => rfl) (fun _ k => k.elim0)
    (fun c _ => L3.body_obligation (rd (X25 m)) c) (fun c => hinA spec3 c _) (fun c => houtA spec3 c _)

set_option backward.isDefEq.respectTransparency.types false in
def reg4 : Pipeline.RegionSeg (pcfgs (F := F)) (adm m) (pdats m) () defs₀ 𝒱₀ L lv 4 :=
  seg (pdats m) launch4 (X26 m) (X27 m) 3 (fun _ => rfl) (fun _ _ => rfl) (by decide : ∀ w : Fin 4, w ≠ 3 → (spec4 w).isOut = false)
    (fun _ _ => rfl) (fun _ _ => rfl) (fun _ => rfl) (fun c k => by obtain rfl := dev_eq c; rfl)
    (G4.body_obligation (rd (X26 m)) (adm4 (X26 m))) (G4.hin (rd (X26 m)) (adm4 (X26 m))) (G4.hout (rd (X26 m)) (adm4 (X26 m)))

set_option backward.isDefEq.respectTransparency.types false in
def reg5 : Pipeline.RegionSeg (pcfgs (F := F)) (adm m) (pdats m) () defs₀ 𝒱₀ L lv 5 :=
  seg (pdats m) launch5 (X28 m) (X29 m) 2 (fun _ => rfl) (fun _ _ => rfl) (by decide : ∀ w : Fin 3, w ≠ 2 → (spec5 w).isOut = false)
    (fun _ _ => rfl) (fun _ _ => rfl) (fun _ => rfl) (fun c k => by obtain rfl := dev_eq c; rfl)
    (S5.body_obligation (rd (X28 m)) (adm5 (X28 m))) (S5.hin (rd (X28 m)) (adm5 (X28 m))) (S5.hout (rd (X28 m)) (adm5 (X28 m)))

set_option backward.isDefEq.respectTransparency.types false in
def reg6 : Pipeline.RegionSeg (pcfgs (F := F)) (adm m) (pdats m) () defs₀ 𝒱₀ L lv 6 :=
  seg (pdats m) launch6 (X34 m) (X35 m) 3 (fun _ => rfl) (fun _ _ => rfl) (by decide : ∀ w : Fin 4, w ≠ 3 → (spec6 w).isOut = false)
    (fun _ _ => rfl) (fun _ _ => rfl) (fun _ => rfl) (fun _ k => k.elim0)
    (fun c _ => L6.body_obligation (rd (X34 m)) c) (fun c => hinA spec6 c _) (fun c => houtA spec6 c _)

set_option backward.isDefEq.respectTransparency.types false in
def reg7 : Pipeline.RegionSeg (pcfgs (F := F)) (adm m) (pdats m) () defs₀ 𝒱₀ L lv 7 :=
  seg (pdats m) launch7 (X35 m) (X36 m) 3 (fun _ => rfl) (fun _ _ => rfl) (by decide : ∀ w : Fin 4, w ≠ 3 → (spec7 w).isOut = false)
    (fun _ _ => rfl) (fun _ _ => rfl) (fun _ => rfl) (fun c k => by obtain rfl := dev_eq c; rfl)
    (G7.body_obligation (rd (X35 m)) (adm7 (X35 m))) (G7.hin (rd (X35 m)) (adm7 (X35 m))) (G7.hout (rd (X35 m)) (adm7 (X35 m)))

set_option backward.isDefEq.respectTransparency.types false in
def reg8 : Pipeline.RegionSeg (pcfgs (F := F)) (adm m) (pdats m) () defs₀ 𝒱₀ L lv 8 :=
  seg (pdats m) launch8 (X37 m) (X38 m) 2 (fun _ => rfl) (fun _ _ => rfl) (by decide : ∀ w : Fin 3, w ≠ 2 → (spec8 w).isOut = false)
    (fun _ _ => rfl) (fun _ _ => rfl) (fun _ => rfl) (fun c k => by obtain rfl := dev_eq c; rfl)
    (S8.body_obligation (rd (X37 m)) (adm8 (X37 m))) (S8.hin (rd (X37 m)) (adm8 (X37 m))) (S8.hout (rd (X37 m)) (adm8 (X37 m)))

end Cert.KernelIdeal.Run

end
-- ==== Proof.KI.Frame.lean ====
import proofs.«429835_j17746804867087_2_alg».proof.Proof.KI.Segs

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = X39 m c b) := by
  have hrun : θ_run defs (onTc (τ := τ) (main (F := F))) ⟨m, fun _ => 0, ρ⟩ (fun r => ∀ c : Dev nD,
      ∀ b ∈ Pipeline.ucRefs τ sig, r.2.mem ((c : Thread nD τ).1, b) = V39 m (outs m) c b) := run_cond (F := F) m (Ix := Unit) (U := UR sig nD τ) (Lvl := ℕ) emb₁ () 𝒱₀ L lv (fun _ _ => rfl) ρ (outs m) (adm m) (pdats m)
    (O₀ := 0) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by refine Entails.trans ?_ fupd_intro; exact sep_emp_intro.trans (sep_mono .rfl (Entails.of_eq (BI.bigSep_emp_const _).symm)))
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE9 := fun c => by iintro ⟨-, HO⟩; iexact HO)
    (reg0 m) (fun c => .rfl) (fun c => by rw [V21_eq]; exact .rfl)
    (reg1 m) (fun c => by rw [V21_eq]; exact .rfl) (fun c => by rw [V22_eq]; exact .rfl)
    (reg2 m) (fun c => by rw [V23_eq]; exact .rfl) (fun c => by rw [V24_eq]; exact .rfl)
    (reg3 m) (fun c => by rw [V25_eq]; exact .rfl) (fun c => by rw [V26_eq]; exact .rfl)
    (reg4 m) (fun c => by rw [V26_eq]; exact .rfl) (fun c => by rw [V27_eq]; exact .rfl)
    (reg5 m) (fun c => by rw [V28_eq]; exact .rfl) (fun c => by rw [V29_eq]; exact .rfl)
    (reg6 m) (fun c => by rw [V34_eq]; exact .rfl) (fun c => by rw [V35_eq]; exact .rfl)
    (reg7 m) (fun c => by rw [V35_eq]; exact .rfl) (fun c => by rw [V36_eq]; exact .rfl)
    (reg8 m) (fun c => by rw [V37_eq]; exact .rfl) (fun c => by rw [V38_eq]; exact .rfl)
  exact (θ_run defs _ _).mono (fun r h c b hb => (h c b hb).trans (congrFun (V39_eq m c) b)) hrun

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem X39_main_arg0 (c : Dev nD) : X39 m c main_arg0 = m ((c.tc : Thread nD τ).loc main_arg0) := by
  rw [← V39_eq]; exact V39_main_arg0 m (outs m) c
theorem X39_main_arg1 (c : Dev nD) : X39 m c main_arg1 = m ((c.tc : Thread nD τ).loc main_arg1) := by
  rw [← V39_eq]; exact V39_main_arg1 m (outs m) c
theorem X39_main_arg2 (c : Dev nD) : X39 m c main_arg2 = m ((c.tc : Thread nD τ).loc main_arg2) := by
  rw [← V39_eq]; exact V39_main_arg2 m (outs m) c
theorem X39_main_arg3 (c : Dev nD) : X39 m c main_arg3 = m ((c.tc : Thread nD τ).loc main_arg3) := by
  rw [← V39_eq]; exact V39_main_arg3 m (outs m) c
theorem X39_main_arg4 (c : Dev nD) : X39 m c main_arg4 = m ((c.tc : Thread nD τ).loc main_arg4) := by
  rw [← V39_eq]; exact V39_main_arg4 m (outs m) c
theorem X39_main_arg5 (c : Dev nD) : X39 m c main_arg5 = m ((c.tc : Thread nD τ).loc main_arg5) := by
  rw [← V39_eq]; exact V39_main_arg5 m (outs m) c
theorem X39_main_arg6 (c : Dev nD) : X39 m c main_arg6 = m ((c.tc : Thread nD τ).loc main_arg6) := by
  rw [← V39_eq]; exact V39_main_arg6 m (outs m) c
theorem X39_main_arg7 (c : Dev nD) : X39 m c main_arg7 = m ((c.tc : Thread nD τ).loc main_arg7) := by
  rw [← V39_eq]; exact V39_main_arg7 m (outs m) c
theorem X39_main_arg8 (c : Dev nD) : X39 m c main_arg8 = m ((c.tc : Thread nD τ).loc main_arg8) := by
  rw [← V39_eq]; exact V39_main_arg8 m (outs m) c
theorem X39_main_arg9 (c : Dev nD) : X39 m c main_arg9 = m ((c.tc : Thread nD τ).loc main_arg9) := by
  rw [← V39_eq]; exact V39_main_arg9 m (outs m) c

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (X39_main_arg0 m c),
    (h c _ (mem_uc main_arg1 (by decide))).trans (X39_main_arg1 m c),
    (h c _ (mem_uc main_arg2 (by decide))).trans (X39_main_arg2 m c),
    (h c _ (mem_uc main_arg3 (by decide))).trans (X39_main_arg3 m c),
    (h c _ (mem_uc main_arg4 (by decide))).trans (X39_main_arg4 m c),
    (h c _ (mem_uc main_arg5 (by decide))).trans (X39_main_arg5 m c),
    (h c _ (mem_uc main_arg6 (by decide))).trans (X39_main_arg6 m c),
    (h c _ (mem_uc main_arg7 (by decide))).trans (X39_main_arg7 m c),
    (h c _ (mem_uc main_arg8 (by decide))).trans (X39_main_arg8 m c),
    (h c _ (mem_uc main_arg9 (by decide))).trans (X39_main_arg9 m c)⟩) (run_all m ρ)

end Cert.KernelIdeal.Run

end
-- ==== Proof.Spec.lean ====
import Mathlib.Data.EReal.Basic
import Mathlib.Data.EReal.Operations
import Mathlib.Algebra.BigOperators.Fin
import Mathlib.Logic.Equiv.Defs

noncomputable section

namespace Cert.Spec

open scoped BigOperators

def eblk (e : Fin 800768) : Fin 391 := ⟨e.val / 2048, by omega⟩
def nblk (n : Fin 50176) : Fin 49 := ⟨n.val / 1024, by omega⟩
def node (nb : Fin 49) (k : Fin 1024) : Fin 50176 := ⟨nb.val * 1024 + k.val, by omega⟩
def edge (eb : Fin 391) (k : Fin 2048) : Fin 800768 := ⟨eb.val * 2048 + k.val, by omega⟩
def nodeWord (n : Fin 50176) : BitVec 32 := BitVec.ofNat 32 n.val

-- An entry of a one-hot matrix: 1 where the two keys agree.
def oh (a b : BitVec 32) : EReal := if a = b then 1 else 0

-- A node block lies between the first and the last key block of an edge block.
def active (lo hi : BitVec 32) (nb : Fin 49) : Prop :=
  lo.toInt ≤ (nb.val : Int) ∧ (nb.val : Int) ≤ hi.toInt

instance (lo hi : BitVec 32) (nb : Fin 49) : Decidable (active lo hi nb) := by unfold active; infer_instance

def lin {K : Nat} (x : Fin 50176 → Fin K → EReal) (W : Fin K → Fin 128 → EReal) (b : Fin 128 → EReal)
    (r : Fin 50176) (j : Fin 128) : EReal :=
  (∑ k : Fin K, x r k * W k j) + b j

-- Per edge, the weighted row of h at the edge's source, as one-hot products summed over the admitted node blocks.
def gather (lo hi : Fin 391 → BitVec 32) (src : Fin 800768 → BitVec 32) (w : Fin 800768 → EReal)
    (h : Fin 50176 → Fin 128 → EReal) (e : Fin 800768) (j : Fin 128) : EReal :=
  ∑ nb : Fin 49, if active (lo (eblk e)) (hi (eblk e)) nb then
      ∑ k : Fin 1024, (oh (nodeWord (node nb k)) (src e) * w e) * h (node nb k) j
    else 0

-- Per node, the messages of the edges that end in it, as one-hot products summed over the admitted edge blocks.
def scatter (lo hi : Fin 391 → BitVec 32) (dst : Fin 800768 → BitVec 32) (msg : Fin 800768 → Fin 128 → EReal)
    (n : Fin 50176) (j : Fin 128) : EReal :=
  ∑ eb : Fin 391, if active (lo eb) (hi eb) (nblk n) then
      ∑ k : Fin 2048, oh (nodeWord n) (dst (edge eb k)) * msg (edge eb k) j
    else 0

def relu (f : Fin 50176 → Fin 128 → EReal) (n : Fin 50176) (j : Fin 128) : EReal := max (f n j) 0

-- The prepared graph: edges sorted by source, then by destination, with each edge block's first and last node block.
structure Prep where
  srcS : Fin 800768 → BitVec 32
  wS : Fin 800768 → EReal
  dstD : Fin 800768 → BitVec 32
  pos : Fin 800768 → Fin 800768
  lo : Fin 391 → BitVec 32
  hi : Fin 391 → BitVec 32
  lo2 : Fin 391 → BitVec 32
  hi2 : Fin 391 → BitVec 32

def layer {K : Nat} (P : Prep) (x : Fin 50176 → Fin K → EReal) (W : Fin K → Fin 128 → EReal) (b : Fin 128 → EReal) :
    Fin 50176 → Fin 128 → EReal :=
  scatter P.lo2 P.hi2 P.dstD (fun e j => gather P.lo P.hi P.srcS P.wS (lin x W b) (P.pos e) j)

def padX (x : Fin 50000 → Fin 256 → EReal) (r : Fin 50176) (k : Fin 256) : EReal :=
  if h : r.val < 50000 then x ⟨r.val, h⟩ k else 0
def padKey (s : Fin 800000 → BitVec 32) (e : Fin 800768) : BitVec 32 :=
  if h : e.val < 800000 then s ⟨e.val, h⟩ else 50175#32
def padW (w : Fin 800000 → EReal) (e : Fin 800768) : EReal :=
  if h : e.val < 800000 then w ⟨e.val, h⟩ else 0
def padW3 (W3 : Fin 128 → Fin 64 → EReal) (k : Fin 128) (j : Fin 128) : EReal :=
  if h : j.val < 64 then W3 k ⟨j.val, h⟩ else 0
def padB3 (b3 : Fin 64 → EReal) (j : Fin 128) : EReal :=
  if h : j.val < 64 then b3 ⟨j.val, h⟩ else 0

-- Three layers over the padded axes, cut back to the true nodes and columns.
def kernelOut (P : Prep) (x : Fin 50000 → Fin 256 → EReal) (W1 : Fin 256 → Fin 128 → EReal) (b1 : Fin 128 → EReal)
    (W2 : Fin 128 → Fin 128 → EReal) (b2 : Fin 128 → EReal) (W3 : Fin 128 → Fin 64 → EReal) (b3 : Fin 64 → EReal)
    (n : Fin 50000) (j : Fin 64) : EReal :=
  layer P (relu (layer P (relu (layer P (padX x) W1 b1)) W2 b2)) (padW3 W3) (padB3 b3)
    ⟨n.val, by omega⟩ ⟨j.val, by omega⟩

def refRow (s : BitVec 32) : Fin 50000 :=
  let s' : BitVec 32 := if s.toInt < 0 then s + 50000#32 else s
  ⟨min s'.toInt.toNat 49999, by omega⟩

-- A layer as the reference states it: over the edges into n, the dense row of the edge's source times its weight.
def refLayer {K D : Nat} (src dst : Fin 800000 → BitVec 32) (w : Fin 800000 → EReal)
    (x : Fin 50000 → Fin K → EReal) (W : Fin K → Fin D → EReal) (b : Fin D → EReal) (n : Fin 50000) (j : Fin D) : EReal :=
  ∑ e ∈ Finset.univ.filter (fun e : Fin 800000 => (dst e).toInt = (n.val : Int)),
    ((∑ k : Fin K, x (refRow (src e)) k * W k j) + b j) * w e

def refRelu {D : Nat} (f : Fin 50000 → Fin D → EReal) (n : Fin 50000) (j : Fin D) : EReal := max (f n j) 0

def refOut (src dst : Fin 800000 → BitVec 32) (w : Fin 800000 → EReal)
    (x : Fin 50000 → Fin 256 → EReal) (W1 : Fin 256 → Fin 128 → EReal) (b1 : Fin 128 → EReal)
    (W2 : Fin 128 → Fin 128 → EReal) (b2 : Fin 128 → EReal) (W3 : Fin 128 → Fin 64 → EReal) (b3 : Fin 64 → EReal) :
    Fin 50000 → Fin 64 → EReal :=
  refLayer src dst w (refRelu (refLayer src dst w (refRelu (refLayer src dst w x W1 b1)) W2 b2)) W3 b3

structure FloorDivFacts (fd : BitVec 32 → BitVec 32) : Prop where
  nonneg : ∀ x : BitVec 32, 0 ≤ x.toInt → (fd x).toInt = x.toInt / 1024
  neg : ∀ x : BitVec 32, x.toInt < 0 → (fd x).toInt ≤ 0

-- The preparation is a double sort of the padded edge list, and the tables are floor-divided keys at block ends.
structure PrepOK (P : Prep) (src dst : Fin 800000 → BitVec 32) (w : Fin 800000 → EReal) : Prop where
  exσ : ∃ σ : Equiv.Perm (Fin 800768),
    (∀ e, P.srcS e = padKey src (σ e)) ∧ (∀ e, P.wS e = padW w (σ e)) ∧
    ∃ π : Equiv.Perm (Fin 800768), (∀ e, P.pos e = π e) ∧ (∀ e, P.dstD e = padKey dst (σ (π e)))
  srcSorted : ∀ e e' : Fin 800768, e ≤ e' → (P.srcS e).toInt ≤ (P.srcS e').toInt
  dstSorted : ∀ e e' : Fin 800768, e ≤ e' → (P.dstD e).toInt ≤ (P.dstD e').toInt
  exfd : ∃ fd : BitVec 32 → BitVec 32, FloorDivFacts fd ∧
    (∀ b : Fin 391, P.lo b = fd (P.srcS (edge b ⟨0, by omega⟩))) ∧ (∀ b : Fin 391, P.hi b = fd (P.srcS (edge b ⟨2047, by omega⟩))) ∧
    (∀ b : Fin 391, P.lo2 b = fd (P.dstD (edge b ⟨0, by omega⟩))) ∧ (∀ b : Fin 391, P.hi2 b = fd (P.dstD (edge b ⟨2047, by omega⟩)))

def SrcInRange (src : Fin 800000 → BitVec 32) : Prop := ∀ e, 0 ≤ (src e).toInt ∧ (src e).toInt < 50000

-- Skipping the block pairs the tables exclude loses no term: the blocked sums are the reference's sums.
def Goal : Prop :=
  ∀ (P : Prep) (src dst : Fin 800000 → BitVec 32) (w : Fin 800000 → EReal)
    (x : Fin 50000 → Fin 256 → EReal) (W1 : Fin 256 → Fin 128 → EReal) (b1 : Fin 128 → EReal)
    (W2 : Fin 128 → Fin 128 → EReal) (b2 : Fin 128 → EReal) (W3 : Fin 128 → Fin 64 → EReal) (b3 : Fin 64 → EReal),
    PrepOK P src dst w → SrcInRange src →
    kernelOut P x W1 b1 W2 b2 W3 b3 = refOut src dst w x W1 b1 W2 b2 W3 b3

end Cert.Spec

end
-- ==== Proof.KI.HostDef.lean ====
import proofs.«429835_j17746804867087_2_alg».proof.Proof.KI.RegionsP
import proofs.«429835_j17746804867087_2_alg».proof.Proof.Spec
import Idealize.ShloMosaic.Lib.ValueIdx

noncomputable section

namespace Cert.KernelIdeal.Host

open Idealize.ShloMosaic Idealize.ShloMosaic.TcCoe Idealize.SL.Sem
open Cert.KernelIdeal Cert.KernelIdeal.Gen

variable (m : (ℓ : Loc nD τ sig) → Buf (Elt Ideal) ℓ) (c : Dev nD)

def xA : Fin 50000 → Fin 256 → EReal := fun r k => m ((c.tc : Thread nD τ).loc main_arg0) (ValueIdx.ix2 r k)
def srcA : Fin 800000 → BitVec 32 := fun e => m ((c.tc : Thread nD τ).loc main_arg1) (ValueIdx.ix1 e)
def dstA : Fin 800000 → BitVec 32 := fun e => m ((c.tc : Thread nD τ).loc main_arg2) (ValueIdx.ix1 e)
def wA : Fin 800000 → EReal := fun e => m ((c.tc : Thread nD τ).loc main_arg3) (ValueIdx.ix1 e)
def W1A : Fin 256 → Fin 128 → EReal := fun k j => m ((c.tc : Thread nD τ).loc main_arg4) (ValueIdx.ix2 k j)
def b1A : Fin 128 → EReal := fun j => m ((c.tc : Thread nD τ).loc main_arg5) (ValueIdx.ix1 j)
def W2A : Fin 128 → Fin 128 → EReal := fun k j => m ((c.tc : Thread nD τ).loc main_arg6) (ValueIdx.ix2 k j)
def b2A : Fin 128 → EReal := fun j => m ((c.tc : Thread nD τ).loc main_arg7) (ValueIdx.ix1 j)
def W3A : Fin 128 → Fin 64 → EReal := fun k j => m ((c.tc : Thread nD τ).loc main_arg8) (ValueIdx.ix2 k j)
def b3A : Fin 64 → EReal := fun j => m ((c.tc : Thread nD τ).loc main_arg9) (ValueIdx.ix1 j)

def posOf (p : BitVec 32) : Fin 800768 :=
  let p' : BitVec 32 := if p.toInt < 0 then p + 800768#32 else p
  ⟨min p'.toInt.toNat 800767, by omega⟩

def prep : Cert.Spec.Prep where
  srcS e := V20 m c main_v48 (ValueIdx.ix2 (0 : Fin 1) e)
  wS e := V20 m c main_v49 (ValueIdx.ix2 (0 : Fin 1) e)
  dstD e := V20 m c main_v50 (ValueIdx.ix2 (0 : Fin 1) e)
  pos e := posOf (V20 m c main_v26 (ValueIdx.ix1 e))
  lo b := V20 m c main_v37 (ValueIdx.ix1 b)
  hi b := V20 m c main_v40 (ValueIdx.ix1 b)
  lo2 b := V20 m c main_v44 (ValueIdx.ix1 b)
  hi2 b := V20 m c main_v47 (ValueIdx.ix1 b)

end Cert.KernelIdeal.Host

end
-- ==== Proof.KI.HostStage.lean ====
import proofs.«429835_j17746804867087_2_alg».proof.Proof.KI.HostDef
import Idealize.ShloMosaic.Lib.StableHlo.Run

set_option maxRecDepth 1556

noncomputable section

namespace Cert.KernelIdeal.Host

open Idealize.ShloMosaic Idealize.ShloMosaic.TcCoe Idealize.SL.Sem
open Idealize.ShloMosaic.StableHlo
open Cert.KernelIdeal Cert.KernelIdeal.Gen

local notation "𝕍" => Valuation τ sig (Elt Ideal)

theorem up_step {α : Sort _} {β : Type _} {x y z : α} {l₁ l₂ : List β} {r : β} (h : r ∉ l₁ ++ l₂)
    (f : r ∉ l₂ → x = y) (g : r ∉ l₁ → y = z) : x = z :=
  (f (mt (List.mem_append_right _) h)).trans (g (mt (List.mem_append_left _) h))

-- The references the stretches from `k` on write.
abbrev W19 : List (Ref sig .tc) := hostOps0_19_W
abbrev W18 : List (Ref sig .tc) := hostOps0_18_W ++ W19
abbrev W17 : List (Ref sig .tc) := hostOps0_17_W ++ W18
abbrev W16 : List (Ref sig .tc) := hostOps0_16_W ++ W17
abbrev W15 : List (Ref sig .tc) := hostOps0_15_W ++ W16
abbrev W14 : List (Ref sig .tc) := hostOps0_14_W ++ W15
abbrev W13 : List (Ref sig .tc) := hostOps0_13_W ++ W14
abbrev W12 : List (Ref sig .tc) := hostOps0_12_W ++ W13
abbrev W11 : List (Ref sig .tc) := hostOps0_11_W ++ W12
abbrev W10 : List (Ref sig .tc) := hostOps0_10_W ++ W11
abbrev W9 : List (Ref sig .tc) := hostOps0_9_W ++ W10
abbrev W8 : List (Ref sig .tc) := hostOps0_8_W ++ W9
abbrev W7 : List (Ref sig .tc) := hostOps0_7_W ++ W8
abbrev W6 : List (Ref sig .tc) := hostOps0_6_W ++ W7
abbrev W5 : List (Ref sig .tc) := hostOps0_5_W ++ W6
abbrev W4 : List (Ref sig .tc) := hostOps0_4_W ++ W5
abbrev W3 : List (Ref sig .tc) := hostOps0_3_W ++ W4
abbrev W2 : List (Ref sig .tc) := hostOps0_2_W ++ W3
abbrev W1 : List (Ref sig .tc) := hostOps0_1_W ++ W2
abbrev W0 : List (Ref sig .tc) := hostOps0_W ++ W1

section Keep
variable {m : (ℓ : Loc nD τ sig) → Buf (Elt Ideal) ℓ} {c : Dev nD} (r : Ref sig .tc)

-- A reference no stretch from `k` on writes holds at the first region's entry what it held before stretch `k`.
theorem up19 (h : r ∉ W19 := by decide) : V20 m c r = V19 m c r := V20_of m c r h
theorem up18 (h : r ∉ W18 := by decide) : V20 m c r = V18 m c r := up_step h (up19 r ·) (V19_of m c r)
theorem up17 (h : r ∉ W17 := by decide) : V20 m c r = V17 m c r := up_step h (up18 r ·) (V18_of m c r)
theorem up16 (h : r ∉ W16 := by decide) : V20 m c r = V16 m c r := up_step h (up17 r ·) (V17_of m c r)
theorem up15 (h : r ∉ W15 := by decide) : V20 m c r = V15 m c r := up_step h (up16 r ·) (V16_of m c r)
theorem up14 (h : r ∉ W14 := by decide) : V20 m c r = V14 m c r := up_step h (up15 r ·) (V15_of m c r)
theorem up13 (h : r ∉ W13 := by decide) : V20 m c r = V13 m c r := up_step h (up14 r ·) (V14_of m c r)
theorem up12 (h : r ∉ W12 := by decide) : V20 m c r = V12 m c r := up_step h (up13 r ·) (V13_of m c r)
theorem up11 (h : r ∉ W11 := by decide) : V20 m c r = V11 m c r := up_step h (up12 r ·) (V12_of m c r)
theorem up10 (h : r ∉ W10 := by decide) : V20 m c r = V10 m c r := up_step h (up11 r ·) (V11_of m c r)
theorem up9 (h : r ∉ W9 := by decide) : V20 m c r = V9 m c r := up_step h (up10 r ·) (V10_of m c r)
theorem up8 (h : r ∉ W8 := by decide) : V20 m c r = V8 m c r := up_step h (up9 r ·) (V9_of m c r)
theorem up7 (h : r ∉ W7 := by decide) : V20 m c r = V7 m c r := up_step h (up8 r ·) (V8_of m c r)
theorem up6 (h : r ∉ W6 := by decide) : V20 m c r = V6 m c r := up_step h (up7 r ·) (V7_of m c r)
theorem up5 (h : r ∉ W5 := by decide) : V20 m c r = V5 m c r := up_step h (up6 r ·) (V6_of m c r)
theorem up4 (h : r ∉ W4 := by decide) : V20 m c r = V4 m c r := up_step h (up5 r ·) (V5_of m c r)
theorem up3 (h : r ∉ W3 := by decide) : V20 m c r = V3 m c r := up_step h (up4 r ·) (V4_of m c r)
theorem up2 (h : r ∉ W2 := by decide) : V20 m c r = V2 m c r := up_step h (up3 r ·) (V3_of m c r)
theorem up1 (h : r ∉ W1 := by decide) : V20 m c r = V1 m c r := up_step h (up2 r ·) (V2_of m c r)
theorem up0 (h : r ∉ W0 := by decide) : V20 m c r = V0 m c r := up_step h (up1 r ·) (V1_of m c r)

end Keep

theorem a1_v0 (Vb : 𝕍) :
    StableHlo.after hostOps0_1 (StableHlo.after hostOps0 Vb) (Proc.devRef .tc main_v0)
      = pad S50176x256 ![0, 0] ![176, 0] ![0, 0] (Vb (Proc.devRef .tc main_arg0) : FVec Ideal S50000x256 .f32)
          (sitofp .f32 (constantI S_ 32 0#32) : FVec Ideal S_ .f32) pads_S50000x256_S50176x256_01760_000 h_S_ := by
  after_results
  rfl

theorem a3_v1 (Vb : 𝕍) :
    StableHlo.after hostOps0_3 (StableHlo.after hostOps0_2 Vb) (Proc.devRef .tc main_v1)
      = pad S800768 ![0] ![768] ![0] (Vb (Proc.devRef .tc main_arg1) : IVec S800000 32)
          (constantI S_ 32 50175#32) pads_S800000_S800768_07680 h_S_ := by
  after_results
  rfl

theorem a5_v2 (Vb : 𝕍) :
    StableHlo.after hostOps0_5 (StableHlo.after hostOps0_4 Vb) (Proc.devRef .tc main_v2)
      = pad S800768 ![0] ![768] ![0] (Vb (Proc.devRef .tc main_arg2) : IVec S800000 32)
          (constantI S_ 32 50175#32) pads_S800000_S800768_07680 h_S_ := by
  after_results
  rfl

theorem a7_v3 (Vb : 𝕍) :
    StableHlo.after hostOps0_7 (StableHlo.after hostOps0_6 Vb) (Proc.devRef .tc main_v3)
      = pad S800768 ![0] ![768] ![0] (Vb (Proc.devRef .tc main_arg3) : FVec Ideal S800000 .f32)
          (constant S_ .f32 0x00000000#32 : FVec Ideal S_ .f32) pads_S800000_S800768_07680 h_S_ := by
  after_results
  rfl

theorem a8_v4 (Vb : 𝕍) :
    StableHlo.after hostOps0_8 Vb (Proc.devRef .tc main_v4)
      = (Host.sort2 S800768 0 comparator_i32_i32_d0 (Vb (Proc.devRef .tc main_v1) : IVec S800768 32)
          (iotaInDim S800768 32 0)).2 := by
  after_results
  rfl

theorem a10_v26 (Vb : 𝕍) :
    StableHlo.after hostOps0_10 Vb (Proc.devRef .tc main_v26)
      = (Host.sort2 S800768 0 comparator_i32_i32_d0 (Vb (Proc.devRef .tc main_v18) : IVec S800768 32)
          (iotaInDim S800768 32 0)).2 := by
  after_results
  rfl

theorem a19_v48 (Vb : 𝕍) :
    StableHlo.after hostOps0_19 Vb (Proc.devRef .tc main_v48)
      = shapeCast S1x800768 (Vb (Proc.devRef .tc main_v11) : IVec S800768 32) shapeCasts_S800768_S1x800768 := by
  after_results
  rfl

theorem a19_v49 (Vb : 𝕍) :
    StableHlo.after hostOps0_19 Vb (Proc.devRef .tc main_v49)
      = shapeCast S1x800768 (Vb (Proc.devRef .tc main_v25) : FVec Ideal S800768 .f32) shapeCasts_S800768_S1x800768 := by
  after_results
  rfl

theorem a19_v50 (Vb : 𝕍) :
    StableHlo.after hostOps0_19 Vb (Proc.devRef .tc main_v50)
      = shapeCast S1x800768 (Vb (Proc.devRef .tc main_v33) : IVec S800768 32) shapeCasts_S800768_S1x800768 := by
  after_results
  rfl

theorem a19_v51 (Vb : 𝕍) :
    StableHlo.after hostOps0_19 Vb (Proc.devRef .tc main_v51)
      = shapeCast S1x128 (Vb (Proc.devRef .tc main_arg5) : FVec Ideal S128 .f32) shapeCasts_S128_S1x128 := by
  after_results
  rfl

variable (m : (ℓ : Loc nD τ sig) → Buf (Elt Ideal) ℓ) (c : Dev nD)

theorem st_v0 :
    V20 m c main_v0
      = pad S50176x256 ![0, 0] ![176, 0] ![0, 0] (V20 m c main_arg0 : FVec Ideal S50000x256 .f32)
          (sitofp .f32 (constantI S_ 32 0#32) : FVec Ideal S_ .f32) pads_S50000x256_S50176x256_01760_000 h_S_ := by
  rw [up2 main_v0, up0 main_arg0]; exact a1_v0 _

theorem st_v1 :
    V20 m c main_v1
      = pad S800768 ![0] ![768] ![0] (V20 m c main_arg1 : IVec S800000 32) (constantI S_ 32 50175#32) pads_S800000_S800768_07680 h_S_ := by
  rw [up4 main_v1, up2 main_arg1]; exact a3_v1 _

theorem st_v2 :
    V20 m c main_v2
      = pad S800768 ![0] ![768] ![0] (V20 m c main_arg2 : IVec S800000 32) (constantI S_ 32 50175#32) pads_S800000_S800768_07680 h_S_ := by
  rw [up6 main_v2, up4 main_arg2]; exact a5_v2 _

theorem st_v3 :
    V20 m c main_v3
      = pad S800768 ![0] ![768] ![0] (V20 m c main_arg3 : FVec Ideal S800000 .f32) (constant S_ .f32 0x00000000#32 : FVec Ideal S_ .f32) pads_S800000_S800768_07680 h_S_ := by
  rw [up8 main_v3, up6 main_arg3]; exact a7_v3 _

theorem st_v4 :
    V20 m c main_v4
      = (Host.sort2 S800768 0 comparator_i32_i32_d0 (V20 m c main_v1 : IVec S800768 32) (iotaInDim S800768 32 0)).2 := by
  rw [up9 main_v4, up8 main_v1]; exact a8_v4 _

theorem st_v26 :
    V20 m c main_v26
      = (Host.sort2 S800768 0 comparator_i32_i32_d0 (V20 m c main_v18 : IVec S800768 32) (iotaInDim S800768 32 0)).2 := by
  rw [up11 main_v26, up10 main_v18]; exact a10_v26 _

theorem st_v48 :
    V20 m c main_v48 = shapeCast S1x800768 (V20 m c main_v11 : IVec S800768 32) shapeCasts_S800768_S1x800768 := by
  rw [up19 main_v11]; exact a19_v48 _

theorem st_v49 :
    V20 m c main_v49 = shapeCast S1x800768 (V20 m c main_v25 : FVec Ideal S800768 .f32) shapeCasts_S800768_S1x800768 := by
  rw [up19 main_v25]; exact a19_v49 _

theorem st_v50 :
    V20 m c main_v50 = shapeCast S1x800768 (V20 m c main_v33 : IVec S800768 32) shapeCasts_S800768_S1x800768 := by
  rw [up19 main_v33]; exact a19_v50 _

theorem st_v51 :
    V20 m c main_v51 = shapeCast S1x128 (V20 m c main_arg5 : FVec Ideal S128 .f32) shapeCasts_S128_S1x128 := by
  rw [up19 main_arg5]; exact a19_v51 _

end Cert.KernelIdeal.Host

end
-- ==== Proof.KI.HostOps.lean ====
import proofs.«429835_j17746804867087_2_alg».proof.Proof.KI.HostDef

noncomputable section

namespace Cert.KernelIdeal.Host

open Idealize.ShloMosaic
open Cert.KernelIdeal Cert.KernelIdeal.Gen

def normIdx (p : IVec S800768 32) : IVec S800768x1 32 :=
  broadcastInDim S800768x1 ![0] bcast_S800768_S800768x1_0
    (select (cmpi .slt p (broadcastInDim S800768 ![] bcast_S_S800768 (constantI S_ 32 0#32)))
      (addi p (broadcastInDim S800768 ![] bcast_S_S800768 (constantI S_ 32 800768#32))) p)

def floordiv (x : IVec S391 32) : IVec S391 32 :=
  select
    (andi
      (cmpi .ne (signi x) (broadcastInDim S391 ![] bcast_S_S391 (signi (constantI S_ 32 1024#32))))
      (cmpi .ne (Host.remsi x (broadcastInDim S391 ![] bcast_S_S391 (constantI S_ 32 1024#32)))
        (broadcastInDim S391 ![] bcast_S_S391 (constantI S_ 32 0#32))))
    (subi (Host.divsi x (broadcastInDim S391 ![] bcast_S_S391 (constantI S_ 32 1024#32)))
      (broadcastInDim S391 ![] bcast_S_S391 (constantI S_ 32 1#32)))
    (Host.divsi x (broadcastInDim S391 ![] bcast_S_S391 (constantI S_ 32 1024#32)))

end Cert.KernelIdeal.Host

end
-- ==== Proof.KI.HostStage2.lean ====
import proofs.«429835_j17746804867087_2_alg».proof.Proof.KI.HostStage
import proofs.«429835_j17746804867087_2_alg».proof.Proof.KI.HostOps

set_option maxRecDepth 1556

noncomputable section

namespace Cert.KernelIdeal.Host

open Idealize.ShloMosaic Idealize.ShloMosaic.TcCoe Idealize.SL.Sem
open Idealize.ShloMosaic.StableHlo
open Cert.KernelIdeal Cert.KernelIdeal.Gen

local notation "𝕍" => Valuation τ sig (Elt Ideal)

theorem a9_v11 (Vb : 𝕍) :
    StableHlo.after hostOps0_9 Vb (Proc.devRef .tc main_v11)
      = Host.gather gather_S800768_S800768x1_S800768_n_0_n_n_0_1_1 (Vb (Proc.devRef .tc main_v1) : IVec S800768 32)
          (normIdx (Vb (Proc.devRef .tc main_v4))) := by
  after_results_simp
  rfl

theorem a9_v18 (Vb : 𝕍) :
    StableHlo.after hostOps0_9 Vb (Proc.devRef .tc main_v18)
      = Host.gather gather_S800768_S800768x1_S800768_n_0_n_n_0_1_1 (Vb (Proc.devRef .tc main_v2) : IVec S800768 32)
          (normIdx (Vb (Proc.devRef .tc main_v4))) := by
  after_results_simp
  rfl

theorem a9_v25 (Vb : 𝕍) :
    StableHlo.after hostOps0_9 Vb (Proc.devRef .tc main_v25)
      = Host.gather gather_S800768_S800768x1_S800768_n_0_n_n_0_1_1 (Vb (Proc.devRef .tc main_v3) : FVec Ideal S800768 .f32)
          (normIdx (Vb (Proc.devRef .tc main_v4))) := by
  after_results_simp
  rfl

theorem a11_v33 (Vb : 𝕍) :
    StableHlo.after hostOps0_11 Vb (Proc.devRef .tc main_v33)
      = Host.gather gather_S800768_S800768x1_S800768_n_0_n_n_0_1_1 (Vb (Proc.devRef .tc main_v18) : IVec S800768 32)
          (normIdx (Vb (Proc.devRef .tc main_v26))) := by
  after_results_simp
  rfl

theorem b2_v60 (Vb : 𝕍) :
    StableHlo.after hostOps2 Vb (Proc.devRef .tc main_v60)
      = Host.gather gather_S800768x128_S800768x1_S800768x128_1_0_n_n_0_1_1128 (Vb (Proc.devRef .tc main_v53) : FVec Ideal S800768x128 .bf16)
          (normIdx (Vb (Proc.devRef .tc main_v26))) := by
  after_results_simp
  rfl

theorem b5_v71 (Vb : 𝕍) :
    StableHlo.after hostOps5 Vb (Proc.devRef .tc main_v71)
      = Host.gather gather_S800768x128_S800768x1_S800768x128_1_0_n_n_0_1_1128 (Vb (Proc.devRef .tc main_v64) : FVec Ideal S800768x128 .bf16)
          (normIdx (Vb (Proc.devRef .tc main_v26))) := by
  after_results_simp
  rfl

theorem b8_v84 (Vb : 𝕍) :
    StableHlo.after hostOps8 Vb (Proc.devRef .tc main_v84)
      = Host.gather gather_S800768x128_S800768x1_S800768x128_1_0_n_n_0_1_1128 (Vb (Proc.devRef .tc main_v77) : FVec Ideal S800768x128 .bf16)
          (normIdx (Vb (Proc.devRef .tc main_v26))) := by
  after_results_simp
  rfl

variable (m : (ℓ : Loc nD τ sig) → Buf (Elt Ideal) ℓ) (c : Dev nD)

theorem st_v11 :
    V20 m c main_v11
      = Host.gather gather_S800768_S800768x1_S800768_n_0_n_n_0_1_1 (V20 m c main_v1 : IVec S800768 32) (normIdx (V20 m c main_v4)) := by
  rw [up10 main_v11, up9 main_v1, up9 main_v4]; exact a9_v11 _

theorem st_v18 :
    V20 m c main_v18
      = Host.gather gather_S800768_S800768x1_S800768_n_0_n_n_0_1_1 (V20 m c main_v2 : IVec S800768 32) (normIdx (V20 m c main_v4)) := by
  rw [up10 main_v18, up9 main_v2, up9 main_v4]; exact a9_v18 _

theorem st_v25 :
    V20 m c main_v25
      = Host.gather gather_S800768_S800768x1_S800768_n_0_n_n_0_1_1 (V20 m c main_v3 : FVec Ideal S800768 .f32) (normIdx (V20 m c main_v4)) := by
  rw [up10 main_v25, up9 main_v3, up9 main_v4]; exact a9_v25 _

theorem st_v33 :
    V20 m c main_v33
      = Host.gather gather_S800768_S800768x1_S800768_n_0_n_n_0_1_1 (V20 m c main_v18 : IVec S800768 32) (normIdx (V20 m c main_v26)) := by
  rw [up12 main_v33, up11 main_v18, up11 main_v26]; exact a11_v33 _

end Cert.KernelIdeal.Host

end
-- ==== Proof.KI.HostStage3.lean ====
import proofs.«429835_j17746804867087_2_alg».proof.Proof.KI.HostStage
import proofs.«429835_j17746804867087_2_alg».proof.Proof.KI.HostOps

set_option maxRecDepth 1556

noncomputable section

namespace Cert.KernelIdeal.Host

open Idealize.ShloMosaic Idealize.ShloMosaic.TcCoe Idealize.SL.Sem
open Idealize.ShloMosaic.StableHlo
open Cert.KernelIdeal Cert.KernelIdeal.Gen

local notation "𝕍" => Valuation τ sig (Elt Ideal)

-- The first key of each block of 2048 keys.
def firsts (x : IVec S800768 32) : IVec S391 32 :=
  shapeCast S391 (extractStridedSlice S391x1 ![0, 0] (shapeCast S391x2048 x shapeCasts_S800768_S391x2048)
    slices_S391x2048_S391x1_0_0) shapeCasts_S391x1_S391

-- The last key of each block of 2048 keys.
def lasts (x : IVec S800768 32) : IVec S391 32 :=
  shapeCast S391 (extractStridedSlice S391x1 ![0, 2047] (shapeCast S391x2048 x shapeCasts_S800768_S391x2048)
    slices_S391x2048_S391x1_0_2047) shapeCasts_S391x1_S391

theorem a11_v36 (Vb : 𝕍) :
    StableHlo.after hostOps0_11 Vb (Proc.devRef .tc main_v36)
      = firsts (Vb (Proc.devRef .tc main_v11)) := by
  after_results_simp
  rfl

theorem a11_c10 (Vb : 𝕍) : StableHlo.after hostOps0_11 Vb (Proc.devRef .tc main_c_10) = constantI S_ 32 1024#32 := by
  after_results_simp

theorem a12_v37 (Vb : 𝕍) (hc : Vb (Proc.devRef .tc main_c_10) = constantI S_ 32 1024#32) :
    StableHlo.after hostOps0_12 Vb (Proc.devRef .tc main_v37) = floordiv (Vb (Proc.devRef .tc main_v36)) := by
  after_results_simp
  rw [hc]
  rfl

theorem a13_v39 (Vb : 𝕍) :
    StableHlo.after hostOps0_13 (StableHlo.after hostOps0_12 (StableHlo.after hostOps0_11 Vb)) (Proc.devRef .tc main_v39)
      = lasts (Vb (Proc.devRef .tc main_v11)) := by
  after_results_simp
  rfl

theorem a13_c11 (Vb : 𝕍) : StableHlo.after hostOps0_13 Vb (Proc.devRef .tc main_c_11) = constantI S_ 32 1024#32 := by
  after_results_simp

theorem a14_v40 (Vb : 𝕍) (hc : Vb (Proc.devRef .tc main_c_11) = constantI S_ 32 1024#32) :
    StableHlo.after hostOps0_14 Vb (Proc.devRef .tc main_v40) = floordiv (Vb (Proc.devRef .tc main_v39)) := by
  after_results_simp
  rw [hc]
  rfl

theorem a15_v43 (Vb : 𝕍) :
    StableHlo.after hostOps0_15 Vb (Proc.devRef .tc main_v43)
      = firsts (Vb (Proc.devRef .tc main_v33)) := by
  after_results_simp
  rfl

theorem a15_c12 (Vb : 𝕍) : StableHlo.after hostOps0_15 Vb (Proc.devRef .tc main_c_12) = constantI S_ 32 1024#32 := by
  after_results_simp

theorem a16_v44 (Vb : 𝕍) (hc : Vb (Proc.devRef .tc main_c_12) = constantI S_ 32 1024#32) :
    StableHlo.after hostOps0_16 Vb (Proc.devRef .tc main_v44) = floordiv (Vb (Proc.devRef .tc main_v43)) := by
  after_results_simp
  rw [hc]
  rfl

theorem a17_v46 (Vb : 𝕍) :
    StableHlo.after hostOps0_17 (StableHlo.after hostOps0_16 (StableHlo.after hostOps0_15 Vb)) (Proc.devRef .tc main_v46)
      = lasts (Vb (Proc.devRef .tc main_v33)) := by
  after_results_simp
  rfl

theorem a17_c13 (Vb : 𝕍) : StableHlo.after hostOps0_17 Vb (Proc.devRef .tc main_c_13) = constantI S_ 32 1024#32 := by
  after_results_simp

theorem a18_v47 (Vb : 𝕍) (hc : Vb (Proc.devRef .tc main_c_13) = constantI S_ 32 1024#32) :
    StableHlo.after hostOps0_18 Vb (Proc.devRef .tc main_v47) = floordiv (Vb (Proc.devRef .tc main_v46)) := by
  after_results_simp
  rw [hc]
  rfl

variable (m : (ℓ : Loc nD τ sig) → Buf (Elt Ideal) ℓ) (c : Dev nD)

theorem st_v37 : V20 m c main_v37 = floordiv (firsts (V20 m c main_v11)) := by
  rw [up13 main_v37, up11 main_v11, ← a11_v36 (V11 m c)]
  exact a12_v37 _ (a11_c10 _)

theorem st_v40 : V20 m c main_v40 = floordiv (lasts (V20 m c main_v11)) := by
  rw [up15 main_v40, up11 main_v11, ← a13_v39 (V11 m c)]
  exact a14_v40 _ (a13_c11 _)

theorem st_v44 : V20 m c main_v44 = floordiv (firsts (V20 m c main_v33)) := by
  rw [up17 main_v44, up15 main_v33, ← a15_v43 (V15 m c)]
  exact a16_v44 _ (a15_c12 _)

theorem st_v47 : V20 m c main_v47 = floordiv (lasts (V20 m c main_v33)) := by
  rw [up19 main_v47, up15 main_v33, ← a17_v46 (V15 m c)]
  exact a18_v47 _ (a17_c13 _)

end Cert.KernelIdeal.Host

end
-- ==== Proof.KI.HostStage4.lean ====
import proofs.«429835_j17746804867087_2_alg».proof.Proof.KI.HostDef
import Idealize.ShloMosaic.Lib.StableHlo.Run

set_option maxRecDepth 1556

noncomputable section

namespace Cert.KernelIdeal.Host

open Idealize.ShloMosaic Idealize.ShloMosaic.TcCoe Idealize.SL.Sem
open Idealize.ShloMosaic.StableHlo
open Cert.KernelIdeal Cert.KernelIdeal.Gen

local notation "𝕍" => Valuation τ sig (Elt Ideal)

theorem b3_v62 (Vb : 𝕍) :
    StableHlo.after hostOps3 Vb (Proc.devRef .tc main_v62)
      = shapeCast S1x128 (Vb (Proc.devRef .tc main_arg7) : FVec Ideal S128 .f32) shapeCasts_S128_S1x128 := by
  after_results
  rfl

theorem b6_v73 (Vb : 𝕍) :
    StableHlo.after hostOps6_4 (StableHlo.after hostOps6_3 (StableHlo.after hostOps6_2 (StableHlo.after hostOps6_1
        (StableHlo.after hostOps6 Vb)))) (Proc.devRef .tc main_v73)
      = pad S128x128 ![0, 0] ![0, 64] ![0, 0] (Vb (Proc.devRef .tc main_arg8) : FVec Ideal S128x64 .f32)
          (sitofp .f32 (constantI S_ 32 0#32) : FVec Ideal S_ .f32) pads_S128x64_S128x128_000_0640 h_S_ := by
  after_results
  rfl

theorem b6_v75 (Vb : 𝕍) :
    StableHlo.after hostOps6_4 (StableHlo.after hostOps6_3 (StableHlo.after hostOps6_2 (StableHlo.after hostOps6_1
        (StableHlo.after hostOps6 Vb)))) (Proc.devRef .tc main_v75)
      = shapeCast S1x128 (pad S128 ![0] ![64] ![0] (Vb (Proc.devRef .tc main_arg9) : FVec Ideal S64 .f32)
          (sitofp .f32 (constantI S_ 32 0#32) : FVec Ideal S_ .f32) pads_S64_S128_0640 h_S_) shapeCasts_S128_S1x128 := by
  after_results
  rfl

theorem b9_v86 (Vb : 𝕍) :
    StableHlo.after hostOps9 Vb (Proc.devRef .tc main_v86)
      = extractStridedSlice S50000x64 ![0, 0] (Vb (Proc.devRef .tc main_v85) : FVec Ideal S50176x128 .f32)
          slices_S50176x128_S50000x64_0_0 := by
  after_results

end Cert.KernelIdeal.Host

end
-- ==== Proof.KI.HostTab.lean ====
import proofs.«429835_j17746804867087_2_alg».proof.Proof.KI.HostOps
import Idealize.ShloMosaic.Lib.ValueIdx
import Idealize.ShloMosaic.Lib.IdealHost
import Idealize.ShloMosaic.Lib.KernelVsHost
import Idealize.ShloMosaic.Lib.Pipeline.Value

noncomputable section

namespace Cert.KernelIdeal.Host
open Idealize.ShloMosaic

-- One axis padded at its end from `n` to `N` entries: an entry below `n` is the operand's, a later one the padding value.
theorem pad1_apply {α : Type} {n N p : Nat} (hp : (⟨1, ![n]⟩ : Shape).Pads (![0] : Fin 1 → Nat) ![p] ![0] ⟨1, ![N]⟩)
    (hu : 0 < (⟨0, ![]⟩ : Shape).numel) (x : (⟨1, ![n]⟩ : Shape).Idx → α) (v : (⟨0, ![]⟩ : Shape).Idx → α) (e : Fin N) :
    pad ⟨1, ![N]⟩ ![0] ![p] ![0] x v hp hu (ValueIdx.ix1 e)
      = if h : e.val < n then x (ValueIdx.ix1 ⟨e.val, h⟩) else v ValueIdx.ix0 := by
  by_cases h : e.val < n
  · rw [dif_pos h]
    refine pad_apply_of_inside _ _ _ x v hp hu _ (ValueIdx.ix1 ⟨e.val, h⟩) ?_
    intro a
    match a with
    | ⟨0, _⟩ => show e.val = 0 + e.val * (0 + 1); omega
  · rw [dif_neg h]
    refine (pad_apply_of_not_inside _ _ _ x v hp hu _ (0 : Fin 1) ?_).trans (congrArg v (ValueIdx.eq_ix0 _))
    rintro ⟨_, _, h3⟩
    have h3' : (e.val - 0) / (0 + 1) < n := h3
    omega

-- A vector as one row.
theorem row_apply {α : Type} {n : Nat} (h : (⟨1, ![n]⟩ : Shape).ShapeCasts ⟨2, ![1, n]⟩) (x : (⟨1, ![n]⟩ : Shape).Idx → α) (e : Fin n) :
    shapeCast ⟨2, ![1, n]⟩ x h (ValueIdx.ix2 (0 : Fin 1) e) = x (ValueIdx.ix1 e) := by
  refine shapeCast_apply x h _ (ValueIdx.ix1 e) ?_
  rw [Shape.rowMajor_val_two, Shape.rowMajor_val_one]; show e.val = 0 * n + e.val; omega

def fdw (x : BitVec 32) : BitVec 32 :=
  let q : BitVec 32 := IntOp.divsi .host x 1024#32
  let sx : BitVec 32 := if x = 0 then 0 else if x.msb then -1 else 1
  let sc : BitVec 32 := if (1024#32 : BitVec 32) = 0 then 0 else if (1024#32 : BitVec 32).msb then -1 else 1
  let r : BitVec 32 := IntOp.remsi .host x 1024#32
  Scalar.select (IntOp.andi (IntOp.cmpi .ne sx sc) (IntOp.cmpi .ne r 0#32)) (IntOp.subi q 1#32) q

theorem divsi_1024_toInt (x : BitVec 32) : (IntOp.divsi .host x 1024#32).toInt = x.toInt.tdiv 1024 := by
  have hc : ¬ IntOp.SDivCorner x 1024#32 := by
    rintro (h | ⟨_, h⟩) <;> exact absurd h (by decide)
  unfold IntOp.divsi
  rw [if_neg hc, BitVec.toInt_sdiv_of_ne_or_ne _ _ (Or.inr (by decide))]
  rfl

theorem fdw_nonneg (x : BitVec 32) (h : 0 ≤ x.toInt) : (fdw x).toInt = x.toInt / 1024 := by
  have hq := divsi_1024_toInt x
  have hsel : fdw x = IntOp.divsi .host x 1024#32 := by
    unfold fdw
    by_cases h0 : x = 0
    · subst h0; decide
    · have hm : x.msb = false := by rw [BitVec.msb_eq_toInt]; simp; omega
      simp only [h0, hm, if_false]
      have e : IntOp.cmpi CmpIPredicate.ne (if false = true then (-1 : BitVec 32) else 1)
          (if (1024#32 : BitVec 32) = 0 then 0 else if (1024#32 : BitVec 32).msb = true then -1 else 1) = 0#1 := by decide
      rw [e]; unfold IntOp.andi; rw [BitVec.zero_and]; exact ValueIdx.select_zero _ _
  rw [hsel, hq, Int.tdiv_eq_ediv_of_nonneg h]

theorem select_toInt_nonpos (c : BitVec 1) (a b : BitVec 32) (ha : a.toInt ≤ 0) (hb : b.toInt ≤ 0) :
    (Scalar.select c a b).toInt ≤ 0 := by
  unfold Scalar.select; split <;> assumption

theorem fdw_neg (x : BitVec 32) (h : x.toInt < 0) : (fdw x).toInt ≤ 0 := by
  have hq := divsi_1024_toInt x
  have hlo : -2 ^ (32 - 1) ≤ x.toInt := BitVec.le_toInt x
  have ht : x.toInt.tdiv 1024 = -((-x.toInt) / 1024) := by
    rw [← Int.tdiv_eq_ediv_of_nonneg (by omega), Int.neg_tdiv, neg_neg]
  have hq0 : (IntOp.divsi .host x 1024#32).toInt ≤ 0 := by rw [hq, ht]; omega
  have hq1 : -2097152 ≤ (IntOp.divsi .host x 1024#32).toInt := by rw [hq, ht]; omega
  have hs : (IntOp.subi (IntOp.divsi .host x 1024#32) 1#32).toInt ≤ 0 := by
    unfold IntOp.subi
    rw [BitVec.toInt_sub, BitVec.toInt_one (by decide)]
    rw [Int.bmod_eq_of_le (by omega) (by omega)]
    omega
  exact select_toInt_nonpos _ _ _ hs hq0

theorem fdw_facts : Cert.Spec.FloorDivFacts fdw := ⟨fdw_nonneg, fdw_neg⟩

theorem floordiv_apply (keys : IVec S391 32) (b : Fin 391) :
    floordiv keys (ValueIdx.ix1 b) = fdw (keys (ValueIdx.ix1 b)) := rfl

section Keys
variable {α : Type}

-- Column `k` of row `b` of the keys laid out as 391 rows of 2048 is key `b·2048 + k`.
theorem block_key (k : Fin 2048) (h1 : S800768.ShapeCasts S391x2048) (h2 : S391x2048.Slices ![0, k.val] S391x1)
    (h3 : S391x1.ShapeCasts S391) (keys : S800768.Idx → α) (b : Fin 391) :
    shapeCast S391 (extractStridedSlice S391x1 ![0, k.val] (shapeCast S391x2048 keys h1) h2) h3 (ValueIdx.ix1 b)
      = keys (ValueIdx.ix1 (Cert.Spec.edge b k)) := by
  refine (shapeCast_apply _ h3 (ValueIdx.ix1 b) (ValueIdx.ix2 b (0 : Fin 1)) ?_).trans ?_
  · rw [Shape.rowMajor_val_two, Shape.rowMajor_val_one]; show b.val * 1 + 0 = b.val; omega
  refine (extractStridedSlice_apply _ _ h2 (ValueIdx.ix2 b (0 : Fin 1)) (ValueIdx.ix2 b k) ?_).trans ?_
  · intro a
    match a with
    | ⟨0, _⟩ => show b.val = 0 + b.val; omega
    | ⟨1, _⟩ => show k.val = k.val + 0; rfl
  refine shapeCast_apply keys h1 _ (ValueIdx.ix1 (Cert.Spec.edge b k)) ?_
  rw [Shape.rowMajor_val_two, Shape.rowMajor_val_one]; rfl

end Keys

section Layout
variable {α : Type}

theorem final_slice_apply (h : S50176x128.Slices ![0, 0] S50000x64) (x : S50176x128.Idx → α) (n : Fin 50000) (j : Fin 64) :
    extractStridedSlice S50000x64 ![0, 0] x h (ValueIdx.ix2 n j)
      = x (ValueIdx.ix2 (⟨n.val, by omega⟩ : Fin 50176) (⟨j.val, by omega⟩ : Fin 128)) := by
  refine extractStridedSlice_apply _ x h _ _ ?_
  intro a
  match a with
  | ⟨0, _⟩ => show n.val = 0 + n.val; omega
  | ⟨1, _⟩ => show j.val = 0 + j.val; omega

end Layout

theorem sitofp_zero_apply (i : S_.Idx) : (sitofp .f32 (constantI S_ 32 0#32) : FVec Ideal S_ .f32) i = 0 := by
  show (((0#32 : BitVec 32).toInt : ℝ) : EReal) = 0
  rw [show (0#32 : BitVec 32).toInt = 0 from rfl]; simp

theorem constant_zero_apply (i : S_.Idx) : (constant (F := Ideal) S_ .f32 0x00000000#32) i = 0 :=
  Ideal.ofBits_zero_f32

theorem pad_x_spec (hp : S50000x256.Pads (![0, 0] : Fin 2 → Nat) ![176, 0] ![0, 0] S50176x256) (hu : 0 < S_.numel)
    (x : FVec Ideal S50000x256 .f32) (r : Fin 50176) (k : Fin 256) :
    pad S50176x256 ![0, 0] ![176, 0] ![0, 0] x (sitofp .f32 (constantI S_ 32 0#32) : FVec Ideal S_ .f32) hp hu (ValueIdx.ix2 r k)
      = Cert.Spec.padX (fun r k => x (ValueIdx.ix2 r k)) r k := by
  unfold Cert.Spec.padX
  by_cases h : r.val < 50000
  · rw [dif_pos h]
    refine pad_apply_of_inside _ _ _ x _ hp hu _ (ValueIdx.ix2 ⟨r.val, h⟩ k) ?_
    intro a
    match a with
    | ⟨0, _⟩ => show r.val = 0 + r.val * (0 + 1); omega
    | ⟨1, _⟩ => show k.val = 0 + k.val * (0 + 1); omega
  · rw [dif_neg h]
    refine (pad_apply_of_not_inside _ _ _ x _ hp hu _ (0 : Fin 2) ?_).trans (sitofp_zero_apply _)
    rintro ⟨_, _, h3⟩
    have h3' : (r.val - 0) / (0 + 1) < 50000 := h3
    omega

theorem pad_key_spec (hp : S800000.Pads (![0] : Fin 1 → Nat) ![768] ![0] S800768) (hu : 0 < S_.numel)
    (s : IVec S800000 32) (e : Fin 800768) :
    pad S800768 ![0] ![768] ![0] s (id (constantI S_ 32 50175#32)) hp hu (ValueIdx.ix1 e)
      = Cert.Spec.padKey (fun e => s (ValueIdx.ix1 e)) e := by
  rw [pad1_apply]; rfl

theorem pad_w_spec (hp : S800000.Pads (![0] : Fin 1 → Nat) ![768] ![0] S800768) (hu : 0 < S_.numel)
    (w : FVec Ideal S800000 .f32) (e : Fin 800768) :
    pad S800768 ![0] ![768] ![0] w (id (constant (F := Ideal) S_ .f32 0x00000000#32)) hp hu (ValueIdx.ix1 e)
      = Cert.Spec.padW (fun e => w (ValueIdx.ix1 e)) e := by
  rw [pad1_apply]
  show (if h : e.val < 800000 then w (ValueIdx.ix1 ⟨e.val, h⟩) else constant (F := Ideal) S_ .f32 0x00000000#32 ValueIdx.ix0) = _
  rw [constant_zero_apply]; rfl

theorem pad_W3_spec (hp : S128x64.Pads (![0, 0] : Fin 2 → Nat) ![0, 64] ![0, 0] S128x128) (hu : 0 < S_.numel)
    (W : FVec Ideal S128x64 .f32) (k : Fin 128) (j : Fin 128) :
    pad S128x128 ![0, 0] ![0, 64] ![0, 0] W (sitofp .f32 (constantI S_ 32 0#32) : FVec Ideal S_ .f32) hp hu (ValueIdx.ix2 k j)
      = Cert.Spec.padW3 (fun k j => W (ValueIdx.ix2 k j)) k j := by
  unfold Cert.Spec.padW3
  by_cases h : j.val < 64
  · rw [dif_pos h]
    refine pad_apply_of_inside _ _ _ W _ hp hu _ (ValueIdx.ix2 k ⟨j.val, h⟩) ?_
    intro a
    match a with
    | ⟨0, _⟩ => show k.val = 0 + k.val * (0 + 1); omega
    | ⟨1, _⟩ => show j.val = 0 + j.val * (0 + 1); omega
  · rw [dif_neg h]
    refine (pad_apply_of_not_inside _ _ _ W _ hp hu _ (1 : Fin 2) ?_).trans (sitofp_zero_apply _)
    rintro ⟨_, _, h3⟩
    have h3' : (j.val - 0) / (0 + 1) < 64 := h3
    omega

theorem pad_b3_spec (hp : S64.Pads (![0] : Fin 1 → Nat) ![64] ![0] S128) (hu : 0 < S_.numel)
    (b : FVec Ideal S64 .f32) (j : Fin 128) :
    pad S128 ![0] ![64] ![0] b (sitofp .f32 (constantI S_ 32 0#32) : FVec Ideal S_ .f32) hp hu (ValueIdx.ix1 j)
      = Cert.Spec.padB3 (fun j => b (ValueIdx.ix1 j)) j := by
  rw [pad1_apply, sitofp_zero_apply]; rfl

end Cert.KernelIdeal.Host

end
-- ==== Proof.KI.HostSort.lean ====
import proofs.«429835_j17746804867087_2_alg».proof.Proof.KI.HostOps
import Idealize.ShloMosaic.Lib.ValueIdx
import Idealize.ShloMosaic.Lib.SortFacts

noncomputable section

namespace Cert.KernelIdeal.Host

open Idealize.ShloMosaic Idealize.ShloMosaic.TcCoe Idealize.SL.Sem
open Cert.KernelIdeal Cert.KernelIdeal.Gen

section Gather
variable {s si t : Shape} (g : GatherDims s si t) {w : Nat} (j : t.Idx) (idx : IVec si w) (a : Fin s.rank)

-- On a collapsed axis the start indices address, the operand's coordinate is the start index clamped into the axis.
theorem coord_indexed (ha : a ∈ g.startIndexMap) (hb : a ∉ g.operandBatchingDims) (hk : a ∉ g.sKept) :
    g.start j idx a + g.batchCoord j a + g.offCoord j a
      = min (idx (g.siIdx j ⟨g.startIndexMap.idxOf a, List.idxOf_lt_length_iff.2 ha⟩)).toInt.toNat
          (s.size a - g.sliceSizes a) := by
  rw [g.batchCoord_eq_zero _ _ hb, g.offCoord_eq_zero _ _ hk]; unfold GatherDims.start; rw [dif_pos ha]; rfl

end Gather

theorem ofFin_eq_ix1 {n : Nat} (k : Fin n) : Shape.Idx.ofFin k = ValueIdx.ix1 k := by
  funext a
  match a with
  | ⟨0, _⟩ => rfl

theorem iota_ofFin {n : Nat} (k : Fin n) : iotaInDim (⟨1, ![n]⟩ : Shape) 32 0 (Shape.Idx.ofFin k) = BitVec.ofNat 32 k.val := rfl

theorem sort2_rank1_snd_of {n : Nat} {α β : Type} (cmp : α × β → α × β → BitVec 1)
    (x : (⟨1, ![n]⟩ : Shape).Idx → α) (y : (⟨1, ![n]⟩ : Shape).Idx → β) (j : (⟨1, ![n]⟩ : Shape).Idx)
    (B : Fin n → Fin n → Bool)
    (hB : B = fun k k' => cmp (x (Shape.Idx.ofFin k), y (Shape.Idx.ofFin k))
          (x (Shape.Idx.ofFin k'), y (Shape.Idx.ofFin k')) == 1#1)
    (f : Fin n → Fin n) (hf : f = sortedFrom B) :
    (Host.sort2 ⟨1, ![n]⟩ 0 cmp x y).2 j = y (Shape.Idx.ofFin (f (j 0))) := by
  subst hB; subst hf
  unfold Host.sort2
  simp

theorem wrap_eq (q : BitVec 32) :
    Scalar.select (IntOp.cmpi .slt q 0#32) (IntOp.addi q 800768#32) q = if q.toInt < 0 then q + 800768#32 else q := by
  unfold Scalar.select IntOp.cmpi IntOp.addi
  by_cases h : q.toInt < 0 <;> simp [BitVec.slt, h]

theorem posOf_ofNat (k : Fin 800768) : posOf (BitVec.ofNat 32 k.val) = k := by
  have hk := k.isLt
  have h0 : (BitVec.ofNat 32 k.val).toNat = k.val := by
    rw [BitVec.toNat_ofNat]; omega
  have h1 : (BitVec.ofNat 32 k.val).toInt = (k.val : Int) := by
    rw [BitVec.toInt_eq_toNat_of_lt (by rw [h0]; omega), h0]
  unfold posOf
  apply Fin.ext
  simp only [h1]
  rw [if_neg (by omega), h1]
  omega

theorem normIdx_apply (p : IVec S800768 32) (e : Fin 800768) (z : Fin 1) :
    normIdx p (ValueIdx.ix2 e z) = if (p (ValueIdx.ix1 e)).toInt < 0 then p (ValueIdx.ix1 e) + 800768#32 else p (ValueIdx.ix1 e) := by
  rw [← wrap_eq]
  have key : ∀ (G : S800768.Idx → BitVec 32),
      broadcastInDim S800768x1 ![0] bcast_S800768_S800768x1_0 G (ValueIdx.ix2 e z) = G (ValueIdx.ix1 e) := by
    intro G
    unfold broadcastInDim
    congr 1
    funext a
    match a with
    | ⟨0, _⟩ => rfl
  unfold normIdx
  rw [key]
  rfl

theorem take_apply {α : Type} (x : S800768.Idx → α) (p : IVec S800768 32) (e : Fin 800768) :
    Host.gather gather_S800768_S800768x1_S800768_n_0_n_n_0_1_1 x (normIdx p) (ValueIdx.ix1 e)
      = x (ValueIdx.ix1 (posOf (p (ValueIdx.ix1 e)))) := by
  unfold Host.gather
  congr 1
  funext a
  obtain rfl : a = 0 := Subsingleton.elim _ _
  refine Fin.ext ((coord_indexed gather_S800768_S800768x1_S800768_n_0_n_n_0_1_1 _ _ 0 (List.mem_singleton.mpr rfl) List.not_mem_nil
    fun h => ((GatherDims.mem_sKept _ _).mp h).1 (List.mem_singleton.mpr rfl)).trans ?_)
  have hsi : gather_S800768_S800768x1_S800768_n_0_n_n_0_1_1.siIdx (ValueIdx.ix1 e)
      ⟨List.idxOf (0 : Fin 1) gather_S800768_S800768x1_S800768_n_0_n_n_0_1_1.startIndexMap, List.idxOf_lt_length_iff.2 (List.mem_singleton.mpr rfl)⟩
      = ValueIdx.ix2 e (0 : Fin 1) := by
    funext b; refine Fin.ext ?_
    match b with
    | ⟨0, _⟩ => rfl
    | ⟨1, _⟩ => rfl
  rw [hsi, normIdx_apply]
  rfl

theorem rows_apply {α : Type} (x : S800768x128.Idx → α) (p : IVec S800768 32) (e : Fin 800768) (j : Fin 128) :
    Host.gather gather_S800768x128_S800768x1_S800768x128_1_0_n_n_0_1_1128 x (normIdx p) (ValueIdx.ix2 e j)
      = x (ValueIdx.ix2 (posOf (p (ValueIdx.ix1 e))) j) := by
  unfold Host.gather
  congr 1
  funext a
  refine Fin.ext ?_
  match a with
  | ⟨0, _⟩ =>
    refine (coord_indexed gather_S800768x128_S800768x1_S800768x128_1_0_n_n_0_1_1128 _ _ 0 (List.mem_singleton.mpr rfl) List.not_mem_nil
      fun h => ((GatherDims.mem_sKept _ _).mp h).1 (List.mem_singleton.mpr rfl)).trans ?_
    have hsi : gather_S800768x128_S800768x1_S800768x128_1_0_n_n_0_1_1128.siIdx (ValueIdx.ix2 e j)
        ⟨List.idxOf (0 : Fin 2) gather_S800768x128_S800768x1_S800768x128_1_0_n_n_0_1_1128.startIndexMap, List.idxOf_lt_length_iff.2 (List.mem_singleton.mpr rfl)⟩
        = ValueIdx.ix2 e (0 : Fin 1) := by
      funext b; refine Fin.ext ?_
      match b with
      | ⟨0, _⟩ => rfl
      | ⟨1, _⟩ => rfl
    rw [hsi, normIdx_apply]
    rfl
  | ⟨1, _⟩ =>
    show gather_S800768x128_S800768x1_S800768x128_1_0_n_n_0_1_1128.start (ValueIdx.ix2 e j) (normIdx p) 1 + gather_S800768x128_S800768x1_S800768x128_1_0_n_n_0_1_1128.batchCoord (ValueIdx.ix2 e j) 1
        + gather_S800768x128_S800768x1_S800768x128_1_0_n_n_0_1_1128.offCoord (ValueIdx.ix2 e j) 1 = j.val
    have hk : (1 : Fin 2) ∈ gather_S800768x128_S800768x1_S800768x128_1_0_n_n_0_1_1128.sKept := (GatherDims.mem_sKept _ _).mpr ⟨by decide, List.not_mem_nil⟩
    rw [GatherDims.batchCoord_eq_zero _ _ _ List.not_mem_nil]
    unfold GatherDims.start GatherDims.offCoord
    rw [dif_neg (show (1 : Fin 2) ∉ gather_S800768x128_S800768x1_S800768x128_1_0_n_n_0_1_1128.startIndexMap by decide), dif_pos hk]
    exact Nat.zero_add _

theorem cmp_eq (a b : BitVec 32 × BitVec 32) :
    (comparator_i32_i32_d0 a b == 1#1) = decide (a.1.toInt < b.1.toInt) := by
  unfold comparator_i32_i32_d0 IntOp.cmpi
  by_cases h : a.1.toInt < b.1.toInt <;> simp [BitVec.slt, h]

theorem argsort_facts (x : IVec S800768 32) : ∃ σ : Equiv.Perm (Fin 800768),
    (∀ e, posOf ((Host.sort2 S800768 0 comparator_i32_i32_d0 x (iotaInDim S800768 32 0)).2 (ValueIdx.ix1 e)) = σ e) ∧
    (∀ e e' : Fin 800768, e ≤ e' → (x (ValueIdx.ix1 (σ e))).toInt ≤ (x (ValueIdx.ix1 (σ e'))).toInt) := by

  obtain ⟨B, hB⟩ : ∃ B : Fin 800768 → Fin 800768 → Bool, B = fun k k' =>
      comparator_i32_i32_d0 (x (Shape.Idx.ofFin k), iotaInDim S800768 32 0 (Shape.Idx.ofFin k))
        (x (Shape.Idx.ofFin k'), iotaInDim S800768 32 0 (Shape.Idx.ofFin k')) == 1#1 := ⟨_, rfl⟩
  have hb : ∀ k k', B k k' = decide ((x (Shape.Idx.ofFin k)).toInt < (x (Shape.Idx.ofFin k')).toInt) := by
    intro k k'; rw [hB]; exact cmp_eq _ _
  obtain ⟨f, hf⟩ : ∃ f : Fin 800768 → Fin 800768, f = sortedFrom B := ⟨_, rfl⟩
  have hbij : Function.Bijective f := by
    rw [hf]; exact ⟨sortedFrom_injective B, sortedFrom_surjective B⟩
  have hread : ∀ e : Fin 800768,
      (Host.sort2 S800768 0 comparator_i32_i32_d0 x (iotaInDim S800768 32 0)).2 (ValueIdx.ix1 e)
        = BitVec.ofNat 32 (f e).val := by
    intro e
    have h1 := sort2_rank1_snd_of comparator_i32_i32_d0 x (iotaInDim S800768 32 0) (ValueIdx.ix1 e) B hB f hf
    rw [h1]
    exact iota_ofFin (f e)
  have hsorted : ∀ e e' : Fin 800768, e < e' →
      (x (Shape.Idx.ofFin (f e))).toInt ≤ (x (Shape.Idx.ofFin (f e'))).toInt := by
    intro e e' hlt
    have h := sortedFrom_noInversion B B
      (fun a b hab => by rw [hb] at hab ⊢; simp only [decide_eq_true_eq, decide_eq_false_iff_not] at hab ⊢; omega)
      (fun _ _ h => h)
      (fun a b c h1 h2 => by rw [hb] at h1 h2 ⊢; simp only [decide_eq_false_iff_not] at h1 h2 ⊢; omega)
      e e' hlt
    rw [← hf, hb] at h
    simp only [decide_eq_false_iff_not, not_lt] at h
    exact h
  refine ⟨Equiv.ofBijective f hbij, ?_, ?_⟩
  · intro e
    rw [hread, Equiv.ofBijective_apply]
    exact posOf_ofNat (f e)
  · intro e e' hle
    rw [Equiv.ofBijective_apply, Equiv.ofBijective_apply, ← ofFin_eq_ix1, ← ofFin_eq_ix1]
    rcases lt_or_eq_of_le hle with hlt | heq
    · exact hsorted e e' hlt
    · rw [heq]

end Cert.KernelIdeal.Host
end
-- ==== Proof.KI.HostFacts.lean ====
import proofs.«429835_j17746804867087_2_alg».proof.Proof.KI.HostStage
import proofs.«429835_j17746804867087_2_alg».proof.Proof.KI.HostStage2
import proofs.«429835_j17746804867087_2_alg».proof.Proof.KI.HostStage3
import proofs.«429835_j17746804867087_2_alg».proof.Proof.KI.HostStage4
import proofs.«429835_j17746804867087_2_alg».proof.Proof.KI.HostTab
import proofs.«429835_j17746804867087_2_alg».proof.Proof.KI.HostSort

set_option maxRecDepth 1556

noncomputable section

namespace Cert.KernelIdeal.Host

open Idealize.ShloMosaic Idealize.ShloMosaic.TcCoe Idealize.SL.Sem
open Cert.KernelIdeal Cert.KernelIdeal.Gen

variable (m : (ℓ : Loc nD τ sig) → Buf (Elt Ideal) ℓ) (c : Dev nD)

-- No host operation writes an argument.
theorem st_arg (r : Ref sig .tc) (h : r ∉ W0 := by decide) : V20 m c r = m ((c.tc : Thread nD τ).loc r) := up0 r h

theorem v0_eq (r : Fin 50176) (k : Fin 256) :
    V20 m c main_v0 (ValueIdx.ix2 r k) = Cert.Spec.padX (xA m c) r k := by
  rw [st_v0 m c, st_arg m c main_arg0]
  exact pad_x_spec _ _ _ r k

theorem v51_eq (j : Fin 128) : V20 m c main_v51 (ValueIdx.ix2 0 j) = b1A m c j := by
  rw [st_v51 m c, st_arg m c main_arg5]
  exact row_apply _ _ j

theorem V20_arg4 : V20 m c main_arg4 = m ((c.tc : Thread nD τ).loc main_arg4) := st_arg m c main_arg4
theorem V20_arg6 : V20 m c main_arg6 = m ((c.tc : Thread nD τ).loc main_arg6) := st_arg m c main_arg6
theorem V20_arg7 : V20 m c main_arg7 = m ((c.tc : Thread nD τ).loc main_arg7) := st_arg m c main_arg7
theorem V20_arg8 : V20 m c main_arg8 = m ((c.tc : Thread nD τ).loc main_arg8) := st_arg m c main_arg8
theorem V20_arg9 : V20 m c main_arg9 = m ((c.tc : Thread nD τ).loc main_arg9) := st_arg m c main_arg9

theorem v1_eq (e : Fin 800768) : V20 m c main_v1 (ValueIdx.ix1 e) = Cert.Spec.padKey (srcA m c) e := by
  rw [st_v1 m c, st_arg m c main_arg1]
  exact pad_key_spec _ _ _ e

theorem v2_eq (e : Fin 800768) : V20 m c main_v2 (ValueIdx.ix1 e) = Cert.Spec.padKey (dstA m c) e := by
  rw [st_v2 m c, st_arg m c main_arg2]
  exact pad_key_spec _ _ _ e

theorem v3_eq (e : Fin 800768) : V20 m c main_v3 (ValueIdx.ix1 e) = Cert.Spec.padW (wA m c) e := by
  rw [st_v3 m c, st_arg m c main_arg3]
  exact pad_w_spec _ _ _ e

-- The two sorts' positions are permutations that sort the keys; the tables are block ends floor-divided by 1024.
theorem prepOK : Cert.Spec.PrepOK (prep m c) (srcA m c) (dstA m c) (wA m c) := by
  obtain ⟨σ, hσ, hσs⟩ := argsort_facts (V20 m c main_v1 : IVec S800768 32)
  obtain ⟨π, hπ, hπs⟩ := argsort_facts (V20 m c main_v18 : IVec S800768 32)
  have p4 : ∀ e : Fin 800768, posOf (V20 m c main_v4 (ValueIdx.ix1 e)) = σ e := fun e => by
    rw [st_v4 m c]; exact hσ e
  have p26 : ∀ e : Fin 800768, posOf (V20 m c main_v26 (ValueIdx.ix1 e)) = π e := fun e => by
    rw [st_v26 m c]; exact hπ e
  have k11 : ∀ e : Fin 800768, V20 m c main_v11 (ValueIdx.ix1 e) = V20 m c main_v1 (ValueIdx.ix1 (σ e)) := fun e => by
    rw [st_v11 m c, take_apply, p4]
  have k18 : ∀ e : Fin 800768, V20 m c main_v18 (ValueIdx.ix1 e) = V20 m c main_v2 (ValueIdx.ix1 (σ e)) := fun e => by
    rw [st_v18 m c, take_apply, p4]
  have k25 : ∀ e : Fin 800768, V20 m c main_v25 (ValueIdx.ix1 e) = V20 m c main_v3 (ValueIdx.ix1 (σ e)) := fun e => by
    rw [st_v25 m c, take_apply, p4]
  have k33 : ∀ e : Fin 800768, V20 m c main_v33 (ValueIdx.ix1 e) = V20 m c main_v18 (ValueIdx.ix1 (π e)) := fun e => by
    rw [st_v33 m c, take_apply, p26]
  have hS : ∀ e : Fin 800768, (prep m c).srcS e = V20 m c main_v11 (ValueIdx.ix1 e) := fun e => by
    unfold prep; dsimp only; rw [st_v48 m c]; exact row_apply _ _ e
  have hW : ∀ e : Fin 800768, (prep m c).wS e = V20 m c main_v25 (ValueIdx.ix1 e) := fun e => by
    unfold prep; dsimp only; rw [st_v49 m c]; exact row_apply _ _ e
  have hD : ∀ e : Fin 800768, (prep m c).dstD e = V20 m c main_v33 (ValueIdx.ix1 e) := fun e => by
    unfold prep; dsimp only; rw [st_v50 m c]; exact row_apply _ _ e
  refine ⟨⟨σ, fun e => ?_, fun e => ?_, π, fun e => ?_, fun e => ?_⟩, fun e e' h => ?_, fun e e' h => ?_,
    ⟨fdw, fdw_facts, fun b => ?_, fun b => ?_, fun b => ?_, fun b => ?_⟩⟩
  · rw [hS, k11, v1_eq]
  · rw [hW, k25, v3_eq]
  · unfold prep; exact p26 e
  · rw [hD, k33, k18, v2_eq]
  · rw [hS, hS, k11, k11]; exact hσs e e' h
  · rw [hD, hD, k33, k33]; exact hπs e e' h
  · rw [hS]; unfold prep; dsimp only; rw [st_v37 m c, floordiv_apply, firsts, block_key ⟨0, by omega⟩]
  · rw [hS]; unfold prep; dsimp only; rw [st_v40 m c, floordiv_apply, lasts, block_key ⟨2047, by omega⟩]
  · rw [hD]; unfold prep; dsimp only; rw [st_v44 m c, floordiv_apply, firsts, block_key ⟨0, by omega⟩]
  · rw [hD]; unfold prep; dsimp only; rw [st_v47 m c, floordiv_apply, lasts, block_key ⟨2047, by omega⟩]

theorem ops2_v60 (Vb : Valuation τ sig (Elt Ideal)) (e : Fin 800768) (j : Fin 128) :
    StableHlo.after hostOps2 Vb main_v60 (ValueIdx.ix2 e j)
      = Vb main_v53 (ValueIdx.ix2 (posOf (Vb main_v26 (ValueIdx.ix1 e))) j) := by
  rw [b2_v60 Vb]; exact rows_apply _ _ e j

theorem ops5_v71 (Vb : Valuation τ sig (Elt Ideal)) (e : Fin 800768) (j : Fin 128) :
    StableHlo.after hostOps5 Vb main_v71 (ValueIdx.ix2 e j)
      = Vb main_v64 (ValueIdx.ix2 (posOf (Vb main_v26 (ValueIdx.ix1 e))) j) := by
  rw [b5_v71 Vb]; exact rows_apply _ _ e j

theorem ops8_v84 (Vb : Valuation τ sig (Elt Ideal)) (e : Fin 800768) (j : Fin 128) :
    StableHlo.after hostOps8 Vb main_v84 (ValueIdx.ix2 e j)
      = Vb main_v77 (ValueIdx.ix2 (posOf (Vb main_v26 (ValueIdx.ix1 e))) j) := by
  rw [b8_v84 Vb]; exact rows_apply _ _ e j

theorem ops3_v62 (Vb : Valuation τ sig (Elt Ideal)) (j : Fin 128) :
    StableHlo.after hostOps3 Vb main_v62 (ValueIdx.ix2 0 j) = Vb main_arg7 (ValueIdx.ix1 j) := by
  rw [b3_v62 Vb]; exact row_apply _ _ j

theorem ops6_v73 (Vb : Valuation τ sig (Elt Ideal)) (k : Fin 128) (j : Fin 128) :
    StableHlo.after hostOps6_4 (StableHlo.after hostOps6_3 (StableHlo.after hostOps6_2 (StableHlo.after hostOps6_1
        (StableHlo.after hostOps6 Vb)))) main_v73 (ValueIdx.ix2 k j)
      = Cert.Spec.padW3 (fun k j => Vb main_arg8 (ValueIdx.ix2 k j)) k j := by
  rw [b6_v73 Vb]
  exact pad_W3_spec _ _ _ k j

theorem ops6_v75 (Vb : Valuation τ sig (Elt Ideal)) (j : Fin 128) :
    StableHlo.after hostOps6_4 (StableHlo.after hostOps6_3 (StableHlo.after hostOps6_2 (StableHlo.after hostOps6_1
        (StableHlo.after hostOps6 Vb)))) main_v75 (ValueIdx.ix2 0 j)
      = Cert.Spec.padB3 (fun j => Vb main_arg9 (ValueIdx.ix1 j)) j := by
  rw [b6_v75, row_apply]
  exact pad_b3_spec _ _ _ j

theorem ops9_v86 (Vb : Valuation τ sig (Elt Ideal)) (n : Fin 50000) (j : Fin 64) :
    StableHlo.after hostOps9 Vb main_v86 (ValueIdx.ix2 n j)
      = Vb main_v85 (ValueIdx.ix2 (⟨n.val, by omega⟩ : Fin 50176) (⟨j.val, by omega⟩ : Fin 128)) := by
  rw [b9_v86 Vb]; exact final_slice_apply _ _ n j

end Cert.KernelIdeal.Host

end
-- ==== Proof.KI.L0Val.lean ====
import proofs.«429835_j17746804867087_2_alg».proof.Proof.KI.L0Obl
import proofs.«429835_j17746804867087_2_alg».proof.Proof.Spec
import proofs.«429835_j17746804867087_2_alg».proof.Proof.Lib

noncomputable section

namespace Cert.KernelIdeal.L0

open Cert.KernelIdeal Cert.KernelIdeal.Gen Cert.Lib
open Idealize.ShloMosaic Idealize.ShloMosaic.TcCoe Idealize.SL.Sem
open Idealize.ShloMosaic.Pipeline (Dat)
open scoped BigOperators

-- On extended reals the narrowing is the identity: the payload at (p, q) is Σ_k x[p,k]·W[k,q] + b[0,q].
theorem pay_at (x : Vec Ideal S1024x256 .f32) (W : Vec Ideal S256x128 .f32) (b : Vec Ideal S1x128 .f32)
    (p : Fin 1024) (q : Fin 128) :
    k0_pay1 (F := Ideal) x W b (ValueIdx.ix2 p q) = (∑ k : Fin 256, x (ValueIdx.ix2 p k) * W (ValueIdx.ix2 k q)) + b (ValueIdx.ix2 0 q) := by
  unfold k0_pay1
  rw [ValueIdx.addf_apply]
  simp only [shapeCast_self]
  exact congrArg₂ (· + ·) (matmul_zero_apply _ 256 rfl rfl _ _ _ (fun k => ValueIdx.ix2 p k) (fun k => ValueIdx.ix2 k q)
    (fun _ a => match a with | ⟨0, _⟩ => rfl | ⟨1, _⟩ => rfl) (fun _ a => match a with | ⟨0, _⟩ => rfl | ⟨1, _⟩ => rfl))
    (ValueIdx.broadcastTo_1b_ab_apply _ _ p q)

variable (V : (c : Dev nD) → (b : Ref sig .tc) → Buf (Elt Ideal) ((c : Thread nD τ).loc b))

def G (c : Dev nD) : S50176x128.Idx → EReal := fun i =>
  Cert.Spec.lin (fun r k => V c main_v0 (ValueIdx.ix2 r k)) (fun k j => V c main_arg4 (ValueIdx.ix2 k j))
    (fun j => V c main_v51 (ValueIdx.ix2 0 j)) (i 0) (i 1)

theorem idx_facts : ∀ t : Fin cfg0.N,
    win0_0.index t (0 : Fin 2) = t.val ∧ win0_0.index t (1 : Fin 2) = 0 ∧ (∀ a, win0_1.index t a = 0)
    ∧ (∀ a, win0_2.index t a = 0) ∧ win0_3.index t (0 : Fin 2) = t.val ∧ win0_3.index t (1 : Fin 2) = 0 :=
  (by decide +kernel : ∀ t : Fin grid0.N, _)

theorem flushed_eq (c : Dev nD) (t : Fin cfg0.N) :
    (dat (F := Ideal) V c).flushed 3 t = ((cfg0.win 3).blk t).view.read (Elt Ideal) (G V c) := by
  obtain ⟨e00, e01, e1, e2, e30, e31⟩ := idx_facts t
  have hW : iblk V c 1 t = V c main_arg4 := funext fun y => congrArg (V c main_arg4)
    (Shape.idx_ext₂ (win0_1.rect_emb_val_of_index_zero t 0 (e1 0) y) (win0_1.rect_emb_val_of_index_zero t 1 (e1 1) y))
  have hb : iblk V c 2 t = V c main_v51 := funext fun y => congrArg (V c main_v51)
    (Shape.idx_ext₂ (win0_2.rect_emb_val_of_index_zero t 0 (e2 0) y) (win0_2.rect_emb_val_of_index_zero t 1 (e2 1) y))
  show (cfg0.win 3).cut (grid0.coords t) ((dat (F := Ideal) V c).after 3 t) = _
  rw [show (dat (F := Ideal) V c).after 3 t = out (iblk V c 0 t) (iblk V c 1 t) (iblk V c 2 t) by dsimp only [dat]]
  unfold out
  rw [View.canon_unit_zero zz2, View.ld_unit_zero zz2, View.ld_unit_zero zz2, View.ld_unit_zero zz2]
  funext y
  obtain ⟨p, q, rfl⟩ : ∃ (p : Fin 1024) (q : Fin 128), y = ValueIdx.ix2 p q := ⟨y 0, y 1, ValueIdx.eq_ix2 y⟩
  have ht : t.val * 1024 + p.val < 50176 := by have := lt_of_lt_of_eq t.isLt N_0; have := p.isLt; omega
  have h3 : ((cfg0.win 3).blk t).view.emb (ValueIdx.ix2 p q) = ValueIdx.ix2 (⟨t.val * 1024 + p.val, ht⟩ : Fin 50176) q :=
    Shape.idx_ext₂ ((win0_3.rect_emb_val t _ 0).trans (by rw [e30]; rfl)) (win0_3.rect_emb_val_of_index_zero t 1 e31 _)
  have hx : ∀ k : Fin 256, iblk V c 0 t (ValueIdx.ix2 p k) = V c main_v0 (ValueIdx.ix2 (⟨t.val * 1024 + p.val, ht⟩ : Fin 50176) k) := fun k =>
    congrArg (V c main_v0) (Shape.idx_ext₂ ((win0_0.rect_emb_val t _ 0).trans (by rw [e00]; rfl)) (win0_0.rect_emb_val_of_index_zero t 1 e01 _))
  show k0_pay1 (F := Ideal) (iblk V c 0 t) (iblk V c 1 t) (iblk V c 2 t) (ValueIdx.ix2 p q)
    = G V c (((cfg0.win 3).blk t).view.emb (ValueIdx.ix2 p q))
  rw [pay_at, h3, hW, hb]
  simp only [hx]
  rfl

-- Row r lies in block r / 1024, at row r % 1024 of it.
theorem covered (i : S50176x128.Idx) :
    ∃ t : Fin cfg0.N, (cfg0.win 3).flush t = true ∧ i ∈ ((cfg0.win 3).blk t).view.set := by
  have hi : (i 0).val < 50176 := (i 0).isLt
  have hN : cfg0.N = 49 := N_0
  let t : Fin cfg0.N := ⟨(i 0).val / 1024, by rw [hN]; omega⟩
  obtain ⟨-, -, -, -, e30, e31⟩ := idx_facts t
  have h : ((cfg0.win 3).blk t).view.emb (ValueIdx.ix2 (⟨(i 0).val % 1024, Nat.mod_lt _ (by decide)⟩ : Fin 1024) (i 1)) = i :=
    Shape.idx_ext₂ ((win0_3.rect_emb_val t _ 0).trans (by rw [e30]; exact Nat.div_add_mod' _ _)) (win0_3.rect_emb_val_of_index_zero t 1 e31 _)
  exact ⟨t, flush0_3 t, h ▸ View.emb_mem_set _ _⟩

theorem out_value (V : (c : Dev nD) → (b : Ref sig .tc) → Buf (Elt Ideal) ((c : Thread nD τ).loc b)) (c : Dev nD)
    (r : Fin 50176) (j : Fin 128) :
    (dat (F := Ideal) V c).arrAt 3 cfg0.N (ValueIdx.ix2 r j)
      = Cert.Spec.lin (fun r k => V c main_v0 (ValueIdx.ix2 r k)) (fun k j => V c main_arg4 (ValueIdx.ix2 k j))
          (fun j => V c main_v51 (ValueIdx.ix2 0 j)) r j :=
  congrFun ((dat (F := Ideal) V c).arrAt_eq_of_cover 3 (G V c) (fun t _ => flushed_eq V c t) covered) _

end Cert.KernelIdeal.L0

end
-- ==== Proof.KI.L3Val.lean ====
import proofs.«429835_j17746804867087_2_alg».proof.Proof.KI.L3Obl
import proofs.«429835_j17746804867087_2_alg».proof.Proof.Spec
import proofs.«429835_j17746804867087_2_alg».proof.Proof.Lib

noncomputable section

namespace Cert.KernelIdeal.L3

open Cert.KernelIdeal Cert.KernelIdeal.Gen Cert.Lib
open Idealize.ShloMosaic Idealize.ShloMosaic.TcCoe Idealize.SL.Sem
open Idealize.ShloMosaic.Pipeline (Dat)
open scoped BigOperators

-- On extended reals the narrowing is the identity: the payload at (p, q) is Σ_k x[p,k]·W[k,q] + b[0,q].
theorem pay_at (x : Vec Ideal S1024x128 .f32) (W : Vec Ideal S128x128 .f32) (b : Vec Ideal S1x128 .f32)
    (p : Fin 1024) (q : Fin 128) :
    k3_pay1 (F := Ideal) x W b (ValueIdx.ix2 p q) = (∑ k : Fin 128, x (ValueIdx.ix2 p k) * W (ValueIdx.ix2 k q)) + b (ValueIdx.ix2 0 q) := by
  unfold k3_pay1
  rw [ValueIdx.addf_apply]
  simp only [shapeCast_self]
  exact congrArg₂ (· + ·) (matmul_zero_apply _ 128 rfl rfl _ _ _ (fun k => ValueIdx.ix2 p k) (fun k => ValueIdx.ix2 k q)
    (fun _ a => match a with | ⟨0, _⟩ => rfl | ⟨1, _⟩ => rfl) (fun _ a => match a with | ⟨0, _⟩ => rfl | ⟨1, _⟩ => rfl))
    (ValueIdx.broadcastTo_1b_ab_apply _ _ p q)

variable (V : (c : Dev nD) → (b : Ref sig .tc) → Buf (Elt Ideal) ((c : Thread nD τ).loc b))

def G (c : Dev nD) : S50176x128.Idx → EReal := fun i =>
  Cert.Spec.lin (fun r k => V c main_v61 (ValueIdx.ix2 r k)) (fun k j => V c main_arg6 (ValueIdx.ix2 k j))
    (fun j => V c main_v62 (ValueIdx.ix2 0 j)) (i 0) (i 1)

theorem idx_facts : ∀ t : Fin cfg3.N,
    win3_0.index t (0 : Fin 2) = t.val ∧ win3_0.index t (1 : Fin 2) = 0 ∧ (∀ a, win3_1.index t a = 0)
    ∧ (∀ a, win3_2.index t a = 0) ∧ win3_3.index t (0 : Fin 2) = t.val ∧ win3_3.index t (1 : Fin 2) = 0 :=
  (by decide +kernel : ∀ t : Fin grid3.N, _)

theorem flushed_eq (c : Dev nD) (t : Fin cfg3.N) :
    (dat (F := Ideal) V c).flushed 3 t = ((cfg3.win 3).blk t).view.read (Elt Ideal) (G V c) := by
  obtain ⟨e00, e01, e1, e2, e30, e31⟩ := idx_facts t
  have hW : iblk V c 1 t = V c main_arg6 := funext fun y => congrArg (V c main_arg6)
    (Shape.idx_ext₂ (win3_1.rect_emb_val_of_index_zero t 0 (e1 0) y) (win3_1.rect_emb_val_of_index_zero t 1 (e1 1) y))
  have hb : iblk V c 2 t = V c main_v62 := funext fun y => congrArg (V c main_v62)
    (Shape.idx_ext₂ (win3_2.rect_emb_val_of_index_zero t 0 (e2 0) y) (win3_2.rect_emb_val_of_index_zero t 1 (e2 1) y))
  show (cfg3.win 3).cut (grid3.coords t) ((dat (F := Ideal) V c).after 3 t) = _
  rw [show (dat (F := Ideal) V c).after 3 t = out (iblk V c 0 t) (iblk V c 1 t) (iblk V c 2 t) by dsimp only [dat]]
  unfold out
  rw [View.canon_unit_zero zz2, View.ld_unit_zero zz2, View.ld_unit_zero zz2, View.ld_unit_zero zz2]
  funext y
  obtain ⟨p, q, rfl⟩ : ∃ (p : Fin 1024) (q : Fin 128), y = ValueIdx.ix2 p q := ⟨y 0, y 1, ValueIdx.eq_ix2 y⟩
  have ht : t.val * 1024 + p.val < 50176 := by have := lt_of_lt_of_eq t.isLt N_3; have := p.isLt; omega
  have h3 : ((cfg3.win 3).blk t).view.emb (ValueIdx.ix2 p q) = ValueIdx.ix2 (⟨t.val * 1024 + p.val, ht⟩ : Fin 50176) q :=
    Shape.idx_ext₂ ((win3_3.rect_emb_val t _ 0).trans (by rw [e30]; rfl)) (win3_3.rect_emb_val_of_index_zero t 1 e31 _)
  have hx : ∀ k : Fin 128, iblk V c 0 t (ValueIdx.ix2 p k) = V c main_v61 (ValueIdx.ix2 (⟨t.val * 1024 + p.val, ht⟩ : Fin 50176) k) := fun k =>
    congrArg (V c main_v61) (Shape.idx_ext₂ ((win3_0.rect_emb_val t _ 0).trans (by rw [e00]; rfl)) (win3_0.rect_emb_val_of_index_zero t 1 e01 _))
  show k3_pay1 (F := Ideal) (iblk V c 0 t) (iblk V c 1 t) (iblk V c 2 t) (ValueIdx.ix2 p q)
    = G V c (((cfg3.win 3).blk t).view.emb (ValueIdx.ix2 p q))
  rw [pay_at, h3, hW, hb]
  simp only [hx]
  rfl

-- Row r lies in block r / 1024, at row r % 1024 of it.
theorem covered (i : S50176x128.Idx) :
    ∃ t : Fin cfg3.N, (cfg3.win 3).flush t = true ∧ i ∈ ((cfg3.win 3).blk t).view.set := by
  have hi : (i 0).val < 50176 := (i 0).isLt
  have hN : cfg3.N = 49 := N_3
  let t : Fin cfg3.N := ⟨(i 0).val / 1024, by rw [hN]; omega⟩
  obtain ⟨-, -, -, -, e30, e31⟩ := idx_facts t
  have h : ((cfg3.win 3).blk t).view.emb (ValueIdx.ix2 (⟨(i 0).val % 1024, Nat.mod_lt _ (by decide)⟩ : Fin 1024) (i 1)) = i :=
    Shape.idx_ext₂ ((win3_3.rect_emb_val t _ 0).trans (by rw [e30]; exact Nat.div_add_mod' _ _)) (win3_3.rect_emb_val_of_index_zero t 1 e31 _)
  exact ⟨t, flush3_3 t, h ▸ View.emb_mem_set _ _⟩

theorem out_value (V : (c : Dev nD) → (b : Ref sig .tc) → Buf (Elt Ideal) ((c : Thread nD τ).loc b)) (c : Dev nD)
    (r : Fin 50176) (j : Fin 128) :
    (dat (F := Ideal) V c).arrAt 3 cfg3.N (ValueIdx.ix2 r j)
      = Cert.Spec.lin (fun r k => V c main_v61 (ValueIdx.ix2 r k)) (fun k j => V c main_arg6 (ValueIdx.ix2 k j))
          (fun j => V c main_v62 (ValueIdx.ix2 0 j)) r j :=
  congrFun ((dat (F := Ideal) V c).arrAt_eq_of_cover 3 (G V c) (fun t _ => flushed_eq V c t) covered) _

end Cert.KernelIdeal.L3

end
-- ==== Proof.KI.L6Val.lean ====
import proofs.«429835_j17746804867087_2_alg».proof.Proof.KI.L6Obl
import proofs.«429835_j17746804867087_2_alg».proof.Proof.Spec
import proofs.«429835_j17746804867087_2_alg».proof.Proof.Lib

noncomputable section

namespace Cert.KernelIdeal.L6

open Cert.KernelIdeal Cert.KernelIdeal.Gen Cert.Lib
open Idealize.ShloMosaic Idealize.ShloMosaic.TcCoe Idealize.SL.Sem
open Idealize.ShloMosaic.Pipeline (Dat)
open scoped BigOperators

-- On extended reals the narrowing is the identity: the payload at (p, q) is Σ_k x[p,k]·W[k,q] + b[0,q].
theorem pay_at (x : Vec Ideal S1024x128 .f32) (W : Vec Ideal S128x128 .f32) (b : Vec Ideal S1x128 .f32)
    (p : Fin 1024) (q : Fin 128) :
    k6_pay1 (F := Ideal) x W b (ValueIdx.ix2 p q) = (∑ k : Fin 128, x (ValueIdx.ix2 p k) * W (ValueIdx.ix2 k q)) + b (ValueIdx.ix2 0 q) := by
  unfold k6_pay1
  rw [ValueIdx.addf_apply]
  simp only [shapeCast_self]
  exact congrArg₂ (· + ·) (matmul_zero_apply _ 128 rfl rfl _ _ _ (fun k => ValueIdx.ix2 p k) (fun k => ValueIdx.ix2 k q)
    (fun _ a => match a with | ⟨0, _⟩ => rfl | ⟨1, _⟩ => rfl) (fun _ a => match a with | ⟨0, _⟩ => rfl | ⟨1, _⟩ => rfl))
    (ValueIdx.broadcastTo_1b_ab_apply _ _ p q)

variable (V : (c : Dev nD) → (b : Ref sig .tc) → Buf (Elt Ideal) ((c : Thread nD τ).loc b))

def G (c : Dev nD) : S50176x128.Idx → EReal := fun i =>
  Cert.Spec.lin (fun r k => V c main_v72 (ValueIdx.ix2 r k)) (fun k j => V c main_v73 (ValueIdx.ix2 k j))
    (fun j => V c main_v75 (ValueIdx.ix2 0 j)) (i 0) (i 1)

theorem idx_facts : ∀ t : Fin cfg6.N,
    win6_0.index t (0 : Fin 2) = t.val ∧ win6_0.index t (1 : Fin 2) = 0 ∧ (∀ a, win6_1.index t a = 0)
    ∧ (∀ a, win6_2.index t a = 0) ∧ win6_3.index t (0 : Fin 2) = t.val ∧ win6_3.index t (1 : Fin 2) = 0 :=
  (by decide +kernel : ∀ t : Fin grid6.N, _)

theorem flushed_eq (c : Dev nD) (t : Fin cfg6.N) :
    (dat (F := Ideal) V c).flushed 3 t = ((cfg6.win 3).blk t).view.read (Elt Ideal) (G V c) := by
  obtain ⟨e00, e01, e1, e2, e30, e31⟩ := idx_facts t
  have hW : iblk V c 1 t = V c main_v73 := funext fun y => congrArg (V c main_v73)
    (Shape.idx_ext₂ (win6_1.rect_emb_val_of_index_zero t 0 (e1 0) y) (win6_1.rect_emb_val_of_index_zero t 1 (e1 1) y))
  have hb : iblk V c 2 t = V c main_v75 := funext fun y => congrArg (V c main_v75)
    (Shape.idx_ext₂ (win6_2.rect_emb_val_of_index_zero t 0 (e2 0) y) (win6_2.rect_emb_val_of_index_zero t 1 (e2 1) y))
  show (cfg6.win 3).cut (grid6.coords t) ((dat (F := Ideal) V c).after 3 t) = _
  rw [show (dat (F := Ideal) V c).after 3 t = out (iblk V c 0 t) (iblk V c 1 t) (iblk V c 2 t) by dsimp only [dat]]
  unfold out
  rw [View.canon_unit_zero zz2, View.ld_unit_zero zz2, View.ld_unit_zero zz2, View.ld_unit_zero zz2]
  funext y
  obtain ⟨p, q, rfl⟩ : ∃ (p : Fin 1024) (q : Fin 128), y = ValueIdx.ix2 p q := ⟨y 0, y 1, ValueIdx.eq_ix2 y⟩
  have ht : t.val * 1024 + p.val < 50176 := by have := lt_of_lt_of_eq t.isLt N_6; have := p.isLt; omega
  have h3 : ((cfg6.win 3).blk t).view.emb (ValueIdx.ix2 p q) = ValueIdx.ix2 (⟨t.val * 1024 + p.val, ht⟩ : Fin 50176) q :=
    Shape.idx_ext₂ ((win6_3.rect_emb_val t _ 0).trans (by rw [e30]; rfl)) (win6_3.rect_emb_val_of_index_zero t 1 e31 _)
  have hx : ∀ k : Fin 128, iblk V c 0 t (ValueIdx.ix2 p k) = V c main_v72 (ValueIdx.ix2 (⟨t.val * 1024 + p.val, ht⟩ : Fin 50176) k) := fun k =>
    congrArg (V c main_v72) (Shape.idx_ext₂ ((win6_0.rect_emb_val t _ 0).trans (by rw [e00]; rfl)) (win6_0.rect_emb_val_of_index_zero t 1 e01 _))
  show k6_pay1 (F := Ideal) (iblk V c 0 t) (iblk V c 1 t) (iblk V c 2 t) (ValueIdx.ix2 p q)
    = G V c (((cfg6.win 3).blk t).view.emb (ValueIdx.ix2 p q))
  rw [pay_at, h3, hW, hb]
  simp only [hx]
  rfl

-- Row r lies in block r / 1024, at row r % 1024 of it.
theorem covered (i : S50176x128.Idx) :
    ∃ t : Fin cfg6.N, (cfg6.win 3).flush t = true ∧ i ∈ ((cfg6.win 3).blk t).view.set := by
  have hi : (i 0).val < 50176 := (i 0).isLt
  have hN : cfg6.N = 49 := N_6
  let t : Fin cfg6.N := ⟨(i 0).val / 1024, by rw [hN]; omega⟩
  obtain ⟨-, -, -, -, e30, e31⟩ := idx_facts t
  have h : ((cfg6.win 3).blk t).view.emb (ValueIdx.ix2 (⟨(i 0).val % 1024, Nat.mod_lt _ (by decide)⟩ : Fin 1024) (i 1)) = i :=
    Shape.idx_ext₂ ((win6_3.rect_emb_val t _ 0).trans (by rw [e30]; exact Nat.div_add_mod' _ _)) (win6_3.rect_emb_val_of_index_zero t 1 e31 _)
  exact ⟨t, flush6_3 t, h ▸ View.emb_mem_set _ _⟩

theorem out_value (V : (c : Dev nD) → (b : Ref sig .tc) → Buf (Elt Ideal) ((c : Thread nD τ).loc b)) (c : Dev nD)
    (r : Fin 50176) (j : Fin 128) :
    (dat (F := Ideal) V c).arrAt 3 cfg6.N (ValueIdx.ix2 r j)
      = Cert.Spec.lin (fun r k => V c main_v72 (ValueIdx.ix2 r k)) (fun k j => V c main_v73 (ValueIdx.ix2 k j))
          (fun j => V c main_v75 (ValueIdx.ix2 0 j)) r j :=
  congrFun ((dat (F := Ideal) V c).arrAt_eq_of_cover 3 (G V c) (fun t _ => flushed_eq V c t) covered) _

end Cert.KernelIdeal.L6

end
-- ==== Proof.KI.G1Pay.lean ====
import proofs.«429835_j17746804867087_2_alg».proof.Proof.KI.G1Def
import proofs.«429835_j17746804867087_2_alg».proof.Proof.Lib
import proofs.«429835_j17746804867087_2_alg».proof.Proof.Spec

noncomputable section

namespace Cert.KernelIdeal.G1

open Cert.KernelIdeal Cert.KernelIdeal.Gen Cert.Lib
open Idealize.ShloMosaic Idealize.ShloMosaic.TcCoe
open scoped BigOperators

theorem pay1_apply (r : Fin 2048) (j : Fin 128) : (k1_pay1 (F := Ideal) (ValueIdx.ix2 r j) : EReal) = 0 := by
  unfold k1_pay1
  simp only [shapeCast_self]
  exact Ideal.ofBits_zero_f32

/-- The step adds the product of the one-hot block (node id = key, scaled by the weight) with the block of h. -/
theorem pay2_apply (i : grid1.Coords) (s : Vec Ideal S1x2048 .i32) (w : Vec Ideal S1x2048 .f32)
    (h : Vec Ideal S1024x128 .f32) (acc : Vec Ideal S2048x128 .f32) (r : Fin 2048) (j : Fin 128) :
    (k1_pay2 (F := Ideal) i s w h acc (ValueIdx.ix2 r j) : EReal)
      = acc (ValueIdx.ix2 r j) + ∑ k : Fin 1024,
          (Cert.Spec.oh (BitVec.ofNat 32 ((i 1).val * 1024 + k.val)) (s (ValueIdx.ix2 (0 : Fin 1) r))
            * w (ValueIdx.ix2 (0 : Fin 1) r)) * h (ValueIdx.ix2 k j) := by
  unfold k1_pay2
  simp only [shapeCast_self, matmul]
  rw [ValueIdx.addf_apply, matmul_zero_apply dot_S1024x2048_S1024x128_S2048x128_0_0_1_1_n_n 1024 rfl rfl _ _ _
    (fun k => ValueIdx.ix2 k r) (fun k => ValueIdx.ix2 k j)
    (fun q a => match a with
      | ⟨0, _⟩ => dot_S1024x2048_S1024x128_S2048x128_0_0_1_1_n_n.lhsIdx_val_of_single rfl _ q
      | ⟨1, _⟩ => rfl)
    (fun q a => match a with
      | ⟨0, _⟩ => dot_S1024x2048_S1024x128_S2048x128_0_0_1_1_n_n.rhsIdx_val_of_single rfl _ q
      | ⟨1, _⟩ => rfl)]
  refine congrArg (acc (ValueIdx.ix2 r j) + ·) (Finset.sum_congr rfl fun k _ => ?_)
  rw [ValueIdx.mulf_apply, ValueIdx.truncf_apply, ValueIdx.truncf_apply, ValueIdx.sitofp_apply, ValueIdx.extui_apply,
    ValueIdx.broadcastTo_1b_ab_apply, ValueIdx.truncf_apply]
  refine congrArg (· * _ * _) ((onehot_eq _ _).trans ?_)
  rw [broadcastTo_a1_ab_apply, ValueIdx.broadcastTo_1b_ab_apply]
  exact congrArg (Cert.Spec.oh · _) ((congrArg (IntOp.addi _) (iota_single_apply _ _ _ _ _ _)).trans (word_mul_add _ _ _))

theorem pay3_apply (acc : Vec Ideal S2048x128 .f32) (r : Fin 2048) (j : Fin 128) :
    (k1_pay3 (F := Ideal) acc (ValueIdx.ix2 r j) : EReal) = acc (ValueIdx.ix2 r j) := rfl

end Cert.KernelIdeal.G1

end
-- ==== Proof.KI.G1Val.lean ====
import proofs.«429835_j17746804867087_2_alg».proof.Proof.KI.G1Pay
import proofs.«429835_j17746804867087_2_alg».proof.Proof.Lib

noncomputable section

namespace Cert.KernelIdeal.G1

open Cert.KernelIdeal Cert.KernelIdeal.Gen Cert.Lib
open Idealize.ShloMosaic Idealize.ShloMosaic.TcCoe Idealize.SL.Sem
open Idealize.ShloMosaic.Pipeline (Dat)
open scoped BigOperators

namespace Val

variable (V : (c : Dev nD) → (b : Ref sig .tc) → Buf (Elt Ideal) ((c : Thread nD τ).loc b))
variable (a : (pcfg1 (F := Ideal)).Adm)

/-- Point t is (edge block, node block) = (t / 49, t % 49). -/
theorem coords (t : Fin (cfg1 a).N) :
    (grid1.coords t (0 : Fin 2)).val = t.val / 49 ∧ (grid1.coords t (1 : Fin 2)).val = t.val % 49 := by
  have ht : t.val < 19159 := lt_of_lt_of_eq t.isLt (N_eq a)
  refine ⟨?_, ?_⟩
  · show t.val / 49 % 391 = _; omega
  · show t.val / 1 % 49 = _; omega

/-- The block indices at point t: keys and weights (0, t / 49), h (t % 49, 0), the output (t / 49, 0). -/
theorem idx (t : Fin (cfg1 a).N) :
    (win1 a 0).index t (1 : Fin 2) = t.val / 49 ∧ (win1 a 1).index t (1 : Fin 2) = t.val / 49
      ∧ (win1 a 2).index t (0 : Fin 2) = t.val % 49 ∧ (win1 a 3).index t (0 : Fin 2) = t.val / 49 := by
  have ht : t.val < 19159 := lt_of_lt_of_eq t.isLt (N_eq a)
  obtain ⟨c0, c1⟩ := coords a t
  have e0 : (BitVec.ofNat 32 (grid1.coords t (0 : Fin 2)).val).toNat = t.val / 49 := by
    rw [c0, BitVec.toNat_ofNat]; omega
  have e1 : (BitVec.ofNat 32 (grid1.coords t (1 : Fin 2)).val).toNat = t.val % 49 := by
    rw [c1, BitVec.toNat_ofNat]; omega
  exact ⟨e0, e0, e1, e0⟩

theorem coords_pt (eb : Fin 391) (nb : Fin 49) : (grid1.coords (pt a eb nb) (1 : Fin 2)).val = nb.val := by
  have h := (coords a (pt a eb nb)).2
  have hv : (pt a eb nb).val = 49 * eb.val + nb.val := rfl
  have := nb.isLt
  omega

theorem src_read (c : Dev nD) (eb : Fin 391) (nb : Fin 49) (r : Fin 2048) :
    iblk V a c 0 (pt a eb nb) (ValueIdx.ix2 (0 : Fin 1) r) = V c main_v48 (ValueIdx.ix2 (0 : Fin 1) (Cert.Spec.edge eb r)) := by
  obtain ⟨e, -, -, -⟩ := idx a (pt a eb nb)
  have hv : (pt a eb nb).val = 49 * eb.val + nb.val := rfl
  have := nb.isLt
  refine congrArg (V c main_v48) (funext fun ax => Fin.ext ?_)
  match ax with
  | ⟨0, _⟩ => rfl
  | ⟨1, _⟩ => show (win1 a 0).index (pt a eb nb) (1 : Fin 2) * 2048 + 1 * r.val = eb.val * 2048 + r.val; omega

theorem w_read (c : Dev nD) (eb : Fin 391) (nb : Fin 49) (r : Fin 2048) :
    iblk V a c 1 (pt a eb nb) (ValueIdx.ix2 (0 : Fin 1) r) = V c main_v49 (ValueIdx.ix2 (0 : Fin 1) (Cert.Spec.edge eb r)) := by
  obtain ⟨-, e, -, -⟩ := idx a (pt a eb nb)
  have hv : (pt a eb nb).val = 49 * eb.val + nb.val := rfl
  have := nb.isLt
  refine congrArg (V c main_v49) (funext fun ax => Fin.ext ?_)
  match ax with
  | ⟨0, _⟩ => rfl
  | ⟨1, _⟩ => show (win1 a 1).index (pt a eb nb) (1 : Fin 2) * 2048 + 1 * r.val = eb.val * 2048 + r.val; omega

theorem h_read (c : Dev nD) (eb : Fin 391) (nb : Fin 49) (k : Fin 1024) (j : Fin 128) :
    iblk V a c 2 (pt a eb nb) (ValueIdx.ix2 k j) = V c main_v52 (ValueIdx.ix2 (Cert.Spec.node nb k) j) := by
  obtain ⟨-, -, e, -⟩ := idx a (pt a eb nb)
  have hv : (pt a eb nb).val = 49 * eb.val + nb.val := rfl
  have := nb.isLt
  refine congrArg (V c main_v52) (funext fun ax => Fin.ext ?_)
  match ax with
  | ⟨0, _⟩ => show (win1 a 2).index (pt a eb nb) (0 : Fin 2) * 1024 + 1 * k.val = nb.val * 1024 + k.val; omega
  | ⟨1, _⟩ => show 0 * 128 + 1 * j.val = j.val; omega

theorem act_iff_active (c : Dev nD) (eb : Fin 391) (nb : Fin 49) :
    act V c eb nb ↔ Cert.Spec.active (lo V c eb) (hi V c eb) nb :=
  guard_iff _ _ nb.val (by have := nb.isLt; omega)

def G (c : Dev nD) : S800768x128.Idx → EReal := fun i =>
  Cert.Spec.gather (fun b => V c main_v37 (ValueIdx.ix1 b)) (fun b => V c main_v40 (ValueIdx.ix1 b))
    (fun e => V c main_v48 (ValueIdx.ix2 (0 : Fin 1) e)) (fun e => V c main_v49 (ValueIdx.ix2 (0 : Fin 1) e))
    (fun n j => V c main_v52 (ValueIdx.ix2 n j)) (i 0) (i 1)

theorem eblk_edge (eb : Fin 391) (r : Fin 2048) : Cert.Spec.eblk (Cert.Spec.edge eb r) = eb :=
  Fin.ext (by show (eb.val * 2048 + r.val) / 2048 = eb.val; have := r.isLt; omega)

/-- The full running sum of edge block eb is its block of G: each admitted node block adds its one-hot product. -/
theorem psum_apply (c : Dev nD) (eb : Fin 391) (r : Fin 2048) (j : Fin 128) :
    (psum V a c eb 49 (ValueIdx.ix2 r j) : EReal) = G V c (ValueIdx.ix2 (Cert.Spec.edge eb r) j) := by
  show _ = Cert.Spec.gather _ _ _ _ _ (Cert.Spec.edge eb r) j
  unfold Cert.Spec.gather
  rw [eblk_edge]
  exact guarded_sum (Cert.Spec.active (lo V c eb) (hi V c eb))
    (fun nb x => k1_pay2 (grid1.coords (pt a eb nb)) (iblk V a c 0 (pt a eb nb)) (iblk V a c 1 (pt a eb nb))
      (iblk V a c 2 (pt a eb nb)) x)
    (psum V a c eb) (fun x => (x (ValueIdx.ix2 r j) : EReal)) _ (pay1_apply r j)
    (fun n h => by rw [psum, dif_pos h]; exact if_congr (act_iff_active V c eb ⟨n, h⟩) rfl rfl)
    (fun nb x _ => by
      refine (pay2_apply _ _ _ _ _ r j).trans ?_
      rw [src_read, w_read, coords_pt]
      refine congrArg (_ + ·) (Finset.sum_congr rfl fun k _ => ?_)
      rw [h_read]
      rfl)

theorem flushed_eq (c : Dev nD) (t : Fin (cfg1 a).N) :
    (dat (F := Ideal) V a c).flushed 3 t = (((cfg1 a).win 3).blk t).view.read (Elt Ideal) (G V c) := by
  obtain ⟨-, -, -, e⟩ := idx a t
  refine funext fun (y : S2048x128.Idx) => ?_
  obtain ⟨r, j, rfl⟩ : ∃ (r : Fin 2048) (j : Fin 128), y = ValueIdx.ix2 r j := ⟨y 0, y 1, ValueIdx.eq_ix2 y⟩
  show (psum V a c ⟨t.val / 49, eb_lt a t⟩ 49 (ValueIdx.ix2 r j) : EReal)
    = G V c ((((cfg1 a).win 3).blk t).view.emb (ValueIdx.ix2 r j))
  rw [psum_apply]
  refine congrArg (G V c) (funext fun ax => Fin.ext ?_)
  match ax with
  | ⟨0, _⟩ => show t.val / 49 * 2048 + r.val = (win1 a 3).index t (0 : Fin 2) * 2048 + 1 * r.val; omega
  | ⟨1, _⟩ => show j.val = 0 * 128 + 1 * j.val; omega

/-- The point after an edge block's last point lies in the next edge block. -/
theorem flush_last (t : Fin (cfg1 a).N) (h48 : t.val % 49 = 48) : ((cfg1 a).win 3).flush t = true :=
  flush_of_index_ne _ rfl t (0 : Fin 2) fun hlt
      (he : (win1 a 3).index ⟨t.val + 1, hlt⟩ (0 : Fin 2) = (win1 a 3).index t (0 : Fin 2)) => by
    have e1 : _ = (t.val + 1) / 49 := (idx a ⟨t.val + 1, hlt⟩).2.2.2
    have e2 := (idx a t).2.2.2
    omega

/-- Row e lies in the block of edge block e / 2048: the blocks cover the array. -/
theorem covered (i : S800768x128.Idx) :
    ∃ t : Fin (cfg1 a).N, ((cfg1 a).win 3).flush t = true ∧ i ∈ (((cfg1 a).win 3).blk t).view.set := by
  have hi0 : (i 0).val < 800768 := (i 0).isLt
  have hi1 : (i 1).val < 128 := (i 1).isLt
  let t : Fin (cfg1 a).N := pt a ⟨(i 0).val / 2048, by omega⟩ ⟨48, by decide⟩
  have htv : t.val = 49 * ((i 0).val / 2048) + 48 := rfl
  have e := (idx a t).2.2.2
  refine ⟨t, flush_last a t (by omega), ?_⟩
  show i ∈ ((View.whole main_v53).slice ((win1 a 3).rect t)).set
  rw [View.set_slice_whole, Rect.mem_set_unit]
  intro ax
  match ax with
  | ⟨0, _⟩ =>
    show (win1 a 3).index t (0 : Fin 2) * 2048 ≤ (i 0).val ∧ (i 0).val < (win1 a 3).index t (0 : Fin 2) * 2048 + 2048
    omega
  | ⟨1, _⟩ => show 0 * 128 ≤ (i 1).val ∧ (i 1).val < 0 * 128 + 128; omega

end Val

theorem out_value (V : (c : Dev nD) → (b : Ref sig .tc) → Buf (Elt Ideal) ((c : Thread nD τ).loc b))
    (a : (pcfg1 (F := Ideal)).Adm) (c : Dev nD) (e : Fin 800768) (j : Fin 128) :
    (dat (F := Ideal) V a c).arrAt 3 (cfg1 a).N (ValueIdx.ix2 e j)
      = Cert.Spec.gather (fun b => V c main_v37 (ValueIdx.ix1 b)) (fun b => V c main_v40 (ValueIdx.ix1 b))
          (fun e => V c main_v48 (ValueIdx.ix2 (0 : Fin 1) e)) (fun e => V c main_v49 (ValueIdx.ix2 (0 : Fin 1) e))
          (fun n j => V c main_v52 (ValueIdx.ix2 n j)) e j :=
  congrFun ((dat (F := Ideal) V a c).arrAt_eq_of_cover 3 (Val.G V c) (fun t _ => Val.flushed_eq V a c t) (Val.covered a))
    (ValueIdx.ix2 e j)

end Cert.KernelIdeal.G1

end
-- ==== Proof.KI.G4Pay.lean ====
import proofs.«429835_j17746804867087_2_alg».proof.Proof.KI.G4Def
import proofs.«429835_j17746804867087_2_alg».proof.Proof.Lib
import proofs.«429835_j17746804867087_2_alg».proof.Proof.Spec

noncomputable section

namespace Cert.KernelIdeal.G4

open Cert.KernelIdeal Cert.KernelIdeal.Gen Cert.Lib
open Idealize.ShloMosaic Idealize.ShloMosaic.TcCoe
open scoped BigOperators

theorem pay1_apply (r : Fin 2048) (j : Fin 128) : (k4_pay1 (F := Ideal) (ValueIdx.ix2 r j) : EReal) = 0 := by
  unfold k4_pay1
  simp only [shapeCast_self]
  exact Ideal.ofBits_zero_f32

/-- The step adds the product of the one-hot block (node id = key, scaled by the weight) with the block of h. -/
theorem pay2_apply (i : grid4.Coords) (s : Vec Ideal S1x2048 .i32) (w : Vec Ideal S1x2048 .f32)
    (h : Vec Ideal S1024x128 .f32) (acc : Vec Ideal S2048x128 .f32) (r : Fin 2048) (j : Fin 128) :
    (k4_pay2 (F := Ideal) i s w h acc (ValueIdx.ix2 r j) : EReal)
      = acc (ValueIdx.ix2 r j) + ∑ k : Fin 1024,
          (Cert.Spec.oh (BitVec.ofNat 32 ((i 1).val * 1024 + k.val)) (s (ValueIdx.ix2 (0 : Fin 1) r))
            * w (ValueIdx.ix2 (0 : Fin 1) r)) * h (ValueIdx.ix2 k j) := by
  unfold k4_pay2
  simp only [shapeCast_self, matmul]
  rw [ValueIdx.addf_apply, matmul_zero_apply dot_S1024x2048_S1024x128_S2048x128_0_0_1_1_n_n 1024 rfl rfl _ _ _
    (fun k => ValueIdx.ix2 k r) (fun k => ValueIdx.ix2 k j)
    (fun q a => match a with
      | ⟨0, _⟩ => dot_S1024x2048_S1024x128_S2048x128_0_0_1_1_n_n.lhsIdx_val_of_single rfl _ q
      | ⟨1, _⟩ => rfl)
    (fun q a => match a with
      | ⟨0, _⟩ => dot_S1024x2048_S1024x128_S2048x128_0_0_1_1_n_n.rhsIdx_val_of_single rfl _ q
      | ⟨1, _⟩ => rfl)]
  refine congrArg (acc (ValueIdx.ix2 r j) + ·) (Finset.sum_congr rfl fun k _ => ?_)
  rw [ValueIdx.mulf_apply, ValueIdx.truncf_apply, ValueIdx.truncf_apply, ValueIdx.sitofp_apply, ValueIdx.extui_apply,
    ValueIdx.broadcastTo_1b_ab_apply, ValueIdx.truncf_apply]
  refine congrArg (· * _ * _) ((onehot_eq _ _).trans ?_)
  rw [broadcastTo_a1_ab_apply, ValueIdx.broadcastTo_1b_ab_apply]
  exact congrArg (Cert.Spec.oh · _) ((congrArg (IntOp.addi _) (iota_single_apply _ _ _ _ _ _)).trans (word_mul_add _ _ _))

theorem pay3_apply (acc : Vec Ideal S2048x128 .f32) (r : Fin 2048) (j : Fin 128) :
    (k4_pay3 (F := Ideal) acc (ValueIdx.ix2 r j) : EReal) = acc (ValueIdx.ix2 r j) := rfl

end Cert.KernelIdeal.G4

end
-- ==== Proof.KI.G4Val.lean ====
import proofs.«429835_j17746804867087_2_alg».proof.Proof.KI.G4Pay
import proofs.«429835_j17746804867087_2_alg».proof.Proof.Lib

noncomputable section

namespace Cert.KernelIdeal.G4

open Cert.KernelIdeal Cert.KernelIdeal.Gen Cert.Lib
open Idealize.ShloMosaic Idealize.ShloMosaic.TcCoe Idealize.SL.Sem
open Idealize.ShloMosaic.Pipeline (Dat)
open scoped BigOperators

namespace Val

variable (V : (c : Dev nD) → (b : Ref sig .tc) → Buf (Elt Ideal) ((c : Thread nD τ).loc b))
variable (a : (pcfg4 (F := Ideal)).Adm)

/-- Point t is (edge block, node block) = (t / 49, t % 49). -/
theorem coords (t : Fin (cfg4 a).N) :
    (grid4.coords t (0 : Fin 2)).val = t.val / 49 ∧ (grid4.coords t (1 : Fin 2)).val = t.val % 49 := by
  have ht : t.val < 19159 := lt_of_lt_of_eq t.isLt (N_eq a)
  refine ⟨?_, ?_⟩
  · show t.val / 49 % 391 = _; omega
  · show t.val / 1 % 49 = _; omega

/-- The block indices at point t: keys and weights (0, t / 49), h (t % 49, 0), the output (t / 49, 0). -/
theorem idx (t : Fin (cfg4 a).N) :
    (win4 a 0).index t (1 : Fin 2) = t.val / 49 ∧ (win4 a 1).index t (1 : Fin 2) = t.val / 49
      ∧ (win4 a 2).index t (0 : Fin 2) = t.val % 49 ∧ (win4 a 3).index t (0 : Fin 2) = t.val / 49 := by
  have ht : t.val < 19159 := lt_of_lt_of_eq t.isLt (N_eq a)
  obtain ⟨c0, c1⟩ := coords a t
  have e0 : (BitVec.ofNat 32 (grid4.coords t (0 : Fin 2)).val).toNat = t.val / 49 := by
    rw [c0, BitVec.toNat_ofNat]; omega
  have e1 : (BitVec.ofNat 32 (grid4.coords t (1 : Fin 2)).val).toNat = t.val % 49 := by
    rw [c1, BitVec.toNat_ofNat]; omega
  exact ⟨e0, e0, e1, e0⟩

theorem coords_pt (eb : Fin 391) (nb : Fin 49) : (grid4.coords (pt a eb nb) (1 : Fin 2)).val = nb.val := by
  have h := (coords a (pt a eb nb)).2
  have hv : (pt a eb nb).val = 49 * eb.val + nb.val := rfl
  have := nb.isLt
  omega

theorem src_read (c : Dev nD) (eb : Fin 391) (nb : Fin 49) (r : Fin 2048) :
    iblk V a c 0 (pt a eb nb) (ValueIdx.ix2 (0 : Fin 1) r) = V c main_v48 (ValueIdx.ix2 (0 : Fin 1) (Cert.Spec.edge eb r)) := by
  obtain ⟨e, -, -, -⟩ := idx a (pt a eb nb)
  have hv : (pt a eb nb).val = 49 * eb.val + nb.val := rfl
  have := nb.isLt
  refine congrArg (V c main_v48) (funext fun ax => Fin.ext ?_)
  match ax with
  | ⟨0, _⟩ => rfl
  | ⟨1, _⟩ => show (win4 a 0).index (pt a eb nb) (1 : Fin 2) * 2048 + 1 * r.val = eb.val * 2048 + r.val; omega

theorem w_read (c : Dev nD) (eb : Fin 391) (nb : Fin 49) (r : Fin 2048) :
    iblk V a c 1 (pt a eb nb) (ValueIdx.ix2 (0 : Fin 1) r) = V c main_v49 (ValueIdx.ix2 (0 : Fin 1) (Cert.Spec.edge eb r)) := by
  obtain ⟨-, e, -, -⟩ := idx a (pt a eb nb)
  have hv : (pt a eb nb).val = 49 * eb.val + nb.val := rfl
  have := nb.isLt
  refine congrArg (V c main_v49) (funext fun ax => Fin.ext ?_)
  match ax with
  | ⟨0, _⟩ => rfl
  | ⟨1, _⟩ => show (win4 a 1).index (pt a eb nb) (1 : Fin 2) * 2048 + 1 * r.val = eb.val * 2048 + r.val; omega

theorem h_read (c : Dev nD) (eb : Fin 391) (nb : Fin 49) (k : Fin 1024) (j : Fin 128) :
    iblk V a c 2 (pt a eb nb) (ValueIdx.ix2 k j) = V c main_v63 (ValueIdx.ix2 (Cert.Spec.node nb k) j) := by
  obtain ⟨-, -, e, -⟩ := idx a (pt a eb nb)
  have hv : (pt a eb nb).val = 49 * eb.val + nb.val := rfl
  have := nb.isLt
  refine congrArg (V c main_v63) (funext fun ax => Fin.ext ?_)
  match ax with
  | ⟨0, _⟩ => show (win4 a 2).index (pt a eb nb) (0 : Fin 2) * 1024 + 1 * k.val = nb.val * 1024 + k.val; omega
  | ⟨1, _⟩ => show 0 * 128 + 1 * j.val = j.val; omega

theorem act_iff_active (c : Dev nD) (eb : Fin 391) (nb : Fin 49) :
    act V c eb nb ↔ Cert.Spec.active (lo V c eb) (hi V c eb) nb :=
  guard_iff _ _ nb.val (by have := nb.isLt; omega)

def G (c : Dev nD) : S800768x128.Idx → EReal := fun i =>
  Cert.Spec.gather (fun b => V c main_v37 (ValueIdx.ix1 b)) (fun b => V c main_v40 (ValueIdx.ix1 b))
    (fun e => V c main_v48 (ValueIdx.ix2 (0 : Fin 1) e)) (fun e => V c main_v49 (ValueIdx.ix2 (0 : Fin 1) e))
    (fun n j => V c main_v63 (ValueIdx.ix2 n j)) (i 0) (i 1)

theorem eblk_edge (eb : Fin 391) (r : Fin 2048) : Cert.Spec.eblk (Cert.Spec.edge eb r) = eb :=
  Fin.ext (by show (eb.val * 2048 + r.val) / 2048 = eb.val; have := r.isLt; omega)

/-- The full running sum of edge block eb is its block of G: each admitted node block adds its one-hot product. -/
theorem psum_apply (c : Dev nD) (eb : Fin 391) (r : Fin 2048) (j : Fin 128) :
    (psum V a c eb 49 (ValueIdx.ix2 r j) : EReal) = G V c (ValueIdx.ix2 (Cert.Spec.edge eb r) j) := by
  show _ = Cert.Spec.gather _ _ _ _ _ (Cert.Spec.edge eb r) j
  unfold Cert.Spec.gather
  rw [eblk_edge]
  exact guarded_sum (Cert.Spec.active (lo V c eb) (hi V c eb))
    (fun nb x => k4_pay2 (grid4.coords (pt a eb nb)) (iblk V a c 0 (pt a eb nb)) (iblk V a c 1 (pt a eb nb))
      (iblk V a c 2 (pt a eb nb)) x)
    (psum V a c eb) (fun x => (x (ValueIdx.ix2 r j) : EReal)) _ (pay1_apply r j)
    (fun n h => by rw [psum, dif_pos h]; exact if_congr (act_iff_active V c eb ⟨n, h⟩) rfl rfl)
    (fun nb x _ => by
      refine (pay2_apply _ _ _ _ _ r j).trans ?_
      rw [src_read, w_read, coords_pt]
      refine congrArg (_ + ·) (Finset.sum_congr rfl fun k _ => ?_)
      rw [h_read]
      rfl)

theorem flushed_eq (c : Dev nD) (t : Fin (cfg4 a).N) :
    (dat (F := Ideal) V a c).flushed 3 t = (((cfg4 a).win 3).blk t).view.read (Elt Ideal) (G V c) := by
  obtain ⟨-, -, -, e⟩ := idx a t
  refine funext fun (y : S2048x128.Idx) => ?_
  obtain ⟨r, j, rfl⟩ : ∃ (r : Fin 2048) (j : Fin 128), y = ValueIdx.ix2 r j := ⟨y 0, y 1, ValueIdx.eq_ix2 y⟩
  show (psum V a c ⟨t.val / 49, eb_lt a t⟩ 49 (ValueIdx.ix2 r j) : EReal)
    = G V c ((((cfg4 a).win 3).blk t).view.emb (ValueIdx.ix2 r j))
  rw [psum_apply]
  refine congrArg (G V c) (funext fun ax => Fin.ext ?_)
  match ax with
  | ⟨0, _⟩ => show t.val / 49 * 2048 + r.val = (win4 a 3).index t (0 : Fin 2) * 2048 + 1 * r.val; omega
  | ⟨1, _⟩ => show j.val = 0 * 128 + 1 * j.val; omega

/-- The point after an edge block's last point lies in the next edge block. -/
theorem flush_last (t : Fin (cfg4 a).N) (h48 : t.val % 49 = 48) : ((cfg4 a).win 3).flush t = true :=
  flush_of_index_ne _ rfl t (0 : Fin 2) fun hlt
      (he : (win4 a 3).index ⟨t.val + 1, hlt⟩ (0 : Fin 2) = (win4 a 3).index t (0 : Fin 2)) => by
    have e1 : _ = (t.val + 1) / 49 := (idx a ⟨t.val + 1, hlt⟩).2.2.2
    have e2 := (idx a t).2.2.2
    omega

/-- Row e lies in the block of edge block e / 2048: the blocks cover the array. -/
theorem covered (i : S800768x128.Idx) :
    ∃ t : Fin (cfg4 a).N, ((cfg4 a).win 3).flush t = true ∧ i ∈ (((cfg4 a).win 3).blk t).view.set := by
  have hi0 : (i 0).val < 800768 := (i 0).isLt
  have hi1 : (i 1).val < 128 := (i 1).isLt
  let t : Fin (cfg4 a).N := pt a ⟨(i 0).val / 2048, by omega⟩ ⟨48, by decide⟩
  have htv : t.val = 49 * ((i 0).val / 2048) + 48 := rfl
  have e := (idx a t).2.2.2
  refine ⟨t, flush_last a t (by omega), ?_⟩
  show i ∈ ((View.whole main_v64).slice ((win4 a 3).rect t)).set
  rw [View.set_slice_whole, Rect.mem_set_unit]
  intro ax
  match ax with
  | ⟨0, _⟩ =>
    show (win4 a 3).index t (0 : Fin 2) * 2048 ≤ (i 0).val ∧ (i 0).val < (win4 a 3).index t (0 : Fin 2) * 2048 + 2048
    omega
  | ⟨1, _⟩ => show 0 * 128 ≤ (i 1).val ∧ (i 1).val < 0 * 128 + 128; omega

end Val

theorem out_value (V : (c : Dev nD) → (b : Ref sig .tc) → Buf (Elt Ideal) ((c : Thread nD τ).loc b))
    (a : (pcfg4 (F := Ideal)).Adm) (c : Dev nD) (e : Fin 800768) (j : Fin 128) :
    (dat (F := Ideal) V a c).arrAt 3 (cfg4 a).N (ValueIdx.ix2 e j)
      = Cert.Spec.gather (fun b => V c main_v37 (ValueIdx.ix1 b)) (fun b => V c main_v40 (ValueIdx.ix1 b))
          (fun e => V c main_v48 (ValueIdx.ix2 (0 : Fin 1) e)) (fun e => V c main_v49 (ValueIdx.ix2 (0 : Fin 1) e))
          (fun n j => V c main_v63 (ValueIdx.ix2 n j)) e j :=
  congrFun ((dat (F := Ideal) V a c).arrAt_eq_of_cover 3 (Val.G V c) (fun t _ => Val.flushed_eq V a c t) (Val.covered a))
    (ValueIdx.ix2 e j)

end Cert.KernelIdeal.G4

end
-- ==== Proof.KI.G7Pay.lean ====
import proofs.«429835_j17746804867087_2_alg».proof.Proof.KI.G7Def
import proofs.«429835_j17746804867087_2_alg».proof.Proof.Lib
import proofs.«429835_j17746804867087_2_alg».proof.Proof.Spec

noncomputable section

namespace Cert.KernelIdeal.G7

open Cert.KernelIdeal Cert.KernelIdeal.Gen Cert.Lib
open Idealize.ShloMosaic Idealize.ShloMosaic.TcCoe
open scoped BigOperators

theorem pay1_apply (r : Fin 2048) (j : Fin 128) : (k7_pay1 (F := Ideal) (ValueIdx.ix2 r j) : EReal) = 0 := by
  unfold k7_pay1
  simp only [shapeCast_self]
  exact Ideal.ofBits_zero_f32

/-- The step adds the product of the one-hot block (node id = key, scaled by the weight) with the block of h. -/
theorem pay2_apply (i : grid7.Coords) (s : Vec Ideal S1x2048 .i32) (w : Vec Ideal S1x2048 .f32)
    (h : Vec Ideal S1024x128 .f32) (acc : Vec Ideal S2048x128 .f32) (r : Fin 2048) (j : Fin 128) :
    (k7_pay2 (F := Ideal) i s w h acc (ValueIdx.ix2 r j) : EReal)
      = acc (ValueIdx.ix2 r j) + ∑ k : Fin 1024,
          (Cert.Spec.oh (BitVec.ofNat 32 ((i 1).val * 1024 + k.val)) (s (ValueIdx.ix2 (0 : Fin 1) r))
            * w (ValueIdx.ix2 (0 : Fin 1) r)) * h (ValueIdx.ix2 k j) := by
  unfold k7_pay2
  simp only [shapeCast_self, matmul]
  rw [ValueIdx.addf_apply, matmul_zero_apply dot_S1024x2048_S1024x128_S2048x128_0_0_1_1_n_n 1024 rfl rfl _ _ _
    (fun k => ValueIdx.ix2 k r) (fun k => ValueIdx.ix2 k j)
    (fun q a => match a with
      | ⟨0, _⟩ => dot_S1024x2048_S1024x128_S2048x128_0_0_1_1_n_n.lhsIdx_val_of_single rfl _ q
      | ⟨1, _⟩ => rfl)
    (fun q a => match a with
      | ⟨0, _⟩ => dot_S1024x2048_S1024x128_S2048x128_0_0_1_1_n_n.rhsIdx_val_of_single rfl _ q
      | ⟨1, _⟩ => rfl)]
  refine congrArg (acc (ValueIdx.ix2 r j) + ·) (Finset.sum_congr rfl fun k _ => ?_)
  rw [ValueIdx.mulf_apply, ValueIdx.truncf_apply, ValueIdx.truncf_apply, ValueIdx.sitofp_apply, ValueIdx.extui_apply,
    ValueIdx.broadcastTo_1b_ab_apply, ValueIdx.truncf_apply]
  refine congrArg (· * _ * _) ((onehot_eq _ _).trans ?_)
  rw [broadcastTo_a1_ab_apply, ValueIdx.broadcastTo_1b_ab_apply]
  exact congrArg (Cert.Spec.oh · _) ((congrArg (IntOp.addi _) (iota_single_apply _ _ _ _ _ _)).trans (word_mul_add _ _ _))

theorem pay3_apply (acc : Vec Ideal S2048x128 .f32) (r : Fin 2048) (j : Fin 128) :
    (k7_pay3 (F := Ideal) acc (ValueIdx.ix2 r j) : EReal) = acc (ValueIdx.ix2 r j) := rfl

end Cert.KernelIdeal.G7

end
-- ==== Proof.KI.G7Val.lean ====
import proofs.«429835_j17746804867087_2_alg».proof.Proof.KI.G7Pay
import proofs.«429835_j17746804867087_2_alg».proof.Proof.Lib

noncomputable section

namespace Cert.KernelIdeal.G7

open Cert.KernelIdeal Cert.KernelIdeal.Gen Cert.Lib
open Idealize.ShloMosaic Idealize.ShloMosaic.TcCoe Idealize.SL.Sem
open Idealize.ShloMosaic.Pipeline (Dat)
open scoped BigOperators

namespace Val

variable (V : (c : Dev nD) → (b : Ref sig .tc) → Buf (Elt Ideal) ((c : Thread nD τ).loc b))
variable (a : (pcfg7 (F := Ideal)).Adm)

/-- Point t is (edge block, node block) = (t / 49, t % 49). -/
theorem coords (t : Fin (cfg7 a).N) :
    (grid7.coords t (0 : Fin 2)).val = t.val / 49 ∧ (grid7.coords t (1 : Fin 2)).val = t.val % 49 := by
  have ht : t.val < 19159 := lt_of_lt_of_eq t.isLt (N_eq a)
  refine ⟨?_, ?_⟩
  · show t.val / 49 % 391 = _; omega
  · show t.val / 1 % 49 = _; omega

/-- The block indices at point t: keys and weights (0, t / 49), h (t % 49, 0), the output (t / 49, 0). -/
theorem idx (t : Fin (cfg7 a).N) :
    (win7 a 0).index t (1 : Fin 2) = t.val / 49 ∧ (win7 a 1).index t (1 : Fin 2) = t.val / 49
      ∧ (win7 a 2).index t (0 : Fin 2) = t.val % 49 ∧ (win7 a 3).index t (0 : Fin 2) = t.val / 49 := by
  have ht : t.val < 19159 := lt_of_lt_of_eq t.isLt (N_eq a)
  obtain ⟨c0, c1⟩ := coords a t
  have e0 : (BitVec.ofNat 32 (grid7.coords t (0 : Fin 2)).val).toNat = t.val / 49 := by
    rw [c0, BitVec.toNat_ofNat]; omega
  have e1 : (BitVec.ofNat 32 (grid7.coords t (1 : Fin 2)).val).toNat = t.val % 49 := by
    rw [c1, BitVec.toNat_ofNat]; omega
  exact ⟨e0, e0, e1, e0⟩

theorem coords_pt (eb : Fin 391) (nb : Fin 49) : (grid7.coords (pt a eb nb) (1 : Fin 2)).val = nb.val := by
  have h := (coords a (pt a eb nb)).2
  have hv : (pt a eb nb).val = 49 * eb.val + nb.val := rfl
  have := nb.isLt
  omega

theorem src_read (c : Dev nD) (eb : Fin 391) (nb : Fin 49) (r : Fin 2048) :
    iblk V a c 0 (pt a eb nb) (ValueIdx.ix2 (0 : Fin 1) r) = V c main_v48 (ValueIdx.ix2 (0 : Fin 1) (Cert.Spec.edge eb r)) := by
  obtain ⟨e, -, -, -⟩ := idx a (pt a eb nb)
  have hv : (pt a eb nb).val = 49 * eb.val + nb.val := rfl
  have := nb.isLt
  refine congrArg (V c main_v48) (funext fun ax => Fin.ext ?_)
  match ax with
  | ⟨0, _⟩ => rfl
  | ⟨1, _⟩ => show (win7 a 0).index (pt a eb nb) (1 : Fin 2) * 2048 + 1 * r.val = eb.val * 2048 + r.val; omega

theorem w_read (c : Dev nD) (eb : Fin 391) (nb : Fin 49) (r : Fin 2048) :
    iblk V a c 1 (pt a eb nb) (ValueIdx.ix2 (0 : Fin 1) r) = V c main_v49 (ValueIdx.ix2 (0 : Fin 1) (Cert.Spec.edge eb r)) := by
  obtain ⟨-, e, -, -⟩ := idx a (pt a eb nb)
  have hv : (pt a eb nb).val = 49 * eb.val + nb.val := rfl
  have := nb.isLt
  refine congrArg (V c main_v49) (funext fun ax => Fin.ext ?_)
  match ax with
  | ⟨0, _⟩ => rfl
  | ⟨1, _⟩ => show (win7 a 1).index (pt a eb nb) (1 : Fin 2) * 2048 + 1 * r.val = eb.val * 2048 + r.val; omega

theorem h_read (c : Dev nD) (eb : Fin 391) (nb : Fin 49) (k : Fin 1024) (j : Fin 128) :
    iblk V a c 2 (pt a eb nb) (ValueIdx.ix2 k j) = V c main_v76 (ValueIdx.ix2 (Cert.Spec.node nb k) j) := by
  obtain ⟨-, -, e, -⟩ := idx a (pt a eb nb)
  have hv : (pt a eb nb).val = 49 * eb.val + nb.val := rfl
  have := nb.isLt
  refine congrArg (V c main_v76) (funext fun ax => Fin.ext ?_)
  match ax with
  | ⟨0, _⟩ => show (win7 a 2).index (pt a eb nb) (0 : Fin 2) * 1024 + 1 * k.val = nb.val * 1024 + k.val; omega
  | ⟨1, _⟩ => show 0 * 128 + 1 * j.val = j.val; omega

theorem act_iff_active (c : Dev nD) (eb : Fin 391) (nb : Fin 49) :
    act V c eb nb ↔ Cert.Spec.active (lo V c eb) (hi V c eb) nb :=
  guard_iff _ _ nb.val (by have := nb.isLt; omega)

def G (c : Dev nD) : S800768x128.Idx → EReal := fun i =>
  Cert.Spec.gather (fun b => V c main_v37 (ValueIdx.ix1 b)) (fun b => V c main_v40 (ValueIdx.ix1 b))
    (fun e => V c main_v48 (ValueIdx.ix2 (0 : Fin 1) e)) (fun e => V c main_v49 (ValueIdx.ix2 (0 : Fin 1) e))
    (fun n j => V c main_v76 (ValueIdx.ix2 n j)) (i 0) (i 1)

theorem eblk_edge (eb : Fin 391) (r : Fin 2048) : Cert.Spec.eblk (Cert.Spec.edge eb r) = eb :=
  Fin.ext (by show (eb.val * 2048 + r.val) / 2048 = eb.val; have := r.isLt; omega)

/-- The full running sum of edge block eb is its block of G: each admitted node block adds its one-hot product. -/
theorem psum_apply (c : Dev nD) (eb : Fin 391) (r : Fin 2048) (j : Fin 128) :
    (psum V a c eb 49 (ValueIdx.ix2 r j) : EReal) = G V c (ValueIdx.ix2 (Cert.Spec.edge eb r) j) := by
  show _ = Cert.Spec.gather _ _ _ _ _ (Cert.Spec.edge eb r) j
  unfold Cert.Spec.gather
  rw [eblk_edge]
  exact guarded_sum (Cert.Spec.active (lo V c eb) (hi V c eb))
    (fun nb x => k7_pay2 (grid7.coords (pt a eb nb)) (iblk V a c 0 (pt a eb nb)) (iblk V a c 1 (pt a eb nb))
      (iblk V a c 2 (pt a eb nb)) x)
    (psum V a c eb) (fun x => (x (ValueIdx.ix2 r j) : EReal)) _ (pay1_apply r j)
    (fun n h => by rw [psum, dif_pos h]; exact if_congr (act_iff_active V c eb ⟨n, h⟩) rfl rfl)
    (fun nb x _ => by
      refine (pay2_apply _ _ _ _ _ r j).trans ?_
      rw [src_read, w_read, coords_pt]
      refine congrArg (_ + ·) (Finset.sum_congr rfl fun k _ => ?_)
      rw [h_read]
      rfl)

theorem flushed_eq (c : Dev nD) (t : Fin (cfg7 a).N) :
    (dat (F := Ideal) V a c).flushed 3 t = (((cfg7 a).win 3).blk t).view.read (Elt Ideal) (G V c) := by
  obtain ⟨-, -, -, e⟩ := idx a t
  refine funext fun (y : S2048x128.Idx) => ?_
  obtain ⟨r, j, rfl⟩ : ∃ (r : Fin 2048) (j : Fin 128), y = ValueIdx.ix2 r j := ⟨y 0, y 1, ValueIdx.eq_ix2 y⟩
  show (psum V a c ⟨t.val / 49, eb_lt a t⟩ 49 (ValueIdx.ix2 r j) : EReal)
    = G V c ((((cfg7 a).win 3).blk t).view.emb (ValueIdx.ix2 r j))
  rw [psum_apply]
  refine congrArg (G V c) (funext fun ax => Fin.ext ?_)
  match ax with
  | ⟨0, _⟩ => show t.val / 49 * 2048 + r.val = (win7 a 3).index t (0 : Fin 2) * 2048 + 1 * r.val; omega
  | ⟨1, _⟩ => show j.val = 0 * 128 + 1 * j.val; omega

/-- The point after an edge block's last point lies in the next edge block. -/
theorem flush_last (t : Fin (cfg7 a).N) (h48 : t.val % 49 = 48) : ((cfg7 a).win 3).flush t = true :=
  flush_of_index_ne _ rfl t (0 : Fin 2) fun hlt
      (he : (win7 a 3).index ⟨t.val + 1, hlt⟩ (0 : Fin 2) = (win7 a 3).index t (0 : Fin 2)) => by
    have e1 : _ = (t.val + 1) / 49 := (idx a ⟨t.val + 1, hlt⟩).2.2.2
    have e2 := (idx a t).2.2.2
    omega

/-- Row e lies in the block of edge block e / 2048: the blocks cover the array. -/
theorem covered (i : S800768x128.Idx) :
    ∃ t : Fin (cfg7 a).N, ((cfg7 a).win 3).flush t = true ∧ i ∈ (((cfg7 a).win 3).blk t).view.set := by
  have hi0 : (i 0).val < 800768 := (i 0).isLt
  have hi1 : (i 1).val < 128 := (i 1).isLt
  let t : Fin (cfg7 a).N := pt a ⟨(i 0).val / 2048, by omega⟩ ⟨48, by decide⟩
  have htv : t.val = 49 * ((i 0).val / 2048) + 48 := rfl
  have e := (idx a t).2.2.2
  refine ⟨t, flush_last a t (by omega), ?_⟩
  show i ∈ ((View.whole main_v77).slice ((win7 a 3).rect t)).set
  rw [View.set_slice_whole, Rect.mem_set_unit]
  intro ax
  match ax with
  | ⟨0, _⟩ =>
    show (win7 a 3).index t (0 : Fin 2) * 2048 ≤ (i 0).val ∧ (i 0).val < (win7 a 3).index t (0 : Fin 2) * 2048 + 2048
    omega
  | ⟨1, _⟩ => show 0 * 128 ≤ (i 1).val ∧ (i 1).val < 0 * 128 + 128; omega

end Val

theorem out_value (V : (c : Dev nD) → (b : Ref sig .tc) → Buf (Elt Ideal) ((c : Thread nD τ).loc b))
    (a : (pcfg7 (F := Ideal)).Adm) (c : Dev nD) (e : Fin 800768) (j : Fin 128) :
    (dat (F := Ideal) V a c).arrAt 3 (cfg7 a).N (ValueIdx.ix2 e j)
      = Cert.Spec.gather (fun b => V c main_v37 (ValueIdx.ix1 b)) (fun b => V c main_v40 (ValueIdx.ix1 b))
          (fun e => V c main_v48 (ValueIdx.ix2 (0 : Fin 1) e)) (fun e => V c main_v49 (ValueIdx.ix2 (0 : Fin 1) e))
          (fun n j => V c main_v76 (ValueIdx.ix2 n j)) e j :=
  congrFun ((dat (F := Ideal) V a c).arrAt_eq_of_cover 3 (Val.G V c) (fun t _ => Val.flushed_eq V a c t) (Val.covered a))
    (ValueIdx.ix2 e j)

end Cert.KernelIdeal.G7

end
-- ==== Proof.KI.S2Pay.lean ====
import proofs.«429835_j17746804867087_2_alg».proof.Proof.KI.S2Def
import proofs.«429835_j17746804867087_2_alg».proof.Proof.Lib
import proofs.«429835_j17746804867087_2_alg».proof.Proof.Spec

noncomputable section

namespace Cert.KernelIdeal.S2

open Cert.KernelIdeal Cert.KernelIdeal.Gen Cert.Lib
open Idealize.ShloMosaic
open scoped BigOperators

theorem pay1_apply (r : Fin 1024) (j : Fin 128) : k2_pay1 (F := Ideal) (ValueIdx.ix2 r j) = 0 := by
  unfold k2_pay1
  rw [shapeCast_self]
  exact Ideal.ofBits_zero_f32

/-- The step adds the product of the one-hot block (node id = destination) with the block of messages. -/
theorem pay2_apply (i : grid2.Coords) (d : Vec Ideal S1x2048 .i32) (ms : Vec Ideal S2048x128 .bf16)
    (acc : Vec Ideal S1024x128 .f32) (r : Fin 1024) (j : Fin 128) :
    k2_pay2 (F := Ideal) i d ms acc (ValueIdx.ix2 r j)
      = acc (ValueIdx.ix2 r j) + ∑ k : Fin 2048,
          Cert.Spec.oh (BitVec.ofNat 32 ((i 0).val * 1024 + r.val)) (d (ValueIdx.ix2 0 k)) * ms (ValueIdx.ix2 k j) := by
  unfold k2_pay2
  dsimp only
  simp only [shapeCast_self, matmul]
  rw [ValueIdx.addf_apply, matmul_zero_apply dot_S1024x2048_S2048x128_S1024x128_1_0_0_1_n_n 2048 rfl rfl _ _ _
    (fun k => ValueIdx.ix2 r k) (fun k => ValueIdx.ix2 k j)
    (fun q a => match a with
      | ⟨0, _⟩ => rfl
      | ⟨1, _⟩ => dot_S1024x2048_S2048x128_S1024x128_1_0_0_1_n_n.lhsIdx_val_of_single rfl _ q)
    (fun q a => match a with
      | ⟨0, _⟩ => dot_S1024x2048_S2048x128_S1024x128_1_0_0_1_n_n.rhsIdx_val_of_single rfl _ q
      | ⟨1, _⟩ => rfl)]
  refine congrArg (acc (ValueIdx.ix2 r j) + ·) (Finset.sum_congr rfl fun k _ => congrArg (· * ms (ValueIdx.ix2 k j)) ?_)
  rw [ValueIdx.truncf_apply, ValueIdx.sitofp_apply, ValueIdx.extui_apply]
  refine (onehot_eq _ _).trans ?_
  rw [broadcastTo_a1_ab_apply, ValueIdx.broadcastTo_1b_ab_apply]
  exact congrArg (Cert.Spec.oh · _) ((congrArg (IntOp.addi _) (iota_single_apply _ _ _ _ _ _)).trans (word_mul_add _ _ _))

theorem pay3_apply (acc : Vec Ideal S1024x128 .f32) (r : Fin 1024) (j : Fin 128) :
    k2_pay3 (F := Ideal) acc (ValueIdx.ix2 r j) = max (acc (ValueIdx.ix2 r j)) 0 := by
  unfold k2_pay3
  rw [ValueIdx.maximumf_apply]
  show max _ (Ideal.ofBits .f32 0x00000000#32) = _
  rw [Ideal.ofBits_zero_f32]

end Cert.KernelIdeal.S2

end
-- ==== Proof.KI.S2Val.lean ====
import proofs.«429835_j17746804867087_2_alg».proof.Proof.KI.S2Pay
import proofs.«429835_j17746804867087_2_alg».proof.Proof.Lib

noncomputable section

namespace Cert.KernelIdeal.S2

open Cert.KernelIdeal Cert.KernelIdeal.Gen Cert.Lib
open Idealize.ShloMosaic Idealize.ShloMosaic.TcCoe Idealize.SL.Sem
open Idealize.ShloMosaic.Pipeline (Dat)
open scoped BigOperators

namespace Val

variable (V : (c : Dev nD) → (b : Ref sig .tc) → Buf (Elt Ideal) ((c : Thread nD τ).loc b)) (a : (pcfg2 (F := Ideal)).Adm)

/-- Point t is (node block, edge block) = (t / 391, t % 391). -/
theorem coords (t : Fin (cfg2 a).N) :
    (grid2.coords t (0 : Fin 2)).val = t.val / 391 ∧ (grid2.coords t (1 : Fin 2)).val = t.val % 391 := by
  have ht : t.val < 19159 := lt_of_lt_of_eq t.isLt N_2
  refine ⟨?_, ?_⟩
  · show t.val / 391 % 49 = _; omega
  · show t.val / 1 % 391 = _; omega

/-- The block indices at point t: destinations (0, t % 391), messages (t % 391, 0), the output (t / 391, 0). -/
theorem idx (t : Fin (cfg2 a).N) :
    ((cfg2 a).win 0).index t (1 : Fin 2) = t.val % 391 ∧ ((cfg2 a).win 1).index t (0 : Fin 2) = t.val % 391
      ∧ ((cfg2 a).win 2).index t (0 : Fin 2) = t.val / 391 := by
  have ht : t.val < 19159 := lt_of_lt_of_eq t.isLt N_2
  obtain ⟨c0, c1⟩ := coords a t
  have e0 : (BitVec.ofNat 32 (grid2.coords t (0 : Fin 2)).val).toNat = t.val / 391 := by
    rw [c0, BitVec.toNat_ofNat]; omega
  have e1 : (BitVec.ofNat 32 (grid2.coords t (1 : Fin 2)).val).toNat = t.val % 391 := by
    rw [c1, BitVec.toNat_ofNat]; omega
  exact ⟨e1, e1, e0⟩

theorem coords_pt (nb : Fin 49) (n : ℕ) (h : n < 391) : (grid2.coords (pt a nb n h) (0 : Fin 2)).val = nb.val := by
  have e := (coords a (pt a nb n h)).1
  have hv : (pt a nb n h).val = nb.val * 391 + n := rfl
  omega

theorem act_iff (c : Dev nD) (nb : Fin 49) (eb : Fin 391) :
    act V c nb eb ↔ Cert.Spec.active (lo V c eb) (hi V c eb) nb :=
  guard_iff _ _ nb.val (by have := nb.isLt; omega)

theorem read_dst (c : Dev nD) (nb : Fin 49) (n : ℕ) (h : n < 391) (k : Fin 2048) :
    iblk V a c 0 (pt a nb n h) (ValueIdx.ix2 0 k) = V c main_v50 (ValueIdx.ix2 (0 : Fin 1) (Cert.Spec.edge ⟨n, h⟩ k)) := by
  obtain ⟨e, -, -⟩ := idx a (pt a nb n h)
  have hv : (pt a nb n h).val = nb.val * 391 + n := rfl
  refine congrArg (V c main_v50) (funext fun ax => Fin.ext ?_)
  match ax with
  | ⟨0, _⟩ => rfl
  | ⟨1, _⟩ =>
    show ((cfg2 a).win 0).index (pt a nb n h) (1 : Fin 2) * 2048 + 1 * k.val = n * 2048 + k.val
    omega

theorem read_msg (c : Dev nD) (nb : Fin 49) (n : ℕ) (h : n < 391) (k : Fin 2048) (j : Fin 128) :
    iblk V a c 1 (pt a nb n h) (ValueIdx.ix2 k j) = V c main_v60 (ValueIdx.ix2 (Cert.Spec.edge ⟨n, h⟩ k) j) := by
  obtain ⟨-, e, -⟩ := idx a (pt a nb n h)
  have hv : (pt a nb n h).val = nb.val * 391 + n := rfl
  refine congrArg (V c main_v60) (funext fun ax => Fin.ext ?_)
  match ax with
  | ⟨0, _⟩ =>
    show ((cfg2 a).win 1).index (pt a nb n h) (0 : Fin 2) * 2048 + 1 * k.val = n * 2048 + k.val
    omega
  | ⟨1, _⟩ => show 0 * 128 + 1 * j.val = j.val; omega

def G (c : Dev nD) : S50176x128.Idx → EReal := fun i =>
  Cert.Spec.relu (Cert.Spec.scatter (fun b => V c main_v44 (ValueIdx.ix1 b)) (fun b => V c main_v47 (ValueIdx.ix1 b))
    (fun e => V c main_v50 (ValueIdx.ix2 (0 : Fin 1) e)) (fun e j => V c main_v60 (ValueIdx.ix2 e j))) (i 0) (i 1)

theorem nblk_node (nb : Fin 49) (r : Fin 1024) : Cert.Spec.nblk (Cert.Spec.node nb r) = nb :=
  Fin.ext (by show (nb.val * 1024 + r.val) / 1024 = nb.val; have := r.isLt; omega)

/-- The full running sum of node block nb is its block of the per-node sums: each admitted edge block adds its
    one-hot product. -/
theorem psum_apply (c : Dev nD) (nb : Fin 49) (r : Fin 1024) (j : Fin 128) :
    psum V a c nb 391 (ValueIdx.ix2 r j)
      = Cert.Spec.scatter (fun b => V c main_v44 (ValueIdx.ix1 b)) (fun b => V c main_v47 (ValueIdx.ix1 b))
          (fun e => V c main_v50 (ValueIdx.ix2 (0 : Fin 1) e)) (fun e j => V c main_v60 (ValueIdx.ix2 e j))
          (Cert.Spec.node nb r) j := by
  unfold Cert.Spec.scatter
  rw [nblk_node]
  exact guarded_sum (fun eb : Fin 391 => Cert.Spec.active (lo V c eb) (hi V c eb) nb)
    (fun eb x => k2_pay2 (grid2.coords (pt a nb eb.val eb.isLt)) (iblk V a c 0 (pt a nb eb.val eb.isLt))
      (iblk V a c 1 (pt a nb eb.val eb.isLt)) x)
    (psum V a c nb) (fun x => x (ValueIdx.ix2 r j)) _ (pay1_apply r j)
    (fun n h => by rw [psum, dif_pos h]; exact if_congr (act_iff V c nb ⟨n, h⟩) rfl rfl)
    (fun eb x _ => by
      refine (pay2_apply _ _ _ _ r j).trans ?_
      rw [coords_pt]
      refine congrArg (_ + ·) (Finset.sum_congr rfl fun k _ => ?_)
      rw [read_dst, read_msg]
      rfl)

theorem flushed_eq (c : Dev nD) (t : Fin (cfg2 a).N) :
    (dat (F := Ideal) V a c).flushed 2 t = (((cfg2 a).win 2).blk t).view.read (Elt Ideal) (G V c) := by
  have ht : t.val < 19159 := lt_of_lt_of_eq t.isLt N_2
  obtain ⟨-, -, e⟩ := idx a t
  refine funext fun (y : S1024x128.Idx) => ?_
  obtain ⟨p, q, rfl⟩ : ∃ (p : Fin 1024) (q : Fin 128), y = ValueIdx.ix2 p q := ⟨y 0, y 1, ValueIdx.eq_ix2 y⟩
  show k2_pay3 (F := Ideal) (psum V a c (nbOf t.val) 391) (ValueIdx.ix2 p q)
    = G V c ((((cfg2 a).win 2).blk t).view.emb (ValueIdx.ix2 p q))
  rw [pay3_apply, psum_apply]
  show G V c (ValueIdx.ix2 (Cert.Spec.node (nbOf t.val) p) q) = _
  refine congrArg (G V c) (funext fun ax => Fin.ext ?_)
  match ax with
  | ⟨0, _⟩ =>
    show t.val / 391 % 49 * 1024 + p.val = ((cfg2 a).win 2).index t (0 : Fin 2) * 1024 + 1 * p.val
    omega
  | ⟨1, _⟩ => show q.val = 0 * 128 + 1 * q.val; omega

/-- The point after a node block's last point lies in the next node block. -/
theorem flush_last (t : Fin (cfg2 a).N) (h390 : t.val % 391 = 390) : ((cfg2 a).win 2).flush t = true :=
  flush_of_index_ne _ rfl t (0 : Fin 2) fun hlt
      (he : ((cfg2 a).win 2).index ⟨t.val + 1, hlt⟩ (0 : Fin 2) = ((cfg2 a).win 2).index t (0 : Fin 2)) => by
    have e1 : _ = (t.val + 1) / 391 := (idx a ⟨t.val + 1, hlt⟩).2.2
    have e2 := (idx a t).2.2
    omega

/-- Node n lies in the block of node block n / 1024: the blocks cover the array. -/
theorem covered (i : S50176x128.Idx) :
    ∃ t : Fin (cfg2 a).N, ((cfg2 a).win 2).flush t = true ∧ i ∈ (((cfg2 a).win 2).blk t).view.set := by
  have hi0 : (i 0).val < 50176 := (i 0).isLt
  have hi1 : (i 1).val < 128 := (i 1).isLt
  let t : Fin (cfg2 a).N := pt a (Cert.Spec.nblk (i 0)) 390 (by decide)
  have htv : t.val = (i 0).val / 1024 * 391 + 390 := rfl
  have e := (idx a t).2.2
  refine ⟨t, flush_last a t (by omega), ?_⟩
  rw [show (((cfg2 a).win 2).blk t).view.set = (((cfg2 a).win 2).rect t).set from View.set_slice_whole main_v61 _]
  refine Rect.mem_set_unit.mpr fun ax => ?_
  match ax with
  | ⟨0, _⟩ =>
    show ((cfg2 a).win 2).index t (0 : Fin 2) * 1024 ≤ (i 0).val ∧ (i 0).val < ((cfg2 a).win 2).index t (0 : Fin 2) * 1024 + 1024
    omega
  | ⟨1, _⟩ => show 0 * 128 ≤ (i 1).val ∧ (i 1).val < 0 * 128 + 128; omega

end Val

theorem out_value (V : (c : Dev nD) → (b : Ref sig .tc) → Buf (Elt Ideal) ((c : Thread nD τ).loc b))
    (a : (pcfg2 (F := Ideal)).Adm) (c : Dev nD) (n : Fin 50176) (j : Fin 128) :
    (dat (F := Ideal) V a c).arrAt 2 (cfg2 a).N (ValueIdx.ix2 n j)
      = Cert.Spec.relu (Cert.Spec.scatter (fun b => V c main_v44 (ValueIdx.ix1 b)) (fun b => V c main_v47 (ValueIdx.ix1 b))
          (fun e => V c main_v50 (ValueIdx.ix2 (0 : Fin 1) e)) (fun e j => V c main_v60 (ValueIdx.ix2 e j))) n j :=
  congrFun ((dat (F := Ideal) V a c).arrAt_eq_of_cover 2 (Val.G V c) (fun t _ => Val.flushed_eq V a c t) (Val.covered a))
    (ValueIdx.ix2 n j)

end Cert.KernelIdeal.S2

end
-- ==== Proof.KI.S5Pay.lean ====
import proofs.«429835_j17746804867087_2_alg».proof.Proof.KI.S5Def
import proofs.«429835_j17746804867087_2_alg».proof.Proof.Lib
import proofs.«429835_j17746804867087_2_alg».proof.Proof.Spec

noncomputable section

namespace Cert.KernelIdeal.S5

open Cert.KernelIdeal Cert.KernelIdeal.Gen Cert.Lib
open Idealize.ShloMosaic
open scoped BigOperators

theorem pay1_apply (r : Fin 1024) (j : Fin 128) : k5_pay1 (F := Ideal) (ValueIdx.ix2 r j) = 0 := by
  unfold k5_pay1
  rw [shapeCast_self]
  exact Ideal.ofBits_zero_f32

/-- The step adds the product of the one-hot block (node id = destination) with the block of messages. -/
theorem pay2_apply (i : grid5.Coords) (d : Vec Ideal S1x2048 .i32) (ms : Vec Ideal S2048x128 .bf16)
    (acc : Vec Ideal S1024x128 .f32) (r : Fin 1024) (j : Fin 128) :
    k5_pay2 (F := Ideal) i d ms acc (ValueIdx.ix2 r j)
      = acc (ValueIdx.ix2 r j) + ∑ k : Fin 2048,
          Cert.Spec.oh (BitVec.ofNat 32 ((i 0).val * 1024 + r.val)) (d (ValueIdx.ix2 0 k)) * ms (ValueIdx.ix2 k j) := by
  unfold k5_pay2
  dsimp only
  simp only [shapeCast_self, matmul]
  rw [ValueIdx.addf_apply, matmul_zero_apply dot_S1024x2048_S2048x128_S1024x128_1_0_0_1_n_n 2048 rfl rfl _ _ _
    (fun k => ValueIdx.ix2 r k) (fun k => ValueIdx.ix2 k j)
    (fun q a => match a with
      | ⟨0, _⟩ => rfl
      | ⟨1, _⟩ => dot_S1024x2048_S2048x128_S1024x128_1_0_0_1_n_n.lhsIdx_val_of_single rfl _ q)
    (fun q a => match a with
      | ⟨0, _⟩ => dot_S1024x2048_S2048x128_S1024x128_1_0_0_1_n_n.rhsIdx_val_of_single rfl _ q
      | ⟨1, _⟩ => rfl)]
  refine congrArg (acc (ValueIdx.ix2 r j) + ·) (Finset.sum_congr rfl fun k _ => congrArg (· * ms (ValueIdx.ix2 k j)) ?_)
  rw [ValueIdx.truncf_apply, ValueIdx.sitofp_apply, ValueIdx.extui_apply]
  refine (onehot_eq _ _).trans ?_
  rw [broadcastTo_a1_ab_apply, ValueIdx.broadcastTo_1b_ab_apply]
  exact congrArg (Cert.Spec.oh · _) ((congrArg (IntOp.addi _) (iota_single_apply _ _ _ _ _ _)).trans (word_mul_add _ _ _))

theorem pay3_apply (acc : Vec Ideal S1024x128 .f32) (r : Fin 1024) (j : Fin 128) :
    k5_pay3 (F := Ideal) acc (ValueIdx.ix2 r j) = max (acc (ValueIdx.ix2 r j)) 0 := by
  unfold k5_pay3
  rw [ValueIdx.maximumf_apply]
  show max _ (Ideal.ofBits .f32 0x00000000#32) = _
  rw [Ideal.ofBits_zero_f32]

end Cert.KernelIdeal.S5

end
-- ==== Proof.KI.S5Val.lean ====
import proofs.«429835_j17746804867087_2_alg».proof.Proof.KI.S5Pay
import proofs.«429835_j17746804867087_2_alg».proof.Proof.Lib

noncomputable section

namespace Cert.KernelIdeal.S5

open Cert.KernelIdeal Cert.KernelIdeal.Gen Cert.Lib
open Idealize.ShloMosaic Idealize.ShloMosaic.TcCoe Idealize.SL.Sem
open Idealize.ShloMosaic.Pipeline (Dat)
open scoped BigOperators

namespace Val

variable (V : (c : Dev nD) → (b : Ref sig .tc) → Buf (Elt Ideal) ((c : Thread nD τ).loc b)) (a : (pcfg5 (F := Ideal)).Adm)

/-- Point t is (node block, edge block) = (t / 391, t % 391). -/
theorem coords (t : Fin (cfg5 a).N) :
    (grid5.coords t (0 : Fin 2)).val = t.val / 391 ∧ (grid5.coords t (1 : Fin 2)).val = t.val % 391 := by
  have ht : t.val < 19159 := lt_of_lt_of_eq t.isLt N_5
  refine ⟨?_, ?_⟩
  · show t.val / 391 % 49 = _; omega
  · show t.val / 1 % 391 = _; omega

/-- The block indices at point t: destinations (0, t % 391), messages (t % 391, 0), the output (t / 391, 0). -/
theorem idx (t : Fin (cfg5 a).N) :
    ((cfg5 a).win 0).index t (1 : Fin 2) = t.val % 391 ∧ ((cfg5 a).win 1).index t (0 : Fin 2) = t.val % 391
      ∧ ((cfg5 a).win 2).index t (0 : Fin 2) = t.val / 391 := by
  have ht : t.val < 19159 := lt_of_lt_of_eq t.isLt N_5
  obtain ⟨c0, c1⟩ := coords a t
  have e0 : (BitVec.ofNat 32 (grid5.coords t (0 : Fin 2)).val).toNat = t.val / 391 := by
    rw [c0, BitVec.toNat_ofNat]; omega
  have e1 : (BitVec.ofNat 32 (grid5.coords t (1 : Fin 2)).val).toNat = t.val % 391 := by
    rw [c1, BitVec.toNat_ofNat]; omega
  exact ⟨e1, e1, e0⟩

theorem coords_pt (nb : Fin 49) (n : ℕ) (h : n < 391) : (grid5.coords (pt a nb n h) (0 : Fin 2)).val = nb.val := by
  have e := (coords a (pt a nb n h)).1
  have hv : (pt a nb n h).val = nb.val * 391 + n := rfl
  omega

theorem act_iff (c : Dev nD) (nb : Fin 49) (eb : Fin 391) :
    act V c nb eb ↔ Cert.Spec.active (lo V c eb) (hi V c eb) nb :=
  guard_iff _ _ nb.val (by have := nb.isLt; omega)

theorem read_dst (c : Dev nD) (nb : Fin 49) (n : ℕ) (h : n < 391) (k : Fin 2048) :
    iblk V a c 0 (pt a nb n h) (ValueIdx.ix2 0 k) = V c main_v50 (ValueIdx.ix2 (0 : Fin 1) (Cert.Spec.edge ⟨n, h⟩ k)) := by
  obtain ⟨e, -, -⟩ := idx a (pt a nb n h)
  have hv : (pt a nb n h).val = nb.val * 391 + n := rfl
  refine congrArg (V c main_v50) (funext fun ax => Fin.ext ?_)
  match ax with
  | ⟨0, _⟩ => rfl
  | ⟨1, _⟩ =>
    show ((cfg5 a).win 0).index (pt a nb n h) (1 : Fin 2) * 2048 + 1 * k.val = n * 2048 + k.val
    omega

theorem read_msg (c : Dev nD) (nb : Fin 49) (n : ℕ) (h : n < 391) (k : Fin 2048) (j : Fin 128) :
    iblk V a c 1 (pt a nb n h) (ValueIdx.ix2 k j) = V c main_v71 (ValueIdx.ix2 (Cert.Spec.edge ⟨n, h⟩ k) j) := by
  obtain ⟨-, e, -⟩ := idx a (pt a nb n h)
  have hv : (pt a nb n h).val = nb.val * 391 + n := rfl
  refine congrArg (V c main_v71) (funext fun ax => Fin.ext ?_)
  match ax with
  | ⟨0, _⟩ =>
    show ((cfg5 a).win 1).index (pt a nb n h) (0 : Fin 2) * 2048 + 1 * k.val = n * 2048 + k.val
    omega
  | ⟨1, _⟩ => show 0 * 128 + 1 * j.val = j.val; omega

def G (c : Dev nD) : S50176x128.Idx → EReal := fun i =>
  Cert.Spec.relu (Cert.Spec.scatter (fun b => V c main_v44 (ValueIdx.ix1 b)) (fun b => V c main_v47 (ValueIdx.ix1 b))
    (fun e => V c main_v50 (ValueIdx.ix2 (0 : Fin 1) e)) (fun e j => V c main_v71 (ValueIdx.ix2 e j))) (i 0) (i 1)

theorem nblk_node (nb : Fin 49) (r : Fin 1024) : Cert.Spec.nblk (Cert.Spec.node nb r) = nb :=
  Fin.ext (by show (nb.val * 1024 + r.val) / 1024 = nb.val; have := r.isLt; omega)

/-- The full running sum of node block nb is its block of the per-node sums: each admitted edge block adds its
    one-hot product. -/
theorem psum_apply (c : Dev nD) (nb : Fin 49) (r : Fin 1024) (j : Fin 128) :
    psum V a c nb 391 (ValueIdx.ix2 r j)
      = Cert.Spec.scatter (fun b => V c main_v44 (ValueIdx.ix1 b)) (fun b => V c main_v47 (ValueIdx.ix1 b))
          (fun e => V c main_v50 (ValueIdx.ix2 (0 : Fin 1) e)) (fun e j => V c main_v71 (ValueIdx.ix2 e j))
          (Cert.Spec.node nb r) j := by
  unfold Cert.Spec.scatter
  rw [nblk_node]
  exact guarded_sum (fun eb : Fin 391 => Cert.Spec.active (lo V c eb) (hi V c eb) nb)
    (fun eb x => k5_pay2 (grid5.coords (pt a nb eb.val eb.isLt)) (iblk V a c 0 (pt a nb eb.val eb.isLt))
      (iblk V a c 1 (pt a nb eb.val eb.isLt)) x)
    (psum V a c nb) (fun x => x (ValueIdx.ix2 r j)) _ (pay1_apply r j)
    (fun n h => by rw [psum, dif_pos h]; exact if_congr (act_iff V c nb ⟨n, h⟩) rfl rfl)
    (fun eb x _ => by
      refine (pay2_apply _ _ _ _ r j).trans ?_
      rw [coords_pt]
      refine congrArg (_ + ·) (Finset.sum_congr rfl fun k _ => ?_)
      rw [read_dst, read_msg]
      rfl)

theorem flushed_eq (c : Dev nD) (t : Fin (cfg5 a).N) :
    (dat (F := Ideal) V a c).flushed 2 t = (((cfg5 a).win 2).blk t).view.read (Elt Ideal) (G V c) := by
  have ht : t.val < 19159 := lt_of_lt_of_eq t.isLt N_5
  obtain ⟨-, -, e⟩ := idx a t
  refine funext fun (y : S1024x128.Idx) => ?_
  obtain ⟨p, q, rfl⟩ : ∃ (p : Fin 1024) (q : Fin 128), y = ValueIdx.ix2 p q := ⟨y 0, y 1, ValueIdx.eq_ix2 y⟩
  show k5_pay3 (F := Ideal) (psum V a c (nbOf t.val) 391) (ValueIdx.ix2 p q)
    = G V c ((((cfg5 a).win 2).blk t).view.emb (ValueIdx.ix2 p q))
  rw [pay3_apply, psum_apply]
  show G V c (ValueIdx.ix2 (Cert.Spec.node (nbOf t.val) p) q) = _
  refine congrArg (G V c) (funext fun ax => Fin.ext ?_)
  match ax with
  | ⟨0, _⟩ =>
    show t.val / 391 % 49 * 1024 + p.val = ((cfg5 a).win 2).index t (0 : Fin 2) * 1024 + 1 * p.val
    omega
  | ⟨1, _⟩ => show q.val = 0 * 128 + 1 * q.val; omega

/-- The point after a node block's last point lies in the next node block. -/
theorem flush_last (t : Fin (cfg5 a).N) (h390 : t.val % 391 = 390) : ((cfg5 a).win 2).flush t = true :=
  flush_of_index_ne _ rfl t (0 : Fin 2) fun hlt
      (he : ((cfg5 a).win 2).index ⟨t.val + 1, hlt⟩ (0 : Fin 2) = ((cfg5 a).win 2).index t (0 : Fin 2)) => by
    have e1 : _ = (t.val + 1) / 391 := (idx a ⟨t.val + 1, hlt⟩).2.2
    have e2 := (idx a t).2.2
    omega

/-- Node n lies in the block of node block n / 1024: the blocks cover the array. -/
theorem covered (i : S50176x128.Idx) :
    ∃ t : Fin (cfg5 a).N, ((cfg5 a).win 2).flush t = true ∧ i ∈ (((cfg5 a).win 2).blk t).view.set := by
  have hi0 : (i 0).val < 50176 := (i 0).isLt
  have hi1 : (i 1).val < 128 := (i 1).isLt
  let t : Fin (cfg5 a).N := pt a (Cert.Spec.nblk (i 0)) 390 (by decide)
  have htv : t.val = (i 0).val / 1024 * 391 + 390 := rfl
  have e := (idx a t).2.2
  refine ⟨t, flush_last a t (by omega), ?_⟩
  rw [show (((cfg5 a).win 2).blk t).view.set = (((cfg5 a).win 2).rect t).set from View.set_slice_whole main_v72 _]
  refine Rect.mem_set_unit.mpr fun ax => ?_
  match ax with
  | ⟨0, _⟩ =>
    show ((cfg5 a).win 2).index t (0 : Fin 2) * 1024 ≤ (i 0).val ∧ (i 0).val < ((cfg5 a).win 2).index t (0 : Fin 2) * 1024 + 1024
    omega
  | ⟨1, _⟩ => show 0 * 128 ≤ (i 1).val ∧ (i 1).val < 0 * 128 + 128; omega

end Val

theorem out_value (V : (c : Dev nD) → (b : Ref sig .tc) → Buf (Elt Ideal) ((c : Thread nD τ).loc b))
    (a : (pcfg5 (F := Ideal)).Adm) (c : Dev nD) (n : Fin 50176) (j : Fin 128) :
    (dat (F := Ideal) V a c).arrAt 2 (cfg5 a).N (ValueIdx.ix2 n j)
      = Cert.Spec.relu (Cert.Spec.scatter (fun b => V c main_v44 (ValueIdx.ix1 b)) (fun b => V c main_v47 (ValueIdx.ix1 b))
          (fun e => V c main_v50 (ValueIdx.ix2 (0 : Fin 1) e)) (fun e j => V c main_v71 (ValueIdx.ix2 e j))) n j :=
  congrFun ((dat (F := Ideal) V a c).arrAt_eq_of_cover 2 (Val.G V c) (fun t _ => Val.flushed_eq V a c t) (Val.covered a))
    (ValueIdx.ix2 n j)

end Cert.KernelIdeal.S5

end
-- ==== Proof.KI.S8Pay.lean ====
import proofs.«429835_j17746804867087_2_alg».proof.Proof.KI.S8Def
import proofs.«429835_j17746804867087_2_alg».proof.Proof.Lib
import proofs.«429835_j17746804867087_2_alg».proof.Proof.Spec

noncomputable section

namespace Cert.KernelIdeal.S8

open Cert.KernelIdeal Cert.KernelIdeal.Gen Cert.Lib
open Idealize.ShloMosaic
open scoped BigOperators

theorem pay1_apply (r : Fin 1024) (j : Fin 128) : k8_pay1 (F := Ideal) (ValueIdx.ix2 r j) = 0 := by
  unfold k8_pay1
  rw [shapeCast_self]
  exact Ideal.ofBits_zero_f32

/-- The step adds the product of the one-hot block (node id = destination) with the block of messages. -/
theorem pay2_apply (i : grid8.Coords) (d : Vec Ideal S1x2048 .i32) (ms : Vec Ideal S2048x128 .bf16)
    (acc : Vec Ideal S1024x128 .f32) (r : Fin 1024) (j : Fin 128) :
    k8_pay2 (F := Ideal) i d ms acc (ValueIdx.ix2 r j)
      = acc (ValueIdx.ix2 r j) + ∑ k : Fin 2048,
          Cert.Spec.oh (BitVec.ofNat 32 ((i 0).val * 1024 + r.val)) (d (ValueIdx.ix2 0 k)) * ms (ValueIdx.ix2 k j) := by
  unfold k8_pay2
  dsimp only
  simp only [shapeCast_self, matmul]
  rw [ValueIdx.addf_apply, matmul_zero_apply dot_S1024x2048_S2048x128_S1024x128_1_0_0_1_n_n 2048 rfl rfl _ _ _
    (fun k => ValueIdx.ix2 r k) (fun k => ValueIdx.ix2 k j)
    (fun q a => match a with
      | ⟨0, _⟩ => rfl
      | ⟨1, _⟩ => dot_S1024x2048_S2048x128_S1024x128_1_0_0_1_n_n.lhsIdx_val_of_single rfl _ q)
    (fun q a => match a with
      | ⟨0, _⟩ => dot_S1024x2048_S2048x128_S1024x128_1_0_0_1_n_n.rhsIdx_val_of_single rfl _ q
      | ⟨1, _⟩ => rfl)]
  refine congrArg (acc (ValueIdx.ix2 r j) + ·) (Finset.sum_congr rfl fun k _ => congrArg (· * ms (ValueIdx.ix2 k j)) ?_)
  rw [ValueIdx.truncf_apply, ValueIdx.sitofp_apply, ValueIdx.extui_apply]
  refine (onehot_eq _ _).trans ?_
  rw [broadcastTo_a1_ab_apply, ValueIdx.broadcastTo_1b_ab_apply]
  exact congrArg (Cert.Spec.oh · _) ((congrArg (IntOp.addi _) (iota_single_apply _ _ _ _ _ _)).trans (word_mul_add _ _ _))

end Cert.KernelIdeal.S8

end
-- ==== Proof.KI.S8Val.lean ====
import proofs.«429835_j17746804867087_2_alg».proof.Proof.KI.S8Pay
import proofs.«429835_j17746804867087_2_alg».proof.Proof.Lib

noncomputable section

namespace Cert.KernelIdeal.S8

open Cert.KernelIdeal Cert.KernelIdeal.Gen Cert.Lib
open Idealize.ShloMosaic Idealize.ShloMosaic.TcCoe Idealize.SL.Sem
open Idealize.ShloMosaic.Pipeline (Dat)
open scoped BigOperators

namespace Val

variable (V : (c : Dev nD) → (b : Ref sig .tc) → Buf (Elt Ideal) ((c : Thread nD τ).loc b)) (a : (pcfg8 (F := Ideal)).Adm)

/-- Point t is (node block, edge block) = (t / 391, t % 391). -/
theorem coords (t : Fin (cfg8 a).N) :
    (grid8.coords t (0 : Fin 2)).val = t.val / 391 ∧ (grid8.coords t (1 : Fin 2)).val = t.val % 391 := by
  have ht : t.val < 19159 := lt_of_lt_of_eq t.isLt N_8
  refine ⟨?_, ?_⟩
  · show t.val / 391 % 49 = _; omega
  · show t.val / 1 % 391 = _; omega

/-- The block indices at point t: destinations (0, t % 391), messages (t % 391, 0), the output (t / 391, 0). -/
theorem idx (t : Fin (cfg8 a).N) :
    ((cfg8 a).win 0).index t (1 : Fin 2) = t.val % 391 ∧ ((cfg8 a).win 1).index t (0 : Fin 2) = t.val % 391
      ∧ ((cfg8 a).win 2).index t (0 : Fin 2) = t.val / 391 := by
  have ht : t.val < 19159 := lt_of_lt_of_eq t.isLt N_8
  obtain ⟨c0, c1⟩ := coords a t
  have e0 : (BitVec.ofNat 32 (grid8.coords t (0 : Fin 2)).val).toNat = t.val / 391 := by
    rw [c0, BitVec.toNat_ofNat]; omega
  have e1 : (BitVec.ofNat 32 (grid8.coords t (1 : Fin 2)).val).toNat = t.val % 391 := by
    rw [c1, BitVec.toNat_ofNat]; omega
  exact ⟨e1, e1, e0⟩

theorem coords_pt (nb : Fin 49) (n : ℕ) (h : n < 391) : (grid8.coords (pt a nb n h) (0 : Fin 2)).val = nb.val := by
  have e := (coords a (pt a nb n h)).1
  have hv : (pt a nb n h).val = nb.val * 391 + n := rfl
  omega

theorem act_iff (c : Dev nD) (nb : Fin 49) (eb : Fin 391) :
    act V c nb eb ↔ Cert.Spec.active (lo V c eb) (hi V c eb) nb :=
  guard_iff _ _ nb.val (by have := nb.isLt; omega)

theorem read_dst (c : Dev nD) (nb : Fin 49) (n : ℕ) (h : n < 391) (k : Fin 2048) :
    iblk V a c 0 (pt a nb n h) (ValueIdx.ix2 0 k) = V c main_v50 (ValueIdx.ix2 (0 : Fin 1) (Cert.Spec.edge ⟨n, h⟩ k)) := by
  obtain ⟨e, -, -⟩ := idx a (pt a nb n h)
  have hv : (pt a nb n h).val = nb.val * 391 + n := rfl
  refine congrArg (V c main_v50) (funext fun ax => Fin.ext ?_)
  match ax with
  | ⟨0, _⟩ => rfl
  | ⟨1, _⟩ =>
    show ((cfg8 a).win 0).index (pt a nb n h) (1 : Fin 2) * 2048 + 1 * k.val = n * 2048 + k.val
    omega

theorem read_msg (c : Dev nD) (nb : Fin 49) (n : ℕ) (h : n < 391) (k : Fin 2048) (j : Fin 128) :
    iblk V a c 1 (pt a nb n h) (ValueIdx.ix2 k j) = V c main_v84 (ValueIdx.ix2 (Cert.Spec.edge ⟨n, h⟩ k) j) := by
  obtain ⟨-, e, -⟩ := idx a (pt a nb n h)
  have hv : (pt a nb n h).val = nb.val * 391 + n := rfl
  refine congrArg (V c main_v84) (funext fun ax => Fin.ext ?_)
  match ax with
  | ⟨0, _⟩ =>
    show ((cfg8 a).win 1).index (pt a nb n h) (0 : Fin 2) * 2048 + 1 * k.val = n * 2048 + k.val
    omega
  | ⟨1, _⟩ => show 0 * 128 + 1 * j.val = j.val; omega

def G (c : Dev nD) : S50176x128.Idx → EReal := fun i =>
  Cert.Spec.scatter (fun b => V c main_v44 (ValueIdx.ix1 b)) (fun b => V c main_v47 (ValueIdx.ix1 b))
    (fun e => V c main_v50 (ValueIdx.ix2 (0 : Fin 1) e)) (fun e j => V c main_v84 (ValueIdx.ix2 e j)) (i 0) (i 1)

theorem nblk_node (nb : Fin 49) (r : Fin 1024) : Cert.Spec.nblk (Cert.Spec.node nb r) = nb :=
  Fin.ext (by show (nb.val * 1024 + r.val) / 1024 = nb.val; have := r.isLt; omega)

/-- The full running sum of node block nb is its block of the per-node sums: each admitted edge block adds its
    one-hot product. -/
theorem psum_apply (c : Dev nD) (nb : Fin 49) (r : Fin 1024) (j : Fin 128) :
    psum V a c nb 391 (ValueIdx.ix2 r j)
      = Cert.Spec.scatter (fun b => V c main_v44 (ValueIdx.ix1 b)) (fun b => V c main_v47 (ValueIdx.ix1 b))
          (fun e => V c main_v50 (ValueIdx.ix2 (0 : Fin 1) e)) (fun e j => V c main_v84 (ValueIdx.ix2 e j))
          (Cert.Spec.node nb r) j := by
  unfold Cert.Spec.scatter
  rw [nblk_node]
  exact guarded_sum (fun eb : Fin 391 => Cert.Spec.active (lo V c eb) (hi V c eb) nb)
    (fun eb x => k8_pay2 (grid8.coords (pt a nb eb.val eb.isLt)) (iblk V a c 0 (pt a nb eb.val eb.isLt))
      (iblk V a c 1 (pt a nb eb.val eb.isLt)) x)
    (psum V a c nb) (fun x => x (ValueIdx.ix2 r j)) _ (pay1_apply r j)
    (fun n h => by rw [psum, dif_pos h]; exact if_congr (act_iff V c nb ⟨n, h⟩) rfl rfl)
    (fun eb x _ => by
      refine (pay2_apply _ _ _ _ r j).trans ?_
      rw [coords_pt]
      refine congrArg (_ + ·) (Finset.sum_congr rfl fun k _ => ?_)
      rw [read_dst, read_msg]
      rfl)

theorem flushed_eq (c : Dev nD) (t : Fin (cfg8 a).N) :
    (dat (F := Ideal) V a c).flushed 2 t = (((cfg8 a).win 2).blk t).view.read (Elt Ideal) (G V c) := by
  have ht : t.val < 19159 := lt_of_lt_of_eq t.isLt N_8
  obtain ⟨-, -, e⟩ := idx a t
  refine funext fun (y : S1024x128.Idx) => ?_
  obtain ⟨p, q, rfl⟩ : ∃ (p : Fin 1024) (q : Fin 128), y = ValueIdx.ix2 p q := ⟨y 0, y 1, ValueIdx.eq_ix2 y⟩
  show psum V a c (nbOf t.val) 391 (ValueIdx.ix2 p q)
    = G V c ((((cfg8 a).win 2).blk t).view.emb (ValueIdx.ix2 p q))
  rw [psum_apply]
  show G V c (ValueIdx.ix2 (Cert.Spec.node (nbOf t.val) p) q) = _
  refine congrArg (G V c) (funext fun ax => Fin.ext ?_)
  match ax with
  | ⟨0, _⟩ =>
    show t.val / 391 % 49 * 1024 + p.val = ((cfg8 a).win 2).index t (0 : Fin 2) * 1024 + 1 * p.val
    omega
  | ⟨1, _⟩ => show q.val = 0 * 128 + 1 * q.val; omega

/-- The point after a node block's last point lies in the next node block. -/
theorem flush_last (t : Fin (cfg8 a).N) (h390 : t.val % 391 = 390) : ((cfg8 a).win 2).flush t = true :=
  flush_of_index_ne _ rfl t (0 : Fin 2) fun hlt
      (he : ((cfg8 a).win 2).index ⟨t.val + 1, hlt⟩ (0 : Fin 2) = ((cfg8 a).win 2).index t (0 : Fin 2)) => by
    have e1 : _ = (t.val + 1) / 391 := (idx a ⟨t.val + 1, hlt⟩).2.2
    have e2 := (idx a t).2.2
    omega

/-- Node n lies in the block of node block n / 1024: the blocks cover the array. -/
theorem covered (i : S50176x128.Idx) :
    ∃ t : Fin (cfg8 a).N, ((cfg8 a).win 2).flush t = true ∧ i ∈ (((cfg8 a).win 2).blk t).view.set := by
  have hi0 : (i 0).val < 50176 := (i 0).isLt
  have hi1 : (i 1).val < 128 := (i 1).isLt
  let t : Fin (cfg8 a).N := pt a (Cert.Spec.nblk (i 0)) 390 (by decide)
  have htv : t.val = (i 0).val / 1024 * 391 + 390 := rfl
  have e := (idx a t).2.2
  refine ⟨t, flush_last a t (by omega), ?_⟩
  rw [show (((cfg8 a).win 2).blk t).view.set = (((cfg8 a).win 2).rect t).set from View.set_slice_whole main_v85 _]
  refine Rect.mem_set_unit.mpr fun ax => ?_
  match ax with
  | ⟨0, _⟩ =>
    show ((cfg8 a).win 2).index t (0 : Fin 2) * 1024 ≤ (i 0).val ∧ (i 0).val < ((cfg8 a).win 2).index t (0 : Fin 2) * 1024 + 1024
    omega
  | ⟨1, _⟩ => show 0 * 128 ≤ (i 1).val ∧ (i 1).val < 0 * 128 + 128; omega

end Val

theorem out_value (V : (c : Dev nD) → (b : Ref sig .tc) → Buf (Elt Ideal) ((c : Thread nD τ).loc b))
    (a : (pcfg8 (F := Ideal)).Adm) (c : Dev nD) (n : Fin 50176) (j : Fin 128) :
    (dat (F := Ideal) V a c).arrAt 2 (cfg8 a).N (ValueIdx.ix2 n j)
      = Cert.Spec.scatter (fun b => V c main_v44 (ValueIdx.ix1 b)) (fun b => V c main_v47 (ValueIdx.ix1 b))
          (fun e => V c main_v50 (ValueIdx.ix2 (0 : Fin 1) e)) (fun e j => V c main_v84 (ValueIdx.ix2 e j)) n j :=
  congrFun ((dat (F := Ideal) V a c).arrAt_eq_of_cover 2 (Val.G V c) (fun t _ => Val.flushed_eq V a c t) (Val.covered a))
    (ValueIdx.ix2 n j)

end Cert.KernelIdeal.S8

end
-- ==== Proof.KI.Chain.lean ====
import proofs.«429835_j17746804867087_2_alg».proof.Proof.KI.Vals
import proofs.«429835_j17746804867087_2_alg».proof.Proof.KI.HostFacts
import proofs.«429835_j17746804867087_2_alg».proof.Proof.KI.L0Val
import proofs.«429835_j17746804867087_2_alg».proof.Proof.KI.L3Val
import proofs.«429835_j17746804867087_2_alg».proof.Proof.KI.L6Val
import proofs.«429835_j17746804867087_2_alg».proof.Proof.KI.G1Val
import proofs.«429835_j17746804867087_2_alg».proof.Proof.KI.G4Val
import proofs.«429835_j17746804867087_2_alg».proof.Proof.KI.G7Val
import proofs.«429835_j17746804867087_2_alg».proof.Proof.KI.S2Val
import proofs.«429835_j17746804867087_2_alg».proof.Proof.KI.S5Val
import proofs.«429835_j17746804867087_2_alg».proof.Proof.KI.S8Val

noncomputable section

namespace Cert.KernelIdeal.Run

open Cert.KernelIdeal Cert.KernelIdeal.Gen
open Idealize.ShloMosaic Idealize.ShloMosaic.TcCoe
open Idealize.SL Idealize.SL.Sem

-- Two valuations agree on the buffers of `K`.
def Same (K : List (Ref sig .tc)) (X Y : Valuation τ sig (Elt Ideal)) : Prop := ∀ r ∈ K, X r = Y r

namespace Same

variable {K : List (Ref sig .tc)} {X Y Z : Valuation τ sig (Elt Ideal)}

theorem trans (h : Same K X Y) (h' : Same K Y Z) : Same K X Z := fun r hr => (h r hr).trans (h' r hr)

-- Overriding a buffer outside `K` changes nothing on `K`.
theorem upd {v : Ref sig .tc} {o} (h : v ∉ K) : Same K (Function.update X v o) X :=
  fun r hr => Function.update_of_ne (StableHlo.devRef_ne_of_ne fun (e : r = v) => h (e ▸ hr)) _ _

-- Operations that write only outside `K` change nothing on `K`.
theorem host {W : List (Ref sig .tc)} {ops : List (HloOp τ sig (Elt Ideal))}
    (hW : ops.Forall fun op => op.writes ⊆ (W.map (Proc.devRef (τ := τ) .tc)).toFinset) (h : ∀ r ∈ K, r ∉ W) :
    Same K (StableHlo.after ops X) X := fun r hr => StableHlo.after_of_writes_sub ops X hW (h r hr)

end Same

variable (m : (ℓ : Loc nD τ sig) → Buf (Elt Ideal) ℓ) (c : Dev nD)

-- What the stages read of the preparation and of the arguments: no item from the first region on writes these.
abbrev kept : List (Ref sig .tc) :=
  [main_v26, main_v37, main_v40, main_v44, main_v47, main_v48, main_v49, main_v50, main_arg6, main_arg7, main_arg8, main_arg9]

theorem s21 : Same kept (X21 m c) (V20 m c) := .upd (by decide)
theorem s22 : Same kept (X22 m c) (V20 m c) := (Same.upd (by decide)).trans (s21 m c)
theorem s23 : Same kept (X23 m c) (V20 m c) := (Same.host hostOps2_writes (by decide)).trans (s22 m c)
theorem s24 : Same kept (X24 m c) (V20 m c) := (Same.upd (by decide)).trans (s23 m c)
theorem s25 : Same kept (X25 m c) (V20 m c) := (Same.host hostOps3_writes (by decide)).trans (s24 m c)
theorem s26 : Same kept (X26 m c) (V20 m c) := (Same.upd (by decide)).trans (s25 m c)
theorem s27 : Same kept (X27 m c) (V20 m c) := (Same.upd (by decide)).trans (s26 m c)
theorem s28 : Same kept (X28 m c) (V20 m c) := (Same.host hostOps5_writes (by decide)).trans (s27 m c)
theorem s29 : Same kept (X29 m c) (V20 m c) := (Same.upd (by decide)).trans (s28 m c)
-- The stretches that pad the last layer's weights and bias leave the second layer's activations too.
theorem s34 : Same (main_v72 :: kept) (X34 m c) (X29 m c) :=
  (Same.host hostOps6_4_writes (by decide)).trans <| (Same.host hostOps6_3_writes (by decide)).trans <|
  (Same.host hostOps6_2_writes (by decide)).trans <| (Same.host hostOps6_1_writes (by decide)).trans
  (Same.host hostOps6_writes (by decide))
theorem s35 : Same kept (X35 m c) (V20 m c) :=
  (Same.upd (by decide)).trans <| Same.trans (fun r hr => s34 m c r (.tail _ hr)) (s29 m c)
theorem s36 : Same kept (X36 m c) (V20 m c) := (Same.upd (by decide)).trans (s35 m c)
theorem s37 : Same kept (X37 m c) (V20 m c) := (Same.host hostOps8_writes (by decide)).trans (s36 m c)

theorem X21_self : X21 m c main_v52 = o21 m c := Function.update_self ..
theorem X22_self : X22 m c main_v53 = o22 m c := Function.update_self ..
theorem X24_self : X24 m c main_v61 = o24 m c := Function.update_self ..
theorem X26_self : X26 m c main_v63 = o26 m c := Function.update_self ..
theorem X27_self : X27 m c main_v64 = o27 m c := Function.update_self ..
theorem X29_self : X29 m c main_v72 = o29 m c := Function.update_self ..
theorem X35_self : X35 m c main_v76 = o35 m c := Function.update_self ..
theorem X36_self : X36 m c main_v77 = o36 m c := Function.update_self ..
theorem X38_self : X38 m c main_v85 = o38 m c := Function.update_self ..

-- Where every stage still reads the preparation, a layer's four stages compose to the specification's layer.
theorem layer_run {K : Nat} {X₁ X₂ X₃ : Valuation τ sig (Elt Ideal)}
    (h₁ : Same kept X₁ (V20 m c)) (h₂ : Same kept X₂ (V20 m c)) (h₃ : Same kept X₃ (V20 m c))
    {x x' : Fin 50176 → Fin K → EReal} {W W' : Fin K → Fin 128 → EReal} {b b' : Fin 128 → EReal}
    {yL : Fin 50176 → Fin 128 → EReal} {yG yP : Fin 800768 → Fin 128 → EReal}
    (hL : ∀ r j, yL r j = Spec.lin x' W' b' r j)
    (hx : ∀ r k, x' r k = x r k) (hW : ∀ k j, W' k j = W k j) (hb : ∀ j, b' j = b j)
    (hG : ∀ e j, yG e j = Spec.gather (fun b => X₁ main_v37 (ValueIdx.ix1 b)) (fun b => X₁ main_v40 (ValueIdx.ix1 b))
      (fun e => X₁ main_v48 (ValueIdx.ix2 (0 : Fin 1) e)) (fun e => X₁ main_v49 (ValueIdx.ix2 (0 : Fin 1) e)) yL e j)
    (hP : ∀ e j, yP e j = yG (Host.posOf (X₂ main_v26 (ValueIdx.ix1 e))) j) :
    Spec.scatter (fun b => X₃ main_v44 (ValueIdx.ix1 b)) (fun b => X₃ main_v47 (ValueIdx.ix1 b))
      (fun e => X₃ main_v50 (ValueIdx.ix2 (0 : Fin 1) e)) yP = Spec.layer (Host.prep m c) x W b := by
  rw [h₁ main_v37 (by decide), h₁ main_v40 (by decide), h₁ main_v48 (by decide), h₁ main_v49 (by decide)] at hG
  rw [h₂ main_v26 (by decide)] at hP
  rw [h₃ main_v44 (by decide), h₃ main_v47 (by decide), h₃ main_v50 (by decide)]
  obtain rfl : x' = x := funext₂ hx
  obtain rfl : W' = W := funext₂ hW
  obtain rfl : b' = b := funext hb
  obtain rfl : yL = _ := funext₂ hL
  unfold Spec.layer Host.prep
  dsimp only
  exact congrArg (Spec.scatter _ _ _) (funext₂ fun e j => (hP e j).trans (hG _ j))

abbrev hid1 : Fin 50176 → Fin 128 → EReal :=
  Spec.relu (Spec.layer (Host.prep m c) (Spec.padX (Host.xA m c)) (Host.W1A m c) (Host.b1A m c))
abbrev hid2 : Fin 50176 → Fin 128 → EReal :=
  Spec.relu (Spec.layer (Host.prep m c) (hid1 m c) (Host.W2A m c) (Host.b2A m c))

theorem act1 (n : Fin 50176) (j : Fin 128) : X24 m c main_v61 (ValueIdx.ix2 n j) = hid1 m c n j :=
  (congrFun (X24_self m c) _).trans <| (S2.out_value (rd (X23 m)) (adm2 (X23 m)) c n j).trans <|
    congrArg (Spec.relu · n j) <| layer_run m c (s21 m c) (s22 m c) (s23 m c)
      (fun r j => (congrFun (X21_self m c) (ValueIdx.ix2 r j)).trans (L0.out_value (rd (V20 m)) c r j))
      (Host.v0_eq m c) (fun k j => congrFun (Host.V20_arg4 m c) (ValueIdx.ix2 k j)) (Host.v51_eq m c)
      (fun e j => (congrFun (X22_self m c) (ValueIdx.ix2 e j)).trans (G1.out_value (rd (X21 m)) (adm1 (X21 m)) c e j))
      (Host.ops2_v60 (X22 m c))

theorem act2 (n : Fin 50176) (j : Fin 128) : X29 m c main_v72 (ValueIdx.ix2 n j) = hid2 m c n j :=
  (congrFun (X29_self m c) _).trans <| (S5.out_value (rd (X28 m)) (adm5 (X28 m)) c n j).trans <|
    congrArg (Spec.relu · n j) <| layer_run m c (s26 m c) (s27 m c) (s28 m c)
      (fun r j => (congrFun (X26_self m c) (ValueIdx.ix2 r j)).trans (L3.out_value (rd (X25 m)) c r j))
      (fun r k => (congrFun (StableHlo.after_of_writes_sub (r := main_v61) hostOps3 (X24 m c) hostOps3_writes (by decide))
        (ValueIdx.ix2 r k)).trans (act1 m c r k))
      (fun k j => congrFun ((s25 m c main_arg6 (by decide)).trans (Host.V20_arg6 m c)) (ValueIdx.ix2 k j))
      (fun j => (Host.ops3_v62 (X24 m c) j).trans
        (congrFun ((s24 m c main_arg7 (by decide)).trans (Host.V20_arg7 m c)) (ValueIdx.ix1 j)))
      (fun e j => (congrFun (X27_self m c) (ValueIdx.ix2 e j)).trans (G4.out_value (rd (X26 m)) (adm4 (X26 m)) c e j))
      (Host.ops5_v71 (X27 m c))

theorem out3 (n : Fin 50176) (j : Fin 128) : X38 m c main_v85 (ValueIdx.ix2 n j)
    = Spec.layer (Host.prep m c) (hid2 m c) (Spec.padW3 (Host.W3A m c)) (Spec.padB3 (Host.b3A m c)) n j :=
  (congrFun (X38_self m c) _).trans <| (S8.out_value (rd (X37 m)) (adm8 (X37 m)) c n j).trans <|
    congrFun (congrFun (layer_run m c (s35 m c) (s36 m c) (s37 m c)
      (fun r j => (congrFun (X35_self m c) (ValueIdx.ix2 r j)).trans (L6.out_value (rd (X34 m)) c r j))
      (fun r k => (congrFun (s34 m c main_v72 (.head _)) (ValueIdx.ix2 r k)).trans (act2 m c r k))
      (fun k j => (Host.ops6_v73 (X29 m c) k j).trans <| congrArg (Spec.padW3 · k j) <| funext₂ fun k j =>
        congrFun ((s29 m c main_arg8 (by decide)).trans (Host.V20_arg8 m c)) (ValueIdx.ix2 k j))
      (fun j => (Host.ops6_v75 (X29 m c) j).trans <| congrArg (Spec.padB3 · j) <| funext fun j =>
        congrFun ((s29 m c main_arg9 (by decide)).trans (Host.V20_arg9 m c)) (ValueIdx.ix1 j))
      (fun e j => (congrFun (X36_self m c) (ValueIdx.ix2 e j)).trans (G7.out_value (rd (X35 m)) (adm7 (X35 m)) c e j))
      (Host.ops8_v84 (X36 m c))) n) j

-- Element (n, j) of the result after the last item is the specification's three layers of the arguments.
theorem kernel_value (n : Fin 50000) (j : Fin 64) : X39 m c main_v86 (ValueIdx.ix2 n j)
    = Cert.Spec.kernelOut (Host.prep m c) (Host.xA m c) (Host.W1A m c) (Host.b1A m c) (Host.W2A m c) (Host.b2A m c)
        (Host.W3A m c) (Host.b3A m c) n j :=
  (Host.ops9_v86 (X38 m c) n j).trans (out3 m c _ _)

end Cert.KernelIdeal.Run

end
-- ==== Proof.PreSrc.lean ====
import proofs.«429835_j17746804867087_2_alg».proof.Defs
import proofs.«429835_j17746804867087_2_alg».proof.Proof.Gen.Pre_finite_inputs
import proofs.«429835_j17746804867087_2_alg».proof.Proof.KI.HostDef
import proofs.«429835_j17746804867087_2_alg».proof.Proof.Spec
import Idealize.ShloMosaic.Lib.ReduceAll
import Idealize.ShloMosaic.Lib.ValueIdx

noncomputable section

namespace Cert.PreSrc

open Idealize.ShloMosaic Idealize.SL.Sem
open Cert.Pre_finite_inputs

instance : Subsingleton S_.Idx := ⟨fun a b => funext fun d => d.elim0⟩

theorem word_range (x : BitVec 32) (h0 : IntOp.cmpi .sge x 0#32 = 1#1) (h1 : IntOp.cmpi .slt x 50000#32 = 1#1) :
    0 ≤ x.toInt ∧ x.toInt < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  exact ⟨h0, h1⟩

theorem part2_range [Facts] {F : FTy → Type} [FloatOps F] (a1 : IVec S800000 32) (a9 : FVec F S64 .f32) (v33 : IVec S_ 1)
    (h : fn_part2 (F := F) a1 a9 v33 ValueIdx.ix0 = 1#1) (i : S800000.Idx) :
    0 ≤ (a1 i).toInt ∧ (a1 i).toInt < 50000 := by
  unfold fn_part2 at h
  dsimp only at h
  have hlast := (IntOp.andi_eq_one.1 h).2
  have hi := Host.reduce_andi_all _ _ _ _ _ hlast i
  have hboth := IntOp.andi_eq_one.1 hi
  exact word_range (a1 i) hboth.1 hboth.2

theorem fn_range [Facts] {F : FTy → Type} [FloatOps F] (a0 : FVec F S50000x256 .f32) (a1 : IVec S800000 32)
    (a2 : IVec S800000 32) (a3 : FVec F S800000 .f32) (a4 : FVec F S256x128 .f32) (a5 : FVec F S128 .f32)
    (a6 : FVec F S128x128 .f32) (a7 : FVec F S128 .f32) (a8 : FVec F S128x64 .f32) (a9 : FVec F S64 .f32)
    (h : fn (F := F) a0 a1 a2 a3 a4 a5 a6 a7 a8 a9 = fun _ => 1#1) (i : S800000.Idx) :
    0 ≤ (a1 i).toInt ∧ (a1 i).toInt < 50000 := by
  have e := congrFun h ValueIdx.ix0
  unfold fn at e
  dsimp only at e
  unfold fn_part1 at e
  dsimp only at e
  exact part2_range a1 a9 _ e i

theorem src_in_range [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.SrcInRange (Cert.KernelIdeal.Host.srcA m c) := by
  intro e
  exact fn_range (F := Ideal) _ _ _ _ _ _ _ _ _ _ (h c) (ValueIdx.ix1 e)

end Cert.PreSrc

end
-- ==== Proof.Math.lean ====
import proofs.«429835_j17746804867087_2_alg».proof.Proof.Spec
import Mathlib.Algebra.BigOperators.Fin
import Mathlib.Algebra.BigOperators.Group.Finset.Basic
import Mathlib.Algebra.BigOperators.Group.Finset.Sigma
import Mathlib.Data.Fintype.BigOperators

noncomputable section

namespace Cert.Math

open Cert.Spec
open scoped BigOperators

theorem nodeWord_toInt (n : Fin 50176) : (nodeWord n).toInt = (n.val : Int) := by
  have hn := n.isLt
  have h0 : (nodeWord n).toNat = n.val := by
    unfold nodeWord
    rw [BitVec.toNat_ofNat]
    omega
  rw [BitVec.toInt_eq_toNat_of_lt (by rw [h0]; omega), h0]

theorem nodeWord_eq_iff (n : Fin 50176) (s : BitVec 32) : nodeWord n = s ↔ s.toInt = (n.val : Int) := by
  constructor
  · intro h; rw [← h, nodeWord_toInt]
  · intro h; apply BitVec.eq_of_toInt_eq; rw [nodeWord_toInt, h]

def up (r : Fin 50000) : Fin 50176 := ⟨r.val, by omega⟩

theorem refRow_val (s : BitVec 32) (h0 : 0 ≤ s.toInt) (h1 : s.toInt < 50000) :
    ((refRow s).val : Int) = s.toInt := by
  unfold refRow
  simp only [if_neg (not_lt.2 h0)]
  omega

def nodeEquiv : Fin 49 × Fin 1024 ≃ Fin 50176 where
  toFun p := node p.1 p.2
  invFun n := (nblk n, ⟨n.val % 1024, Nat.mod_lt _ (by norm_num)⟩)
  left_inv p := by
    obtain ⟨a, b⟩ := p
    have ha := a.isLt; have hb := b.isLt
    refine Prod.ext (Fin.ext ?_) (Fin.ext ?_)
    · show (a.val * 1024 + b.val) / 1024 = a.val; omega
    · show (a.val * 1024 + b.val) % 1024 = b.val; omega
  right_inv n := by
    apply Fin.ext
    show n.val / 1024 * 1024 + n.val % 1024 = n.val; omega

def edgeEquiv : Fin 391 × Fin 2048 ≃ Fin 800768 where
  toFun p := edge p.1 p.2
  invFun e := (eblk e, ⟨e.val % 2048, Nat.mod_lt _ (by norm_num)⟩)
  left_inv p := by
    obtain ⟨a, b⟩ := p
    have ha := a.isLt; have hb := b.isLt
    refine Prod.ext (Fin.ext ?_) (Fin.ext ?_)
    · show (a.val * 2048 + b.val) / 2048 = a.val; omega
    · show (a.val * 2048 + b.val) % 2048 = b.val; omega
  right_inv e := by
    apply Fin.ext
    show e.val / 2048 * 2048 + e.val % 2048 = e.val; omega

theorem sum_nodes {M : Type*} [AddCommMonoid M] (F : Fin 50176 → M) :
    ∑ nb : Fin 49, ∑ k : Fin 1024, F (node nb k) = ∑ n : Fin 50176, F n :=
  (Fintype.sum_prod_type' (fun nb k => F (node nb k))).symm.trans (Equiv.sum_comp nodeEquiv F)

theorem sum_edges {M : Type*} [AddCommMonoid M] (F : Fin 800768 → M) :
    ∑ eb : Fin 391, ∑ k : Fin 2048, F (edge eb k) = ∑ e : Fin 800768, F e :=
  (Fintype.sum_prod_type' (fun eb k => F (edge eb k))).symm.trans (Equiv.sum_comp edgeEquiv F)

theorem active_of_key {fd : BitVec 32 → BitVec 32} (hfd : FloorDivFacts fd) (first last s : BitVec 32)
    (n : Fin 50176) (h1 : first.toInt ≤ s.toInt) (h2 : s.toInt ≤ last.toInt) (hs : nodeWord n = s) :
    active (fd first) (fd last) (nblk n) := by
  have hn := n.isLt
  have hs' := (nodeWord_eq_iff n s).1 hs
  have hl := hfd.nonneg last (by omega)
  show (fd first).toInt ≤ ((n.val / 1024 : Nat) : Int) ∧ ((n.val / 1024 : Nat) : Int) ≤ (fd last).toInt
  constructor
  · rcases lt_or_ge first.toInt 0 with hneg | hpos
    · have := hfd.neg first hneg; omega
    · have := hfd.nonneg first hpos; omega
  · omega

variable {P : Prep} {src dst : Fin 800000 → BitVec 32} {w : Fin 800000 → EReal}

theorem gather_ungated (hP : PrepOK P src dst w) (h : Fin 50176 → Fin 128 → EReal) (e : Fin 800768) (j : Fin 128) :
    gather P.lo P.hi P.srcS P.wS h e j
      = ∑ n : Fin 50176, (oh (nodeWord n) (P.srcS e) * P.wS e) * h n j := by
  obtain ⟨fd, hfd, hlo, hhi, -, -⟩ := hP.exfd
  have he := e.isLt
  unfold gather
  rw [← sum_nodes (fun n => (oh (nodeWord n) (P.srcS e) * P.wS e) * h n j)]
  refine Finset.sum_congr rfl fun nb _ => ?_
  split_ifs with hact
  · rfl
  · symm
    refine Finset.sum_eq_zero fun k _ => ?_
    have hz : oh (nodeWord (node nb k)) (P.srcS e) = 0 := by
      unfold oh
      rw [if_neg]
      intro heq
      apply hact
      have hfirst : edge (eblk e) ⟨0, by omega⟩ ≤ e := by
        show e.val / 2048 * 2048 + 0 ≤ e.val; omega
      have hlast : e ≤ edge (eblk e) ⟨2047, by omega⟩ := by
        show e.val ≤ e.val / 2048 * 2048 + 2047; omega
      have hk := active_of_key hfd _ _ (P.srcS e) (node nb k)
        (hP.srcSorted _ _ hfirst) (hP.srcSorted _ _ hlast) heq
      have hnb : nblk (node nb k) = nb := by
        have := nb.isLt; have := k.isLt
        apply Fin.ext; show (nb.val * 1024 + k.val) / 1024 = nb.val; omega
      rw [hnb] at hk
      rw [hlo, hhi]; exact hk
    rw [hz, zero_mul, zero_mul]

theorem scatter_ungated (hP : PrepOK P src dst w) (msg : Fin 800768 → Fin 128 → EReal) (n : Fin 50176) (j : Fin 128) :
    scatter P.lo2 P.hi2 P.dstD msg n j = ∑ e : Fin 800768, oh (nodeWord n) (P.dstD e) * msg e j := by
  obtain ⟨fd, hfd, -, -, hlo, hhi⟩ := hP.exfd
  unfold scatter
  rw [← sum_edges (fun e => oh (nodeWord n) (P.dstD e) * msg e j)]
  refine Finset.sum_congr rfl fun eb _ => ?_
  split_ifs with hact
  · rfl
  · symm
    refine Finset.sum_eq_zero fun k _ => ?_
    have hz : oh (nodeWord n) (P.dstD (edge eb k)) = 0 := by
      unfold oh
      rw [if_neg]
      intro heq
      apply hact
      have hk' := k.isLt
      have hfirst : edge eb ⟨0, by omega⟩ ≤ edge eb k := by
        show eb.val * 2048 + 0 ≤ eb.val * 2048 + k.val; omega
      have hlast : edge eb k ≤ edge eb ⟨2047, by omega⟩ := by
        show eb.val * 2048 + k.val ≤ eb.val * 2048 + 2047; omega
      have hk := active_of_key hfd _ _ (P.dstD (edge eb k)) n
        (hP.dstSorted _ _ hfirst) (hP.dstSorted _ _ hlast) heq
      rw [hlo, hhi]; exact hk
    rw [hz, zero_mul]

theorem layer_padded (hP : PrepOK P src dst w) (h : Fin 50176 → Fin 128 → EReal) (n : Fin 50176) (j : Fin 128) :
    scatter P.lo2 P.hi2 P.dstD (fun e j => gather P.lo P.hi P.srcS P.wS h (P.pos e) j) n j
      = ∑ e : Fin 800768, oh (nodeWord n) (padKey dst e)
          * ∑ n' : Fin 50176, (oh (nodeWord n') (padKey src e) * padW w e) * h n' j := by
  rw [scatter_ungated hP]
  obtain ⟨σ, hs, hw, π, hpos, hd⟩ := hP.exσ
  rw [← Equiv.sum_comp (π.trans σ) (fun e => oh (nodeWord n) (padKey dst e)
          * ∑ n' : Fin 50176, (oh (nodeWord n') (padKey src e) * padW w e) * h n' j)]
  refine Finset.sum_congr rfl fun e _ => ?_
  rw [gather_ungated hP, hd, hpos, hs, hw]
  rfl

theorem msg_real (hs : SrcInRange src) (h : Fin 50176 → Fin 128 → EReal) (e : Fin 800000) (j : Fin 128) :
    ∑ n' : Fin 50176, (oh (nodeWord n') (src e) * w e) * h n' j = w e * h (up (refRow (src e))) j := by
  obtain ⟨h0, h1⟩ := hs e
  have hr := refRow_val (src e) h0 h1
  rw [Finset.sum_eq_single (up (refRow (src e)))]
  · unfold oh
    rw [if_pos ((nodeWord_eq_iff _ _).2 hr.symm), one_mul]
  · intro n' _ hne
    unfold oh
    rw [if_neg, zero_mul, zero_mul]
    intro heq
    apply hne
    have := (nodeWord_eq_iff n' _).1 heq
    apply Fin.ext
    show n'.val = (refRow (src e)).val
    omega
  · intro hn; exact absurd (Finset.mem_univ _) hn

theorem padKey_real (s : Fin 800000 → BitVec 32) (e : Fin 800000) : padKey s (Fin.castAdd 768 e) = s e := by
  unfold padKey
  rw [dif_pos (show (Fin.castAdd 768 e).val < 800000 from e.isLt)]
  rfl

theorem padW_real (e : Fin 800000) : padW w (Fin.castAdd 768 e) = w e := by
  unfold padW
  rw [dif_pos (show (Fin.castAdd 768 e).val < 800000 from e.isLt)]
  rfl

theorem padW_pad (e : Fin 768) : padW w (Fin.natAdd 800000 e) = 0 := by
  unfold padW
  rw [dif_neg]
  show ¬ (800000 + e.val < 800000)
  omega

theorem layer_real (hP : PrepOK P src dst w) (hs : SrcInRange src) (h : Fin 50176 → Fin 128 → EReal)
    (n : Fin 50176) (j : Fin 128) :
    scatter P.lo2 P.hi2 P.dstD (fun e j => gather P.lo P.hi P.srcS P.wS h (P.pos e) j) n j
      = ∑ e : Fin 800000, oh (nodeWord n) (dst e) * (w e * h (up (refRow (src e))) j) := by
  rw [layer_padded hP]
  rw [Fin.sum_trunc (a := 800000) (b := 768)]
  · refine Finset.sum_congr rfl fun e _ => ?_
    rw [padKey_real, padKey_real, padW_real, msg_real hs]
  · intro e
    rw [padW_pad]
    have : ∀ n' : Fin 50176, (oh (nodeWord n') (padKey src (Fin.natAdd 800000 e)) * 0) * h n' j = 0 := by
      intro n'; rw [mul_zero, zero_mul]
    rw [Finset.sum_congr rfl fun n' _ => this n', Finset.sum_const_zero, mul_zero]

theorem layer_eq {K : Nat} (hP : PrepOK P src dst w) (hs : SrcInRange src)
    (xp : Fin 50176 → Fin K → EReal) (xr : Fin 50000 → Fin K → EReal)
    (hx : ∀ (r : Fin 50000) (k : Fin K), xp (up r) k = xr r k)
    (W : Fin K → Fin 128 → EReal) (b : Fin 128 → EReal) (n : Fin 50000) (j : Fin 128) :
    layer P xp W b (up n) j = refLayer src dst w xr W b n j := by
  unfold layer refLayer
  rw [layer_real hP hs, Finset.sum_filter]
  refine Finset.sum_congr rfl fun e _ => ?_
  unfold oh
  by_cases hd : (dst e).toInt = (n.val : Int)
  · rw [if_pos ((nodeWord_eq_iff (up n) _).2 hd), if_pos hd, one_mul, EReal.mul_comm]
    unfold lin
    simp only [hx]
  · rw [if_neg (fun h => hd ((nodeWord_eq_iff (up n) _).1 h)), if_neg hd, zero_mul]

theorem refLayer_cols (xr : Fin 50000 → Fin 128 → EReal) (W3 : Fin 128 → Fin 64 → EReal) (b3 : Fin 64 → EReal)
    (n : Fin 50000) (j : Fin 64) :
    refLayer src dst w xr (padW3 W3) (padB3 b3) n ⟨j.val, by omega⟩ = refLayer src dst w xr W3 b3 n j := by
  have hW : ∀ k, padW3 W3 k ⟨j.val, by omega⟩ = W3 k j := by
    intro k; unfold padW3; rw [dif_pos (show (⟨j.val, by omega⟩ : Fin 128).val < 64 from j.isLt)]
  have hb : padB3 b3 ⟨j.val, by omega⟩ = b3 j := by
    unfold padB3; rw [dif_pos (show (⟨j.val, by omega⟩ : Fin 128).val < 64 from j.isLt)]
  unfold refLayer
  simp only [hW, hb]

theorem goal : Goal := by
  intro P src dst w x W1 b1 W2 b2 W3 b3 hP hs
  funext n j
  have hx0 : ∀ (r : Fin 50000) (k : Fin 256), padX x (up r) k = x r k := by
    intro r k; unfold padX; rw [dif_pos (show (up r).val < 50000 from r.isLt)]; rfl
  have h1 : ∀ (r : Fin 50000) (k : Fin 128),
      relu (layer P (padX x) W1 b1) (up r) k = refRelu (refLayer src dst w x W1 b1) r k :=
    fun r k => congrArg (fun t => max t 0) (layer_eq hP hs _ _ hx0 W1 b1 r k)
  have h2 : ∀ (r : Fin 50000) (k : Fin 128),
      relu (layer P (relu (layer P (padX x) W1 b1)) W2 b2) (up r) k
        = refRelu (refLayer src dst w (refRelu (refLayer src dst w x W1 b1)) W2 b2) r k :=
    fun r k => congrArg (fun t => max t 0) (layer_eq hP hs _ _ h1 W2 b2 r k)
  exact (layer_eq hP hs _ _ h2 (padW3 W3) (padB3 b3) n ⟨j.val, by omega⟩).trans
    (refLayer_cols _ W3 b3 n j)

end Cert.Math
end
-- ==== Proof.KI.Value.lean ====
import proofs.«429835_j17746804867087_2_alg».proof.Proof.KI.Frame
import proofs.«429835_j17746804867087_2_alg».proof.Proof.KI.Chain
import proofs.«429835_j17746804867087_2_alg».proof.Proof.PreSrc
import proofs.«429835_j17746804867087_2_alg».proof.Proof.Math

noncomputable section

namespace Cert.KernelIdeal.Run

open Cert.KernelIdeal Cert.KernelIdeal.Gen
open Idealize.ShloMosaic Idealize.ShloMosaic.TcCoe
open Idealize.SL Idealize.SL.Sem

-- Every run ends with the result at the reference's function of the arguments and the arguments as launched.
theorem run_value [hPre : Cert.Pre_finite_inputs.Facts] (m : (ℓ : Loc nD τ sig) → Buf (Elt Ideal) ℓ)
    (ρ : Dev nD → PrngReg) (h : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v86) = (fun i => Cert.Spec.refOut (Host.srcA m c) (Host.dstA m c) (Host.wA m c)
          (Host.xA m c) (Host.W1A m c) (Host.b1A m c) (Host.W2A m c) (Host.b2A m c) (Host.W3A m c) (Host.b3A m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r hr c => ⟨(hr c _ (mem_uc main_v86 (by decide))).trans <| funext fun i => by
      obtain ⟨n, j, rfl⟩ : ∃ (n : Fin 50000) (j : Fin 64), i = ValueIdx.ix2 n j := ⟨i 0, i 1, ValueIdx.eq_ix2 i⟩
      rw [kernel_value m c]
      exact congrFun (congrFun (Cert.Math.goal _ _ _ _ _ _ _ _ _ _ _ (Host.prepOK m c) (Cert.PreSrc.src_in_range m h c)) n) j,
    (hr c _ (mem_uc main_arg0 (by decide))).trans (X39_main_arg0 m c),
    (hr c _ (mem_uc main_arg1 (by decide))).trans (X39_main_arg1 m c),
    (hr c _ (mem_uc main_arg2 (by decide))).trans (X39_main_arg2 m c),
    (hr c _ (mem_uc main_arg3 (by decide))).trans (X39_main_arg3 m c),
    (hr c _ (mem_uc main_arg4 (by decide))).trans (X39_main_arg4 m c),
    (hr c _ (mem_uc main_arg5 (by decide))).trans (X39_main_arg5 m c),
    (hr c _ (mem_uc main_arg6 (by decide))).trans (X39_main_arg6 m c),
    (hr c _ (mem_uc main_arg7 (by decide))).trans (X39_main_arg7 m c),
    (hr c _ (mem_uc main_arg8 (by decide))).trans (X39_main_arg8 m c),
    (hr c _ (mem_uc main_arg9 (by decide))).trans (X39_main_arg9 m c)⟩) (run_all m ρ)

end Cert.KernelIdeal.Run

end
-- ==== Proof.Ref.Imports.lean ====
import proofs.«429835_j17746804867087_2_alg».proof.Proof.Gen.ReferenceIdeal.Run
import proofs.«429835_j17746804867087_2_alg».proof.Proof.Gen.ReferenceIdeal.Read
-- ==== Proof.Ref.Rows.lean ====
import Idealize.ShloMosaic.Lib.ValueIdx
import Idealize.ShloMosaic.PureOps.Ideal.Laws
import Mathlib.Algebra.BigOperators.Fin

noncomputable section

open scoped BigOperators

namespace Cert.Ref

open Idealize.ShloMosaic Idealize.ShloMosaic.ValueIdx

abbrev col0 {E : Nat} (e : Fin E) : (⟨2, ![E, 1]⟩ : Shape).Idx := ix2 e (⟨0, Nat.one_pos⟩ : Fin 1)

theorem one_not_mem_zero : ¬ ((1 : Fin 2) ∈ ([0] : List (Fin 2))) := by decide

def clampRow (N : Nat) (hN : 0 < N) {w : Nat} (s : BitVec w) : Fin N := ⟨min s.toInt.toNat (N - 1), by omega⟩

abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

section
variable {N E D w : Nat}
  (wf : GatherDims.WF ⟨2, ![N, D]⟩ ⟨2, ![E, 1]⟩ ⟨2, ![E, D]⟩ [1] [0] [] [0] [] 1 ![1, D])

theorem rowGather_siIdx (e : Fin E) (j : Fin D) (c : Fin (rowGather N E D wf).startIndexMap.length) :
    (rowGather N E D wf).siIdx (ix2 e j) c = col0 e := by
  funext b
  refine Fin.ext ?_
  match b with
  | ⟨0, _⟩ => rfl
  | ⟨1, _⟩ =>
    have hc : c.val < 1 := c.isLt
    show c.val = 0
    omega

theorem rowGather_row (idx : IVec ⟨2, ![E, 1]⟩ w) (e : Fin E) (j : Fin D) :
    ((rowGather N E D wf).operandIdx (ix2 e j) idx 0).val = min (idx (col0 e)).toInt.toNat (N - 1) := by
  show (rowGather N E D wf).start (ix2 e j) idx 0 + (rowGather N E D wf).batchCoord (ix2 e j) 0
    + (rowGather N E D wf).offCoord (ix2 e j) 0 = _
  have hb : (rowGather N E D wf).batchCoord (ix2 e j) 0 = 0 :=
    GatherDims.batchCoord_eq_zero _ _ _ List.not_mem_nil
  have ho : (rowGather N E D wf).offCoord (ix2 e j) 0 = 0 :=
    GatherDims.offCoord_eq_zero _ _ _ (fun h => ((GatherDims.mem_sKept _ _).mp h).1 (List.mem_singleton.mpr rfl))
  rw [hb, ho, Nat.add_zero]
  unfold GatherDims.start
  rw [dif_pos (show (0 : Fin 2) ∈ (rowGather N E D wf).startIndexMap from List.mem_singleton.mpr rfl),
    rowGather_siIdx]
  rfl

theorem rowGather_col (idx : IVec ⟨2, ![E, 1]⟩ w) (e : Fin E) (j : Fin D) :
    ((rowGather N E D wf).operandIdx (ix2 e j) idx 1).val = j.val := by
  show (rowGather N E D wf).start (ix2 e j) idx 1 + (rowGather N E D wf).batchCoord (ix2 e j) 1
    + (rowGather N E D wf).offCoord (ix2 e j) 1 = _
  have hs : (rowGather N E D wf).start (ix2 e j) idx 1 = 0 := by
    unfold GatherDims.start
    rw [dif_neg (show ¬ (1 : Fin 2) ∈ (rowGather N E D wf).startIndexMap from one_not_mem_zero)]
  have hb : (rowGather N E D wf).batchCoord (ix2 e j) 1 = 0 :=
    GatherDims.batchCoord_eq_zero _ _ _ List.not_mem_nil
  rw [hs, hb, Nat.zero_add]
  unfold GatherDims.offCoord
  rw [dif_pos (show (1 : Fin 2) ∈ (rowGather N E D wf).sKept from
    (GatherDims.mem_sKept _ _).mpr ⟨one_not_mem_zero, List.not_mem_nil⟩)]
  rfl

theorem rowGather_apply {α : Type} (hN : 0 < N) (x : (⟨2, ![N, D]⟩ : Shape).Idx → α) (idx : IVec ⟨2, ![E, 1]⟩ w)
    (e : Fin E) (j : Fin D) :
    Host.gather (rowGather N E D wf) x idx (ix2 e j) = x (ix2 (clampRow N hN (idx (col0 e))) j) := by
  unfold Host.gather
  congr 1
  funext a
  refine Fin.ext ?_
  match a with
  | ⟨0, _⟩ => exact rowGather_row wf idx e j
  | ⟨1, _⟩ => exact rowGather_col wf idx e j

end

abbrev rowScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section
variable {N E D w : Nat}
  (wf : ScatterDims.WF ⟨2, ![N, D]⟩ ⟨2, ![E, 1]⟩ ⟨2, ![E, D]⟩ [1] [0] [0] 1)

theorem rowScatter_siIdx (e : Fin E) (c : Fin D) (k : Fin (rowScatter N E D wf).scatterDimsToOperandDims.length) :
    (rowScatter N E D wf).siIdx (ix2 e c) k = col0 e := by
  funext b
  refine Fin.ext ?_
  match b with
  | ⟨0, _⟩ => rfl
  | ⟨1, _⟩ =>
    have hk : k.val < 1 := k.isLt
    show k.val = 0
    omega

theorem rowScatter_pos_row (idx : IVec ⟨2, ![E, 1]⟩ w) (e : Fin E) (c : Fin D) :
    (rowScatter N E D wf).start (ix2 e c) idx 0 + ((rowScatter N E D wf).window (ix2 e c) 0 : Int)
      = (idx (col0 e)).toInt := by
  have hs : (rowScatter N E D wf).start (ix2 e c) idx 0 = (idx (col0 e)).toInt := by
    unfold ScatterDims.start
    rw [dif_pos (show (0 : Fin 2) ∈ (rowScatter N E D wf).scatterDimsToOperandDims from List.mem_singleton.mpr rfl),
      rowScatter_siIdx]
  have hw : (rowScatter N E D wf).window (ix2 e c) 0 = 0 := by
    unfold ScatterDims.window
    rw [dif_neg (show ¬ (0 : Fin 2) ∈ (rowScatter N E D wf).sKept from by
      simp [ScatterDims.sKept, Shape.kept])]
  rw [hs, hw, Nat.cast_zero, Int.add_zero]

theorem rowScatter_pos_col (idx : IVec ⟨2, ![E, 1]⟩ w) (e : Fin E) (c : Fin D) :
    (rowScatter N E D wf).start (ix2 e c) idx 1 + ((rowScatter N E D wf).window (ix2 e c) 1 : Int)
      = (c.val : Int) := by
  have hs : (rowScatter N E D wf).start (ix2 e c) idx 1 = 0 := by
    unfold ScatterDims.start
    rw [dif_neg (show ¬ (1 : Fin 2) ∈ (rowScatter N E D wf).scatterDimsToOperandDims from one_not_mem_zero)]
  have hw : (rowScatter N E D wf).window (ix2 e c) 1 = c.val := by
    unfold ScatterDims.window
    rw [dif_pos (show (1 : Fin 2) ∈ (rowScatter N E D wf).sKept from by
      simp [ScatterDims.sKept, Shape.kept])]
    rfl
  rw [hs, hw, Int.zero_add]

theorem rowScatter_lands_iff (idx : IVec ⟨2, ![E, 1]⟩ w) (e : Fin E) (c : Fin D) (n : Fin N) (j : Fin D) :
    (rowScatter N E D wf).resultIdx? (ix2 e c) idx = some (ix2 n j)
      ↔ (idx (col0 e)).toInt = (n.val : Int) ∧ c = j := by
  unfold ScatterDims.resultIdx?
  by_cases hd : (idx (col0 e)).toInt = (n.val : Int) ∧ c = j
  · obtain ⟨hd, rfl⟩ := hd
    have hall : ∀ a : Fin 2, 0 ≤ (rowScatter N E D wf).start (ix2 e c) idx a + ((rowScatter N E D wf).window (ix2 e c) a : Int)
        ∧ (rowScatter N E D wf).start (ix2 e c) idx a + ((rowScatter N E D wf).window (ix2 e c) a : Int)
          < (((⟨2, ![N, D]⟩ : Shape).size a : Nat) : Int) := by
      intro a
      match a with
      | ⟨0, _⟩ =>
        have hn : n.val < N := n.isLt
        rw [show (rowScatter N E D wf).start (ix2 e c) idx (⟨0, by omega⟩ : Fin 2)
            + ((rowScatter N E D wf).window (ix2 e c) (⟨0, by omega⟩ : Fin 2) : Int) = _ from rowScatter_pos_row wf idx e c, hd]
        show (0 : Int) ≤ (n.val : Int) ∧ (n.val : Int) < (N : Int)
        omega
      | ⟨1, _⟩ =>
        have hc : c.val < D := c.isLt
        rw [show (rowScatter N E D wf).start (ix2 e c) idx (⟨1, by omega⟩ : Fin 2)
            + ((rowScatter N E D wf).window (ix2 e c) (⟨1, by omega⟩ : Fin 2) : Int) = _ from rowScatter_pos_col wf idx e c]
        show (0 : Int) ≤ (c.val : Int) ∧ (c.val : Int) < (D : Int)
        omega
    rw [dif_pos hall]
    refine iff_of_true ?_ ⟨hd, rfl⟩
    congr 1
    funext a
    refine Fin.ext ?_
    match a with
    | ⟨0, _⟩ =>
      show ((rowScatter N E D wf).start (ix2 e c) idx 0 + ((rowScatter N E D wf).window (ix2 e c) 0 : Int)).toNat = n.val
      rw [rowScatter_pos_row, hd]
      exact Int.toNat_natCast _
    | ⟨1, _⟩ =>
      show ((rowScatter N E D wf).start (ix2 e c) idx 1 + ((rowScatter N E D wf).window (ix2 e c) 1 : Int)).toNat = c.val
      rw [rowScatter_pos_col]
      exact Int.toNat_natCast _
  · refine iff_of_false ?_ hd
    split
    · rename_i h
      intro hf
      apply hd
      have hf' := Option.some.inj hf
      have h0 : ((rowScatter N E D wf).start (ix2 e c) idx 0 + ((rowScatter N E D wf).window (ix2 e c) 0 : Int)).toNat = n.val :=
        congrArg (fun f => (f 0).val) hf'
      have h1 : ((rowScatter N E D wf).start (ix2 e c) idx 1 + ((rowScatter N E D wf).window (ix2 e c) 1 : Int)).toNat = j.val :=
        congrArg (fun f => (f 1).val) hf'
      have hh : 0 ≤ (rowScatter N E D wf).start (ix2 e c) idx 0 + ((rowScatter N E D wf).window (ix2 e c) 0 : Int) := (h 0).1
      rw [rowScatter_pos_row] at h0 hh
      rw [rowScatter_pos_col] at h1
      exact ⟨by omega, Fin.ext (by omega)⟩
    · intro hf
      cases hf

theorem rowScatterAdd_apply {φ : FTy} (x : FVec Ideal ⟨2, ![N, D]⟩ φ) (idx : IVec ⟨2, ![E, 1]⟩ w)
    (upd : FVec Ideal ⟨2, ![E, D]⟩ φ) (n : Fin N) (j : Fin D) :
    Host.scatterAdd (F := Ideal) (rowScatter N E D wf) x idx upd (ix2 n j)
      = x (ix2 n j) + ∑ e ∈ Finset.univ.filter (fun e : Fin E => (idx (col0 e)).toInt = (n.val : Int)), upd (ix2 e j) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [rowScatter_lands_iff]
  by_cases hd : (idx (col0 e)).toInt = (n.val : Int)
  · simp only [hd, true_and]
    rw [Finset.sum_ite_eq' Finset.univ j (fun c => upd (ix2 e c))]
    simp
  · simp [hd]

end

theorem rowLayer_apply {N E D : Nat} (hN : 0 < N)
    (wfg : GatherDims.WF ⟨2, ![N, D]⟩ ⟨2, ![E, 1]⟩ ⟨2, ![E, D]⟩ [1] [0] [] [0] [] 1 ![1, D])
    (wfs : ScatterDims.WF ⟨2, ![N, D]⟩ ⟨2, ![E, 1]⟩ ⟨2, ![E, D]⟩ [1] [0] [0] 1)
    (h init : FVec Ideal ⟨2, ![N, D]⟩ .f32) (srccol dstcol : IVec ⟨2, ![E, 1]⟩ 32)
    (wfull : FVec Ideal ⟨2, ![E, D]⟩ .f32) (n : Fin N) (j : Fin D) :
    Host.scatterAdd (F := Ideal) (rowScatter N E D wfs) init dstcol
        (mulf (Host.gather (rowGather N E D wfg) h srccol) wfull) (ix2 n j)
      = init (ix2 n j) + ∑ e ∈ Finset.univ.filter (fun e : Fin E => (dstcol (col0 e)).toInt = (n.val : Int)),
          h (ix2 (clampRow N hN (srccol (col0 e))) j) * wfull (ix2 e j) := by
  rw [rowScatterAdd_apply]
  congr 1
  refine Finset.sum_congr rfl fun e _ => ?_
  rw [mulf_apply, rowGather_apply wfg hN]

end Cert.Ref

end
-- ==== Proof.Ref.Value.lean ====
import proofs.«429835_j17746804867087_2_alg».proof.Proof.Ref.Imports
import proofs.«429835_j17746804867087_2_alg».proof.Proof.Ref.Rows
import proofs.«429835_j17746804867087_2_alg».proof.Proof.Spec

noncomputable section

open scoped BigOperators

namespace Cert.Ref

open Idealize.ShloMosaic Idealize.ShloMosaic.ValueIdx

open Cert.ReferenceIdeal Cert.ReferenceIdeal.Read

theorem wrapWord (s : BitVec 32) :
    Scalar.select (IntOp.cmpi .slt s 0#32) (IntOp.addi s 50000#32) s
      = if s.toInt < 0 then s + 50000#32 else s := by
  by_cases h : s.toInt < 0 <;> simp [Scalar.select, IntOp.cmpi, IntOp.addi, BitVec.slt, h]

theorem srcWord (x1 : IVec S800000 32) (e : Fin 800000) :
    val_main_v9 (F := Ideal) x1 (col0 e)
      = if (x1 (ix1 e)).toInt < 0 then x1 (ix1 e) + 50000#32 else x1 (ix1 e) := by
  have hi : idx_main_v9 (col0 e) = ix1 e := funext fun a => Fin.ext (by match a with | ⟨0, _⟩ => rfl)
  rw [val_main_v9_apply, val_main_v8_apply, val_main_v5_apply, val_main_v7_apply, val_main_v4_apply,
    val_main_v6_apply, val_main_c_apply, val_main_c_0_apply, hi]
  exact wrapWord _

theorem srcRow (x1 : IVec S800000 32) (e : Fin 800000) :
    clampRow 50000 (by decide) (val_main_v9 (F := Ideal) x1 (col0 e)) = Spec.refRow (x1 (ix1 e)) := by
  rw [srcWord]
  rfl

theorem dstWord (x2 : IVec S800000 32) (e : Fin 800000) :
    val_main_v15 (F := Ideal) x2 (col0 e) = x2 (ix1 e) := by
  have hi : idx_main_v15 (col0 e) = ix1 e := funext fun a => Fin.ext (by match a with | ⟨0, _⟩ => rfl)
  rw [val_main_v15_apply, hi]

theorem messages {D : Nat}
    (wfg : GatherDims.WF ⟨2, ![50000, D]⟩ ⟨2, ![800000, 1]⟩ ⟨2, ![800000, D]⟩ [1] [0] [] [0] [] 1 ![1, D])
    (wfs : ScatterDims.WF ⟨2, ![50000, D]⟩ ⟨2, ![800000, 1]⟩ ⟨2, ![800000, D]⟩ [1] [0] [0] 1)
    (h init : FVec Ideal ⟨2, ![50000, D]⟩ .f32) (x1 x2 : IVec S800000 32) (x3 : FVec Ideal S800000 .f32)
    (wfull : FVec Ideal ⟨2, ![800000, D]⟩ .f32)
    (hw : ∀ e j, wfull (ix2 e j) = x3 (ix1 e)) (hinit : ∀ n j, init (ix2 n j) = 0) (n : Fin 50000) (j : Fin D) :
    Host.scatterAdd (F := Ideal) (rowScatter 50000 800000 D wfs) init (val_main_v15 (F := Ideal) x2)
        (mulf (Host.gather (rowGather 50000 800000 D wfg) h (val_main_v9 (F := Ideal) x1)) wfull) (ix2 n j)
      = ∑ e ∈ Finset.univ.filter (fun e : Fin 800000 => (x2 (ix1 e)).toInt = (n.val : Int)),
          h (ix2 (Spec.refRow (x1 (ix1 e))) j) * x3 (ix1 e) := by
  rw [rowLayer_apply (by decide), hinit, zero_add]
  simp only [dstWord, srcRow, hw]

theorem wcol128 (x3 : FVec Ideal S800000 .f32) (e : Fin 800000) (j : Fin 128) :
    val_main_v12 (F := Ideal) x3 (ix2 e j) = x3 (ix1 e) := by
  have hi : idx_main_v11 (idx_main_v12 (ix2 e j)) = ix1 e := funext fun a => Fin.ext (by match a with | ⟨0, _⟩ => rfl)
  rw [val_main_v12_apply, val_main_v11_apply, hi]

theorem wcol64 (x3 : FVec Ideal S800000 .f32) (e : Fin 800000) (j : Fin 64) :
    val_main_v48 (F := Ideal) x3 (ix2 e j) = x3 (ix1 e) := by
  have hi : idx_main_v47 (idx_main_v48 (ix2 e j)) = ix1 e := funext fun a => Fin.ext (by match a with | ⟨0, _⟩ => rfl)
  rw [val_main_v48_apply, val_main_v47_apply, hi]

theorem zeros128 (n : Fin 50000) (j : Fin 128) : val_main_v14 (F := Ideal) (ix2 n j) = 0 := by
  rw [val_main_v14_apply, val_main_cst_apply]
  exact Ideal.ofBits_zero_f32

theorem zeros64 (n : Fin 50000) (j : Fin 64) : val_main_v50 (F := Ideal) (ix2 n j) = 0 := by
  rw [val_main_v50_apply, val_main_cst_6_apply]
  exact Ideal.ofBits_zero_f32

abbrev words (v : IVec S800000 32) : Fin 800000 → BitVec 32 := fun e => v (ix1 e)
abbrev vec {n : Nat} (v : FVec Ideal ⟨1, ![n]⟩ .f32) : Fin n → EReal := fun e => v (ix1 e)
abbrev mat {a b : Nat} (v : FVec Ideal ⟨2, ![a, b]⟩ .f32) : Fin a → Fin b → EReal := fun r k => v (ix2 r k)

section
variable (x0 : FVec Ideal S50000x256 .f32) (x1 x2 : IVec S800000 32) (x3 : FVec Ideal S800000 .f32)
  (x4 : FVec Ideal S256x128 .f32) (x5 : FVec Ideal S128 .f32) (x6 : FVec Ideal S128x128 .f32) (x7 : FVec Ideal S128 .f32)
  (x8 : FVec Ideal S128x64 .f32) (x9 : FVec Ideal S64 .f32)

theorem lin1 (r : Fin 50000) (j : Fin 128) :
    val_main_v3 (F := Ideal) x0 x4 x5 (ix2 r j) = (∑ k : Fin 256, x0 (ix2 r k) * x4 (ix2 k j)) + x5 (ix1 j) := by
  have hl : ∀ k, lidx_main_v0 (ix2 r j) k = ix2 r k := fun k => funext fun a => Fin.ext (by
    match a with | ⟨0, _⟩ => rfl | ⟨1, _⟩ => rfl)
  have hr : ∀ k, ridx_main_v0 (ix2 r j) k = ix2 k j := fun k => funext fun a => Fin.ext (by
    match a with | ⟨0, _⟩ => rfl | ⟨1, _⟩ => rfl)
  have hb : idx_main_v1 (idx_main_v2 (ix2 r j)) = ix1 j := funext fun a => Fin.ext (by match a with | ⟨0, _⟩ => rfl)
  rw [val_main_v3_apply, val_main_v0_apply, val_main_v2_apply, val_main_v1_apply, hb]
  simp only [hl, hr]
  rfl

theorem lin2 (r : Fin 50000) (j : Fin 128) :
    val_main_v21 (F := Ideal) x0 x1 x2 x3 x4 x5 x6 x7 (ix2 r j)
      = (∑ k : Fin 128, val_main_v17 (F := Ideal) x0 x1 x2 x3 x4 x5 (ix2 r k) * x6 (ix2 k j)) + x7 (ix1 j) := by
  have hl : ∀ k, lidx_main_v18 (ix2 r j) k = ix2 r k := fun k => funext fun a => Fin.ext (by
    match a with | ⟨0, _⟩ => rfl | ⟨1, _⟩ => rfl)
  have hr : ∀ k, ridx_main_v18 (ix2 r j) k = ix2 k j := fun k => funext fun a => Fin.ext (by
    match a with | ⟨0, _⟩ => rfl | ⟨1, _⟩ => rfl)
  have hb : idx_main_v19 (idx_main_v20 (ix2 r j)) = ix1 j := funext fun a => Fin.ext (by match a with | ⟨0, _⟩ => rfl)
  rw [val_main_v21_apply, val_main_v18_apply, val_main_v20_apply, val_main_v19_apply, hb]
  simp only [hl, hr]
  rfl

theorem lin3 (r : Fin 50000) (j : Fin 64) :
    val_main_v39 (F := Ideal) x0 x1 x2 x3 x4 x5 x6 x7 x8 x9 (ix2 r j)
      = (∑ k : Fin 128, val_main_v35 (F := Ideal) x0 x1 x2 x3 x4 x5 x6 x7 (ix2 r k) * x8 (ix2 k j)) + x9 (ix1 j) := by
  have hl : ∀ k, lidx_main_v36 (ix2 r j) k = ix2 r k := fun k => funext fun a => Fin.ext (by
    match a with | ⟨0, _⟩ => rfl | ⟨1, _⟩ => rfl)
  have hr : ∀ k, ridx_main_v36 (ix2 r j) k = ix2 k j := fun k => funext fun a => Fin.ext (by
    match a with | ⟨0, _⟩ => rfl | ⟨1, _⟩ => rfl)
  have hb : idx_main_v37 (idx_main_v38 (ix2 r j)) = ix1 j := funext fun a => Fin.ext (by match a with | ⟨0, _⟩ => rfl)
  rw [val_main_v39_apply, val_main_v36_apply, val_main_v38_apply, val_main_v37_apply, hb]
  simp only [hl, hr]
  rfl

theorem relu1 (r : Fin 50000) (k : Fin 128) :
    val_main_v17 (F := Ideal) x0 x1 x2 x3 x4 x5 (ix2 r k) = max (val_main_v16 (F := Ideal) x0 x1 x2 x3 x4 x5 (ix2 r k)) 0 := by
  rw [val_main_v17_apply, val_main_call0_v0_apply, val_main_call0_cst_apply]
  show max _ (Ideal.ofBits .f32 0x00000000#32) = _
  rw [Ideal.ofBits_zero_f32]

theorem relu2 (r : Fin 50000) (k : Fin 128) :
    val_main_v35 (F := Ideal) x0 x1 x2 x3 x4 x5 x6 x7 (ix2 r k)
      = max (val_main_v34 (F := Ideal) x0 x1 x2 x3 x4 x5 x6 x7 (ix2 r k)) 0 := by
  rw [val_main_v35_apply, val_main_call1_v0_apply, val_main_call1_cst_apply]
  show max _ (Ideal.ofBits .f32 0x00000000#32) = _
  rw [Ideal.ofBits_zero_f32]

theorem layer1 (n : Fin 50000) (j : Fin 128) :
    val_main_v16 (F := Ideal) x0 x1 x2 x3 x4 x5 (ix2 n j)
      = Spec.refLayer (words x1) (words x2) (vec x3) (mat x0) (mat x4) (vec x5) n j := by
  show Host.scatterAdd (F := Ideal)
      (rowScatter 50000 800000 128 Gen.scatter_S50000x128_S800000x1_S800000x128_1_0_0_1_wf)
      (val_main_v14 (F := Ideal)) (val_main_v15 (F := Ideal) x2)
      (mulf (Host.gather (rowGather 50000 800000 128 Gen.gather_S50000x128_S800000x1_S800000x128_1_0_n_n_0_1_1128_wf)
        (val_main_v3 (F := Ideal) x0 x4 x5) (val_main_v9 (F := Ideal) x1)) (val_main_v12 (F := Ideal) x3)) (ix2 n j) = _
  rw [messages _ _ _ _ x1 x2 x3 _ (wcol128 x3) zeros128]
  unfold Spec.refLayer
  refine Finset.sum_congr rfl fun e _ => ?_
  rw [lin1]

theorem layer2 (n : Fin 50000) (j : Fin 128) :
    val_main_v34 (F := Ideal) x0 x1 x2 x3 x4 x5 x6 x7 (ix2 n j)
      = Spec.refLayer (words x1) (words x2) (vec x3)
          (fun r k => val_main_v17 (F := Ideal) x0 x1 x2 x3 x4 x5 (ix2 r k)) (mat x6) (vec x7) n j := by
  show Host.scatterAdd (F := Ideal)
      (rowScatter 50000 800000 128 Gen.scatter_S50000x128_S800000x1_S800000x128_1_0_0_1_wf)
      (val_main_v14 (F := Ideal)) (val_main_v15 (F := Ideal) x2)
      (mulf (Host.gather (rowGather 50000 800000 128 Gen.gather_S50000x128_S800000x1_S800000x128_1_0_n_n_0_1_1128_wf)
        (val_main_v21 (F := Ideal) x0 x1 x2 x3 x4 x5 x6 x7) (val_main_v9 (F := Ideal) x1)) (val_main_v12 (F := Ideal) x3)) (ix2 n j) = _
  rw [messages _ _ _ _ x1 x2 x3 _ (wcol128 x3) zeros128]
  unfold Spec.refLayer
  refine Finset.sum_congr rfl fun e _ => ?_
  rw [lin2]

theorem layer3 (n : Fin 50000) (j : Fin 64) :
    val_main_v52 (F := Ideal) x0 x1 x2 x3 x4 x5 x6 x7 x8 x9 (ix2 n j)
      = Spec.refLayer (words x1) (words x2) (vec x3)
          (fun r k => val_main_v35 (F := Ideal) x0 x1 x2 x3 x4 x5 x6 x7 (ix2 r k)) (mat x8) (vec x9) n j := by
  show Host.scatterAdd (F := Ideal)
      (rowScatter 50000 800000 64 Gen.scatter_S50000x64_S800000x1_S800000x64_1_0_0_1_wf)
      (val_main_v50 (F := Ideal)) (val_main_v15 (F := Ideal) x2)
      (mulf (Host.gather (rowGather 50000 800000 64 Gen.gather_S50000x64_S800000x1_S800000x64_1_0_n_n_0_1_164_wf)
        (val_main_v39 (F := Ideal) x0 x1 x2 x3 x4 x5 x6 x7 x8 x9) (val_main_v9 (F := Ideal) x1)) (val_main_v48 (F := Ideal) x3)) (ix2 n j) = _
  rw [messages _ _ _ _ x1 x2 x3 _ (wcol64 x3) zeros64]
  unfold Spec.refLayer
  refine Finset.sum_congr rfl fun e _ => ?_
  rw [lin3]

end

open Idealize.ShloMosaic Idealize.ShloMosaic.ValueIdx in
def out (x : FVec Ideal Cert.ReferenceIdeal.S50000x256 .f32) (src dst : IVec Cert.ReferenceIdeal.S800000 32)
    (w : FVec Ideal Cert.ReferenceIdeal.S800000 .f32) (W1 : FVec Ideal Cert.ReferenceIdeal.S256x128 .f32)
    (b1 : FVec Ideal Cert.ReferenceIdeal.S128 .f32) (W2 : FVec Ideal Cert.ReferenceIdeal.S128x128 .f32)
    (b2 : FVec Ideal Cert.ReferenceIdeal.S128 .f32) (W3 : FVec Ideal Cert.ReferenceIdeal.S128x64 .f32)
    (b3 : FVec Ideal Cert.ReferenceIdeal.S64 .f32) : FVec Ideal Cert.ReferenceIdeal.S50000x64 .f32 :=
  fun i => Cert.Spec.refOut (fun e => src (ix1 e)) (fun e => dst (ix1 e)) (fun e => w (ix1 e)) (fun r k => x (ix2 r k))
    (fun k j => W1 (ix2 k j)) (fun j => b1 (ix1 j)) (fun k j => W2 (ix2 k j)) (fun j => b2 (ix1 j))
    (fun k j => W3 (ix2 k j)) (fun j => b3 (ix1 j)) (i 0) (i 1)

theorem value (x0 : FVec Ideal S50000x256 .f32) (x1 x2 : IVec S800000 32) (x3 : FVec Ideal S800000 .f32)
    (x4 : FVec Ideal S256x128 .f32) (x5 : FVec Ideal S128 .f32) (x6 : FVec Ideal S128x128 .f32) (x7 : FVec Ideal S128 .f32)
    (x8 : FVec Ideal S128x64 .f32) (x9 : FVec Ideal S64 .f32) :
    val_main_v52 (F := Ideal) x0 x1 x2 x3 x4 x5 x6 x7 x8 x9 = out x0 x1 x2 x3 x4 x5 x6 x7 x8 x9 := by
  funext i
  obtain ⟨n, j, rfl⟩ : ∃ (n : Fin 50000) (j : Fin 64), i = ix2 n j := ⟨i 0, i 1, eq_ix2 i⟩
  have e1 : (fun r k => val_main_v17 (F := Ideal) x0 x1 x2 x3 x4 x5 (ix2 r k))
      = Spec.refRelu (Spec.refLayer (words x1) (words x2) (vec x3) (mat x0) (mat x4) (vec x5)) := by
    funext r k
    rw [relu1, layer1]
    rfl
  have e2 : (fun r k => val_main_v35 (F := Ideal) x0 x1 x2 x3 x4 x5 x6 x7 (ix2 r k))
      = Spec.refRelu (Spec.refLayer (words x1) (words x2) (vec x3)
          (Spec.refRelu (Spec.refLayer (words x1) (words x2) (vec x3) (mat x0) (mat x4) (vec x5))) (mat x6) (vec x7)) := by
    funext r k
    rw [relu2, layer2, e1]
    rfl
  rw [layer3, e2]
  rfl

end Cert.Ref

end
-- ==== Proof.lean ====
import proofs.«429835_j17746804867087_2_alg».proof.Defs
import proofs.«429835_j17746804867087_2_alg».proof.Proof.Gen.Kernel
import proofs.«429835_j17746804867087_2_alg».proof.Proof.Gen.Kernel.Skeleton
import proofs.«429835_j17746804867087_2_alg».proof.Proof.Gen.Kernel.Launch
import proofs.«429835_j17746804867087_2_alg».proof.Proof.K.RegionsP
import proofs.«429835_j17746804867087_2_alg».proof.Proof.Gen.Kernel.Points
import proofs.«429835_j17746804867087_2_alg».proof.Proof.Gen.KernelIdeal
import proofs.«429835_j17746804867087_2_alg».proof.Proof.Gen.KernelIdeal.Skeleton
import proofs.«429835_j17746804867087_2_alg».proof.Proof.Gen.KernelIdeal.Launch
import proofs.«429835_j17746804867087_2_alg».proof.Proof.KI.RegionsP
import proofs.«429835_j17746804867087_2_alg».proof.Proof.Gen.KernelIdeal.Points
import proofs.«429835_j17746804867087_2_alg».proof.Proof.Gen.ReferenceIdeal
import proofs.«429835_j17746804867087_2_alg».proof.Proof.Gen.Pre_finite_inputs
import proofs.«429835_j17746804867087_2_alg».proof.Proof.K.Frame
import proofs.«429835_j17746804867087_2_alg».proof.Proof.KI.Value
import proofs.«429835_j17746804867087_2_alg».proof.Proof.Ref.Value
import proofs.«429835_j17746804867087_2_alg».proof.Proof.PreSrc
import proofs.«429835_j17746804867087_2_alg».proof.Proof.Math
import Idealize.ShloMosaic.Adequacy
import Idealize.ShloMosaic.Init

noncomputable section

namespace Cert.Proof

open Idealize.ShloMosaic Idealize.SL.Sem Cert.Kernel

-- Both runs end at one function of the arguments: the kernel's at the reference's function of its own arguments,
-- the reference's at the same function of its arguments, which agree with the kernel's array by array.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Run.run_value m ρ hpre,
    (θ_run Cert.ReferenceIdeal.defs _ _).mono (fun _ h c => ⟨?_, (h c).2⟩) (Cert.ReferenceIdeal.Value.run (F := Ideal) m' ρ')⟩
  obtain ⟨h0, h1, h2, h3, h4, h5, h6, h7, h8, h9⟩ := hagree c
  rw [(h c).1, Cert.ReferenceIdeal.Read.val_main_v52_eq, Cert.Ref.value, h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  fun m ρ _ => Cert.Kernel.Run.frame m ρ,
  fun m ρ _ => Cert.KernelIdeal.Run.frame m ρ,
  fun m ρ _ => (θ_run Cert.ReferenceIdeal.defs _ _).mono (fun _ h c => (h c).2) (Cert.ReferenceIdeal.Value.run (F := Ideal) m ρ),
  trivial,
  algebraic⟩

end Cert.Proof

end
